-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S2x128 : Shape := ⟨2, ![2, 128]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_
  bcast_S_S50000 : S_.BroadcastsInDim S50000 (![] : Fin 0 → Fin S50000.rank)
  reducesTo_S50000_S_d0 : S50000.ReducesTo [0] S_

variable [Facts]

def fn_part3 {F : FTy → Type} [FloatOps F] (main_arg2 : IVec S50000 32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_c_20 : IVec S_ 32 := constantI S_ 32 0#32
  let main_v54 : IVec S50000 32 := broadcastInDim S50000 ![] bcast_S_S50000 main_c_20
  let main_v55 : IVec S50000 1 := cmpi .sge main_arg2 main_v54
  let main_c_21 : IVec S_ 1 := constantI S_ 1 1#1
  let main_v56 : IVec S_ 1 := (fun x v => Host.reduce IntOp.andi x v reducesTo_S50000_S_d0 h_S_) main_v55 main_c_21
  let main_v57 : IVec S_ 1 := andi main_v53 main_v56
  let main_c_22 : IVec S_ 32 := constantI S_ 32 64#32
  let main_v58 : IVec S50000 32 := broadcastInDim S50000 ![] bcast_S_S50000 main_c_22
  let main_v59 : IVec S50000 1 := cmpi .slt main_arg2 main_v58
  let main_c_23 : IVec S_ 1 := constantI S_ 1 1#1
  let main_v60 : IVec S_ 1 := (fun x v => Host.reduce IntOp.andi x v reducesTo_S50000_S_d0 h_S_) main_v59 main_c_23
  let main_v61 : IVec S_ 1 := andi main_v57 main_v60
  main_v61

def fn_part2 {F : FTy → Type} [FloatOps F] (main_arg2 : IVec S50000 32) (main_arg9 : FVec F S3x128 .f32) (main_arg10 : FVec F S3x128 .f32) (main_arg11 : FVec F S2x128 .f32) (main_arg12 : FVec F S2 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S2x128 .f32 := Host.absf main_arg11
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_arg2 main_v48 main_v49 main_v50

def fn_part1 {F : FTy → Type} [FloatOps F] (main_arg2 : IVec S50000 32) (main_arg6 : FVec F S3x128 .f32) (main_arg7 : FVec F S3x128x128 .f32) (main_arg8 : FVec F S3x128 .f32) (main_arg9 : FVec F S3x128 .f32) (main_arg10 : FVec F S3x128 .f32) (main_arg11 : FVec F S2x128 .f32) (main_arg12 : FVec F S2 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg2 main_arg9 main_arg10 main_arg11 main_arg12 main_v33

def fn {F : FTy → Type} [FloatOps F] (main_arg0 : FVec F S50000x64 .f32) (main_arg1 : IVec S2x800000 32) (main_arg2 : IVec S50000 32) (main_arg3 : FVec F S3x128x128 .f32) (main_arg4 : FVec F S3x128 .f32) (main_arg5 : FVec F S3x128x128 .f32) (main_arg6 : FVec F S3x128 .f32) (main_arg7 : FVec F S3x128x128 .f32) (main_arg8 : FVec F S3x128 .f32) (main_arg9 : FVec F S3x128 .f32) (main_arg10 : FVec F S3x128 .f32) (main_arg11 : FVec F S2x128 .f32) (main_arg12 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg2 main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S2x128 : Shape := ⟨2, ![2, 128]⟩
abbrev S2 : Shape := ⟨1, ![2]⟩
abbrev S_ : Shape := ⟨0, ![]⟩
abbrev S50000x128 : Shape := ⟨2, ![50000, 128]⟩
abbrev S1x800000 : Shape := ⟨2, ![1, 800000]⟩
abbrev S800000 : Shape := ⟨1, ![800000]⟩
abbrev S50000x1 : Shape := ⟨2, ![50000, 1]⟩
abbrev S64 : Shape := ⟨1, ![64]⟩
abbrev S1x64 : Shape := ⟨2, ![1, 64]⟩
abbrev S1x2 : Shape := ⟨2, ![1, 2]⟩
abbrev S800000x1 : Shape := ⟨2, ![800000, 1]⟩
abbrev S800000x128 : Shape := ⟨2, ![800000, 128]⟩
abbrev S1x128 : Shape := ⟨2, ![1, 128]⟩
abbrev S128 : Shape := ⟨1, ![128]⟩
abbrev S64x128 : Shape := ⟨2, ![64, 128]⟩
abbrev S2000x128 : Shape := ⟨2, ![2000, 128]⟩
abbrev S2000x64 : Shape := ⟨2, ![2000, 64]⟩
abbrev S1x128x128 : Shape := ⟨3, ![1, 128, 128]⟩
abbrev S128x128 : Shape := ⟨2, ![128, 128]⟩
abbrev S50000x2 : Shape := ⟨2, ![50000, 2]⟩
abbrev S2000x2 : Shape := ⟨2, ![2000, 2]⟩

abbrev nBuf : Space → Nat
  | .hbm => 182
  | .vmem => 96
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S3x128x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S3x128, .f32⟩
  | 10 => ⟨S3x128, .f32⟩
  | 11 => ⟨S2x128, .f32⟩
  | 12 => ⟨S2, .f32⟩
  | 13 => ⟨S_, .i32⟩
  | 14 => ⟨S_, .f32⟩
  | 15 => ⟨S50000x128, .f32⟩
  | 16 => ⟨S1x800000, .i32⟩
  | 17 => ⟨S800000, .i32⟩
  | 18 => ⟨S1x800000, .i32⟩
  | 19 => ⟨S800000, .i32⟩
  | 20 => ⟨S50000x1, .i32⟩
  | 21 => ⟨S64, .i32⟩
  | 22 => ⟨S1x64, .i32⟩
  | 23 => ⟨S50000x64, .i32⟩
  | 24 => ⟨S50000x64, .i32⟩
  | 25 => ⟨S50000x64, .i1⟩
  | 26 => ⟨S50000x64, .f32⟩
  | 27 => ⟨S1x2, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S1x128, .f32⟩
  | 42 => ⟨S128, .f32⟩
  | 43 => ⟨S1x128, .f32⟩
  | 44 => ⟨S1x128, .f32⟩
  | 45 => ⟨S128, .f32⟩
  | 46 => ⟨S1x128, .f32⟩
  | 47 => ⟨S1x128, .f32⟩
  | 48 => ⟨S128, .f32⟩
  | 49 => ⟨S1x128, .f32⟩
  | 50 => ⟨S64x128, .f32⟩
  | 51 => ⟨S1x128x128, .f32⟩
  | 52 => ⟨S128x128, .f32⟩
  | 53 => ⟨S1x128x128, .f32⟩
  | 54 => ⟨S128x128, .f32⟩
  | 55 => ⟨S1x128x128, .f32⟩
  | 56 => ⟨S128x128, .f32⟩
  | 57 => ⟨S50000x128, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S1x128, .f32⟩
  | 72 => ⟨S1x128, .f32⟩
  | 73 => ⟨S128, .f32⟩
  | 74 => ⟨S1x128, .f32⟩
  | 75 => ⟨S1x128, .f32⟩
  | 76 => ⟨S128, .f32⟩
  | 77 => ⟨S1x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S1x128, .f32⟩
  | 93 => ⟨S128, .f32⟩
  | 94 => ⟨S1x128, .f32⟩
  | 95 => ⟨S1x128, .f32⟩
  | 96 => ⟨S128, .f32⟩
  | 97 => ⟨S1x128, .f32⟩
  | 98 => ⟨S1x128, .f32⟩
  | 99 => ⟨S128, .f32⟩
  | 100 => ⟨S1x128, .f32⟩
  | 101 => ⟨S64x128, .f32⟩
  | 102 => ⟨S1x128x128, .f32⟩
  | 103 => ⟨S128x128, .f32⟩
  | 104 => ⟨S1x128x128, .f32⟩
  | 105 => ⟨S128x128, .f32⟩
  | 106 => ⟨S1x128x128, .f32⟩
  | 107 => ⟨S128x128, .f32⟩
  | 108 => ⟨S50000x128, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S1x128, .f32⟩
  | 123 => ⟨S1x128, .f32⟩
  | 124 => ⟨S128, .f32⟩
  | 125 => ⟨S1x128, .f32⟩
  | 126 => ⟨S1x128, .f32⟩
  | 127 => ⟨S128, .f32⟩
  | _ => ⟨S50000x64, .f32⟩

abbrev hbmTy0_1 (i : Nat) : BufTy := match i % 128 with
  | 0 => ⟨S1x128, .f32⟩
  | 1 => ⟨S50000x128, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S1x128, .f32⟩
  | 16 => ⟨S128, .f32⟩
  | 17 => ⟨S1x128, .f32⟩
  | 18 => ⟨S1x128, .f32⟩
  | 19 => ⟨S128, .f32⟩
  | 20 => ⟨S1x128, .f32⟩
  | 21 => ⟨S1x128, .f32⟩
  | 22 => ⟨S128, .f32⟩
  | 23 => ⟨S1x128, .f32⟩
  | 24 => ⟨S64x128, .f32⟩
  | 25 => ⟨S1x128x128, .f32⟩
  | 26 => ⟨S128x128, .f32⟩
  | 27 => ⟨S1x128x128, .f32⟩
  | 28 => ⟨S128x128, .f32⟩
  | 29 => ⟨S1x128x128, .f32⟩
  | 30 => ⟨S128x128, .f32⟩
  | 31 => ⟨S50000x128, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S1x128, .f32⟩
  | 41 => ⟨S1x128, .f32⟩
  | 42 => ⟨S_, .f32⟩
  | 43 => ⟨S1x128, .f32⟩
  | 44 => ⟨S1x128, .f32⟩
  | 45 => ⟨S1x128, .f32⟩
  | 46 => ⟨S1x128, .f32⟩
  | 47 => ⟨S128, .f32⟩
  | 48 => ⟨S1x128, .f32⟩
  | 49 => ⟨S1x128, .f32⟩
  | 50 => ⟨S128, .f32⟩
  | 51 => ⟨S1x128, .f32⟩
  | 52 => ⟨S50000x128, .f32⟩
  | 53 => ⟨S50000x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x64, .f32⟩
  | .local _ .vmem, ⟨10, _⟩ => ⟨S2000x64, .f32⟩
  | .local _ .vmem, ⟨11, _⟩ => ⟨S64x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x64, .f32⟩
  | .local _ .vmem, ⟨33, _⟩ => ⟨S2000x64, .f32⟩
  | .local _ .vmem, ⟨34, _⟩ => ⟨S64x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x64, .f32⟩
  | .local _ .vmem, ⟨40, _⟩ => ⟨S2000x64, .f32⟩
  | .local _ .vmem, ⟨41, _⟩ => ⟨S64x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S1x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x64, .f32⟩
  | .local _ .vmem, ⟨63, _⟩ => ⟨S2000x64, .f32⟩
  | .local _ .vmem, ⟨64, _⟩ => ⟨S64x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S2000x64, .f32⟩
  | .local _ .vmem, ⟨70, _⟩ => ⟨S2000x64, .f32⟩
  | .local _ .vmem, ⟨71, _⟩ => ⟨S64x128, .f32⟩
  | .local _ .vmem, ⟨72, _⟩ => ⟨S128x128, .f32⟩
  | .local _ .vmem, ⟨73, _⟩ => ⟨S1x128, .f32⟩
  | .local _ .vmem, ⟨74, _⟩ => ⟨S128x128, .f32⟩
  | .local _ .vmem, ⟨75, _⟩ => ⟨S1x128, .f32⟩
  | .local _ .vmem, ⟨76, _⟩ => ⟨S128x128, .f32⟩
  | .local _ .vmem, ⟨77, _⟩ => ⟨S1x128, .f32⟩
  | .local _ .vmem, ⟨78, _⟩ => ⟨S2000x128, .f32⟩
  | .local _ .vmem, ⟨79, _⟩ => ⟨S2000x128, .f32⟩
  | .local _ .vmem, ⟨80, _⟩ => ⟨S1x128, .f32⟩
  | .local _ .vmem, ⟨81, _⟩ => ⟨S1x128, .f32⟩
  | .local _ .vmem, ⟨82, _⟩ => ⟨S2000x128, .f32⟩
  | .local _ .vmem, ⟨83, _⟩ => ⟨S2000x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S2000x128, .f32⟩
  | .local _ .vmem, ⟨89, _⟩ => ⟨S2000x128, .f32⟩
  | .local _ .vmem, ⟨90, _⟩ => ⟨S2000x128, .f32⟩
  | .local _ .vmem, ⟨91, _⟩ => ⟨S2000x128, .f32⟩
  | .local _ .vmem, ⟨92, _⟩ => ⟨S2x128, .f32⟩
  | .local _ .vmem, ⟨93, _⟩ => ⟨S1x2, .f32⟩
  | .local _ .vmem, ⟨94, _⟩ => ⟨S2000x2, .f32⟩
  | .local _ .vmem, ⟨95, _⟩ => ⟨S2000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39_0 : Ref sig .tc := ⟨.hbm, 57, rfl⟩
abbrev main_v39_1 : Ref sig .tc := ⟨.hbm, 58, rfl⟩
abbrev main_v39_2 : Ref sig .tc := ⟨.hbm, 59, rfl⟩
abbrev main_cst_2 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_5 : Ref sig .tc := ⟨.hbm, 79, rfl⟩
abbrev main_v56 : Ref sig .tc := ⟨.hbm, 80, rfl⟩
abbrev main_v57 : Ref sig .tc := ⟨.hbm, 81, rfl⟩
abbrev main_c_6 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_7 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82_0 : Ref sig .tc := ⟨.hbm, 108, rfl⟩
abbrev main_v82_1 : Ref sig .tc := ⟨.hbm, 109, rfl⟩
abbrev main_v82_2 : Ref sig .tc := ⟨.hbm, 110, rfl⟩
abbrev main_cst_8 : Ref sig .tc := ⟨.hbm, 111, rfl⟩
abbrev main_v83 : Ref sig .tc := ⟨.hbm, 112, rfl⟩
abbrev main_v84 : Ref sig .tc := ⟨.hbm, 113, rfl⟩
abbrev main_cst_9 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_10 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_c_11 : Ref sig .tc := ⟨.hbm, 130, rfl⟩
abbrev main_v99 : Ref sig .tc := ⟨.hbm, 131, rfl⟩
abbrev main_v100 : Ref sig .tc := ⟨.hbm, 132, rfl⟩
abbrev main_c_12 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_13 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125_0 : Ref sig .tc := ⟨.hbm, 159, rfl⟩
abbrev main_v125_1 : Ref sig .tc := ⟨.hbm, 160, rfl⟩
abbrev main_v125_2 : Ref sig .tc := ⟨.hbm, 161, rfl⟩
abbrev main_cst_14 : Ref sig .tc := ⟨.hbm, 162, rfl⟩
abbrev main_v126 : Ref sig .tc := ⟨.hbm, 163, rfl⟩
abbrev main_v127 : Ref sig .tc := ⟨.hbm, 164, rfl⟩
abbrev main_cst_15 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_16 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg10_1 : Ref sig .tc := ⟨.vmem, 19, rfl⟩
abbrev cc1_stg11_0 : Ref sig .tc := ⟨.vmem, 20, rfl⟩
abbrev cc1_stg12_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg8_0 : Ref sig .tc := ⟨.vmem, 46, rfl⟩
abbrev cc4_stg9_0 : Ref sig .tc := ⟨.vmem, 47, rfl⟩
abbrev cc4_stg10_0 : Ref sig .tc := ⟨.vmem, 48, rfl⟩
abbrev cc4_stg10_1 : Ref sig .tc := ⟨.vmem, 49, rfl⟩
abbrev cc4_stg11_0 : Ref sig .tc := ⟨.vmem, 50, rfl⟩
abbrev cc4_stg12_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg1_1 : Ref sig .tc := ⟨.vmem, 68, rfl⟩
abbrev cc7_stg2_0 : Ref sig .tc := ⟨.vmem, 69, rfl⟩
abbrev cc7_stg2_1 : Ref sig .tc := ⟨.vmem, 70, rfl⟩
abbrev cc7_stg3_0 : Ref sig .tc := ⟨.vmem, 71, rfl⟩
abbrev cc7_stg4_0 : Ref sig .tc := ⟨.vmem, 72, rfl⟩
abbrev cc7_stg5_0 : Ref sig .tc := ⟨.vmem, 73, rfl⟩
abbrev cc7_stg6_0 : Ref sig .tc := ⟨.vmem, 74, rfl⟩
abbrev cc7_stg7_0 : Ref sig .tc := ⟨.vmem, 75, rfl⟩
abbrev cc7_stg8_0 : Ref sig .tc := ⟨.vmem, 76, rfl⟩
abbrev cc7_stg9_0 : Ref sig .tc := ⟨.vmem, 77, rfl⟩
abbrev cc7_stg10_0 : Ref sig .tc := ⟨.vmem, 78, rfl⟩
abbrev cc7_stg10_1 : Ref sig .tc := ⟨.vmem, 79, rfl⟩
abbrev cc7_stg11_0 : Ref sig .tc := ⟨.vmem, 80, rfl⟩
abbrev cc7_stg12_0 : Ref sig .tc := ⟨.vmem, 81, rfl⟩
abbrev cc8_stg0_0 : Ref sig .tc := ⟨.vmem, 82, rfl⟩
abbrev cc8_stg0_1 : Ref sig .tc := ⟨.vmem, 83, rfl⟩
abbrev cc8_stg1_0 : Ref sig .tc := ⟨.vmem, 84, rfl⟩
abbrev cc8_stg2_0 : Ref sig .tc := ⟨.vmem, 85, rfl⟩
abbrev cc8_stg3_0 : Ref sig .tc := ⟨.vmem, 86, rfl⟩
abbrev cc8_stg4_0 : Ref sig .tc := ⟨.vmem, 87, rfl⟩
abbrev cc8_stg5_0 : Ref sig .tc := ⟨.vmem, 88, rfl⟩
abbrev cc8_stg5_1 : Ref sig .tc := ⟨.vmem, 89, rfl⟩
abbrev cc9_stg0_0 : Ref sig .tc := ⟨.vmem, 90, rfl⟩
abbrev cc9_stg0_1 : Ref sig .tc := ⟨.vmem, 91, rfl⟩
abbrev cc9_stg1_0 : Ref sig .tc := ⟨.vmem, 92, rfl⟩
abbrev cc9_stg2_0 : Ref sig .tc := ⟨.vmem, 93, rfl⟩
abbrev cc9_stg3_0 : Ref sig .tc := ⟨.vmem, 94, rfl⟩
abbrev cc9_stg3_1 : Ref sig .tc := ⟨.vmem, 95, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem10_1 : DmaSem sig := 19
abbrev cc1_sem11_0 : DmaSem sig := 20
abbrev cc1_sem12_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem8_0 : DmaSem sig := 46
abbrev cc4_sem9_0 : DmaSem sig := 47
abbrev cc4_sem10_0 : DmaSem sig := 48
abbrev cc4_sem10_1 : DmaSem sig := 49
abbrev cc4_sem11_0 : DmaSem sig := 50
abbrev cc4_sem12_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc7_sem0_0 : DmaSem sig := 65
abbrev cc7_sem0_1 : DmaSem sig := 66
abbrev cc7_sem1_0 : DmaSem sig := 67
abbrev cc7_sem1_1 : DmaSem sig := 68
abbrev cc7_sem2_0 : DmaSem sig := 69
abbrev cc7_sem2_1 : DmaSem sig := 70
abbrev cc7_sem3_0 : DmaSem sig := 71
abbrev cc7_sem4_0 : DmaSem sig := 72
abbrev cc7_sem5_0 : DmaSem sig := 73
abbrev cc7_sem6_0 : DmaSem sig := 74
abbrev cc7_sem7_0 : DmaSem sig := 75
abbrev cc7_sem8_0 : DmaSem sig := 76
abbrev cc7_sem9_0 : DmaSem sig := 77
abbrev cc7_sem10_0 : DmaSem sig := 78
abbrev cc7_sem10_1 : DmaSem sig := 79
abbrev cc7_sem11_0 : DmaSem sig := 80
abbrev cc7_sem12_0 : DmaSem sig := 81
abbrev cc8_sem0_0 : DmaSem sig := 82
abbrev cc8_sem0_1 : DmaSem sig := 83
abbrev cc8_sem1_0 : DmaSem sig := 84
abbrev cc8_sem2_0 : DmaSem sig := 85
abbrev cc8_sem3_0 : DmaSem sig := 86
abbrev cc8_sem4_0 : DmaSem sig := 87
abbrev cc8_sem5_0 : DmaSem sig := 88
abbrev cc8_sem5_1 : DmaSem sig := 89
abbrev cc9_sem0_0 : DmaSem sig := 90
abbrev cc9_sem0_1 : DmaSem sig := 91
abbrev cc9_sem1_0 : DmaSem sig := 92
abbrev cc9_sem2_0 : DmaSem sig := 93
abbrev cc9_sem3_0 : DmaSem sig := 94
abbrev cc9_sem3_1 : DmaSem sig := 95

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S2000x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev stage4_11 : Fin 1 → Memref sig .tc .vmem S1x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S128x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 2 → Memref sig .tc .vmem S2000x128 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

abbrev stage7_11 : Fin 1 → Memref sig .tc .vmem S1x128 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S1x128 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S2x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x2 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x2 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  pads_S50000x64_S50000x128_000_0640 : S50000x64.Pads (![0, 0] : Fin 2 → Nat) ![0, 64] ![0, 0] S50000x128
  h_S_ : 0 < S_.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  shapeCasts_S2_S1x2 : S2.ShapeCasts S1x2
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S1x128 : S128.ShapeCasts S1x128
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  shapeCasts_S64x128_S64x128 : S64x128.ShapeCasts S64x128
  slices_S3x128x128_S1x128x128_0_0_0 : S3x128x128.Slices ![0, 0, 0] S1x128x128
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  inb_S2x128_S2x128_0_0 : ∀ a, (![0, 0] : Fin 2 → Nat) a + S2x128.size a ≤ S2x128.size a
  h_S2x128 : 0 < S2x128.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x64_S2000x128_S64x128_0_0_1_1_n_n_wf : DotDims.WF S2000x64 S2000x128 S64x128 [0] [0] [1] [1] [] []
  dot_S2000x64_S64x128_S2000x128_1_0_0_1_n_n_wf : DotDims.WF S2000x64 S64x128 S2000x128 [1] [0] [0] [1] [] []
  dot_S2000x128_S128x128_S2000x128_1_1_0_0_n_n_wf : DotDims.WF S2000x128 S128x128 S2000x128 [1] [1] [0] [0] [] []
  dot_S2000x128_S2x128_S2000x2_1_1_0_0_n_n_wf : DotDims.WF S2000x128 S2x128 S2000x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x128.size a ≤ S128x128.size a
  hwx4_8 : ∀ i : grid4.Coords, EltTy.bits .f32 = 32 ∨ (Rect.block (s := S128x128) S128x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S2000x128.size a ≤ S50000x128.size a
  hwx4_10 : ∀ i : grid4.Coords, EltTy.bits .f32 = 32 ∨ (Rect.block (s := S50000x128) S2000x128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x128.size a ≤ S1x128.size a
  hwx4_11 : ∀ i : grid4.Coords, EltTy.bits .f32 = 32 ∨ (Rect.block (s := S1x128) S1x128.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x128.size a ≤ S1x128.size a
  hwx4_12 : ∀ i : grid4.Coords, EltTy.bits .f32 = 32 ∨ (Rect.block (s := S1x128) S1x128.size (cc4_transform_12 i) (hinb4_12 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S50000x64.size a
  hwx6_1 : ∀ i : grid6.Coords, EltTy.bits .f32 = 32 ∨ (Rect.block (s := S50000x64) S2000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .f32 = 32 ∨ (Rect.block (s := S50000x128) S2000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x64.size a ≤ S50000x64.size a
  hwx7_2 : ∀ i : grid7.Coords, EltTy.bits .f32 = 32 ∨ (Rect.block (s := S50000x64) S2000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x128.size a ≤ S64x128.size a
  hwx7_3 : ∀ i : grid7.Coords, EltTy.bits .f32 = 32 ∨ (Rect.block (s := S64x128) S64x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128x128.size a ≤ S128x128.size a
  hwx7_6 : ∀ i : grid7.Coords, EltTy.bits .f32 = 32 ∨ (Rect.block (s := S128x128) S128x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S128x128.size a ≤ S128x128.size a
  hwx7_8 : ∀ i : grid7.Coords, EltTy.bits .f32 = 32 ∨ (Rect.block (s := S128x128) S128x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x128.size a ≤ S1x128.size a
  hwx7_9 : ∀ i : grid7.Coords, EltTy.bits .f32 = 32 ∨ (Rect.block (s := S1x128) S1x128.size (cc7_transform_9 i) (hinb7_9 i)).WholeWords (EltTy.packing .f32)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S2000x128.size a ≤ S50000x128.size a
  hwx7_10 : ∀ i : grid7.Coords, EltTy.bits .f32 = 32 ∨ (Rect.block (s := S50000x128) S2000x128.size (cc7_transform_10 i) (hinb7_10 i)).WholeWords (EltTy.packing .f32)
  hstage7_11 : ∀ j, (stage7_11 j).IsWhole
  nbuf7_11 : grid7.bufCount reads7_11 true = 1
  hreads7_11 : ∀ i i' : grid7.Coords, (∀ a, reads7_11 a = true → i a = i' a) → cc7_transform_11 i = cc7_transform_11 i'
  hinb7_11 : ∀ (i : grid7.Coords) a, (cc7_transform_11 i a + 1) * S1x128.size a ≤ S1x128.size a
  hwx7_11 : ∀ i : grid7.Coords, EltTy.bits .f32 = 32 ∨ (Rect.block (s := S1x128) S1x128.size (cc7_transform_11 i) (hinb7_11 i)).WholeWords (EltTy.packing .f32)
  hstage7_12 : ∀ j, (stage7_12 j).IsWhole
  nbuf7_12 : grid7.bufCount reads7_12 true = 1
  hreads7_12 : ∀ i i' : grid7.Coords, (∀ a, reads7_12 a = true → i a = i' a) → cc7_transform_12 i = cc7_transform_12 i'
  hinb7_12 : ∀ (i : grid7.Coords) a, (cc7_transform_12 i a + 1) * S1x128.size a ≤ S1x128.size a
  hwx7_12 : ∀ i : grid7.Coords, EltTy.bits .f32 = 32 ∨ (Rect.block (s := S1x128) S1x128.size (cc7_transform_12 i) (hinb7_12 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S50000x128.size a
  hwx8_5 : ∀ i : grid8.Coords, EltTy.bits .f32 = 32 ∨ (Rect.block (s := S50000x128) S2000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S2x128.size a ≤ S2x128.size a
  hwx9_1 : ∀ i : grid9.Coords, EltTy.bits .f32 = 32 ∨ (Rect.block (s := S2x128) S2x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x2.size a ≤ S1x2.size a
  hwx9_2 : ∀ i : grid9.Coords, EltTy.bits .f32 = 32 ∨ (Rect.block (s := S1x2) S1x2.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x2.size a ≤ S50000x2.size a
  hwx9_3 : ∀ i : grid9.Coords, EltTy.bits .f32 = 32 ∨ (Rect.block (s := S50000x2) S2000x2.size (cc9_transform_3 i) (hinb9_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf
def dot_S2000x128_S2x128_S2000x2_1_1_0_0_n_n : DotDims S2000x128 S2x128 S2000x2 where
  lhsContracting := [1]
  rhsContracting := [1]
  lhsNonContracting := [0]
  rhsNonContracting := [0]
  lhsBatch := []
  rhsBatch := []
  wf := dot_S2000x128_S2x128_S2000x2_1_1_0_0_n_n_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S64x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v39_0) S2000x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v39_1) S1x128.size cc1_transform_11 reads1_11 true true 1 stage1_11 sem1_11
    hrank1 hreads1_11 hinb1_11 nbuf1_11 (Memref.isWhole_whole _) hwx1_11 hstage1_11

abbrev win1_12 : Pipeline.Window sig grid1 :=
  Pipeline.Window.ofSpec (Memref.whole main_v39_2) S1x128.size cc1_transform_12 reads1_12 true true 1 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v39_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S64x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v55) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S2000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v75) S64x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v68) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v79) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v71) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v81) S128x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v74) S1x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v82_0) S2000x128.size cc4_transform_10 reads4_10 true false 2 stage4_10 sem4_10
    hrank4 hreads4_10 hinb4_10 nbuf4_10 (Memref.isWhole_whole _) hwx4_10 hstage4_10

abbrev win4_11 : Pipeline.Window sig grid4 :=
  Pipeline.Window.ofSpec (Memref.whole main_v82_1) S1x128.size cc4_transform_11 reads4_11 true true 1 stage4_11 sem4_11
    hrank4 hreads4_11 hinb4_11 nbuf4_11 (Memref.isWhole_whole _) hwx4_11 hstage4_11

abbrev win4_12 : Pipeline.Window sig grid4 :=
  Pipeline.Window.ofSpec (Memref.whole main_v82_2) S1x128.size cc4_transform_12 reads4_12 true true 1 stage4_12 sem4_12
    hrank4 hreads4_12 hinb4_12 nbuf4_12 (Memref.isWhole_whole _) hwx4_12 hstage4_12

abbrev win4 : Fin 13 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | ⟨_ + 13, h⟩ => absurd h (Nat.not_lt.2 (Nat.le_add_left _ _))
abbrev spec4 : Fin 13 → Pipeline.WinSpec sig grid4.rank := fun w => (win4 w).toWinSpec

abbrev win5_0 : Pipeline.Window sig grid5 :=
  Pipeline.Window.ofSpec (Memref.whole main_v82_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v91) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v97) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v98) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v98) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v11) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v118) S64x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v98) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v108) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v11) S2000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v118) S64x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v120) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v111) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v122) S128x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v114) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v124) S128x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v117) S1x128.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v125_0) S2000x128.size cc7_transform_10 reads7_10 true false 2 stage7_10 sem7_10
    hrank7 hreads7_10 hinb7_10 nbuf7_10 (Memref.isWhole_whole _) hwx7_10 hstage7_10

abbrev win7_11 : Pipeline.Window sig grid7 :=
  Pipeline.Window.ofSpec (Memref.whole main_v125_1) S1x128.size cc7_transform_11 reads7_11 true true 1 stage7_11 sem7_11
    hrank7 hreads7_11 hinb7_11 nbuf7_11 (Memref.isWhole_whole _) hwx7_11 hstage7_11

abbrev win7_12 : Pipeline.Window sig grid7 :=
  Pipeline.Window.ofSpec (Memref.whole main_v125_2) S1x128.size cc7_transform_12 reads7_12 true true 1 stage7_12 sem7_12
    hrank7 hreads7_12 hinb7_12 nbuf7_12 (Memref.isWhole_whole _) hwx7_12 hstage7_12

abbrev win7 : Fin 13 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | ⟨_ + 13, h⟩ => absurd h (Nat.not_lt.2 (Nat.le_add_left _ _))
abbrev spec7 : Fin 13 → Pipeline.WinSpec sig grid7.rank := fun w => (win7 w).toWinSpec

abbrev win8_0 : Pipeline.Window sig grid8 :=
  Pipeline.Window.ofSpec (Memref.whole main_v125_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v127) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v134) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v137) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v140) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v141) S2000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v141) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg11) S2x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v12) S1x2.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v142) S2000x2.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S2x128 : Shape := ⟨2, ![2, 128]⟩
abbrev S2 : Shape := ⟨1, ![2]⟩
abbrev S_ : Shape := ⟨0, ![]⟩
abbrev S50000x128 : Shape := ⟨2, ![50000, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S64x128 : Shape := ⟨2, ![64, 128]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 301
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S3x128x128, .f32⟩
  | 4 => ⟨S3x128, .f32⟩
  | 5 => ⟨S3x128x128, .f32⟩
  | 6 => ⟨S3x128, .f32⟩
  | 7 => ⟨S3x128x128, .f32⟩
  | 8 => ⟨S3x128, .f32⟩
  | 9 => ⟨S3x128, .f32⟩
  | 10 => ⟨S3x128, .f32⟩
  | 11 => ⟨S2x128, .f32⟩
  | 12 => ⟨S2, .f32⟩
  | 13 => ⟨S_, .i32⟩
  | 14 => ⟨S_, .f32⟩
  | 15 => ⟨S50000x128, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S_, .f32⟩
  | 34 => ⟨S64x128, .f32⟩
  | 35 => ⟨S50000x1, .i32⟩
  | 36 => ⟨S64x128, .f32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S50000x128, .f32⟩
  | 46 => ⟨S1x128x128, .f32⟩
  | 47 => ⟨S128x128, .f32⟩
  | 48 => ⟨S128x128, .f32⟩
  | 49 => ⟨S50000x128, .f32⟩
  | 50 => ⟨S1x128, .f32⟩
  | 51 => ⟨S128, .f32⟩
  | 52 => ⟨S1x128, .f32⟩
  | 53 => ⟨S50000x128, .f32⟩
  | 54 => ⟨S50000x128, .f32⟩
  | 55 => ⟨S1x128x128, .f32⟩
  | 56 => ⟨S128x128, .f32⟩
  | 57 => ⟨S128x128, .f32⟩
  | 58 => ⟨S50000x128, .f32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S1x128x128, .f32⟩
  | 66 => ⟨S128x128, .f32⟩
  | 67 => ⟨S128x128, .f32⟩
  | 68 => ⟨S50000x128, .f32⟩
  | 69 => ⟨S50000x128, .f32⟩
  | 70 => ⟨S1x128, .f32⟩
  | 71 => ⟨S128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S_, .f32⟩
  | 79 => ⟨S128, .f32⟩
  | 80 => ⟨S_, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S50000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S50000x128, .f32⟩
  | 94 => ⟨S50000x128, .f32⟩
  | 95 => ⟨S_, .f32⟩
  | 96 => ⟨S128, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S128, .f32⟩
  | 109 => ⟨S1x128, .f32⟩
  | 110 => ⟨S50000x128, .f32⟩
  | 111 => ⟨S50000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S_, .f32⟩
  | 126 => ⟨S64x128, .f32⟩
  | 127 => ⟨S50000x1, .i32⟩
  | _ => ⟨S50000x64, .f32⟩

abbrev hbmTy0_1 (i : Nat) : BufTy := match i % 128 with
  | 0 => ⟨S64x128, .f32⟩
  | 1 => ⟨S_, .i32⟩
  | 2 => ⟨S50000, .i32⟩
  | 3 => ⟨S50000, .i1⟩
  | 4 => ⟨S_, .i32⟩
  | 5 => ⟨S50000, .i32⟩
  | 6 => ⟨S50000, .i32⟩
  | 7 => ⟨S50000, .i32⟩
  | 8 => ⟨S50000x1, .i32⟩
  | 9 => ⟨S50000x128, .f32⟩
  | 10 => ⟨S1x128x128, .f32⟩
  | 11 => ⟨S128x128, .f32⟩
  | 12 => ⟨S128x128, .f32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S1x128x128, .f32⟩
  | 20 => ⟨S128x128, .f32⟩
  | 21 => ⟨S128x128, .f32⟩
  | 22 => ⟨S50000x128, .f32⟩
  | 23 => ⟨S50000x128, .f32⟩
  | 24 => ⟨S1x128, .f32⟩
  | 25 => ⟨S128, .f32⟩
  | 26 => ⟨S1x128, .f32⟩
  | 27 => ⟨S50000x128, .f32⟩
  | 28 => ⟨S50000x128, .f32⟩
  | 29 => ⟨S1x128x128, .f32⟩
  | 30 => ⟨S128x128, .f32⟩
  | 31 => ⟨S128x128, .f32⟩
  | 32 => ⟨S50000x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S_, .f32⟩
  | 43 => ⟨S128, .f32⟩
  | 44 => ⟨S_, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S50000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S50000x128, .f32⟩
  | 58 => ⟨S50000x128, .f32⟩
  | 59 => ⟨S_, .f32⟩
  | 60 => ⟨S128, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S_, .f32⟩
  | 90 => ⟨S64x128, .f32⟩
  | 91 => ⟨S50000x1, .i32⟩
  | 92 => ⟨S64x128, .f32⟩
  | 93 => ⟨S_, .i32⟩
  | 94 => ⟨S50000, .i32⟩
  | 95 => ⟨S50000, .i1⟩
  | 96 => ⟨S_, .i32⟩
  | 97 => ⟨S50000, .i32⟩
  | 98 => ⟨S50000, .i32⟩
  | 99 => ⟨S50000, .i32⟩
  | 100 => ⟨S50000x1, .i32⟩
  | 101 => ⟨S50000x128, .f32⟩
  | 102 => ⟨S1x128x128, .f32⟩
  | 103 => ⟨S128x128, .f32⟩
  | 104 => ⟨S128x128, .f32⟩
  | 105 => ⟨S50000x128, .f32⟩
  | 106 => ⟨S1x128, .f32⟩
  | 107 => ⟨S128, .f32⟩
  | 108 => ⟨S1x128, .f32⟩
  | 109 => ⟨S50000x128, .f32⟩
  | 110 => ⟨S50000x128, .f32⟩
  | 111 => ⟨S1x128x128, .f32⟩
  | 112 => ⟨S128x128, .f32⟩
  | 113 => ⟨S128x128, .f32⟩
  | 114 => ⟨S50000x128, .f32⟩
  | 115 => ⟨S50000x128, .f32⟩
  | 116 => ⟨S1x128, .f32⟩
  | 117 => ⟨S128, .f32⟩
  | 118 => ⟨S1x128, .f32⟩
  | 119 => ⟨S50000x128, .f32⟩
  | 120 => ⟨S50000x128, .f32⟩
  | 121 => ⟨S1x128x128, .f32⟩
  | 122 => ⟨S128x128, .f32⟩
  | 123 => ⟨S128x128, .f32⟩
  | 124 => ⟨S50000x128, .f32⟩
  | 125 => ⟨S50000x128, .f32⟩
  | 126 => ⟨S1x128, .f32⟩
  | 127 => ⟨S128, .f32⟩
  | _ => ⟨S50000x64, .f32⟩

abbrev hbmTy0_2 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S_, .f32⟩
  | 7 => ⟨S128, .f32⟩
  | 8 => ⟨S_, .f32⟩
  | 9 => ⟨S128, .f32⟩
  | 10 => ⟨S128, .f32⟩
  | 11 => ⟨S1x128, .f32⟩
  | 12 => ⟨S50000x128, .f32⟩
  | 13 => ⟨S50000x128, .f32⟩
  | 14 => ⟨S50000x128, .f32⟩
  | 15 => ⟨S_, .f32⟩
  | 16 => ⟨S128, .f32⟩
  | 17 => ⟨S_, .f32⟩
  | 18 => ⟨S128, .f32⟩
  | 19 => ⟨S128, .f32⟩
  | 20 => ⟨S1x128, .f32⟩
  | 21 => ⟨S50000x128, .f32⟩
  | 22 => ⟨S50000x128, .f32⟩
  | 23 => ⟨S_, .f32⟩
  | 24 => ⟨S128, .f32⟩
  | 25 => ⟨S128, .f32⟩
  | 26 => ⟨S128, .f32⟩
  | 27 => ⟨S1x128, .f32⟩
  | 28 => ⟨S50000x128, .f32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S128x2, .f32⟩
  | 41 => ⟨S50000x2, .f32⟩
  | 42 => ⟨S1x2, .f32⟩
  | 43 => ⟨S50000x2, .f32⟩
  | 44 => ⟨S50000x2, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_call1_cst : Ref sig .tc := ⟨.hbm, 75, rfl⟩
abbrev main_call1_v0 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_cst_6 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_cst_8 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_9 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_10 : Ref sig .tc := ⟨.hbm, 112, rfl⟩
abbrev main_v84 : Ref sig .tc := ⟨.hbm, 113, rfl⟩
abbrev main_v85 : Ref sig .tc := ⟨.hbm, 114, rfl⟩
abbrev main_c_11 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_12 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_13 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_14 : Ref sig .tc := ⟨.hbm, 129, rfl⟩
abbrev main_v97 : Ref sig .tc := ⟨.hbm, 130, rfl⟩
abbrev main_v98 : Ref sig .tc := ⟨.hbm, 131, rfl⟩
abbrev main_c_15 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_call2_cst : Ref sig .tc := ⟨.hbm, 167, rfl⟩
abbrev main_call2_v0 : Ref sig .tc := ⟨.hbm, 168, rfl⟩
abbrev main_v133 : Ref sig .tc := ⟨.hbm, 169, rfl⟩
abbrev main_cst_16 : Ref sig .tc := ⟨.hbm, 170, rfl⟩
abbrev main_v134 : Ref sig .tc := ⟨.hbm, 171, rfl⟩
abbrev main_cst_17 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_18 : Ref sig .tc := ⟨.hbm, 179, rfl⟩
abbrev main_v141 : Ref sig .tc := ⟨.hbm, 180, rfl⟩
abbrev main_cst_19 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_20 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_c_21 : Ref sig .tc := ⟨.hbm, 204, rfl⟩
abbrev main_v163 : Ref sig .tc := ⟨.hbm, 205, rfl⟩
abbrev main_v164 : Ref sig .tc := ⟨.hbm, 206, rfl⟩
abbrev main_c_22 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_cst_23 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_cst_24 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_c_25 : Ref sig .tc := ⟨.hbm, 221, rfl⟩
abbrev main_v176 : Ref sig .tc := ⟨.hbm, 222, rfl⟩
abbrev main_v177 : Ref sig .tc := ⟨.hbm, 223, rfl⟩
abbrev main_c_26 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_call3_cst : Ref sig .tc := ⟨.hbm, 259, rfl⟩
abbrev main_call3_v0 : Ref sig .tc := ⟨.hbm, 260, rfl⟩
abbrev main_v212 : Ref sig .tc := ⟨.hbm, 261, rfl⟩
abbrev main_cst_27 : Ref sig .tc := ⟨.hbm, 262, rfl⟩
abbrev main_v213 : Ref sig .tc := ⟨.hbm, 263, rfl⟩
abbrev main_cst_28 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_cst_29 : Ref sig .tc := ⟨.hbm, 271, rfl⟩
abbrev main_v220 : Ref sig .tc := ⟨.hbm, 272, rfl⟩
abbrev main_cst_30 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_cst_31 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩

abbrev nD : Nat := 1
abbrev τ : Topo := Topo.v7x

variable {F : FTy → Type} [FloatOps F]

class Facts₀ : Prop where
  pads_S50000x64_S50000x128_000_0640 : S50000x64.Pads (![0, 0] : Fin 2 → Nat) ![0, 64] ![0, 0] S50000x128
  h_S_ : 0 < S_.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  gather_S64x128_S50000x1_S50000x128_1_0_n_n_0_1_1128_wf : GatherDims.WF S64x128 S50000x1 S50000x128 [1] [0] [] [0] [] 1 ![1, 128]
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.Carry.lean ====
import proofs.«417352_j66855460929770_1_alg».proof.Proof.Gen.KernelIdeal.Frame

noncomputable section

namespace Cert.KernelIdeal.Gen

open Idealize.ShloMosaic Idealize.ShloMosaic.TcCoe Idealize.SL.Sem

variable {F : FTy → Type} [FloatOps F]

/-- The results of the host stretch that is step k of the run (no results where step k is a region). -/
def wr : ℕ → List (Ref sig .tc)
  | 0 => [main_c]
  | 1 => [main_call0_v0, main_v0]
  | 2 => [main_v1, main_v2, main_v3, main_v4, main_v5, main_v6, main_v7, main_v8, main_v9, main_v10, main_v11, main_v12, main_c_0, main_v13, main_v14, main_c_1, main_v15, main_v16, main_v17, main_v18, main_v19, main_cst, main_v20, main_v21, main_v22, main_v23, main_v24, main_v25, main_v26, main_v27, main_v28, main_v29, main_v30, main_v31]
  | 4 => [main_v33, main_v34, main_v35, main_v36, main_v37, main_v38]
  | 6 => [main_cst_2, main_v40, main_v41, main_cst_3, main_v42, main_v43, main_v44, main_v45, main_cst_4, main_v46, main_v47, main_v48, main_v49, main_v50, main_v51, main_v52, main_v53, main_v54]
  | 8 => [main_c_5, main_v56, main_v57, main_c_6, main_v58, main_v59, main_v60, main_v61, main_v62, main_cst_7, main_v63, main_v64, main_v65, main_v66, main_v67, main_v68, main_v69, main_v70, main_v71, main_v72, main_v73, main_v74]
  | 10 => [main_v76, main_v77, main_v78, main_v79, main_v80, main_v81]
  | 12 => [main_cst_8, main_v83, main_v84, main_cst_9, main_v85, main_v86, main_v87, main_v88, main_cst_10, main_v89, main_v90, main_v91, main_v92, main_v93, main_v94, main_v95, main_v96, main_v97]
  | 14 => [main_c_11, main_v99, main_v100, main_c_12, main_v101, main_v102, main_v103, main_v104, main_v105, main_cst_13, main_v106, main_v107, main_v108, main_v109, main_v110, main_v111, main_v112, main_v113, main_v114, main_v115, main_v116, main_v117]
  | 16 => [main_v119, main_v120, main_v121, main_v122, main_v123, main_v124]
  | 18 => [main_cst_14, main_v126, main_v127, main_cst_15, main_v128, main_v129, main_v130, main_v131, main_cst_16, main_v132, main_v133, main_v134, main_v135, main_v136, main_v137, main_v138, main_v139, main_v140]
  | _ => []

theorem writes_sub {y : Ref sig .tc} {l : List (Ref sig .tc)} :
    ({Proc.devRef (τ := τ) .tc y} : Finset (DevRef τ sig)) ⊆ (l.map (Proc.devRef .tc)).toFinset ↔ y ∈ l := by
  rw [Finset.singleton_subset_iff, List.mem_toFinset, List.mem_map_of_injective (Proc.devRef_injective _)]

abbrev Covers (ops : List (HloOp τ sig (Elt F))) (k : ℕ) : Prop :=
  ops.Forall fun op => op.writes ⊆ ((wr k).map (Proc.devRef (τ := τ) .tc)).toFinset

theorem covers : Covers (F := F) hostOps0 0 ∧ Covers (F := F) hostOps0_1 1 ∧ Covers (F := F) hostOps0_2 2 ∧ Covers (F := F) hostOps1 4 ∧ Covers (F := F) hostOps2 6 ∧ Covers (F := F) hostOps3 8 ∧ Covers (F := F) hostOps4 10 ∧ Covers (F := F) hostOps5 12 ∧ Covers (F := F) hostOps6 14 ∧ Covers (F := F) hostOps7 16 ∧ Covers (F := F) hostOps8 18 := by
  simp only [Covers, hostOps0, hostOps0_1, hostOps0_2, hostOps1, hostOps2, hostOps3, hostOps4, hostOps5, hostOps6, hostOps7, hostOps8, List.Forall, StableHlo.nullary_writes, StableHlo.unary_writes, StableHlo.binary_writes, StableHlo.ternary_writes, StableHlo.reshape_writes]
  repeat' apply And.intro
  all_goals exact writes_sub.mpr (by decide)

variable (m : (ℓ : Loc nD τ sig) → Buf (Elt F) ℓ) (ρ : Dev nD → PrngReg) (c : Dev nD)

theorem host0 {b : Ref sig .tc} (h : b ∉ wr 0) : W1 m ρ c (Proc.devRef .tc b) = W0 m ρ c (Proc.devRef .tc b) :=
  StableHlo.after_of_writes_sub hostOps0 (W0 m ρ c) covers.1 h
theorem host1 {b : Ref sig .tc} (h : b ∉ wr 1) : W2 m ρ c (Proc.devRef .tc b) = W1 m ρ c (Proc.devRef .tc b) :=
  StableHlo.after_of_writes_sub hostOps0_1 (W1 m ρ c) covers.2.1 h
theorem host2 {b : Ref sig .tc} (h : b ∉ wr 2) : W3 m ρ c (Proc.devRef .tc b) = W2 m ρ c (Proc.devRef .tc b) :=
  StableHlo.after_of_writes_sub hostOps0_2 (W2 m ρ c) covers.2.2.1 h
theorem host4 {b : Ref sig .tc} (h : b ∉ wr 4) : W5 m ρ c (Proc.devRef .tc b) = W4 m ρ c (Proc.devRef .tc b) :=
  StableHlo.after_of_writes_sub hostOps1 (W4 m ρ c) covers.2.2.2.1 h
theorem host6 {b : Ref sig .tc} (h : b ∉ wr 6) : W7 m ρ c (Proc.devRef .tc b) = W6 m ρ c (Proc.devRef .tc b) :=
  StableHlo.after_of_writes_sub hostOps2 (W6 m ρ c) covers.2.2.2.2.1 h
theorem host8 {b : Ref sig .tc} (h : b ∉ wr 8) : W9 m ρ c (Proc.devRef .tc b) = W8 m ρ c (Proc.devRef .tc b) :=
  StableHlo.after_of_writes_sub hostOps3 (W8 m ρ c) covers.2.2.2.2.2.1 h
theorem host10 {b : Ref sig .tc} (h : b ∉ wr 10) : W11 m ρ c (Proc.devRef .tc b) = W10 m ρ c (Proc.devRef .tc b) :=
  StableHlo.after_of_writes_sub hostOps4 (W10 m ρ c) covers.2.2.2.2.2.2.1 h
theorem host12 {b : Ref sig .tc} (h : b ∉ wr 12) : W13 m ρ c (Proc.devRef .tc b) = W12 m ρ c (Proc.devRef .tc b) :=
  StableHlo.after_of_writes_sub hostOps5 (W12 m ρ c) covers.2.2.2.2.2.2.2.1 h
theorem host14 {b : Ref sig .tc} (h : b ∉ wr 14) : W15 m ρ c (Proc.devRef .tc b) = W14 m ρ c (Proc.devRef .tc b) :=
  StableHlo.after_of_writes_sub hostOps6 (W14 m ρ c) covers.2.2.2.2.2.2.2.2.1 h
theorem host16 {b : Ref sig .tc} (h : b ∉ wr 16) : W17 m ρ c (Proc.devRef .tc b) = W16 m ρ c (Proc.devRef .tc b) :=
  StableHlo.after_of_writes_sub hostOps7 (W16 m ρ c) covers.2.2.2.2.2.2.2.2.2.1 h
theorem host18 {b : Ref sig .tc} (h : b ∉ wr 18) : W19 m ρ c (Proc.devRef .tc b) = W18 m ρ c (Proc.devRef .tc b) :=
  StableHlo.after_of_writes_sub hostOps8 (W18 m ρ c) covers.2.2.2.2.2.2.2.2.2.2 h

theorem keep_arg3_0_4 : W4 m ρ c (Proc.devRef .tc main_arg3) = W0 m ρ c (Proc.devRef .tc main_arg3) :=
  (W4_of_ne m ρ c _ (by decide)).trans ((host2 m ρ c (by decide)).trans ((host1 m ρ c (by decide)).trans (host0 m ρ c (by decide))))

theorem keep_arg3_0_10 : W10 m ρ c (Proc.devRef .tc main_arg3) = W0 m ρ c (Proc.devRef .tc main_arg3) :=
  (W10_of_ne m ρ c _ (by decide)).trans ((host8 m ρ c (by decide)).trans ((W8_of_ne m ρ c _ (by decide)).trans ((host6 m ρ c (by decide)).trans ((W6_of_ne m ρ c _ (by decide)).trans ((host4 m ρ c (by decide)).trans (keep_arg3_0_4 m ρ c))))))

theorem keep_arg3_0_16 : W16 m ρ c (Proc.devRef .tc main_arg3) = W0 m ρ c (Proc.devRef .tc main_arg3) :=
  (W16_of_ne m ρ c _ (by decide)).trans ((host14 m ρ c (by decide)).trans ((W14_of_ne m ρ c _ (by decide)).trans ((host12 m ρ c (by decide)).trans ((W12_of_ne m ρ c _ (by decide)).trans ((host10 m ρ c (by decide)).trans (keep_arg3_0_10 m ρ c))))))

theorem keep_arg5_0_4 : W4 m ρ c (Proc.devRef .tc main_arg5) = W0 m ρ c (Proc.devRef .tc main_arg5) :=
  (W4_of_ne m ρ c _ (by decide)).trans ((host2 m ρ c (by decide)).trans ((host1 m ρ c (by decide)).trans (host0 m ρ c (by decide))))

theorem keep_arg5_0_10 : W10 m ρ c (Proc.devRef .tc main_arg5) = W0 m ρ c (Proc.devRef .tc main_arg5) :=
  (W10_of_ne m ρ c _ (by decide)).trans ((host8 m ρ c (by decide)).trans ((W8_of_ne m ρ c _ (by decide)).trans ((host6 m ρ c (by decide)).trans ((W6_of_ne m ρ c _ (by decide)).trans ((host4 m ρ c (by decide)).trans (keep_arg5_0_4 m ρ c))))))

theorem keep_arg5_0_16 : W16 m ρ c (Proc.devRef .tc main_arg5) = W0 m ρ c (Proc.devRef .tc main_arg5) :=
  (W16_of_ne m ρ c _ (by decide)).trans ((host14 m ρ c (by decide)).trans ((W14_of_ne m ρ c _ (by decide)).trans ((host12 m ρ c (by decide)).trans ((W12_of_ne m ρ c _ (by decide)).trans ((host10 m ρ c (by decide)).trans (keep_arg5_0_10 m ρ c))))))

theorem keep_arg7_0_4 : W4 m ρ c (Proc.devRef .tc main_arg7) = W0 m ρ c (Proc.devRef .tc main_arg7) :=
  (W4_of_ne m ρ c _ (by decide)).trans ((host2 m ρ c (by decide)).trans ((host1 m ρ c (by decide)).trans (host0 m ρ c (by decide))))

theorem keep_arg7_0_10 : W10 m ρ c (Proc.devRef .tc main_arg7) = W0 m ρ c (Proc.devRef .tc main_arg7) :=
  (W10_of_ne m ρ c _ (by decide)).trans ((host8 m ρ c (by decide)).trans ((W8_of_ne m ρ c _ (by decide)).trans ((host6 m ρ c (by decide)).trans ((W6_of_ne m ρ c _ (by decide)).trans ((host4 m ρ c (by decide)).trans (keep_arg7_0_4 m ρ c))))))

theorem keep_arg7_0_16 : W16 m ρ c (Proc.devRef .tc main_arg7) = W0 m ρ c (Proc.devRef .tc main_arg7) :=
  (W16_of_ne m ρ c _ (by decide)).trans ((host14 m ρ c (by decide)).trans ((W14_of_ne m ρ c _ (by decide)).trans ((host12 m ρ c (by decide)).trans ((W12_of_ne m ρ c _ (by decide)).trans ((host10 m ρ c (by decide)).trans (keep_arg7_0_10 m ρ c))))))

theorem keep_arg4_0_2 : W2 m ρ c (Proc.devRef .tc main_arg4) = W0 m ρ c (Proc.devRef .tc main_arg4) :=
  (host1 m ρ c (by decide)).trans (host0 m ρ c (by decide))

theorem keep_arg4_0_8 : W8 m ρ c (Proc.devRef .tc main_arg4) = W0 m ρ c (Proc.devRef .tc main_arg4) :=
  (W8_of_ne m ρ c _ (by decide)).trans ((host6 m ρ c (by decide)).trans ((W6_of_ne m ρ c _ (by decide)).trans ((host4 m ρ c (by decide)).trans ((W4_of_ne m ρ c _ (by decide)).trans ((host2 m ρ c (by decide)).trans (keep_arg4_0_2 m ρ c))))))

theorem keep_arg4_0_14 : W14 m ρ c (Proc.devRef .tc main_arg4) = W0 m ρ c (Proc.devRef .tc main_arg4) :=
  (W14_of_ne m ρ c _ (by decide)).trans ((host12 m ρ c (by decide)).trans ((W12_of_ne m ρ c _ (by decide)).trans ((host10 m ρ c (by decide)).trans ((W10_of_ne m ρ c _ (by decide)).trans ((host8 m ρ c (by decide)).trans (keep_arg4_0_8 m ρ c))))))

theorem keep_arg6_0_2 : W2 m ρ c (Proc.devRef .tc main_arg6) = W0 m ρ c (Proc.devRef .tc main_arg6) :=
  (host1 m ρ c (by decide)).trans (host0 m ρ c (by decide))

theorem keep_arg6_0_8 : W8 m ρ c (Proc.devRef .tc main_arg6) = W0 m ρ c (Proc.devRef .tc main_arg6) :=
  (W8_of_ne m ρ c _ (by decide)).trans ((host6 m ρ c (by decide)).trans ((W6_of_ne m ρ c _ (by decide)).trans ((host4 m ρ c (by decide)).trans ((W4_of_ne m ρ c _ (by decide)).trans ((host2 m ρ c (by decide)).trans (keep_arg6_0_2 m ρ c))))))

theorem keep_arg6_0_14 : W14 m ρ c (Proc.devRef .tc main_arg6) = W0 m ρ c (Proc.devRef .tc main_arg6) :=
  (W14_of_ne m ρ c _ (by decide)).trans ((host12 m ρ c (by decide)).trans ((W12_of_ne m ρ c _ (by decide)).trans ((host10 m ρ c (by decide)).trans ((W10_of_ne m ρ c _ (by decide)).trans ((host8 m ρ c (by decide)).trans (keep_arg6_0_8 m ρ c))))))

theorem keep_arg8_0_2 : W2 m ρ c (Proc.devRef .tc main_arg8) = W0 m ρ c (Proc.devRef .tc main_arg8) :=
  (host1 m ρ c (by decide)).trans (host0 m ρ c (by decide))

theorem keep_arg8_0_8 : W8 m ρ c (Proc.devRef .tc main_arg8) = W0 m ρ c (Proc.devRef .tc main_arg8) :=
  (W8_of_ne m ρ c _ (by decide)).trans ((host6 m ρ c (by decide)).trans ((W6_of_ne m ρ c _ (by decide)).trans ((host4 m ρ c (by decide)).trans ((W4_of_ne m ρ c _ (by decide)).trans ((host2 m ρ c (by decide)).trans (keep_arg8_0_2 m ρ c))))))

theorem keep_arg8_0_14 : W14 m ρ c (Proc.devRef .tc main_arg8) = W0 m ρ c (Proc.devRef .tc main_arg8) :=
  (W14_of_ne m ρ c _ (by decide)).trans ((host12 m ρ c (by decide)).trans ((W12_of_ne m ρ c _ (by decide)).trans ((host10 m ρ c (by decide)).trans ((W10_of_ne m ρ c _ (by decide)).trans ((host8 m ρ c (by decide)).trans (keep_arg8_0_8 m ρ c))))))

theorem keep_arg9_0_6 : W6 m ρ c (Proc.devRef .tc main_arg9) = W0 m ρ c (Proc.devRef .tc main_arg9) :=
  (W6_of_ne m ρ c _ (by decide)).trans ((host4 m ρ c (by decide)).trans ((W4_of_ne m ρ c _ (by decide)).trans ((host2 m ρ c (by decide)).trans ((host1 m ρ c (by decide)).trans (host0 m ρ c (by decide))))))

theorem keep_arg9_0_12 : W12 m ρ c (Proc.devRef .tc main_arg9) = W0 m ρ c (Proc.devRef .tc main_arg9) :=
  (W12_of_ne m ρ c _ (by decide)).trans ((host10 m ρ c (by decide)).trans ((W10_of_ne m ρ c _ (by decide)).trans ((host8 m ρ c (by decide)).trans ((W8_of_ne m ρ c _ (by decide)).trans ((host6 m ρ c (by decide)).trans (keep_arg9_0_6 m ρ c))))))

theorem keep_arg9_0_18 : W18 m ρ c (Proc.devRef .tc main_arg9) = W0 m ρ c (Proc.devRef .tc main_arg9) :=
  (W18_of_ne m ρ c _ (by decide)).trans ((host16 m ρ c (by decide)).trans ((W16_of_ne m ρ c _ (by decide)).trans ((host14 m ρ c (by decide)).trans ((W14_of_ne m ρ c _ (by decide)).trans ((host12 m ρ c (by decide)).trans (keep_arg9_0_12 m ρ c))))))

theorem keep_arg10_0_6 : W6 m ρ c (Proc.devRef .tc main_arg10) = W0 m ρ c (Proc.devRef .tc main_arg10) :=
  (W6_of_ne m ρ c _ (by decide)).trans ((host4 m ρ c (by decide)).trans ((W4_of_ne m ρ c _ (by decide)).trans ((host2 m ρ c (by decide)).trans ((host1 m ρ c (by decide)).trans (host0 m ρ c (by decide))))))

theorem keep_arg10_0_12 : W12 m ρ c (Proc.devRef .tc main_arg10) = W0 m ρ c (Proc.devRef .tc main_arg10) :=
  (W12_of_ne m ρ c _ (by decide)).trans ((host10 m ρ c (by decide)).trans ((W10_of_ne m ρ c _ (by decide)).trans ((host8 m ρ c (by decide)).trans ((W8_of_ne m ρ c _ (by decide)).trans ((host6 m ρ c (by decide)).trans (keep_arg10_0_6 m ρ c))))))

theorem keep_arg10_0_18 : W18 m ρ c (Proc.devRef .tc main_arg10) = W0 m ρ c (Proc.devRef .tc main_arg10) :=
  (W18_of_ne m ρ c _ (by decide)).trans ((host16 m ρ c (by decide)).trans ((W16_of_ne m ρ c _ (by decide)).trans ((host14 m ρ c (by decide)).trans ((W14_of_ne m ρ c _ (by decide)).trans ((host12 m ρ c (by decide)).trans (keep_arg10_0_12 m ρ c))))))

theorem keep_arg0_0_1 : W1 m ρ c (Proc.devRef .tc main_arg0) = W0 m ρ c (Proc.devRef .tc main_arg0) :=
  host0 m ρ c (by decide)

theorem keep_arg1_0_2 : W2 m ρ c (Proc.devRef .tc main_arg1) = W0 m ρ c (Proc.devRef .tc main_arg1) :=
  (host1 m ρ c (by decide)).trans (host0 m ρ c (by decide))

theorem keep_arg2_0_2 : W2 m ρ c (Proc.devRef .tc main_arg2) = W0 m ρ c (Proc.devRef .tc main_arg2) :=
  (host1 m ρ c (by decide)).trans (host0 m ρ c (by decide))

theorem keep_arg12_0_2 : W2 m ρ c (Proc.devRef .tc main_arg12) = W0 m ρ c (Proc.devRef .tc main_arg12) :=
  (host1 m ρ c (by decide)).trans (host0 m ρ c (by decide))

theorem keep_arg11_0_20 : W20 m ρ c (Proc.devRef .tc main_arg11) = W0 m ρ c (Proc.devRef .tc main_arg11) :=
  (W20_of_ne m ρ c _ (by decide)).trans ((host18 m ρ c (by decide)).trans ((W18_of_ne m ρ c _ (by decide)).trans ((host16 m ρ c (by decide)).trans ((W16_of_ne m ρ c _ (by decide)).trans ((host14 m ρ c (by decide)).trans ((W14_of_ne m ρ c _ (by decide)).trans ((host12 m ρ c (by decide)).trans ((W12_of_ne m ρ c _ (by decide)).trans ((host10 m ρ c (by decide)).trans ((W10_of_ne m ρ c _ (by decide)).trans ((host8 m ρ c (by decide)).trans ((W8_of_ne m ρ c _ (by decide)).trans ((host6 m ρ c (by decide)).trans ((W6_of_ne m ρ c _ (by decide)).trans ((host4 m ρ c (by decide)).trans ((W4_of_ne m ρ c _ (by decide)).trans ((host2 m ρ c (by decide)).trans ((host1 m ρ c (by decide)).trans (host0 m ρ c (by decide))))))))))))))))))))

theorem keep_v0_2_3 : W3 m ρ c (Proc.devRef .tc main_v0) = W2 m ρ c (Proc.devRef .tc main_v0) :=
  host2 m ρ c (by decide)

theorem keep_v0_2_5 : W5 m ρ c (Proc.devRef .tc main_v0) = W2 m ρ c (Proc.devRef .tc main_v0) :=
  (host4 m ρ c (by decide)).trans (((W4_arr m ρ c 0).trans (((dat0 (V3 m ρ) c).arrAt_in 0 rfl _).trans (A_eq0 (V3 m ρ) c 0))).trans (keep_v0_2_3 m ρ c))

theorem keep_v2_3_8 : W8 m ρ c (Proc.devRef .tc main_v2) = W3 m ρ c (Proc.devRef .tc main_v2) :=
  (W8_of_ne m ρ c _ (by decide)).trans ((host6 m ρ c (by decide)).trans ((W6_of_ne m ρ c _ (by decide)).trans ((host4 m ρ c (by decide)).trans (W4_of_ne m ρ c _ (by decide)))))

theorem keep_v2_3_14 : W14 m ρ c (Proc.devRef .tc main_v2) = W3 m ρ c (Proc.devRef .tc main_v2) :=
  (W14_of_ne m ρ c _ (by decide)).trans ((host12 m ρ c (by decide)).trans ((W12_of_ne m ρ c _ (by decide)).trans ((host10 m ρ c (by decide)).trans ((W10_of_ne m ρ c _ (by decide)).trans ((host8 m ρ c (by decide)).trans (keep_v2_3_8 m ρ c))))))

theorem keep_v4_3_8 : W8 m ρ c (Proc.devRef .tc main_v4) = W3 m ρ c (Proc.devRef .tc main_v4) :=
  (W8_of_ne m ρ c _ (by decide)).trans ((host6 m ρ c (by decide)).trans ((W6_of_ne m ρ c _ (by decide)).trans ((host4 m ρ c (by decide)).trans (W4_of_ne m ρ c _ (by decide)))))

theorem keep_v4_3_14 : W14 m ρ c (Proc.devRef .tc main_v4) = W3 m ρ c (Proc.devRef .tc main_v4) :=
  (W14_of_ne m ρ c _ (by decide)).trans ((host12 m ρ c (by decide)).trans ((W12_of_ne m ρ c _ (by decide)).trans ((host10 m ρ c (by decide)).trans ((W10_of_ne m ρ c _ (by decide)).trans ((host8 m ρ c (by decide)).trans (keep_v4_3_8 m ρ c))))))

theorem keep_v11_3_5 : W5 m ρ c (Proc.devRef .tc main_v11) = W3 m ρ c (Proc.devRef .tc main_v11) :=
  (host4 m ρ c (by decide)).trans ((W4_arr m ρ c 1).trans (((dat0 (V3 m ρ) c).arrAt_in 1 rfl _).trans (A_eq0 (V3 m ρ) c 1)))

theorem keep_v11_3_9 : W9 m ρ c (Proc.devRef .tc main_v11) = W3 m ρ c (Proc.devRef .tc main_v11) :=
  (host8 m ρ c (by decide)).trans ((W8_of_ne m ρ c _ (by decide)).trans ((host6 m ρ c (by decide)).trans (((W6_arr m ρ c 2).trans (((dat1 (V5 m ρ) c).arrAt_in 2 rfl _).trans (A_eq1 (V5 m ρ) c 2))).trans (keep_v11_3_5 m ρ c))))

theorem keep_v11_3_11 : W11 m ρ c (Proc.devRef .tc main_v11) = W3 m ρ c (Proc.devRef .tc main_v11) :=
  (host10 m ρ c (by decide)).trans (((W10_arr m ρ c 1).trans (((dat3 (V9 m ρ) c).arrAt_in 1 rfl _).trans (A_eq3 (V9 m ρ) c 1))).trans (keep_v11_3_9 m ρ c))

theorem keep_v11_3_15 : W15 m ρ c (Proc.devRef .tc main_v11) = W3 m ρ c (Proc.devRef .tc main_v11) :=
  (host14 m ρ c (by decide)).trans ((W14_of_ne m ρ c _ (by decide)).trans ((host12 m ρ c (by decide)).trans (((W12_arr m ρ c 2).trans (((dat4 (V11 m ρ) c).arrAt_in 2 rfl _).trans (A_eq4 (V11 m ρ) c 2))).trans (keep_v11_3_11 m ρ c))))

theorem keep_v11_3_17 : W17 m ρ c (Proc.devRef .tc main_v11) = W3 m ρ c (Proc.devRef .tc main_v11) :=
  (host16 m ρ c (by decide)).trans (((W16_arr m ρ c 1).trans (((dat6 (V15 m ρ) c).arrAt_in 1 rfl _).trans (A_eq6 (V15 m ρ) c 1))).trans (keep_v11_3_15 m ρ c))

theorem keep_v12_3_20 : W20 m ρ c (Proc.devRef .tc main_v12) = W3 m ρ c (Proc.devRef .tc main_v12) :=
  (W20_of_ne m ρ c _ (by decide)).trans ((host18 m ρ c (by decide)).trans ((W18_of_ne m ρ c _ (by decide)).trans ((host16 m ρ c (by decide)).trans ((W16_of_ne m ρ c _ (by decide)).trans ((host14 m ρ c (by decide)).trans ((W14_of_ne m ρ c _ (by decide)).trans ((host12 m ρ c (by decide)).trans ((W12_of_ne m ρ c _ (by decide)).trans ((host10 m ρ c (by decide)).trans ((W10_of_ne m ρ c _ (by decide)).trans ((host8 m ρ c (by decide)).trans ((W8_of_ne m ρ c _ (by decide)).trans ((host6 m ρ c (by decide)).trans ((W6_of_ne m ρ c _ (by decide)).trans ((host4 m ρ c (by decide)).trans (W4_of_ne m ρ c _ (by decide)))))))))))))))))

theorem keep_v22_3_5 : W5 m ρ c (Proc.devRef .tc main_v22) = W3 m ρ c (Proc.devRef .tc main_v22) :=
  (host4 m ρ c (by decide)).trans (W4_of_ne m ρ c _ (by decide))

theorem keep_v25_3_5 : W5 m ρ c (Proc.devRef .tc main_v25) = W3 m ρ c (Proc.devRef .tc main_v25) :=
  (host4 m ρ c (by decide)).trans (W4_of_ne m ρ c _ (by decide))

theorem keep_v28_3_5 : W5 m ρ c (Proc.devRef .tc main_v28) = W3 m ρ c (Proc.devRef .tc main_v28) :=
  (host4 m ρ c (by decide)).trans (W4_of_ne m ρ c _ (by decide))

theorem keep_v31_3_5 : W5 m ρ c (Proc.devRef .tc main_v31) = W3 m ρ c (Proc.devRef .tc main_v31) :=
  (host4 m ρ c (by decide)).trans (W4_of_ne m ρ c _ (by decide))

theorem keep_v32_4_5 : W5 m ρ c (Proc.devRef .tc main_v32) = W4 m ρ c (Proc.devRef .tc main_v32) :=
  host4 m ρ c (by decide)

theorem keep_v39_0_6_7 : W7 m ρ c (Proc.devRef .tc main_v39_0) = W6 m ρ c (Proc.devRef .tc main_v39_0) :=
  host6 m ρ c (by decide)

theorem keep_v55_8_9 : W9 m ρ c (Proc.devRef .tc main_v55) = W8 m ρ c (Proc.devRef .tc main_v55) :=
  host8 m ρ c (by decide)

theorem keep_v55_8_11 : W11 m ρ c (Proc.devRef .tc main_v55) = W8 m ρ c (Proc.devRef .tc main_v55) :=
  (host10 m ρ c (by decide)).trans (((W10_arr m ρ c 0).trans (((dat3 (V9 m ρ) c).arrAt_in 0 rfl _).trans (A_eq3 (V9 m ρ) c 0))).trans (keep_v55_8_9 m ρ c))

theorem keep_v65_9_11 : W11 m ρ c (Proc.devRef .tc main_v65) = W9 m ρ c (Proc.devRef .tc main_v65) :=
  (host10 m ρ c (by decide)).trans (W10_of_ne m ρ c _ (by decide))

theorem keep_v68_9_11 : W11 m ρ c (Proc.devRef .tc main_v68) = W9 m ρ c (Proc.devRef .tc main_v68) :=
  (host10 m ρ c (by decide)).trans (W10_of_ne m ρ c _ (by decide))

theorem keep_v71_9_11 : W11 m ρ c (Proc.devRef .tc main_v71) = W9 m ρ c (Proc.devRef .tc main_v71) :=
  (host10 m ρ c (by decide)).trans (W10_of_ne m ρ c _ (by decide))

theorem keep_v74_9_11 : W11 m ρ c (Proc.devRef .tc main_v74) = W9 m ρ c (Proc.devRef .tc main_v74) :=
  (host10 m ρ c (by decide)).trans (W10_of_ne m ρ c _ (by decide))

theorem keep_v75_10_11 : W11 m ρ c (Proc.devRef .tc main_v75) = W10 m ρ c (Proc.devRef .tc main_v75) :=
  host10 m ρ c (by decide)

theorem keep_v82_0_12_13 : W13 m ρ c (Proc.devRef .tc main_v82_0) = W12 m ρ c (Proc.devRef .tc main_v82_0) :=
  host12 m ρ c (by decide)

theorem keep_v98_14_15 : W15 m ρ c (Proc.devRef .tc main_v98) = W14 m ρ c (Proc.devRef .tc main_v98) :=
  host14 m ρ c (by decide)

theorem keep_v98_14_17 : W17 m ρ c (Proc.devRef .tc main_v98) = W14 m ρ c (Proc.devRef .tc main_v98) :=
  (host16 m ρ c (by decide)).trans (((W16_arr m ρ c 0).trans (((dat6 (V15 m ρ) c).arrAt_in 0 rfl _).trans (A_eq6 (V15 m ρ) c 0))).trans (keep_v98_14_15 m ρ c))

theorem keep_v108_15_17 : W17 m ρ c (Proc.devRef .tc main_v108) = W15 m ρ c (Proc.devRef .tc main_v108) :=
  (host16 m ρ c (by decide)).trans (W16_of_ne m ρ c _ (by decide))

theorem keep_v111_15_17 : W17 m ρ c (Proc.devRef .tc main_v111) = W15 m ρ c (Proc.devRef .tc main_v111) :=
  (host16 m ρ c (by decide)).trans (W16_of_ne m ρ c _ (by decide))

theorem keep_v114_15_17 : W17 m ρ c (Proc.devRef .tc main_v114) = W15 m ρ c (Proc.devRef .tc main_v114) :=
  (host16 m ρ c (by decide)).trans (W16_of_ne m ρ c _ (by decide))

theorem keep_v117_15_17 : W17 m ρ c (Proc.devRef .tc main_v117) = W15 m ρ c (Proc.devRef .tc main_v117) :=
  (host16 m ρ c (by decide)).trans (W16_of_ne m ρ c _ (by decide))

theorem keep_v118_16_17 : W17 m ρ c (Proc.devRef .tc main_v118) = W16 m ρ c (Proc.devRef .tc main_v118) :=
  host16 m ρ c (by decide)

theorem keep_v125_0_18_19 : W19 m ρ c (Proc.devRef .tc main_v125_0) = W18 m ρ c (Proc.devRef .tc main_v125_0) :=
  host18 m ρ c (by decide)

end Cert.KernelIdeal.Gen

end
-- ==== Proof.LibScatter.lean ====
import Idealize.ShloMosaic.Lib.ValueIdx
import Idealize.ShloMosaic.PureOps.Ideal

noncomputable section

namespace Cert.LibScatter

open Idealize.ShloMosaic Idealize.ShloMosaic.ValueIdx

variable {α : Type}

def rowOf? (N : ℕ) {w : ℕ} (z : BitVec w) : Option (Fin N) :=
  if h : 0 ≤ z.toInt ∧ z.toInt < (N : Int) then some ⟨z.toInt.toNat, by omega⟩ else none

def clampRow (N : ℕ) (hN : 0 < N) {w : ℕ} (z : BitVec w) : Fin N := ⟨min z.toInt.toNat (N - 1), by omega⟩

theorem fin2_one_ne_zero : (1 : Fin 2) ≠ 0 := by decide

theorem clampRow_of_rowOf? {N : ℕ} (hN : 0 < N) {w : ℕ} {z : BitVec w} {i : Fin N} (h : rowOf? N z = some i) :
    clampRow N hN z = i := by
  unfold rowOf? at h
  split at h
  · rename_i hz
    have hi : (⟨z.toInt.toNat, by omega⟩ : Fin N) = i := Option.some.inj h
    rw [← hi]
    refine Fin.ext ?_
    show min z.toInt.toNat (N - 1) = z.toInt.toNat
    omega
  · exact absurd h (by simp)

abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

abbrev rowGather (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem rowGather_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (clampRow N hN (idx (ix2 e (0 : Fin 1)))) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have hst : (rowGather N E C wf).start (ix2 e c) idx 1 = 0 := by
      unfold GatherDims.start
      rw [dif_neg (show ¬ (1 : Fin 2) ∈ (rowGather N E C wf).startIndexMap from
        fun h => fin2_one_ne_zero (List.mem_singleton.mp h))]
    have hoff : (rowGather N E C wf).offCoord (ix2 e c) 1 = c.val := by
      unfold GatherDims.offCoord
      rw [dif_pos (show (1 : Fin 2) ∈ (rowGather N E C wf).sKept from
        (GatherDims.mem_sKept _ _).mpr ⟨fun h => fin2_one_ne_zero (List.mem_singleton.mp h), List.not_mem_nil⟩)]
      rfl
    rw [hst, hoff]; omega

theorem vecGather_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampRow N hN (idx (ix2 e (0 : Fin 1))))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rowScatter_resultIdx? {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).resultIdx? (ix2 e c) idx
      = (rowOf? N (idx (ix2 e (0 : Fin 1)))).map (fun i => ix2 i c) := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl), hsi]
  have hs1 : (rowScatter N E C wf).start (ix2 e c) idx 1 = 0 := by
    unfold ScatterDims.start
    rw [dif_neg (show ¬ (1 : Fin 2) ∈ (rowScatter N E C wf).scatterDimsToOperandDims from
      fun h => fin2_one_ne_zero (List.mem_singleton.mp h))]
  have hw0 : (rowScatter N E C wf).window (ix2 e c) 0 = 0 := by
    unfold ScatterDims.window
    rw [dif_neg (show ¬ (0 : Fin 2) ∈ (rowScatter N E C wf).sKept from by
      simp [ScatterDims.sKept, Shape.kept])]
  have hw1 : (rowScatter N E C wf).window (ix2 e c) 1 = c.val := by
    unfold ScatterDims.window
    rw [dif_pos (show (1 : Fin 2) ∈ (rowScatter N E C wf).sKept from by
      simp [ScatterDims.sKept, Shape.kept])]
    rfl
  unfold ScatterDims.resultIdx? rowOf?
  by_cases hz : 0 ≤ (idx (ix2 e (0 : Fin 1))).toInt ∧ (idx (ix2 e (0 : Fin 1))).toInt < (N : Int)
  · have hall : ∀ a, 0 ≤ (rowScatter N E C wf).start (ix2 e c) idx a + (rowScatter N E C wf).window (ix2 e c) a ∧
        (rowScatter N E C wf).start (ix2 e c) idx a + (rowScatter N E C wf).window (ix2 e c) a
          < (⟨2, ![N, C]⟩ : Shape).size a := by
      intro a
      match a with
      | ⟨0, _⟩ =>
        show 0 ≤ (rowScatter N E C wf).start (ix2 e c) idx 0 + ((rowScatter N E C wf).window (ix2 e c) 0 : ℕ) ∧
          (rowScatter N E C wf).start (ix2 e c) idx 0 + ((rowScatter N E C wf).window (ix2 e c) 0 : ℕ) < (N : ℤ)
        rw [hs0, hw0]; omega
      | ⟨1, _⟩ =>
        show 0 ≤ (rowScatter N E C wf).start (ix2 e c) idx 1 + ((rowScatter N E C wf).window (ix2 e c) 1 : ℕ) ∧
          (rowScatter N E C wf).start (ix2 e c) idx 1 + ((rowScatter N E C wf).window (ix2 e c) 1 : ℕ) < (C : ℤ)
        rw [hs1, hw1]; have := c.isLt; omega
    rw [dif_pos hall, dif_pos hz]
    simp only [Option.map_some]
    congr 1
    funext a
    refine Fin.ext ?_
    match a with
    | ⟨0, _⟩ =>
      show ((rowScatter N E C wf).start (ix2 e c) idx 0 + ((rowScatter N E C wf).window (ix2 e c) 0 : ℕ)).toNat
        = (idx (ix2 e (0 : Fin 1))).toInt.toNat
      rw [hs0, hw0]; simp
    | ⟨1, _⟩ =>
      show ((rowScatter N E C wf).start (ix2 e c) idx 1 + ((rowScatter N E C wf).window (ix2 e c) 1 : ℕ)).toNat = c.val
      rw [hs1, hw1]; simp
  · have hnot : ¬ ∀ a, 0 ≤ (rowScatter N E C wf).start (ix2 e c) idx a + (rowScatter N E C wf).window (ix2 e c) a ∧
        (rowScatter N E C wf).start (ix2 e c) idx a + (rowScatter N E C wf).window (ix2 e c) a
          < (⟨2, ![N, C]⟩ : Shape).size a := by
      intro hall
      have h0 : 0 ≤ (idx (ix2 e (0 : Fin 1))).toInt + ((0 : ℕ) : ℤ) ∧
          (idx (ix2 e (0 : Fin 1))).toInt + ((0 : ℕ) : ℤ) < (N : ℤ) := by
        have := hall 0
        rw [hs0, hw0] at this
        exact this
      exact hz (by omega)
    rw [dif_neg hnot, dif_neg hz]
    rfl

theorem vecScatter_resultIdx? {N E w : ℕ}
    (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx = (rowOf? N (idx (ix2 e (0 : Fin 1)))).map ix1 := by
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (vecScatter N E wf).start (ix1 e) idx 0 = (idx (ix2 e (0 : Fin 1))).toInt := by
    unfold ScatterDims.start
    rw [dif_pos (show (0 : Fin 1) ∈ (vecScatter N E wf).scatterDimsToOperandDims from List.mem_singleton.mpr rfl), hsi]
  have hw0 : (vecScatter N E wf).window (ix1 e) 0 = 0 := by
    unfold ScatterDims.window
    rw [dif_neg (show ¬ (0 : Fin 1) ∈ (vecScatter N E wf).sKept from by
      simp [ScatterDims.sKept, Shape.kept])]
  unfold ScatterDims.resultIdx? rowOf?
  by_cases hz : 0 ≤ (idx (ix2 e (0 : Fin 1))).toInt ∧ (idx (ix2 e (0 : Fin 1))).toInt < (N : Int)
  · have hall : ∀ a, 0 ≤ (vecScatter N E wf).start (ix1 e) idx a + (vecScatter N E wf).window (ix1 e) a ∧
        (vecScatter N E wf).start (ix1 e) idx a + (vecScatter N E wf).window (ix1 e) a
          < (⟨1, ![N]⟩ : Shape).size a := by
      intro a
      obtain rfl : a = 0 := Subsingleton.elim _ _
      show 0 ≤ (vecScatter N E wf).start (ix1 e) idx 0 + ((vecScatter N E wf).window (ix1 e) 0 : ℕ) ∧
        (vecScatter N E wf).start (ix1 e) idx 0 + ((vecScatter N E wf).window (ix1 e) 0 : ℕ) < (N : ℤ)
      rw [hs0, hw0]; omega
    rw [dif_pos hall, dif_pos hz]
    simp only [Option.map_some]
    congr 1
    funext a
    obtain rfl : a = 0 := Subsingleton.elim _ _
    refine Fin.ext ?_
    show ((vecScatter N E wf).start (ix1 e) idx 0 + ((vecScatter N E wf).window (ix1 e) 0 : ℕ)).toNat
      = (idx (ix2 e (0 : Fin 1))).toInt.toNat
    rw [hs0, hw0]; simp
  · have hnot : ¬ ∀ a, 0 ≤ (vecScatter N E wf).start (ix1 e) idx a + (vecScatter N E wf).window (ix1 e) a ∧
        (vecScatter N E wf).start (ix1 e) idx a + (vecScatter N E wf).window (ix1 e) a
          < (⟨1, ![N]⟩ : Shape).size a := by
      intro hall
      have h0 : 0 ≤ (idx (ix2 e (0 : Fin 1))).toInt + ((0 : ℕ) : ℤ) ∧
          (idx (ix2 e (0 : Fin 1))).toInt + ((0 : ℕ) : ℤ) < (N : ℤ) := by
        have := hall 0
        rw [hs0, hw0] at this
        exact this
      exact hz (by omega)
    rw [dif_neg hnot, dif_neg hz]
    rfl

theorem ix2_eq_ix2 {n0 n1 : ℕ} (a a' : Fin n0) (b b' : Fin n1) : ix2 a b = ix2 a' b' ↔ a = a' ∧ b = b' := by
  constructor
  · intro h
    exact ⟨congrFun h 0, congrFun h 1⟩
  · rintro ⟨rfl, rfl⟩; rfl

theorem ix1_eq_ix1 {n : ℕ} (a a' : Fin n) : ix1 a = ix1 a' ↔ a = a' := by
  constructor
  · intro h
    exact congrFun h 0
  · rintro rfl; rfl

def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32) (i : Fin N) (j : Fin C) :
    Host.scatterAdd (F := Ideal) (rowScatter N E C wf) x idx upd (ix2 i j)
      = x (ix2 i j) + ∑ e ∈ Finset.univ.filter (fun e : Fin E => rowOf? N (idx (ix2 e (0 : Fin 1))) = some i), upd (ix2 e j) := by
  unfold Host.scatterAdd
  rw [Ideal.hostScatterAdd_def]
  unfold Ideal.hostScatterAdd
  congr 1
  rw [Finset.sum_filter, Finset.sum_filter, sum_idx2]
  refine Finset.sum_congr rfl fun e _ => ?_
  simp only [rowScatter_resultIdx?]
  cases hr : rowOf? N (idx (ix2 e (0 : Fin 1))) with
  | none => simp
  | some i' =>
    simp only [Option.map_some, Option.some.injEq, ix2_eq_ix2]
    by_cases hi : i' = i
    · subst hi; simp
    · simp [hi]

theorem vecScatterAdd_apply {N E w : ℕ}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (F := Ideal) (vecScatter N E wf) x idx upd (ix1 i)
      = x (ix1 i) + ∑ e ∈ Finset.univ.filter (fun e : Fin E => rowOf? N (idx (ix2 e (0 : Fin 1))) = some i), upd (ix1 e) := by
  unfold Host.scatterAdd
  rw [Ideal.hostScatterAdd_def]
  unfold Ideal.hostScatterAdd
  congr 1
  rw [Finset.sum_filter, Finset.sum_filter, sum_idx1]
  refine Finset.sum_congr rfl fun e _ => ?_
  simp only [vecScatter_resultIdx?]
  cases hr : rowOf? N (idx (ix2 e (0 : Fin 1))) with
  | none => simp
  | some i' =>
    simp only [Option.map_some, Option.some.injEq, ix1_eq_ix1]

end Cert.LibScatter

end
-- ==== Proof.Spec.lean ====
import Idealize.ShloMosaic.Lib.ValueIdx
import Idealize.ShloMosaic.PureOps.Ideal
import proofs.«417352_j66855460929770_1_alg».proof.Proof.LibScatter

noncomputable section

namespace Cert.Gnn

open Idealize.ShloMosaic Idealize.ShloMosaic.ValueIdx Cert.LibScatter

abbrev SNH : Shape := ⟨2, ![50000, 128]⟩
abbrev SNI : Shape := ⟨2, ![50000, 64]⟩
abbrev SGH : Shape := ⟨2, ![64, 128]⟩
abbrev SHH : Shape := ⟨2, ![128, 128]⟩
abbrev S1H : Shape := ⟨2, ![1, 128]⟩
abbrev S3HH : Shape := ⟨3, ![3, 128, 128]⟩
abbrev S3H : Shape := ⟨2, ![3, 128]⟩
abbrev S2H : Shape := ⟨2, ![2, 128]⟩
abbrev S2 : Shape := ⟨1, ![2]⟩
abbrev SN2 : Shape := ⟨2, ![50000, 2]⟩
abbrev SN : Shape := ⟨1, ![50000]⟩
abbrev S2E : Shape := ⟨2, ![2, 800000]⟩
abbrev SE : Shape := ⟨1, ![800000]⟩
abbrev S12 : Shape := ⟨2, ![1, 2]⟩

def mk2 {a b : ℕ} (f : Fin a → Fin b → EReal) : FVec Ideal ⟨2, ![a, b]⟩ .f32 := fun y => f (y 0) (y 1)

@[simp] theorem mk2_ix2 {a b : ℕ} (f : Fin a → Fin b → EReal) (i : Fin a) (j : Fin b) : mk2 f (ix2 i j) = f i j := rfl

def IsReal {s : Shape} (v : FVec Ideal s .f32) : Prop := ∀ i, ∃ r : ℝ, v i = (r : EReal)

def InRange (batch : IVec SN 32) : Prop := ∀ r : Fin 50000, ∃ g : Fin 64, batch (ix1 r) = BitVec.ofNat 32 g.val

def cN : EReal := Ideal.ofBits .f32 0x47435000#32
def cEps : EReal := Ideal.ofBits .f32 0x3727C5AC#32

def padX (x : FVec Ideal SNI .f32) : FVec Ideal SNH .f32 :=
  mk2 fun r k => if h : k.val < 64 then x (ix2 r ⟨k.val, h⟩) else 0

def wAt (W : FVec Ideal S3HH .f32) (l : Fin 3) : FVec Ideal SHH .f32 := mk2 fun k d => W (ix3 l k d)
def bAt (B : FVec Ideal S3H .f32) (l : Fin 3) : FVec Ideal S1H .f32 := mk2 fun _ k => B (ix2 l k)

def linT {a b : ℕ} (x : FVec Ideal ⟨2, ![a, 128]⟩ .f32) (w : FVec Ideal ⟨2, ![b, 128]⟩ .f32) (r : Fin a) (k : Fin b) : EReal :=
  ∑ d : Fin 128, x (ix2 r d) * w (ix2 k d)

def wrapW (n z : BitVec 32) : BitVec 32 := if z.toInt < 0 then z + n else z

def eiRow (ei : IVec S2E 32) (a : Fin 2) : IVec SE 32 := fun y => ei (ix2 a (y 0))

def aggrSD (h : FVec Ideal SNH .f32) (src dst : IVec SE 32) : FVec Ideal SNH .f32 :=
  mk2 fun i k => Ideal.ofBits .f32 0x00000000#32
    + ∑ e ∈ Finset.univ.filter (fun e : Fin 800000 => rowOf? 50000 (dst (ix1 e)) = some i),
        h (ix2 (clampRow 50000 (by decide) (wrapW 50000#32 (src (ix1 e)))) k)

def aggr (h : FVec Ideal SNH .f32) (ei : IVec S2E 32) : FVec Ideal SNH .f32 := aggrSD h (eiRow ei 0) (eiRow ei 1)

def pre (h ag ro : FVec Ideal SNH .f32) (Vw Aw Rw : FVec Ideal SHH .f32) (Vb Ab Rb : FVec Ideal S1H .f32) : FVec Ideal SNH .f32 :=
  mk2 fun r k => linT h Vw r k + Vb (ix2 0 k) + linT ag Aw r k + Ab (ix2 0 k) + linT ro Rw r k + Rb (ix2 0 k)

def relu (z : FVec Ideal SNH .f32) : FVec Ideal SNH .f32 := mk2 fun r k => max (z (ix2 r k)) 0

def colSum (a : FVec Ideal SNH .f32) : FVec Ideal S1H .f32 := mk2 fun _ k => ∑ r : Fin 50000, a (ix2 r k)
def colSumSq (a : FVec Ideal SNH .f32) : FVec Ideal S1H .f32 := mk2 fun _ k => ∑ r : Fin 50000, a (ix2 r k) * a (ix2 r k)

def meanOf (s : FVec Ideal S1H .f32) : FVec Ideal S1H .f32 := mk2 fun _ k => Ideal.div (s (ix2 0 k)) cN
def rstdOf (v : FVec Ideal S1H .f32) : FVec Ideal S1H .f32 := mk2 fun _ k => Ideal.rsqrt (v (ix2 0 k) + cEps)

def normalize (a : FVec Ideal SNH .f32) (mean rstd gamma beta : FVec Ideal S1H .f32) : FVec Ideal SNH .f32 :=
  mk2 fun r k => (a (ix2 r k) - mean (ix2 0 k)) * rstd (ix2 0 k) * gamma (ix2 0 k) + beta (ix2 0 k)

def head (h : FVec Ideal SNH .f32) (w : FVec Ideal S2H .f32) (b : FVec Ideal S2 .f32) : FVec Ideal SN2 .f32 :=
  mk2 fun r o => linT h w r o + b (ix1 o)

def row2 (b : FVec Ideal S2 .f32) : FVec Ideal S12 .f32 := mk2 fun _ o => b (ix1 o)

def head12 (h : FVec Ideal SNH .f32) (w : FVec Ideal S2H .f32) (b : FVec Ideal S12 .f32) : FVec Ideal SN2 .f32 :=
  mk2 fun r o => linT h w r o + b (ix2 0 o)

theorem head12_row2 (h : FVec Ideal SNH .f32) (w : FVec Ideal S2H .f32) (b : FVec Ideal S2 .f32) :
    head12 h w (row2 b) = head h w b := rfl

def onehot (batch : IVec SN 32) : FVec Ideal SNI .f32 :=
  mk2 fun r g => if batch (ix1 r) = BitVec.ofNat 32 g.val then 1 else 0

def graphSum (h : FVec Ideal SNH .f32) (oh : FVec Ideal SNI .f32) : FVec Ideal SGH .f32 :=
  mk2 fun g k => ∑ r : Fin 50000, oh (ix2 r g) * h (ix2 r k)

def readoutK (oh : FVec Ideal SNI .f32) (gs : FVec Ideal SGH .f32) : FVec Ideal SNH .f32 :=
  mk2 fun r k => ∑ g : Fin 64, oh (ix2 r g) * gs (ix2 g k)

def varK (s ss : FVec Ideal S1H .f32) : FVec Ideal S1H .f32 :=
  mk2 fun _ k => Ideal.div (ss (ix2 0 k)) cN - meanOf s (ix2 0 k) * meanOf s (ix2 0 k)

def actK (l : Fin 3) (h : FVec Ideal SNH .f32) (ei : IVec S2E 32) (batch : IVec SN 32)
    (V_w : FVec Ideal S3HH .f32) (V_b : FVec Ideal S3H .f32) (A_w : FVec Ideal S3HH .f32) (A_b : FVec Ideal S3H .f32)
    (R_w : FVec Ideal S3HH .f32) (R_b : FVec Ideal S3H .f32) : FVec Ideal SNH .f32 :=
  relu (pre h (aggr h ei) (readoutK (onehot batch) (graphSum h (onehot batch))) (wAt V_w l) (wAt A_w l) (wAt R_w l) (bAt V_b l) (bAt A_b l) (bAt R_b l))

def layerK (l : Fin 3) (h : FVec Ideal SNH .f32) (ei : IVec S2E 32) (batch : IVec SN 32)
    (V_w : FVec Ideal S3HH .f32) (V_b : FVec Ideal S3H .f32) (A_w : FVec Ideal S3HH .f32) (A_b : FVec Ideal S3H .f32)
    (R_w : FVec Ideal S3HH .f32) (R_b : FVec Ideal S3H .f32) (gam bet : FVec Ideal S3H .f32) : FVec Ideal SNH .f32 :=
  normalize (actK l h ei batch V_w V_b A_w A_b R_w R_b)
    (meanOf (colSum (actK l h ei batch V_w V_b A_w A_b R_w R_b)))
    (rstdOf (varK (colSum (actK l h ei batch V_w V_b A_w A_b R_w R_b)) (colSumSq (actK l h ei batch V_w V_b A_w A_b R_w R_b))))
    (bAt gam l) (bAt bet l)

def netK (x : FVec Ideal SNI .f32) (ei : IVec S2E 32) (batch : IVec SN 32)
    (V_w : FVec Ideal S3HH .f32) (V_b : FVec Ideal S3H .f32) (A_w : FVec Ideal S3HH .f32) (A_b : FVec Ideal S3H .f32)
    (R_w : FVec Ideal S3HH .f32) (R_b : FVec Ideal S3H .f32) (gam bet : FVec Ideal S3H .f32)
    (lin_w : FVec Ideal S2H .f32) (lin_b : FVec Ideal S2 .f32) : FVec Ideal SN2 .f32 :=
  head (layerK 2 (layerK 1 (layerK 0 (padX x) ei batch V_w V_b A_w A_b R_w R_b gam bet) ei batch V_w V_b A_w A_b R_w R_b gam bet)
    ei batch V_w V_b A_w A_b R_w R_b gam bet) lin_w lin_b

def readoutR (h : FVec Ideal SNH .f32) (batch : IVec SN 32) : FVec Ideal SNH .f32 :=
  mk2 fun i k =>
    let g := clampRow 64 (by decide) (wrapW 64#32 (batch (ix1 i)))
    Ideal.ofBits .f32 0x00000000#32
      + ∑ j ∈ Finset.univ.filter (fun j : Fin 50000 => rowOf? 64 (batch (ix1 j)) = some g), h (ix2 j k)

def varR (a : FVec Ideal SNH .f32) : FVec Ideal S1H .f32 :=
  mk2 fun _ k => Ideal.div (∑ r : Fin 50000, (a (ix2 r k) - meanOf (colSum a) (ix2 0 k)) * (a (ix2 r k) - meanOf (colSum a) (ix2 0 k))) cN

def actR (l : Fin 3) (h : FVec Ideal SNH .f32) (ei : IVec S2E 32) (batch : IVec SN 32)
    (V_w : FVec Ideal S3HH .f32) (V_b : FVec Ideal S3H .f32) (A_w : FVec Ideal S3HH .f32) (A_b : FVec Ideal S3H .f32)
    (R_w : FVec Ideal S3HH .f32) (R_b : FVec Ideal S3H .f32) : FVec Ideal SNH .f32 :=
  relu (pre h (aggr h ei) (readoutR h batch) (wAt V_w l) (wAt A_w l) (wAt R_w l) (bAt V_b l) (bAt A_b l) (bAt R_b l))

def layerR (l : Fin 3) (h : FVec Ideal SNH .f32) (ei : IVec S2E 32) (batch : IVec SN 32)
    (V_w : FVec Ideal S3HH .f32) (V_b : FVec Ideal S3H .f32) (A_w : FVec Ideal S3HH .f32) (A_b : FVec Ideal S3H .f32)
    (R_w : FVec Ideal S3HH .f32) (R_b : FVec Ideal S3H .f32) (gam bet : FVec Ideal S3H .f32) : FVec Ideal SNH .f32 :=
  normalize (actR l h ei batch V_w V_b A_w A_b R_w R_b)
    (meanOf (colSum (actR l h ei batch V_w V_b A_w A_b R_w R_b)))
    (rstdOf (varR (actR l h ei batch V_w V_b A_w A_b R_w R_b)))
    (bAt gam l) (bAt bet l)

def netR (x : FVec Ideal SNI .f32) (ei : IVec S2E 32) (batch : IVec SN 32)
    (V_w : FVec Ideal S3HH .f32) (V_b : FVec Ideal S3H .f32) (A_w : FVec Ideal S3HH .f32) (A_b : FVec Ideal S3H .f32)
    (R_w : FVec Ideal S3HH .f32) (R_b : FVec Ideal S3H .f32) (gam bet : FVec Ideal S3H .f32)
    (lin_w : FVec Ideal S2H .f32) (lin_b : FVec Ideal S2 .f32) : FVec Ideal SN2 .f32 :=
  head (layerR 2 (layerR 1 (layerR 0 (padX x) ei batch V_w V_b A_w A_b R_w R_b gam bet) ei batch V_w V_b A_w A_b R_w R_b gam bet)
    ei batch V_w V_b A_w A_b R_w R_b gam bet) lin_w lin_b

end Cert.Gnn

end
-- ==== Proof.KReg0a.lean ====
import proofs.«417352_j66855460929770_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

open Idealize.ShloMosaic Idealize.ShloMosaic.ValueIdx

namespace Cert.KernelIdeal.GSum

open Cert.KernelIdeal Cert.KernelIdeal.Gen

theorem lhs_ax0 (j : S64x128.Idx) (q : dot_S2000x64_S2000x128_S64x128_0_0_1_1_n_n.contr.Idx) :
    (dot_S2000x64_S2000x128_S64x128_0_0_1_1_n_n.lhsIdx j q 0 : ℕ) = (q ⟨0, by decide⟩ : ℕ) :=
  dot_S2000x64_S2000x128_S64x128_0_0_1_1_n_n.lhsIdx_val_of_single rfl j q

theorem lhs_ax1 (j : S64x128.Idx) (q : dot_S2000x64_S2000x128_S64x128_0_0_1_1_n_n.contr.Idx) :
    (dot_S2000x64_S2000x128_S64x128_0_0_1_1_n_n.lhsIdx j q 1 : ℕ) = (j 0 : ℕ) := by
  simp [DotDims.lhsIdx, dot_S2000x64_S2000x128_S64x128_0_0_1_1_n_n]; rfl

theorem rhs_ax0 (j : S64x128.Idx) (q : dot_S2000x64_S2000x128_S64x128_0_0_1_1_n_n.contr.Idx) :
    (dot_S2000x64_S2000x128_S64x128_0_0_1_1_n_n.rhsIdx j q 0 : ℕ) = (q ⟨0, by decide⟩ : ℕ) :=
  dot_S2000x64_S2000x128_S64x128_0_0_1_1_n_n.rhsIdx_val_of_single rfl j q

theorem rhs_ax1 (j : S64x128.Idx) (q : dot_S2000x64_S2000x128_S64x128_0_0_1_1_n_n.contr.Idx) :
    (dot_S2000x64_S2000x128_S64x128_0_0_1_1_n_n.rhsIdx j q 1 : ℕ) = (j 1 : ℕ) := by
  simp [DotDims.rhsIdx, dot_S2000x64_S2000x128_S64x128_0_0_1_1_n_n]; rfl

theorem mm_apply (l : FVec Ideal S2000x64 .bf16) (r : FVec Ideal S2000x128 .bf16) (g : Fin 64) (k : Fin 128) :
    matmul dot_S2000x64_S2000x128_S64x128_0_0_1_1_n_n none l r (constant (F := Ideal) S64x128 .f32 0x00000000#32) (ix2 g k)
      = ∑ q : Fin 2000, l (ix2 q g) * r (ix2 q k) := by
  show FloatOps.matmul _ none l r (constant (F := Ideal) S64x128 .f32 0x00000000#32) (ix2 g k) = _
  rw [Ideal.matmul_constant_zero_apply,
    ← Equiv.sum_comp (contrEquiv1 dot_S2000x64_S2000x128_S64x128_0_0_1_1_n_n 2000 rfl rfl).symm]
  refine Finset.sum_congr rfl fun q _ => ?_
  have cq := contrEquiv1_symm_val dot_S2000x64_S2000x128_S64x128_0_0_1_1_n_n 2000 rfl rfl q
  have el : dot_S2000x64_S2000x128_S64x128_0_0_1_1_n_n.lhsIdx (ix2 g k)
      ((contrEquiv1 dot_S2000x64_S2000x128_S64x128_0_0_1_1_n_n 2000 rfl rfl).symm q) = ix2 q g := by
    funext ax; apply Fin.ext
    match ax with
    | ⟨0, _⟩ => exact (lhs_ax0 _ _).trans cq
    | ⟨1, _⟩ => exact lhs_ax1 _ _
  have er : dot_S2000x64_S2000x128_S64x128_0_0_1_1_n_n.rhsIdx (ix2 g k)
      ((contrEquiv1 dot_S2000x64_S2000x128_S64x128_0_0_1_1_n_n 2000 rfl rfl).symm q) = ix2 q k := by
    funext ax; apply Fin.ext
    match ax with
    | ⟨0, _⟩ => exact (rhs_ax0 _ _).trans cq
    | ⟨1, _⟩ => exact rhs_ax1 _ _
  rw [el, er]

theorem pay1_apply (j : S64x128.Idx) : k0_pay1 (F := Ideal) j = 0 := Ideal.ofBits_zero_f32

theorem pay2_apply (x0 : FVec Ideal S2000x128 .f32) (x1 : FVec Ideal S2000x64 .f32) (acc : FVec Ideal S64x128 .f32)
    (g : Fin 64) (k : Fin 128) :
    k0_pay2 (F := Ideal) x0 x1 acc (ix2 g k) = acc (ix2 g k) + ∑ q : Fin 2000, x1 (ix2 q g) * x0 (ix2 q k) := by
  unfold k0_pay2
  simp only [shapeCast_self]
  exact congrArg (acc (ix2 g k) + ·) (mm_apply _ _ g k)

theorem hz : (![0, 0] : Fin 2 → Nat) = fun _ => 0 := funext fun a => by fin_cases a <;> rfl

theorem tile_lt {a b : ℕ} (t : Fin a) (r : Fin b) : b * t.val + r.val < a * b :=
  calc b * t.val + r.val < b * t.val + b := Nat.add_lt_add_left r.isLt _
    _ = b * (t.val + 1) := (Nat.mul_succ _ _).symm
    _ ≤ b * a := Nat.mul_le_mul_left _ t.isLt
    _ = a * b := Nat.mul_comm _ _

/-- A sum over a · b indices is the sum over a tiles of b consecutive indices. -/
theorem sum_tiles {M : Type*} [AddCommMonoid M] {n : ℕ} (a b : ℕ) (h : n = a * b) (f : Fin n → M) :
    ∑ i : Fin n, f i = ∑ t : Fin a, ∑ r : Fin b, f ⟨b * t.val + r.val, lt_of_lt_of_eq (tile_lt t r) h.symm⟩ := by
  subst h
  rw [← Equiv.sum_comp finProdFinEquiv f, Fintype.sum_prod_type]
  refine Finset.sum_congr rfl fun t _ => Finset.sum_congr rfl fun r _ => congrArg f (Fin.ext ?_)
  show r.val + b * t.val = b * t.val + r.val
  exact Nat.add_comm _ _

end Cert.KernelIdeal.GSum

end
-- ==== Proof.KReg0.lean ====
import proofs.«417352_j66855460929770_1_alg».proof.Proof.Gen.KernelIdeal.Frame
import proofs.«417352_j66855460929770_1_alg».proof.Proof.Spec
import proofs.«417352_j66855460929770_1_alg».proof.Proof.KReg0a
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val0

open Cert.KernelIdeal Cert.KernelIdeal.Gen Cert.Gnn
open Idealize.ShloMosaic.ValueIdx
open Cert.KernelIdeal.GSum (hz pay1_apply pay2_apply sum_tiles)

variable (V : (c : Dev nD) → (b : Ref sig .tc) → Buf (Elt Ideal) ((c : Thread nD τ).loc b))

theorem out_B (c : Dev nD) (i : grid0.Coords) (a1 : Memref sig .tc .vmem S2000x128 .f32) (h1 : a1.IsWhole)
    (a2 : Memref sig .tc .vmem S2000x64 .f32) (h2 : a2.IsWhole) (a3 : Memref sig .tc .vmem S64x128 .f32) (h3 : a3.IsWhole)
    (hc : ¬cond0_0 i) (x0 : Vec Ideal S2000x128 .f32) (x1 : Vec Ideal S2000x64 .f32) (xo : Vec Ideal S64x128 .f32) :
    out0_B_2 c i a1 h1 a2 h2 a3 h3 hc x0 x1 xo = k0_pay2 (F := Ideal) x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S2000x128) hz,
    View.ld_unit_zero (S := S2000x64) hz, View.ld_unit_zero (S := S64x128) hz]

theorem out_A (c : Dev nD) (i : grid0.Coords) (a1 : Memref sig .tc .vmem S2000x128 .f32) (h1 : a1.IsWhole)
    (a2 : Memref sig .tc .vmem S2000x64 .f32) (h2 : a2.IsWhole) (a3 : Memref sig .tc .vmem S64x128 .f32) (h3 : a3.IsWhole)
    (hc : cond0_0 i) (x0 : Vec Ideal S2000x128 .f32) (x1 : Vec Ideal S2000x64 .f32) :
    out0_A_2 c i a1 h1 a2 h2 a3 h3 hc x0 x1 = k0_pay2 (F := Ideal) x0 x1 (k0_pay1 (F := Ideal)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S64x128) hz]
  simp only [View.readAt_eq_ld, h1.read_unread, h2.read_unread, View.ld_unit_zero (S := S2000x128) hz,
    View.ld_unit_zero (S := S2000x64) hz, View.readCov_unit_zero (S := S64x128) _ hz]

abbrev hblk (c : Dev nD) (t : Fin cfg0.N) : FVec Ideal S2000x128 .f32 := iblk0 V c 0 t
abbrev oblk (c : Dev nD) (t : Fin cfg0.N) : FVec Ideal S2000x64 .f32 := iblk0 V c 1 t
abbrev harr (c : Dev nD) : FVec Ideal S50000x128 .f32 := V c main_v0
abbrev oarr (c : Dev nD) : FVec Ideal S50000x64 .f32 := V c main_v11

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

theorem hblk_apply (c : Dev nD) (t : Fin cfg0.N) (r : Fin 2000) (k : Fin 128) (R : Fin 50000)
    (hR : R.val = 2000 * t.val + r.val) : hblk V c t (ix2 r k) = harr V c (ix2 R k) := by
  obtain ⟨e0, e1, -⟩ := idx_facts t
  show iblk0 V c 0 t (ix2 r k) = V c main_v0 (ix2 R k)
  unfold iblk0
  rw [View.read_apply]
  show V c main_v0 _ = V c main_v0 _
  refine congrArg (V c main_v0) ?_
  funext a
  apply Fin.ext
  match a with
  | ⟨0, _⟩ => show win0_0.index t 0 * 2000 + 1 * r.val = R.val; rw [e0, hR]; omega
  | ⟨1, _⟩ => show win0_0.index t 1 * 128 + 1 * k.val = k.val; rw [e1]; omega

theorem oblk_apply (c : Dev nD) (t : Fin cfg0.N) (r : Fin 2000) (g : Fin 64) (R : Fin 50000)
    (hR : R.val = 2000 * t.val + r.val) : oblk V c t (ix2 r g) = oarr V c (ix2 R g) := by
  obtain ⟨-, -, e0, e1, -⟩ := idx_facts t
  show iblk0 V c 1 t (ix2 r g) = V c main_v11 (ix2 R g)
  unfold iblk0
  rw [View.read_apply]
  show V c main_v11 _ = V c main_v11 _
  refine congrArg (V c main_v11) ?_
  funext a
  apply Fin.ext
  match a with
  | ⟨0, _⟩ => show win0_1.index t 0 * 2000 + 1 * r.val = R.val; rw [e0, hR]; omega
  | ⟨1, _⟩ => show win0_1.index t 1 * 64 + 1 * g.val = g.val; rw [e1]; omega

def tile (c : Dev nD) (s : ℕ) (g : Fin 64) (k : Fin 128) : EReal :=
  if h : s < cfg0.N then ∑ r : Fin 2000, oblk V c ⟨s, h⟩ (ix2 r g) * hblk V c ⟨s, h⟩ (ix2 r k) else 0

theorem tile_of_lt (c : Dev nD) (s : ℕ) (h : s < cfg0.N) (g : Fin 64) (k : Fin 128) :
    tile V c s g k = ∑ r : Fin 2000, oblk V c ⟨s, h⟩ (ix2 r g) * hblk V c ⟨s, h⟩ (ix2 r k) := dif_pos h

theorem outsAt_A (c : Dev nD) (t : Fin cfg0.N) (h0 : t.val % 25 = 0) :
    outsAt0 V c t.val t.isLt = k0_pay2 (F := Ideal) (hblk V c t) (oblk V c t) (k0_pay1 (F := Ideal)) :=
  (outsAt0_A V c t h0).trans
    (out_A c (grid0.coords t) (ms0_0 t) (hs0_0 t) (ms0_1 t) (hs0_1 t) (ms0_2 t) (hs0_2 t) ((hcond0_0 t).mpr h0)
      (hblk V c t) (oblk V c t))

theorem outsAt_B (c : Dev nD) (t : Fin cfg0.N) (h0 : ¬t.val % 25 = 0) :
    outsAt0 V c t.val t.isLt = k0_pay2 (F := Ideal) (hblk V c t) (oblk V c t)
      (outsAt0 V c (t.val - 1) (Nat.lt_of_le_of_lt (Nat.sub_le _ _) t.isLt)) :=
  (outsAt0_B V c t h0).trans
    (out_B c (grid0.coords t) (ms0_0 t) (hs0_0 t) (ms0_1 t) (hs0_1 t) (ms0_2 t) (hs0_2 t) (fun h => h0 ((hcond0_0 t).mp h))
      (hblk V c t) (oblk V c t) (outsAt0 V c (t.val - 1) (Nat.lt_of_le_of_lt (Nat.sub_le _ _) t.isLt)))

/-- By induction on the point: after point n the [64, 128] result is the sum of the first n + 1 tiles' products. -/
theorem outsAt_eq (c : Dev nD) : ∀ (n : ℕ) (hn : n < cfg0.N) (g : Fin 64) (k : Fin 128),
    (outsAt0 V c n hn : FVec Ideal S64x128 .f32) (ix2 g k) = ∑ s ∈ Finset.range (n + 1), tile V c s g k
  | 0, hn, g, k => by
    refine (congrFun (outsAt_A V c ⟨0, hn⟩ rfl) (ix2 g k)).trans ?_
    refine (pay2_apply (hblk V c ⟨0, hn⟩) (oblk V c ⟨0, hn⟩) (k0_pay1 (F := Ideal)) g k).trans ?_
    rw [show (k0_pay1 (F := Ideal)) (ix2 g k) = 0 from pay1_apply _, zero_add, Finset.sum_range_one, tile_of_lt V c 0 hn]
  | n + 1, hn, g, k => by
    have hN : cfg0.N = 25 := N_0
    have hB : ¬(⟨n + 1, hn⟩ : Fin cfg0.N).val % 25 = 0 := by dsimp only; omega
    refine (congrFun (outsAt_B V c ⟨n + 1, hn⟩ hB) (ix2 g k)).trans ?_
    refine (pay2_apply (hblk V c ⟨n + 1, hn⟩) (oblk V c ⟨n + 1, hn⟩) _ g k).trans ?_
    show (outsAt0 V c n _ : FVec Ideal S64x128 .f32) (ix2 g k) + _ = _
    rw [outsAt_eq c n _ g k, Finset.sum_range_succ _ (n + 1), tile_of_lt V c (n + 1) hn]

theorem tile_eq (c : Dev nD) (s : Fin 25) (g : Fin 64) (k : Fin 128) :
    tile V c s.val g k = ∑ r : Fin 2000, oarr V c (ix2 (⟨2000 * s.val + r.val, by omega⟩ : Fin 50000) g)
      * harr V c (ix2 (⟨2000 * s.val + r.val, by omega⟩ : Fin 50000) k) := by
  have hs : s.val < cfg0.N := lt_of_lt_of_eq s.isLt (show cfg0.N = 25 from N_0).symm
  rw [tile_of_lt V c s.val hs]
  refine Finset.sum_congr rfl fun r _ => ?_
  rw [oblk_apply V c ⟨s.val, hs⟩ r g ⟨2000 * s.val + r.val, by omega⟩ rfl,
    hblk_apply V c ⟨s.val, hs⟩ r k ⟨2000 * s.val + r.val, by omega⟩ rfl]

abbrev gsum (c : Dev nD) : Buf (Elt Ideal) ((c : Thread nD τ).loc main_v32) := graphSum (V c main_v0) (V c main_v11)

/-- The 25 tiles of 2000 rows are all 50000 rows, so after the last point the result is the per-graph sums. -/
theorem last_eq (c : Dev nD) (t : Fin cfg0.N) (ht : t.val = 24) : outsAt0 V c t.val t.isLt = gsum V c := by
  funext j
  obtain ⟨g, k, rfl⟩ : ∃ (g : Fin 64) (k : Fin 128), j = ix2 g k := ⟨j 0, j 1, eq_ix2 j⟩
  refine (outsAt_eq V c t.val t.isLt g k).trans ?_
  rw [ht]
  show _ = ∑ R : Fin 50000, oarr V c (ix2 R g) * harr V c (ix2 R k)
  rw [sum_tiles 25 2000 rfl, Finset.sum_range]
  exact Finset.sum_congr rfl fun s _ => tile_eq V c s g k

theorem flushed_eq (c : Dev nD) (t : Fin cfg0.N) (hf : (cfg0.win 2).flush t = true) :
    (dat0 V c).flushed 2 t = ((cfg0.win 2).blk t).view.read (Elt Ideal) (gsum V c) := by
  have hN : cfg0.N = 25 := N_0
  have h24 : t.val = 24 := by have := (flush0_2 t).mp hf; have := t.isLt; omega
  obtain ⟨-, -, -, -, e0, e1⟩ := idx_facts t
  show (cfg0.win 2).cut (grid0.coords t) ((dat0 V c).after 2 t) = _
  rw [after0_2, last_eq V c t h24]
  have hz' : (fun a => win0_2.index t a * main_v32.ty.shape.size a) = fun _ => 0 := funext fun a => by
    match a with
    | ⟨0, _⟩ => show win0_2.index t 0 * _ = 0; rw [e0]; exact Nat.zero_mul _
    | ⟨1, _⟩ => show win0_2.index t 1 * _ = 0; rw [e1]; exact Nat.zero_mul _
  exact (Memref.read_access_unit_zero (Elt Ideal) main_v32 hz' (fun a => by rw [congrFun hz' a]; simp) (gsum V c)).symm

theorem mem_blk (t : Fin cfg0.N) (i : S64x128.Idx) :
    i ∈ ((cfg0.win 2).blk t).view.set ↔ ∀ a : Fin 2, win0_2.index t a * S64x128.size a ≤ (i a).val
      ∧ (i a).val < win0_2.index t a * S64x128.size a + S64x128.size a := by
  show i ∈ ((View.whole main_v32).slice (win0_2.rect t)).set ↔ _
  rw [View.set_slice_whole, Rect.mem_set_unit]
  exact Iff.rfl

theorem reg0_out (c : Dev nD) :
    (dat0 V c).arrAt 2 cfg0.N = graphSum (V c main_v0) (V c main_v11) := by
  have hN : cfg0.N = 25 := N_0
  have hlast : 24 < cfg0.N := by omega
  refine (dat0 V c).arrAt_eq_of_cover 2 (gsum V c) (flushed_eq V c) fun i => ⟨⟨24, hlast⟩, (flush0_2 _).mpr rfl, ?_⟩
  obtain ⟨-, -, -, -, e0, e1⟩ := idx_facts ⟨24, hlast⟩
  have h0 : (i 0 : ℕ) < 64 := (i 0).isLt
  have h1 : (i 1 : ℕ) < 128 := (i 1).isLt
  rw [mem_blk]
  intro a
  match a with
  | ⟨0, _⟩ =>
    show win0_2.index ⟨24, hlast⟩ (0 : Fin 2) * 64 ≤ (i 0 : ℕ) ∧ (i 0 : ℕ) < win0_2.index ⟨24, hlast⟩ (0 : Fin 2) * 64 + 64
    omega
  | ⟨1, _⟩ =>
    show win0_2.index ⟨24, hlast⟩ (1 : Fin 2) * 128 ≤ (i 1 : ℕ) ∧ (i 1 : ℕ) < win0_2.index ⟨24, hlast⟩ (1 : Fin 2) * 128 + 128
    omega

end Cert.KernelIdeal.Val0

end
-- ==== Proof.KReg1a.lean ====
import proofs.«417352_j66855460929770_1_alg».proof.Proof.Gen.KernelIdeal.Skeleton
import proofs.«417352_j66855460929770_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

open Idealize.ShloMosaic Idealize.ShloMosaic.ValueIdx

namespace Cert.KernelIdeal.Comb

open Cert.KernelIdeal Cert.KernelIdeal.Gen Cert.Gnn

theorem hz : (![0, 0] : Fin 2 → Nat) = fun _ => 0 := funext fun a => by fin_cases a <;> rfl

theorem lhsT_0 (i : S2000x128.Idx) (q : dot_S2000x128_S128x128_S2000x128_1_1_0_0_n_n.contr.Idx) :
    (dot_S2000x128_S128x128_S2000x128_1_1_0_0_n_n.lhsIdx i q 0).val = (i 0).val := by
  unfold DotDims.lhsIdx
  rw [dif_neg (show ¬(0 : Fin S2000x128.rank) ∈ dot_S2000x128_S128x128_S2000x128_1_1_0_0_n_n.lhsBatch by decide),
    dif_pos (show (0 : Fin S2000x128.rank) ∈ dot_S2000x128_S128x128_S2000x128_1_1_0_0_n_n.lhsNonContracting by decide)]
  rfl
theorem lhsT_1 (i : S2000x128.Idx) (q : dot_S2000x128_S128x128_S2000x128_1_1_0_0_n_n.contr.Idx) :
    (dot_S2000x128_S128x128_S2000x128_1_1_0_0_n_n.lhsIdx i q 1).val = (q ⟨0, by decide⟩).val :=
  dot_S2000x128_S128x128_S2000x128_1_1_0_0_n_n.lhsIdx_val_of_single rfl i q
theorem rhsT_0 (i : S2000x128.Idx) (q : dot_S2000x128_S128x128_S2000x128_1_1_0_0_n_n.contr.Idx) :
    (dot_S2000x128_S128x128_S2000x128_1_1_0_0_n_n.rhsIdx i q 0).val = (i 1).val := by
  unfold DotDims.rhsIdx
  rw [dif_neg (show ¬(0 : Fin S128x128.rank) ∈ dot_S2000x128_S128x128_S2000x128_1_1_0_0_n_n.rhsBatch by decide),
    dif_pos (show (0 : Fin S128x128.rank) ∈ dot_S2000x128_S128x128_S2000x128_1_1_0_0_n_n.rhsNonContracting by decide)]
  rfl
theorem rhsT_1 (i : S2000x128.Idx) (q : dot_S2000x128_S128x128_S2000x128_1_1_0_0_n_n.contr.Idx) :
    (dot_S2000x128_S128x128_S2000x128_1_1_0_0_n_n.rhsIdx i q 1).val = (q ⟨0, by decide⟩).val :=
  dot_S2000x128_S128x128_S2000x128_1_1_0_0_n_n.rhsIdx_val_of_single rfl i q

theorem matmulT_apply (x : FVec Ideal S2000x128 .bf16) (w : FVec Ideal S128x128 .bf16) (r : Fin 2000) (k : Fin 128) :
    matmul dot_S2000x128_S128x128_S2000x128_1_1_0_0_n_n none x w (constant (F := Ideal) S2000x128 .f32 0x00000000#32) (ix2 r k)
      = ∑ d : Fin 128, x (ix2 r d) * w (ix2 k d) := by
  simp only [matmul]
  rw [Ideal.matmul_constant_zero_apply, ← Equiv.sum_comp (contrEquiv1 dot_S2000x128_S128x128_S2000x128_1_1_0_0_n_n 128 rfl rfl).symm]
  refine Finset.sum_congr rfl fun d _ => ?_
  have hk := contrEquiv1_symm_val dot_S2000x128_S128x128_S2000x128_1_1_0_0_n_n 128 rfl rfl d
  have el : dot_S2000x128_S128x128_S2000x128_1_1_0_0_n_n.lhsIdx (ix2 r k) ((contrEquiv1 dot_S2000x128_S128x128_S2000x128_1_1_0_0_n_n 128 rfl rfl).symm d) = ix2 r d := funext fun a => Fin.ext (by
    match a with
    | ⟨0, _⟩ => exact lhsT_0 _ _
    | ⟨1, _⟩ => exact (lhsT_1 _ _).trans hk)
  have er : dot_S2000x128_S128x128_S2000x128_1_1_0_0_n_n.rhsIdx (ix2 r k) ((contrEquiv1 dot_S2000x128_S128x128_S2000x128_1_1_0_0_n_n 128 rfl rfl).symm d) = ix2 k d := funext fun a => Fin.ext (by
    match a with
    | ⟨0, _⟩ => exact rhsT_0 _ _
    | ⟨1, _⟩ => exact (rhsT_1 _ _).trans hk)
  rw [el, er]

theorem lhsN_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide),
    dif_pos (show (0 : Fin S2000x64.rank) ∈ dot_S2000x64_S64x128_S2000x128_1_0_0_1_n_n.lhsNonContracting by decide)]
  rfl
theorem lhsN_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem rhsN_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem rhsN_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide),
    dif_pos (show (1 : Fin S64x128.rank) ∈ dot_S2000x64_S64x128_S2000x128_1_0_0_1_n_n.rhsNonContracting by decide)]
  rfl

theorem matmulN_apply (x : FVec Ideal S2000x64 .bf16) (w : FVec Ideal S64x128 .bf16) (r : Fin 2000) (k : Fin 128) :
    matmul dot_S2000x64_S64x128_S2000x128_1_0_0_1_n_n none x w (constant (F := Ideal) S2000x128 .f32 0x00000000#32) (ix2 r k)
      = ∑ g : Fin 64, x (ix2 r g) * w (ix2 g k) := by
  simp only [matmul]
  rw [Ideal.matmul_constant_zero_apply, ← Equiv.sum_comp (contrEquiv1 dot_S2000x64_S64x128_S2000x128_1_0_0_1_n_n 64 rfl rfl).symm]
  refine Finset.sum_congr rfl fun g _ => ?_
  have hk := contrEquiv1_symm_val dot_S2000x64_S64x128_S2000x128_1_0_0_1_n_n 64 rfl rfl g
  have el : dot_S2000x64_S64x128_S2000x128_1_0_0_1_n_n.lhsIdx (ix2 r k) ((contrEquiv1 dot_S2000x64_S64x128_S2000x128_1_0_0_1_n_n 64 rfl rfl).symm g) = ix2 r g := funext fun a => Fin.ext (by
    match a with
    | ⟨0, _⟩ => exact lhsN_0 _ _
    | ⟨1, _⟩ => exact (lhsN_1 _ _).trans hk)
  have er : dot_S2000x64_S64x128_S2000x128_1_0_0_1_n_n.rhsIdx (ix2 r k) ((contrEquiv1 dot_S2000x64_S64x128_S2000x128_1_0_0_1_n_n 64 rfl rfl).symm g) = ix2 g k := funext fun a => Fin.ext (by
    match a with
    | ⟨0, _⟩ => exact (rhsN_0 _ _).trans hk
    | ⟨1, _⟩ => exact rhsN_1 _ _)
  rw [el, er]

theorem readoutBlock_apply (oh : FVec Ideal S2000x64 .f32) (gs : FVec Ideal S64x128 .f32) (r : Fin 2000) (k : Fin 128) :
    k1_pay6 (F := Ideal) oh gs (ix2 r k) = ∑ g : Fin 64, oh (ix2 r g) * gs (ix2 g k) := by
  unfold k1_pay6
  simp only [shapeCast_self]
  exact matmulN_apply _ _ r k

theorem weight_eq (w : FVec Ideal S128x128 .f32) : k1_pay7 (F := Ideal) w = w := by
  unfold k1_pay7
  simp only [shapeCast_self]
  rfl

theorem bias_eq (b : FVec Ideal S1x128 .f32) : k1_pay9 (F := Ideal) b = b := by
  unfold k1_pay9
  simp only [shapeCast_self]

theorem lin2Block_apply (h a : FVec Ideal S2000x128 .f32) (Vw Aw : FVec Ideal S128x128 .f32) (Vb : FVec Ideal S1x128 .f32)
    (r : Fin 2000) (k : Fin 128) :
    k1_pay8 (F := Ideal) h a Vw Aw Vb (ix2 r k)
      = (∑ d : Fin 128, h (ix2 r d) * Vw (ix2 k d)) + Vb (ix2 0 k) + ∑ d : Fin 128, a (ix2 r d) * Aw (ix2 k d) := by
  unfold k1_pay8
  simp only [shapeCast_self]
  refine congrArg₂ (· + ·) (congrArg₂ (· + ·) (matmulT_apply _ _ r k) (broadcastTo_1b_ab_apply _ _ r k)) (matmulT_apply _ _ r k)

theorem actBlock_apply (ro : FVec Ideal S2000x128 .bf16) (Rw : FVec Ideal S128x128 .bf16) (z : FVec Ideal S2000x128 .f32)
    (Ab Rb : FVec Ideal S1x128 .f32) (r : Fin 2000) (k : Fin 128) :
    k1_pay1 (F := Ideal) ro Rw z Ab Rb (ix2 r k)
      = max (z (ix2 r k) + Ab (ix2 0 k) + (∑ d : Fin 128, ro (ix2 r d) * Rw (ix2 k d)) + Rb (ix2 0 k)) 0 := by
  unfold k1_pay1
  simp only [shapeCast_self]
  refine congrArg₂ max (congrArg₂ (· + ·) (congrArg₂ (· + ·) (congrArg₂ (· + ·) rfl (broadcastTo_1b_ab_apply _ _ r k)) (matmulT_apply _ _ r k)) (broadcastTo_1b_ab_apply _ _ r k)) Ideal.ofBits_zero_f32

theorem lift_col (k : Fin 128) (r : Fin 2000) : reduces_S2000x128_S128.lift (ix1 k) r = ix2 r k := by
  funext a
  match a with
  | ⟨0, _⟩ => rfl
  | ⟨1, _⟩ => rfl

theorem colSumBlock_apply (x : FVec Ideal S2000x128 .f32) (u : Fin 1) (k : Fin 128) :
    shapeCast S1x128 (multiReduction .add [0] S128 x 0x00000000#32 reduces_S2000x128_S128 (.inl rfl) rfl) shapeCasts_S128_S1x128 (ix2 u k)
      = ∑ r : Fin 2000, x (ix2 r k) := by
  refine (shapeCast_a_1a_apply _ _ u k).trans ?_
  refine (Ideal.multiReduction_add_single x _ _ _ _ (ix1 k)).trans ?_
  exact Finset.sum_congr rfl fun r _ => congrArg x (lift_col k r)

theorem sumRow_apply (ro : FVec Ideal S2000x128 .bf16) (Rw : FVec Ideal S128x128 .bf16) (z : FVec Ideal S2000x128 .f32)
    (Ab Rb acc : FVec Ideal S1x128 .f32) (u : Fin 1) (k : Fin 128) :
    k1_pay2 (F := Ideal) ro Rw z Ab Rb acc (ix2 u k)
      = acc (ix2 u k) + ∑ r : Fin 2000, k1_pay1 (F := Ideal) ro Rw z Ab Rb (ix2 r k) := by
  unfold k1_pay2
  simp only [shapeCast_self]
  exact congrArg₂ (· + ·) rfl (colSumBlock_apply _ u k)

theorem sqRow_apply (ro : FVec Ideal S2000x128 .bf16) (Rw : FVec Ideal S128x128 .bf16) (z : FVec Ideal S2000x128 .f32)
    (Ab Rb acc : FVec Ideal S1x128 .f32) (u : Fin 1) (k : Fin 128) :
    k1_pay3 (F := Ideal) ro Rw z Ab Rb acc (ix2 u k)
      = acc (ix2 u k) + ∑ r : Fin 2000, k1_pay1 (F := Ideal) ro Rw z Ab Rb (ix2 r k) * k1_pay1 (F := Ideal) ro Rw z Ab Rb (ix2 r k) := by
  unfold k1_pay3
  simp only [shapeCast_self]
  exact congrArg₂ (· + ·) rfl (colSumBlock_apply _ u k)

theorem zeroRowA_apply (j : S1x128.Idx) : k1_pay4 (F := Ideal) j = 0 := Ideal.ofBits_zero_f32
theorem zeroRowB_apply (j : S1x128.Idx) : k1_pay5 (F := Ideal) j = 0 := Ideal.ofBits_zero_f32

section Blocks
variable {F : FTy → Type} [FloatOps F]

abbrev blockAct (x0 x1 : Vec F S2000x128 .f32) (x2 : Vec F S2000x64 .f32) (x3 : Vec F S64x128 .f32) (x4 : Vec F S128x128 .f32)
    (x5 : Vec F S1x128 .f32) (x6 : Vec F S128x128 .f32) (x7 : Vec F S1x128 .f32) (x8 : Vec F S128x128 .f32) (x9 : Vec F S1x128 .f32) :
    FVec F S2000x128 .f32 :=
  k1_pay1 (k1_pay6 x2 x3) (k1_pay7 x8) (k1_pay8 x0 x1 x4 x6 x5) (k1_pay9 x7) x9

abbrev blockSum (x0 x1 : Vec F S2000x128 .f32) (x2 : Vec F S2000x64 .f32) (x3 : Vec F S64x128 .f32) (x4 : Vec F S128x128 .f32)
    (x5 : Vec F S1x128 .f32) (x6 : Vec F S128x128 .f32) (x7 : Vec F S1x128 .f32) (x8 : Vec F S128x128 .f32) (x9 : Vec F S1x128 .f32)
    (acc : Vec F S1x128 .f32) : FVec F S1x128 .f32 :=
  k1_pay2 (k1_pay6 x2 x3) (k1_pay7 x8) (k1_pay8 x0 x1 x4 x6 x5) (k1_pay9 x7) x9 acc

abbrev blockSq (x0 x1 : Vec F S2000x128 .f32) (x2 : Vec F S2000x64 .f32) (x3 : Vec F S64x128 .f32) (x4 : Vec F S128x128 .f32)
    (x5 : Vec F S1x128 .f32) (x6 : Vec F S128x128 .f32) (x7 : Vec F S1x128 .f32) (x8 : Vec F S128x128 .f32) (x9 : Vec F S1x128 .f32)
    (acc : Vec F S1x128 .f32) : FVec F S1x128 .f32 :=
  k1_pay3 (k1_pay6 x2 x3) (k1_pay7 x8) (k1_pay8 x0 x1 x4 x6 x5) (k1_pay9 x7) x9 acc

end Blocks

/-- The block's entry, read index by index: the rectified sum of the three products with the transposed weights and the three biases. -/
theorem blockAct_apply (x0 x1 : FVec Ideal S2000x128 .f32) (x2 : FVec Ideal S2000x64 .f32) (x3 : FVec Ideal S64x128 .f32)
    (x4 : FVec Ideal S128x128 .f32) (x5 : FVec Ideal S1x128 .f32) (x6 : FVec Ideal S128x128 .f32) (x7 : FVec Ideal S1x128 .f32)
    (x8 : FVec Ideal S128x128 .f32) (x9 : FVec Ideal S1x128 .f32) (r : Fin 2000) (k : Fin 128) :
    blockAct (F := Ideal) x0 x1 x2 x3 x4 x5 x6 x7 x8 x9 (ix2 r k)
      = max ((∑ d : Fin 128, x0 (ix2 r d) * x4 (ix2 k d)) + x5 (ix2 0 k) + (∑ d : Fin 128, x1 (ix2 r d) * x6 (ix2 k d)) + x7 (ix2 0 k)
          + (∑ d : Fin 128, (∑ g : Fin 64, x2 (ix2 r g) * x3 (ix2 g d)) * x8 (ix2 k d)) + x9 (ix2 0 k)) 0 := by
  refine (actBlock_apply _ _ _ _ _ r k).trans ?_
  rw [lin2Block_apply, bias_eq, weight_eq]
  simp only [readoutBlock_apply]

theorem blockSum_apply (x0 x1 : FVec Ideal S2000x128 .f32) (x2 : FVec Ideal S2000x64 .f32) (x3 : FVec Ideal S64x128 .f32)
    (x4 : FVec Ideal S128x128 .f32) (x5 : FVec Ideal S1x128 .f32) (x6 : FVec Ideal S128x128 .f32) (x7 : FVec Ideal S1x128 .f32)
    (x8 : FVec Ideal S128x128 .f32) (x9 acc : FVec Ideal S1x128 .f32) (u : Fin 1) (k : Fin 128) :
    blockSum (F := Ideal) x0 x1 x2 x3 x4 x5 x6 x7 x8 x9 acc (ix2 u k)
      = acc (ix2 u k) + ∑ r : Fin 2000, blockAct (F := Ideal) x0 x1 x2 x3 x4 x5 x6 x7 x8 x9 (ix2 r k) :=
  sumRow_apply _ _ _ _ _ acc u k

theorem blockSq_apply (x0 x1 : FVec Ideal S2000x128 .f32) (x2 : FVec Ideal S2000x64 .f32) (x3 : FVec Ideal S64x128 .f32)
    (x4 : FVec Ideal S128x128 .f32) (x5 : FVec Ideal S1x128 .f32) (x6 : FVec Ideal S128x128 .f32) (x7 : FVec Ideal S1x128 .f32)
    (x8 : FVec Ideal S128x128 .f32) (x9 acc : FVec Ideal S1x128 .f32) (u : Fin 1) (k : Fin 128) :
    blockSq (F := Ideal) x0 x1 x2 x3 x4 x5 x6 x7 x8 x9 acc (ix2 u k)
      = acc (ix2 u k) + ∑ r : Fin 2000, blockAct (F := Ideal) x0 x1 x2 x3 x4 x5 x6 x7 x8 x9 (ix2 r k)
          * blockAct (F := Ideal) x0 x1 x2 x3 x4 x5 x6 x7 x8 x9 (ix2 r k) :=
  sqRow_apply _ _ _ _ _ acc u k

theorem blockAct_spec (x0 x1 : FVec Ideal S2000x128 .f32) (x2 : FVec Ideal S2000x64 .f32) (h ag : FVec Ideal SNH .f32)
    (oh : FVec Ideal SNI .f32) (gs : FVec Ideal SGH .f32) (Vw Aw Rw : FVec Ideal SHH .f32) (Vb Ab Rb : FVec Ideal S1H .f32)
    (R : Fin 50000) (r : Fin 2000) (k : Fin 128)
    (e0 : ∀ d, x0 (ix2 r d) = h (ix2 R d)) (e1 : ∀ d, x1 (ix2 r d) = ag (ix2 R d)) (e2 : ∀ g, x2 (ix2 r g) = oh (ix2 R g)) :
    blockAct (F := Ideal) x0 x1 x2 gs Vw Vb Aw Ab Rw Rb (ix2 r k) = relu (pre h ag (readoutK oh gs) Vw Aw Rw Vb Ab Rb) (ix2 R k) := by
  rw [blockAct_apply]
  simp only [relu, pre, readoutK, linT, mk2_ix2, e0, e1, e2]

def ext0 {N : ℕ} (f : Fin N → EReal) (j : ℕ) : EReal := if h : j < N then f ⟨j, h⟩ else 0

theorem ext0_of_lt {N : ℕ} (f : Fin N → EReal) {j : ℕ} (h : j < N) : ext0 f j = f ⟨j, h⟩ := dif_pos h

theorem sum_range_ext0 {N : ℕ} (f : Fin N → EReal) : ∑ j ∈ Finset.range N, ext0 f j = ∑ i : Fin N, f i := by
  rw [Finset.sum_range]
  exact Finset.sum_congr rfl fun i _ => ext0_of_lt f i.isLt

theorem sum_block_ext0 {N b : ℕ} (f : Fin N → EReal) (a : ℕ) (g : Fin b → EReal)
    (hg : ∀ r : Fin b, ∃ h : a + r.val < N, g r = f ⟨a + r.val, h⟩) :
    ∑ j ∈ Finset.range b, ext0 f (a + j) = ∑ r : Fin b, g r := by
  rw [Finset.sum_range]
  refine Finset.sum_congr rfl fun r _ => ?_
  obtain ⟨h, e⟩ := hg r
  rw [ext0_of_lt f h, e]

theorem sum_range_block {N b : ℕ} (f : Fin N → EReal) (a : ℕ) (g : Fin b → EReal)
    (hg : ∀ r : Fin b, ∃ h : a + r.val < N, g r = f ⟨a + r.val, h⟩) :
    ∑ j ∈ Finset.range (a + b), ext0 f j = ∑ j ∈ Finset.range a, ext0 f j + ∑ r : Fin b, g r := by
  rw [Finset.sum_range_add, sum_block_ext0 f a g hg]

end Cert.KernelIdeal.Comb

end
-- ==== Proof.KReg1.lean ====
import proofs.«417352_j66855460929770_1_alg».proof.Proof.Gen.KernelIdeal.Frame
import proofs.«417352_j66855460929770_1_alg».proof.Proof.Spec
import proofs.«417352_j66855460929770_1_alg».proof.Proof.KReg1a
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val1

open Cert.KernelIdeal Cert.KernelIdeal.Gen Cert.Gnn
open Cert.KernelIdeal.Comb (hz blockAct_spec blockSum_apply blockSq_apply zeroRowA_apply zeroRowB_apply ext0 sum_range_ext0 sum_range_block)

variable (V : (c : Dev nD) → (b : Ref sig .tc) → Buf (Elt Ideal) ((c : Thread nD τ).loc b))

abbrev act1 (c : Dev nD) : FVec Ideal SNH .f32 :=
  relu (pre (V c main_v0) (V c main_v22) (readoutK (V c main_v11) (V c main_v32)) (V c main_v34) (V c main_v36) (V c main_v38) (V c main_v25) (V c main_v28) (V c main_v31))

open Idealize.ShloMosaic.ValueIdx

section Pieces
variable {F : FTy → Type} [FloatOps F] (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x64 .f32) (harg3 : arg3.IsWhole) (arg4 : Memref sig .tc .vmem S64x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x128 .f32) (harg12 : arg12.IsWhole) (arg13 : Memref sig .tc .vmem S1x128 .f32) (harg13 : arg13.IsWhole)
  (x0 : Vec F S2000x128 .f32) (x1 : Vec F S2000x128 .f32) (x2 : Vec F S2000x64 .f32) (x3 : Vec F S64x128 .f32) (x4 : Vec F S128x128 .f32) (x5 : Vec F S1x128 .f32) (x6 : Vec F S128x128 .f32) (x7 : Vec F S1x128 .f32) (x8 : Vec F S128x128 .f32) (x9 : Vec F S1x128 .f32) (acc xo11 xo12 : Vec F S1x128 .f32)

/-- The body's three results as functions of its ten loaded blocks and a running row. -/
abbrev blockAct : FVec F S2000x128 .f32 := k1_pay1 (k1_pay6 x2 x3) (k1_pay7 x8) (k1_pay8 x0 x1 x4 x6 x5) (k1_pay9 x7) x9
abbrev blockSum : FVec F S1x128 .f32 := k1_pay2 (k1_pay6 x2 x3) (k1_pay7 x8) (k1_pay8 x0 x1 x4 x6 x5) (k1_pay9 x7) x9 acc
abbrev blockSq : FVec F S1x128 .f32 := k1_pay3 (k1_pay6 x2 x3) (k1_pay7 x8) (k1_pay8 x0 x1 x4 x6 x5) (k1_pay9 x7) x9 acc

theorem outA (hc0 : cond1_0 i) :
    (out1_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9, out1_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9, out1_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)
      = (blockAct x0 x1 x2 x3 x4 x5 x6 x7 x8 x9, blockSum x0 x1 x2 x3 x4 x5 x6 x7 x8 x9 (k1_pay4 (F := F)), blockSq x0 x1 x2 x3 x4 x5 x6 x7 x8 x9 (k1_pay5 (F := F))) := by
  refine congrArg₂ Prod.mk ?_ (congrArg₂ Prod.mk ?_ ?_)
  · unfold out1_A_10
    rw [View.read_writes_eq_canon _ _ _ (cover1_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
    unfold kernelRun1_A
    dsimp only
    sl_unfold_words
    rw [View.canon_unit_zero hz]
    simp only [View.readAt_eq_ld, harg1.read_unread, harg2.read_unread, harg3.read_unread, harg4.read_unread, harg5.read_unread, harg6.read_unread, harg7.read_unread, harg8.read_unread, harg9.read_unread, harg10.read_unread, View.ld_unit_zero (S := S2000x128) hz, View.ld_unit_zero (S := S2000x64) hz, View.ld_unit_zero (S := S64x128) hz, View.ld_unit_zero (S := S128x128) hz, View.ld_unit_zero (S := S1x128) hz]
  · unfold out1_A_11
    rw [View.read_writes_eq_canon _ _ _ (cover1_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
    unfold kernelRun1_A
    dsimp only
    sl_unfold_words
    rw [View.canon_cons_unit_zero (S := S1x128) hz, View.readCov_unit_zero (S := S1x128) _ hz]
    simp only [View.readAt_eq_ld, harg1.read_unread, harg2.read_unread, harg3.read_unread, harg4.read_unread, harg5.read_unread, harg6.read_unread, harg7.read_unread, harg8.read_unread, harg9.read_unread, harg10.read_unread, View.ld_unit_zero (S := S2000x128) hz, View.ld_unit_zero (S := S2000x64) hz, View.ld_unit_zero (S := S64x128) hz, View.ld_unit_zero (S := S128x128) hz, View.ld_unit_zero (S := S1x128) hz]
  · unfold out1_A_12
    rw [View.read_writes_eq_canon _ _ _ (cover1_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
    unfold kernelRun1_A
    dsimp only
    sl_unfold_words
    rw [View.canon_cons_unit_zero (S := S1x128) hz, View.readCov_unit_zero (S := S1x128) _ hz]
    simp only [View.readAt_eq_ld, harg1.read_unread, harg2.read_unread, harg3.read_unread, harg4.read_unread, harg5.read_unread, harg6.read_unread, harg7.read_unread, harg8.read_unread, harg9.read_unread, harg10.read_unread, View.ld_unit_zero (S := S2000x128) hz, View.ld_unit_zero (S := S2000x64) hz, View.ld_unit_zero (S := S64x128) hz, View.ld_unit_zero (S := S128x128) hz, View.ld_unit_zero (S := S1x128) hz]

theorem outB (hc0 : ¬cond1_0 i) :
    (out1_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12, out1_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12, out1_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12)
      = (blockAct x0 x1 x2 x3 x4 x5 x6 x7 x8 x9, blockSum x0 x1 x2 x3 x4 x5 x6 x7 x8 x9 xo11, blockSq x0 x1 x2 x3 x4 x5 x6 x7 x8 x9 xo12) := by
  refine congrArg₂ Prod.mk ?_ (congrArg₂ Prod.mk ?_ ?_)
  · unfold out1_B_10
    rw [View.read_writes_eq_canon _ _ _ (cover1_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12)]
    unfold kernelRun1_B
    dsimp only
    sl_unfold_words
    rw [View.canon_unit_zero hz]
    simp only [View.readAt_eq_ld, harg1.read_unread, harg2.read_unread, harg3.read_unread, harg4.read_unread, harg5.read_unread, harg6.read_unread, harg7.read_unread, harg8.read_unread, harg9.read_unread, harg10.read_unread, harg12.read_unread, harg13.read_unread, View.ld_unit_zero (S := S2000x128) hz, View.ld_unit_zero (S := S2000x64) hz, View.ld_unit_zero (S := S64x128) hz, View.ld_unit_zero (S := S128x128) hz, View.ld_unit_zero (S := S1x128) hz]
  · unfold out1_B_11
    rw [View.read_writes_eq_canon _ _ _ (cover1_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12)]
    unfold kernelRun1_B
    dsimp only
    sl_unfold_words
    rw [View.canon_unit_zero hz]
    simp only [View.readAt_eq_ld, harg1.read_unread, harg2.read_unread, harg3.read_unread, harg4.read_unread, harg5.read_unread, harg6.read_unread, harg7.read_unread, harg8.read_unread, harg9.read_unread, harg10.read_unread, harg12.read_unread, harg13.read_unread, View.ld_unit_zero (S := S2000x128) hz, View.ld_unit_zero (S := S2000x64) hz, View.ld_unit_zero (S := S64x128) hz, View.ld_unit_zero (S := S128x128) hz, View.ld_unit_zero (S := S1x128) hz]
  · unfold out1_B_12
    rw [View.read_writes_eq_canon _ _ _ (cover1_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12)]
    unfold kernelRun1_B
    dsimp only
    sl_unfold_words
    rw [View.canon_unit_zero hz]
    simp only [View.readAt_eq_ld, harg1.read_unread, harg2.read_unread, harg3.read_unread, harg4.read_unread, harg5.read_unread, harg6.read_unread, harg7.read_unread, harg8.read_unread, harg9.read_unread, harg10.read_unread, harg12.read_unread, harg13.read_unread, View.ld_unit_zero (S := S2000x128) hz, View.ld_unit_zero (S := S2000x64) hz, View.ld_unit_zero (S := S64x128) hz, View.ld_unit_zero (S := S128x128) hz, View.ld_unit_zero (S := S1x128) hz]

end Pieces

theorem idxRow_0 : ∀ t : Fin cfg1.N, win1_0.index t (0 : Fin 2) = t.val ∧ win1_0.index t (1 : Fin 2) = 0 :=
  (by decide +kernel : ∀ t : Fin grid1.N, _)
theorem idxRow_1 : ∀ t : Fin cfg1.N, win1_1.index t (0 : Fin 2) = t.val ∧ win1_1.index t (1 : Fin 2) = 0 :=
  (by decide +kernel : ∀ t : Fin grid1.N, _)
theorem idxRow_2 : ∀ t : Fin cfg1.N, win1_2.index t (0 : Fin 2) = t.val ∧ win1_2.index t (1 : Fin 2) = 0 :=
  (by decide +kernel : ∀ t : Fin grid1.N, _)
theorem idxRow_10 : ∀ t : Fin cfg1.N, win1_10.index t (0 : Fin 2) = t.val ∧ win1_10.index t (1 : Fin 2) = 0 :=
  (by decide +kernel : ∀ t : Fin grid1.N, _)
theorem idxZero_3 : ∀ t : Fin cfg1.N, win1_3.index t (0 : Fin 2) = 0 ∧ win1_3.index t (1 : Fin 2) = 0 :=
  (by decide +kernel : ∀ t : Fin grid1.N, _)
theorem idxZero_4 : ∀ t : Fin cfg1.N, win1_4.index t (0 : Fin 2) = 0 ∧ win1_4.index t (1 : Fin 2) = 0 :=
  (by decide +kernel : ∀ t : Fin grid1.N, _)
theorem idxZero_5 : ∀ t : Fin cfg1.N, win1_5.index t (0 : Fin 2) = 0 ∧ win1_5.index t (1 : Fin 2) = 0 :=
  (by decide +kernel : ∀ t : Fin grid1.N, _)
theorem idxZero_6 : ∀ t : Fin cfg1.N, win1_6.index t (0 : Fin 2) = 0 ∧ win1_6.index t (1 : Fin 2) = 0 :=
  (by decide +kernel : ∀ t : Fin grid1.N, _)
theorem idxZero_7 : ∀ t : Fin cfg1.N, win1_7.index t (0 : Fin 2) = 0 ∧ win1_7.index t (1 : Fin 2) = 0 :=
  (by decide +kernel : ∀ t : Fin grid1.N, _)
theorem idxZero_8 : ∀ t : Fin cfg1.N, win1_8.index t (0 : Fin 2) = 0 ∧ win1_8.index t (1 : Fin 2) = 0 :=
  (by decide +kernel : ∀ t : Fin grid1.N, _)
theorem idxZero_9 : ∀ t : Fin cfg1.N, win1_9.index t (0 : Fin 2) = 0 ∧ win1_9.index t (1 : Fin 2) = 0 :=
  (by decide +kernel : ∀ t : Fin grid1.N, _)
theorem idxZero_11 : ∀ t : Fin cfg1.N, win1_11.index t (0 : Fin 2) = 0 ∧ win1_11.index t (1 : Fin 2) = 0 :=
  (by decide +kernel : ∀ t : Fin grid1.N, _)
theorem idxZero_12 : ∀ t : Fin cfg1.N, win1_12.index t (0 : Fin 2) = 0 ∧ win1_12.index t (1 : Fin 2) = 0 :=
  (by decide +kernel : ∀ t : Fin grid1.N, _)

theorem N_lt (t : Fin cfg1.N) : t.val < 25 := lt_of_lt_of_eq t.isLt (show cfg1.N = 25 from N_1)

def rowOf (t : Fin cfg1.N) (r : Fin 2000) : Fin 50000 :=
  ⟨2000 * t.val + r.val, by have := N_lt t; have := r.isLt; omega⟩

theorem blk0_apply (c : Dev nD) (t : Fin cfg1.N) (r : Fin 2000) (d : Fin 128) :
    (iblk1 V c 0 t : Vec Ideal S2000x128 .f32) (ix2 r d) = (V c main_v0 : FVec Ideal SNH .f32) (ix2 (rowOf t r) d) := by
  obtain ⟨e0, e1⟩ := idxRow_0 t
  unfold iblk1
  rw [View.read_apply]
  show V c main_v0 _ = V c main_v0 _
  congr 1
  funext a
  apply Fin.ext
  match a with
  | ⟨0, _⟩ => show win1_0.index t 0 * 2000 + 1 * r.val = 2000 * t.val + r.val; rw [e0]; omega
  | ⟨1, _⟩ => show win1_0.index t 1 * 128 + 1 * d.val = d.val; rw [e1]; omega
theorem blk1_apply (c : Dev nD) (t : Fin cfg1.N) (r : Fin 2000) (d : Fin 128) :
    (iblk1 V c 1 t : Vec Ideal S2000x128 .f32) (ix2 r d) = (V c main_v22 : FVec Ideal SNH .f32) (ix2 (rowOf t r) d) := by
  obtain ⟨e0, e1⟩ := idxRow_1 t
  unfold iblk1
  rw [View.read_apply]
  show V c main_v22 _ = V c main_v22 _
  congr 1
  funext a
  apply Fin.ext
  match a with
  | ⟨0, _⟩ => show win1_1.index t 0 * 2000 + 1 * r.val = 2000 * t.val + r.val; rw [e0]; omega
  | ⟨1, _⟩ => show win1_1.index t 1 * 128 + 1 * d.val = d.val; rw [e1]; omega
theorem blk2_apply (c : Dev nD) (t : Fin cfg1.N) (r : Fin 2000) (d : Fin 64) :
    (iblk1 V c 2 t : Vec Ideal S2000x64 .f32) (ix2 r d) = (V c main_v11 : FVec Ideal SNI .f32) (ix2 (rowOf t r) d) := by
  obtain ⟨e0, e1⟩ := idxRow_2 t
  unfold iblk1
  rw [View.read_apply]
  show V c main_v11 _ = V c main_v11 _
  congr 1
  funext a
  apply Fin.ext
  match a with
  | ⟨0, _⟩ => show win1_2.index t 0 * 2000 + 1 * r.val = 2000 * t.val + r.val; rw [e0]; omega
  | ⟨1, _⟩ => show win1_2.index t 1 * 64 + 1 * d.val = d.val; rw [e1]; omega
theorem blk3_eq (c : Dev nD) (t : Fin cfg1.N) : (iblk1 V c 3 t : Vec Ideal S64x128 .f32) = V c main_v32 := by
  obtain ⟨e0, e1⟩ := idxZero_3 t
  funext j
  unfold iblk1
  rw [View.read_apply]
  show V c main_v32 _ = V c main_v32 j
  congr 1
  funext a
  apply Fin.ext
  match a with
  | ⟨0, _⟩ => show win1_3.index t 0 * 64 + 1 * (j 0).val = (j 0).val; rw [e0]; omega
  | ⟨1, _⟩ => show win1_3.index t 1 * 128 + 1 * (j 1).val = (j 1).val; rw [e1]; omega
theorem blk4_eq (c : Dev nD) (t : Fin cfg1.N) : (iblk1 V c 4 t : Vec Ideal S128x128 .f32) = V c main_v34 := by
  obtain ⟨e0, e1⟩ := idxZero_4 t
  funext j
  unfold iblk1
  rw [View.read_apply]
  show V c main_v34 _ = V c main_v34 j
  congr 1
  funext a
  apply Fin.ext
  match a with
  | ⟨0, _⟩ => show win1_4.index t 0 * 128 + 1 * (j 0).val = (j 0).val; rw [e0]; omega
  | ⟨1, _⟩ => show win1_4.index t 1 * 128 + 1 * (j 1).val = (j 1).val; rw [e1]; omega
theorem blk5_eq (c : Dev nD) (t : Fin cfg1.N) : (iblk1 V c 5 t : Vec Ideal S1x128 .f32) = V c main_v25 := by
  obtain ⟨e0, e1⟩ := idxZero_5 t
  funext j
  unfold iblk1
  rw [View.read_apply]
  show V c main_v25 _ = V c main_v25 j
  congr 1
  funext a
  apply Fin.ext
  match a with
  | ⟨0, _⟩ => show win1_5.index t 0 * 1 + 1 * (j 0).val = (j 0).val; rw [e0]; omega
  | ⟨1, _⟩ => show win1_5.index t 1 * 128 + 1 * (j 1).val = (j 1).val; rw [e1]; omega
theorem blk6_eq (c : Dev nD) (t : Fin cfg1.N) : (iblk1 V c 6 t : Vec Ideal S128x128 .f32) = V c main_v36 := by
  obtain ⟨e0, e1⟩ := idxZero_6 t
  funext j
  unfold iblk1
  rw [View.read_apply]
  show V c main_v36 _ = V c main_v36 j
  congr 1
  funext a
  apply Fin.ext
  match a with
  | ⟨0, _⟩ => show win1_6.index t 0 * 128 + 1 * (j 0).val = (j 0).val; rw [e0]; omega
  | ⟨1, _⟩ => show win1_6.index t 1 * 128 + 1 * (j 1).val = (j 1).val; rw [e1]; omega
theorem blk7_eq (c : Dev nD) (t : Fin cfg1.N) : (iblk1 V c 7 t : Vec Ideal S1x128 .f32) = V c main_v28 := by
  obtain ⟨e0, e1⟩ := idxZero_7 t
  funext j
  unfold iblk1
  rw [View.read_apply]
  show V c main_v28 _ = V c main_v28 j
  congr 1
  funext a
  apply Fin.ext
  match a with
  | ⟨0, _⟩ => show win1_7.index t 0 * 1 + 1 * (j 0).val = (j 0).val; rw [e0]; omega
  | ⟨1, _⟩ => show win1_7.index t 1 * 128 + 1 * (j 1).val = (j 1).val; rw [e1]; omega
theorem blk8_eq (c : Dev nD) (t : Fin cfg1.N) : (iblk1 V c 8 t : Vec Ideal S128x128 .f32) = V c main_v38 := by
  obtain ⟨e0, e1⟩ := idxZero_8 t
  funext j
  unfold iblk1
  rw [View.read_apply]
  show V c main_v38 _ = V c main_v38 j
  congr 1
  funext a
  apply Fin.ext
  match a with
  | ⟨0, _⟩ => show win1_8.index t 0 * 128 + 1 * (j 0).val = (j 0).val; rw [e0]; omega
  | ⟨1, _⟩ => show win1_8.index t 1 * 128 + 1 * (j 1).val = (j 1).val; rw [e1]; omega
theorem blk9_eq (c : Dev nD) (t : Fin cfg1.N) : (iblk1 V c 9 t : Vec Ideal S1x128 .f32) = V c main_v31 := by
  obtain ⟨e0, e1⟩ := idxZero_9 t
  funext j
  unfold iblk1
  rw [View.read_apply]
  show V c main_v31 _ = V c main_v31 j
  congr 1
  funext a
  apply Fin.ext
  match a with
  | ⟨0, _⟩ => show win1_9.index t 0 * 1 + 1 * (j 0).val = (j 0).val; rw [e0]; omega
  | ⟨1, _⟩ => show win1_9.index t 1 * 128 + 1 * (j 1).val = (j 1).val; rw [e1]; omega

abbrev bAct (c : Dev nD) (t : Fin cfg1.N) : FVec Ideal S2000x128 .f32 :=
  blockAct (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
abbrev bSum (c : Dev nD) (t : Fin cfg1.N) (acc : Vec Ideal S1x128 .f32) : FVec Ideal S1x128 .f32 :=
  blockSum (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) acc
abbrev bSq (c : Dev nD) (t : Fin cfg1.N) (acc : Vec Ideal S1x128 .f32) : FVec Ideal S1x128 .f32 :=
  blockSq (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) acc

theorem bSum_apply (c : Dev nD) (t : Fin cfg1.N) (acc : FVec Ideal S1x128 .f32) (u : Fin 1) (k : Fin 128) :
    bSum V c t acc (ix2 u k) = acc (ix2 u k) + ∑ r : Fin 2000, bAct V c t (ix2 r k) :=
  blockSum_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) acc u k
theorem bSq_apply (c : Dev nD) (t : Fin cfg1.N) (acc : FVec Ideal S1x128 .f32) (u : Fin 1) (k : Fin 128) :
    bSq V c t acc (ix2 u k) = acc (ix2 u k) + ∑ r : Fin 2000, bAct V c t (ix2 r k) * bAct V c t (ix2 r k) :=
  blockSq_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) acc u k

/-- At point t the first result is rows 2000 t … 2000 t + 1999 of the rectified combination. -/
theorem actAt_eq (c : Dev nD) (t : Fin cfg1.N) (r : Fin 2000) (k : Fin 128) :
    bAct V c t (ix2 r k) = act1 V c (ix2 (rowOf t r) k) := by
  unfold bAct
  rw [blk3_eq V c t, blk4_eq V c t, blk5_eq V c t, blk6_eq V c t, blk7_eq V c t, blk8_eq V c t, blk9_eq V c t]
  exact blockAct_spec (iblk1 V c 0 t) (iblk1 V c 1 t) (iblk1 V c 2 t) (V c main_v0) (V c main_v22) (V c main_v11) (V c main_v32)
    (V c main_v34) (V c main_v36) (V c main_v38) (V c main_v25) (V c main_v28) (V c main_v31) (rowOf t r) r k
    (blk0_apply V c t r) (blk1_apply V c t r) (blk2_apply V c t r)

theorem outsAt_first (c : Dev nD) (t : Fin cfg1.N) (h0 : t.val % 25 = 0) :
    outsAt1 V c t.val t.isLt = (bAct V c t, bSum V c t (k1_pay4 (F := Ideal)), bSq V c t (k1_pay5 (F := Ideal))) :=
  (outsAt1_A V c t h0).trans (outA (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((hcond1_0 t).mpr h0))

theorem outsAt_later (c : Dev nD) (t : Fin cfg1.N) (h0 : ¬t.val % 25 = 0) :
    outsAt1 V c t.val t.isLt = (bAct V c t, bSum V c t (outsAt1 V c (t.val - 1) (Nat.lt_of_le_of_lt (Nat.sub_le _ _) t.isLt)).2.1,
      bSq V c t (outsAt1 V c (t.val - 1) (Nat.lt_of_le_of_lt (Nat.sub_le _ _) t.isLt)).2.2) :=
  (outsAt1_B V c t h0).trans (outB (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _ (fun hh => h0 ((hcond1_0 t).mp hh)))

theorem outsAt_succ (c : Dev nD) (n : ℕ) (h : n + 1 < cfg1.N) (hB : ¬(n + 1) % 25 = 0) :
    outsAt1 V c (n + 1) h = (bAct V c ⟨n + 1, h⟩, bSum V c ⟨n + 1, h⟩ (outsAt1 V c n (Nat.lt_of_succ_lt h)).2.1,
      bSq V c ⟨n + 1, h⟩ (outsAt1 V c n (Nat.lt_of_succ_lt h)).2.2) :=
  outsAt_later V c ⟨n + 1, h⟩ hB

theorem outsAt_fst (c : Dev nD) (t : Fin cfg1.N) : (outsAt1 V c t.val t.isLt).1 = bAct V c t := by
  by_cases h0 : t.val % 25 = 0
  · exact congrArg Prod.fst (outsAt_first V c t h0)
  · exact congrArg Prod.fst (outsAt_later V c t h0)

theorem blockRows (c : Dev nD) (t : Fin cfg1.N) (k : Fin 128) : ∀ r : Fin 2000, ∃ h : 2000 * t.val + r.val < 50000,
    bAct V c t (ix2 r k) = (fun i : Fin 50000 => act1 V c (ix2 i k)) ⟨2000 * t.val + r.val, h⟩ :=
  fun r => ⟨(rowOf t r).isLt, actAt_eq V c t r k⟩

theorem blockRowsSq (c : Dev nD) (t : Fin cfg1.N) (k : Fin 128) : ∀ r : Fin 2000, ∃ h : 2000 * t.val + r.val < 50000,
    bAct V c t (ix2 r k) * bAct V c t (ix2 r k) = (fun i : Fin 50000 => act1 V c (ix2 i k) * act1 V c (ix2 i k)) ⟨2000 * t.val + r.val, h⟩ :=
  fun r => ⟨(rowOf t r).isLt, by rw [actAt_eq V c t r k]; rfl⟩

/-- By induction on the point: the running row after point n holds the column sums over the first 2000 (n + 1) rows. -/
theorem sum_inv (c : Dev nD) (k : Fin 128) (u : Fin 1) : ∀ (n : ℕ) (h : n < cfg1.N),
    ((outsAt1 V c n h).2.1 : Vec Ideal S1x128 .f32) (ix2 u k) = ∑ j ∈ Finset.range (2000 * n + 2000), ext0 (fun i : Fin 50000 => act1 V c (ix2 i k)) j
  | 0, h => by
    rw [outsAt_first V c ⟨0, h⟩ rfl]
    dsimp only
    refine (bSum_apply V c ⟨0, h⟩ (k1_pay4 (F := Ideal)) u k).trans ?_
    rw [show (k1_pay4 (F := Ideal)) (ix2 u k) = 0 from zeroRowA_apply _, zero_add, sum_range_block (fun i : Fin 50000 => act1 V c (ix2 i k)) (2000 * 0) _ (blockRows V c ⟨0, h⟩ k)]
    rw [Nat.mul_zero, Finset.range_zero, Finset.sum_empty, zero_add]
  | n + 1, h => by
    have hN : cfg1.N = 25 := N_1
    have hB : ¬(n + 1) % 25 = 0 := by omega
    rw [outsAt_succ V c n h hB]
    dsimp only
    refine (bSum_apply V c ⟨n + 1, h⟩ (outsAt1 V c n (Nat.lt_of_succ_lt h)).2.1 u k).trans ?_
    rw [sum_inv c k u n (Nat.lt_of_succ_lt h), sum_range_block (fun i : Fin 50000 => act1 V c (ix2 i k)) (2000 * (n + 1)) _ (blockRows V c ⟨n + 1, h⟩ k)]
    rw [show 2000 * (n + 1) = 2000 * n + 2000 from by omega]

theorem sq_inv (c : Dev nD) (k : Fin 128) (u : Fin 1) : ∀ (n : ℕ) (h : n < cfg1.N),
    ((outsAt1 V c n h).2.2 : Vec Ideal S1x128 .f32) (ix2 u k) = ∑ j ∈ Finset.range (2000 * n + 2000), ext0 (fun i : Fin 50000 => act1 V c (ix2 i k) * act1 V c (ix2 i k)) j
  | 0, h => by
    rw [outsAt_first V c ⟨0, h⟩ rfl]
    dsimp only
    refine (bSq_apply V c ⟨0, h⟩ (k1_pay5 (F := Ideal)) u k).trans ?_
    rw [show (k1_pay5 (F := Ideal)) (ix2 u k) = 0 from zeroRowB_apply _, zero_add, sum_range_block (fun i : Fin 50000 => act1 V c (ix2 i k) * act1 V c (ix2 i k)) (2000 * 0) _ (blockRowsSq V c ⟨0, h⟩ k)]
    rw [Nat.mul_zero, Finset.range_zero, Finset.sum_empty, zero_add]
  | n + 1, h => by
    have hN : cfg1.N = 25 := N_1
    have hB : ¬(n + 1) % 25 = 0 := by omega
    rw [outsAt_succ V c n h hB]
    dsimp only
    refine (bSq_apply V c ⟨n + 1, h⟩ (outsAt1 V c n (Nat.lt_of_succ_lt h)).2.2 u k).trans ?_
    rw [sq_inv c k u n (Nat.lt_of_succ_lt h), sum_range_block (fun i : Fin 50000 => act1 V c (ix2 i k) * act1 V c (ix2 i k)) (2000 * (n + 1)) _ (blockRowsSq V c ⟨n + 1, h⟩ k)]
    rw [show 2000 * (n + 1) = 2000 * n + 2000 from by omega]

theorem flushed_act (c : Dev nD) (t : Fin cfg1.N) :
    (dat1 V c).flushed 10 t = ((cfg1.win 10).blk t).view.read (Elt Ideal) (act1 V c) := by
  obtain ⟨e0, e1⟩ := idxRow_10 t
  show (cfg1.win 10).cut (grid1.coords t) ((dat1 V c).after 10 t) = _
  rw [after1_10, outsAt_fst V c t]
  funext j
  rw [View.read_apply]
  obtain ⟨r, k, rfl⟩ : ∃ (r : Fin 2000) (k : Fin 128), j = ix2 r k := ⟨j 0, j 1, eq_ix2 j⟩
  show bAct V c t (ix2 r k) = act1 V c (((cfg1.win 10).blk t).view.emb (ix2 r k))
  rw [actAt_eq V c t r k]
  refine congrArg (act1 V c) ?_
  funext a
  apply Fin.ext
  match a with
  | ⟨0, _⟩ => show 2000 * t.val + r.val = win1_10.index t 0 * 2000 + 1 * r.val; rw [e0]; omega
  | ⟨1, _⟩ => show k.val = win1_10.index t 1 * 128 + 1 * k.val; rw [e1]; omega

theorem mem_blk_out (t : Fin cfg1.N) (i : S50000x128.Idx) :
    i ∈ ((cfg1.win 10).blk t).view.set ↔ ∀ a : Fin 2, win1_10.index t a * S2000x128.size a ≤ (i a).val ∧ (i a).val < win1_10.index t a * S2000x128.size a + S2000x128.size a := by
  show i ∈ ((View.whole main_v39_0).slice (win1_10.rect t)).set ↔ _
  rw [View.set_slice_whole, Rect.mem_set_unit]
  exact Iff.rfl

theorem reg1_out10 (c : Dev nD) : (dat1 V c).arrAt 10 cfg1.N = act1 V c :=
  (dat1 V c).arrAt_eq_of_cover 10 (act1 V c) (fun t _ => flushed_act V c t) fun i => by
    have hi0 : (i 0).val < 50000 := (i 0).isLt
    have hi1 : (i 1).val < 128 := (i 1).isLt
    have hN : cfg1.N = 25 := N_1
    refine ⟨⟨(i 0).val / 2000, by omega⟩, flush1_10 _, ?_⟩
    rw [mem_blk_out]
    obtain ⟨e0, e1⟩ := idxRow_10 ⟨(i 0).val / 2000, by omega⟩
    intro a
    match a with
    | ⟨0, _⟩ =>
      show win1_10.index ⟨(i 0).val / 2000, _⟩ 0 * 2000 ≤ (i 0).val ∧ (i 0).val < win1_10.index ⟨(i 0).val / 2000, _⟩ 0 * 2000 + 2000
      rw [e0]; dsimp only; omega
    | ⟨1, _⟩ =>
      show win1_10.index ⟨(i 0).val / 2000, _⟩ 1 * 128 ≤ (i 1).val ∧ (i 1).val < win1_10.index ⟨(i 0).val / 2000, _⟩ 1 * 128 + 128
      rw [e1]; omega

theorem tLast_lt : 24 < cfg1.N := by rw [show cfg1.N = 25 from N_1]; decide
abbrev tLast : Fin cfg1.N := ⟨24, tLast_lt⟩

theorem lastSum (c : Dev nD) (t : Fin cfg1.N) (h24 : t.val = 24) :
    ((outsAt1 V c t.val t.isLt).2.1 : Vec Ideal S1x128 .f32) = colSum (act1 V c) := by
  funext j
  obtain ⟨u, k, rfl⟩ : ∃ (u : Fin 1) (k : Fin 128), j = ix2 u k := ⟨j 0, j 1, eq_ix2 j⟩
  refine (sum_inv V c k u t.val t.isLt).trans ?_
  rw [h24, show 2000 * 24 + 2000 = 50000 from rfl, sum_range_ext0]
  simp only [colSum, mk2_ix2]

theorem flushed_sum (c : Dev nD) (t : Fin cfg1.N) (hf : (cfg1.win 11).flush t = true) :
    (dat1 V c).flushed 11 t = ((cfg1.win 11).blk t).view.read (Elt Ideal) (colSum (act1 V c)) := by
  have hN : cfg1.N = 25 := N_1
  have h24 : t.val = 24 := by have := (flush1_11 t).mp hf; have := t.isLt; omega
  obtain ⟨e0, e1⟩ := idxZero_11 t
  show (cfg1.win 11).cut (grid1.coords t) ((dat1 V c).after 11 t) = _
  rw [after1_11, lastSum V c t h24]
  have hz' : (fun a => win1_11.index t a * main_v39_1.ty.shape.size a) = fun _ => 0 := by
    funext a
    fin_cases a
    · show win1_11.index t 0 * 1 = 0
      rw [e0]
    · show win1_11.index t 1 * 128 = 0
      rw [e1]
  exact (Memref.read_access_unit_zero (Elt Ideal) main_v39_1 hz' (fun a => by rw [congrFun hz' a]; simp) (colSum (act1 V c))).symm

theorem reg1_out11 (c : Dev nD) : (dat1 V c).arrAt 11 cfg1.N = colSum (act1 V c) :=
  (dat1 V c).arrAt_eq_of_cover 11 (colSum (act1 V c)) (flushed_sum V c) fun i =>
    ⟨tLast, (flush1_11 tLast).mpr rfl, by
      obtain ⟨e0, e1⟩ := idxZero_11 tLast
      show i ∈ ((View.whole main_v39_1).slice (win1_11.rect tLast)).set
      rw [View.set_slice_whole, Rect.mem_set_unit]
      intro a
      have h0 : (i 0 : Nat) < 1 := (i 0).isLt
      have h1 : (i 1 : Nat) < 128 := (i 1).isLt
      match a with
      | ⟨0, _⟩ => show win1_11.index tLast 0 * 1 ≤ (i 0 : Nat) ∧ (i 0 : Nat) < win1_11.index tLast 0 * 1 + 1; rw [e0]; omega
      | ⟨1, _⟩ => show win1_11.index tLast 1 * 128 ≤ (i 1 : Nat) ∧ (i 1 : Nat) < win1_11.index tLast 1 * 128 + 128; rw [e1]; omega⟩

theorem lastSq (c : Dev nD) (t : Fin cfg1.N) (h24 : t.val = 24) :
    ((outsAt1 V c t.val t.isLt).2.2 : Vec Ideal S1x128 .f32) = colSumSq (act1 V c) := by
  funext j
  obtain ⟨u, k, rfl⟩ : ∃ (u : Fin 1) (k : Fin 128), j = ix2 u k := ⟨j 0, j 1, eq_ix2 j⟩
  refine (sq_inv V c k u t.val t.isLt).trans ?_
  rw [h24, show 2000 * 24 + 2000 = 50000 from rfl, sum_range_ext0]
  simp only [colSumSq, mk2_ix2]

theorem flushed_sq (c : Dev nD) (t : Fin cfg1.N) (hf : (cfg1.win 12).flush t = true) :
    (dat1 V c).flushed 12 t = ((cfg1.win 12).blk t).view.read (Elt Ideal) (colSumSq (act1 V c)) := by
  have hN : cfg1.N = 25 := N_1
  have h24 : t.val = 24 := by have := (flush1_12 t).mp hf; have := t.isLt; omega
  obtain ⟨e0, e1⟩ := idxZero_12 t
  show (cfg1.win 12).cut (grid1.coords t) ((dat1 V c).after 12 t) = _
  rw [after1_12, lastSq V c t h24]
  have hz' : (fun a => win1_12.index t a * main_v39_2.ty.shape.size a) = fun _ => 0 := by
    funext a
    fin_cases a
    · show win1_12.index t 0 * 1 = 0
      rw [e0]
    · show win1_12.index t 1 * 128 = 0
      rw [e1]
  exact (Memref.read_access_unit_zero (Elt Ideal) main_v39_2 hz' (fun a => by rw [congrFun hz' a]; simp) (colSumSq (act1 V c))).symm

theorem reg1_out12 (c : Dev nD) : (dat1 V c).arrAt 12 cfg1.N = colSumSq (act1 V c) :=
  (dat1 V c).arrAt_eq_of_cover 12 (colSumSq (act1 V c)) (flushed_sq V c) fun i =>
    ⟨tLast, (flush1_12 tLast).mpr rfl, by
      obtain ⟨e0, e1⟩ := idxZero_12 tLast
      show i ∈ ((View.whole main_v39_2).slice (win1_12.rect tLast)).set
      rw [View.set_slice_whole, Rect.mem_set_unit]
      intro a
      have h0 : (i 0 : Nat) < 1 := (i 0).isLt
      have h1 : (i 1 : Nat) < 128 := (i 1).isLt
      match a with
      | ⟨0, _⟩ => show win1_12.index tLast 0 * 1 ≤ (i 0 : Nat) ∧ (i 0 : Nat) < win1_12.index tLast 0 * 1 + 1; rw [e0]; omega
      | ⟨1, _⟩ => show win1_12.index tLast 1 * 128 ≤ (i 1 : Nat) ∧ (i 1 : Nat) < win1_12.index tLast 1 * 128 + 128; rw [e1]; omega⟩

end Cert.KernelIdeal.Val1

end
-- ==== Proof.KReg2.lean ====
import proofs.«417352_j66855460929770_1_alg».proof.Proof.Gen.KernelIdeal.Frame
import proofs.«417352_j66855460929770_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val2

open Cert.KernelIdeal Cert.KernelIdeal.Gen Cert.Gnn
open Idealize.ShloMosaic.ValueIdx

variable (V : (c : Dev nD) → (b : Ref sig .tc) → Buf (Elt Ideal) ((c : Thread nD τ).loc b))

theorem zero_off : (![0, 0] : Fin 2 → Nat) = fun _ => 0 := funext fun a => by fin_cases a <;> rfl

theorem pay_at (x0 : Vec Ideal S2000x128 .f32) (x1 x2 x3 x4 : Vec Ideal S1x128 .f32) (r : Fin 2000) (k : Fin 128) :
    k2_pay1 x0 x1 x2 x3 x4 (ix2 r k)
      = (x0 (ix2 r k) - x1 (ix2 0 k)) * x2 (ix2 0 k) * x3 (ix2 0 k) + x4 (ix2 0 k) := by
  unfold k2_pay1
  simp only [addf_apply, mulf_apply, subf_apply, shapeCast_self, broadcastTo_1b_ab_apply]

theorem pay_normalize (a : FVec Ideal SNH .f32) (mean rstd gamma beta : FVec Ideal S1H .f32)
    (x0 : Vec Ideal S2000x128 .f32) (x1 x2 x3 x4 : Vec Ideal S1x128 .f32) (r : Fin 2000) (k : Fin 128) (R : Fin 50000)
    (h0 : x0 (ix2 r k) = a (ix2 R k)) (h1 : x1 (ix2 0 k) = mean (ix2 0 k)) (h2 : x2 (ix2 0 k) = rstd (ix2 0 k))
    (h3 : x3 (ix2 0 k) = gamma (ix2 0 k)) (h4 : x4 (ix2 0 k) = beta (ix2 0 k)) :
    k2_pay1 x0 x1 x2 x3 x4 (ix2 r k) = normalize a mean rstd gamma beta (ix2 R k) := by
  rw [pay_at, h0, h1, h2, h3, h4]
  rfl

theorem blk_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem blk_rows (c : Dev nD) (t : Fin cfg2.N) (r : Fin 2000) (k : Fin 128) (R : Fin 50000)
    (hR : R.val = 2000 * t.val + r.val) :
    (iblk2 V c 0 t : Vec Ideal S2000x128 .f32) (ix2 r k) = (V c main_v39_0 : FVec Ideal SNH .f32) (ix2 R k) := by
  obtain ⟨e0, e1, -⟩ := blk_index t
  unfold iblk2
  rw [View.read_apply]
  show V c main_v39_0 _ = V c main_v39_0 _
  congr 1
  funext a
  apply Fin.ext
  match a with
  | ⟨0, _⟩ => show win2_0.index t (0 : Fin 2) * 2000 + 1 * r.val = R.val; omega
  | ⟨1, _⟩ => show win2_0.index t (1 : Fin 2) * 128 + 1 * k.val = k.val; omega

theorem blk_mean (c : Dev nD) (t : Fin cfg2.N) (k : Fin 128) :
    (iblk2 V c 1 t : Vec Ideal S1x128 .f32) (ix2 0 k) = (V c main_v41 : FVec Ideal S1H .f32) (ix2 0 k) := by
  obtain ⟨-, -, e0, e1, -⟩ := blk_index t
  unfold iblk2
  rw [View.read_apply]
  show V c main_v41 _ = V c main_v41 _
  congr 1
  funext a
  apply Fin.ext
  match a with
  | ⟨0, _⟩ => show win2_1.index t (0 : Fin 2) * 1 + 1 * 0 = 0; omega
  | ⟨1, _⟩ => show win2_1.index t (1 : Fin 2) * 128 + 1 * k.val = k.val; omega

theorem blk_rstd (c : Dev nD) (t : Fin cfg2.N) (k : Fin 128) :
    (iblk2 V c 2 t : Vec Ideal S1x128 .f32) (ix2 0 k) = (V c main_v48 : FVec Ideal S1H .f32) (ix2 0 k) := by
  obtain ⟨-, -, -, -, e0, e1, -⟩ := blk_index t
  unfold iblk2
  rw [View.read_apply]
  show V c main_v48 _ = V c main_v48 _
  congr 1
  funext a
  apply Fin.ext
  match a with
  | ⟨0, _⟩ => show win2_2.index t (0 : Fin 2) * 1 + 1 * 0 = 0; omega
  | ⟨1, _⟩ => show win2_2.index t (1 : Fin 2) * 128 + 1 * k.val = k.val; omega

theorem blk_gamma (c : Dev nD) (t : Fin cfg2.N) (k : Fin 128) :
    (iblk2 V c 3 t : Vec Ideal S1x128 .f32) (ix2 0 k) = (V c main_v51 : FVec Ideal S1H .f32) (ix2 0 k) := by
  obtain ⟨-, -, -, -, -, -, e0, e1, -⟩ := blk_index t
  unfold iblk2
  rw [View.read_apply]
  show V c main_v51 _ = V c main_v51 _
  congr 1
  funext a
  apply Fin.ext
  match a with
  | ⟨0, _⟩ => show win2_3.index t (0 : Fin 2) * 1 + 1 * 0 = 0; omega
  | ⟨1, _⟩ => show win2_3.index t (1 : Fin 2) * 128 + 1 * k.val = k.val; omega

theorem blk_beta (c : Dev nD) (t : Fin cfg2.N) (k : Fin 128) :
    (iblk2 V c 4 t : Vec Ideal S1x128 .f32) (ix2 0 k) = (V c main_v54 : FVec Ideal S1H .f32) (ix2 0 k) := by
  obtain ⟨-, -, -, -, -, -, -, -, e0, e1, -⟩ := blk_index t
  unfold iblk2
  rw [View.read_apply]
  show V c main_v54 _ = V c main_v54 _
  congr 1
  funext a
  apply Fin.ext
  match a with
  | ⟨0, _⟩ => show win2_4.index t (0 : Fin 2) * 1 + 1 * 0 = 0; omega
  | ⟨1, _⟩ => show win2_4.index t (1 : Fin 2) * 128 + 1 * k.val = k.val; omega

abbrev result (c : Dev nD) : FVec Ideal SNH .f32 :=
  normalize (V c main_v39_0) (V c main_v41) (V c main_v48) (V c main_v51) (V c main_v54)

theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero zero_off]
  simp only [View.ld_unit_zero (S := S2000x128) zero_off, View.ld_unit_zero (S := S1x128) zero_off]
  obtain ⟨-, -, -, -, -, -, -, -, -, -, e0, e1⟩ := blk_index t
  have hN : cfg2.N = 25 := N_2
  have ht : t.val < 25 := by have := t.isLt; omega
  funext j
  have hj0 : (j 0).val < 2000 := (j 0).isLt
  have hj1 : (j 1).val < 128 := (j 1).isLt
  have hx : (cfg2.win 5).xinj (grid2.coords t) j = ix2 (⟨(j 0).val, hj0⟩ : Fin 2000) (⟨(j 1).val, hj1⟩ : Fin 128) :=
    funext fun a => by match a with | ⟨0, _⟩ => rfl | ⟨1, _⟩ => rfl
  have he : ((cfg2.win 5).blk t).view.emb j
      = ix2 (⟨2000 * t.val + (j 0).val, by omega⟩ : Fin 50000) (⟨(j 1).val, hj1⟩ : Fin 128) := by
    funext a
    apply Fin.ext
    match a with
    | ⟨0, _⟩ => show win2_5.index t (0 : Fin 2) * 2000 + 1 * (j 0).val = 2000 * t.val + (j 0).val; omega
    | ⟨1, _⟩ => show win2_5.index t (1 : Fin 2) * 128 + 1 * (j 1).val = (j 1).val; omega
  show k2_pay1 (iblk2 V c 0 t) (iblk2 V c 1 t) (iblk2 V c 2 t) (iblk2 V c 3 t) (iblk2 V c 4 t) ((cfg2.win 5).xinj (grid2.coords t) j)
    = result V c (((cfg2.win 5).blk t).view.emb j)
  rw [hx, he]
  exact pay_normalize (V c main_v39_0) (V c main_v41) (V c main_v48) (V c main_v51) (V c main_v54)
    (iblk2 V c 0 t) (iblk2 V c 1 t) (iblk2 V c 2 t) (iblk2 V c 3 t) (iblk2 V c 4 t)
    ⟨(j 0).val, hj0⟩ ⟨(j 1).val, hj1⟩ ⟨2000 * t.val + (j 0).val, by omega⟩
    (blk_rows V c t ⟨(j 0).val, hj0⟩ ⟨(j 1).val, hj1⟩ ⟨2000 * t.val + (j 0).val, by omega⟩ rfl)
    (blk_mean V c t ⟨(j 1).val, hj1⟩) (blk_rstd V c t ⟨(j 1).val, hj1⟩)
    (blk_gamma V c t ⟨(j 1).val, hj1⟩) (blk_beta V c t ⟨(j 1).val, hj1⟩)

theorem mem_blk (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v55).slice (win2_5.rect t)).set ↔ _
  rw [View.set_slice_whole, Rect.mem_set_unit]
  exact Iff.rfl

theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  have hq : (i 0).val / 2000 < cfg2.N := by omega
  obtain ⟨-, -, -, -, -, -, -, -, -, -, e0, e1⟩ := blk_index ⟨(i 0).val / 2000, hq⟩
  refine ⟨⟨(i 0).val / 2000, hq⟩, flush2_5 _, ?_⟩
  rw [mem_blk]
  intro a
  match a with
  | ⟨0, _⟩ =>
    show win2_5.index ⟨(i 0).val / 2000, hq⟩ (0 : Fin 2) * 2000 ≤ (i 0).val
      ∧ (i 0).val < win2_5.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win2_5.index ⟨(i 0).val / 2000, hq⟩ (1 : Fin 2) * 128 ≤ (i 1).val
      ∧ (i 1).val < win2_5.index ⟨(i 0).val / 2000, hq⟩ (1 : Fin 2) * 128 + 128
    rw [e1]
    omega

theorem reg2_out (c : Dev nD) :
    (dat2 V c).arrAt 5 cfg2.N = normalize (V c main_v39_0) (V c main_v41) (V c main_v48) (V c main_v51) (V c main_v54) :=
  (dat2 V c).arrAt_eq_of_cover 5 (result V c) (fun t _ => flushed_eq V c t) cover

end Cert.KernelIdeal.Val2

end
-- ==== Proof.KReg3.lean ====
import proofs.«417352_j66855460929770_1_alg».proof.Proof.Gen.KernelIdeal.Frame
import proofs.«417352_j66855460929770_1_alg».proof.Proof.Spec
import proofs.«417352_j66855460929770_1_alg».proof.Proof.KReg0a
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val3

open Cert.KernelIdeal Cert.KernelIdeal.Gen Cert.Gnn
open Idealize.ShloMosaic.ValueIdx
open Cert.KernelIdeal.GSum (hz pay1_apply pay2_apply sum_tiles)

variable (V : (c : Dev nD) → (b : Ref sig .tc) → Buf (Elt Ideal) ((c : Thread nD τ).loc b))

theorem out_B (c : Dev nD) (i : grid3.Coords) (a1 : Memref sig .tc .vmem S2000x128 .f32) (h1 : a1.IsWhole)
    (a2 : Memref sig .tc .vmem S2000x64 .f32) (h2 : a2.IsWhole) (a3 : Memref sig .tc .vmem S64x128 .f32) (h3 : a3.IsWhole)
    (hc : ¬cond3_0 i) (x0 : Vec Ideal S2000x128 .f32) (x1 : Vec Ideal S2000x64 .f32) (xo : Vec Ideal S64x128 .f32) :
    out3_B_2 c i a1 h1 a2 h2 a3 h3 hc x0 x1 xo = k3_pay2 (F := Ideal) x0 x1 xo := by
  unfold out3_B_2
  rw [View.read_writes_eq_canon _ _ _ (cover3_B_2 c i a1 h1 a2 h2 a3 h3 hc x0 x1 xo)]
  unfold kernelRun3_B
  dsimp only
  sl_unfold_words
  rw [View.canon_unit_zero hz]
  simp only [View.readAt_eq_ld, h1.read_unread, h2.read_unread, h3.read_unread, View.ld_unit_zero (S := S2000x128) hz,
    View.ld_unit_zero (S := S2000x64) hz, View.ld_unit_zero (S := S64x128) hz]

theorem out_A (c : Dev nD) (i : grid3.Coords) (a1 : Memref sig .tc .vmem S2000x128 .f32) (h1 : a1.IsWhole)
    (a2 : Memref sig .tc .vmem S2000x64 .f32) (h2 : a2.IsWhole) (a3 : Memref sig .tc .vmem S64x128 .f32) (h3 : a3.IsWhole)
    (hc : cond3_0 i) (x0 : Vec Ideal S2000x128 .f32) (x1 : Vec Ideal S2000x64 .f32) :
    out3_A_2 c i a1 h1 a2 h2 a3 h3 hc x0 x1 = k3_pay2 (F := Ideal) x0 x1 (k3_pay1 (F := Ideal)) := by
  unfold out3_A_2
  rw [View.read_writes_eq_canon _ _ _ (cover3_A_2 c i a1 h1 a2 h2 a3 h3 hc x0 x1)]
  unfold kernelRun3_A
  dsimp only
  sl_unfold_words
  rw [View.canon_cons_unit_zero (S := S64x128) hz]
  simp only [View.readAt_eq_ld, h1.read_unread, h2.read_unread, View.ld_unit_zero (S := S2000x128) hz,
    View.ld_unit_zero (S := S2000x64) hz, View.readCov_unit_zero (S := S64x128) _ hz]

abbrev hblk (c : Dev nD) (t : Fin cfg3.N) : FVec Ideal S2000x128 .f32 := iblk3 V c 0 t
abbrev oblk (c : Dev nD) (t : Fin cfg3.N) : FVec Ideal S2000x64 .f32 := iblk3 V c 1 t
abbrev harr (c : Dev nD) : FVec Ideal S50000x128 .f32 := V c main_v55
abbrev oarr (c : Dev nD) : FVec Ideal S50000x64 .f32 := V c main_v11

theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

theorem hblk_apply (c : Dev nD) (t : Fin cfg3.N) (r : Fin 2000) (k : Fin 128) (R : Fin 50000)
    (hR : R.val = 2000 * t.val + r.val) : hblk V c t (ix2 r k) = harr V c (ix2 R k) := by
  obtain ⟨e0, e1, -⟩ := idx_facts t
  show iblk3 V c 0 t (ix2 r k) = V c main_v55 (ix2 R k)
  unfold iblk3
  rw [View.read_apply]
  show V c main_v55 _ = V c main_v55 _
  refine congrArg (V c main_v55) ?_
  funext a
  apply Fin.ext
  match a with
  | ⟨0, _⟩ => show win3_0.index t 0 * 2000 + 1 * r.val = R.val; rw [e0, hR]; omega
  | ⟨1, _⟩ => show win3_0.index t 1 * 128 + 1 * k.val = k.val; rw [e1]; omega

theorem oblk_apply (c : Dev nD) (t : Fin cfg3.N) (r : Fin 2000) (g : Fin 64) (R : Fin 50000)
    (hR : R.val = 2000 * t.val + r.val) : oblk V c t (ix2 r g) = oarr V c (ix2 R g) := by
  obtain ⟨-, -, e0, e1, -⟩ := idx_facts t
  show iblk3 V c 1 t (ix2 r g) = V c main_v11 (ix2 R g)
  unfold iblk3
  rw [View.read_apply]
  show V c main_v11 _ = V c main_v11 _
  refine congrArg (V c main_v11) ?_
  funext a
  apply Fin.ext
  match a with
  | ⟨0, _⟩ => show win3_1.index t 0 * 2000 + 1 * r.val = R.val; rw [e0, hR]; omega
  | ⟨1, _⟩ => show win3_1.index t 1 * 64 + 1 * g.val = g.val; rw [e1]; omega

def tile (c : Dev nD) (s : ℕ) (g : Fin 64) (k : Fin 128) : EReal :=
  if h : s < cfg3.N then ∑ r : Fin 2000, oblk V c ⟨s, h⟩ (ix2 r g) * hblk V c ⟨s, h⟩ (ix2 r k) else 0

theorem tile_of_lt (c : Dev nD) (s : ℕ) (h : s < cfg3.N) (g : Fin 64) (k : Fin 128) :
    tile V c s g k = ∑ r : Fin 2000, oblk V c ⟨s, h⟩ (ix2 r g) * hblk V c ⟨s, h⟩ (ix2 r k) := dif_pos h

theorem outsAt_A (c : Dev nD) (t : Fin cfg3.N) (h0 : t.val % 25 = 0) :
    outsAt3 V c t.val t.isLt = k3_pay2 (F := Ideal) (hblk V c t) (oblk V c t) (k3_pay1 (F := Ideal)) :=
  (outsAt3_A V c t h0).trans
    (out_A c (grid3.coords t) (ms3_0 t) (hs3_0 t) (ms3_1 t) (hs3_1 t) (ms3_2 t) (hs3_2 t) ((hcond3_0 t).mpr h0)
      (hblk V c t) (oblk V c t))

theorem outsAt_B (c : Dev nD) (t : Fin cfg3.N) (h0 : ¬t.val % 25 = 0) :
    outsAt3 V c t.val t.isLt = k3_pay2 (F := Ideal) (hblk V c t) (oblk V c t)
      (outsAt3 V c (t.val - 1) (Nat.lt_of_le_of_lt (Nat.sub_le _ _) t.isLt)) :=
  (outsAt3_B V c t h0).trans
    (out_B c (grid3.coords t) (ms3_0 t) (hs3_0 t) (ms3_1 t) (hs3_1 t) (ms3_2 t) (hs3_2 t) (fun h => h0 ((hcond3_0 t).mp h))
      (hblk V c t) (oblk V c t) (outsAt3 V c (t.val - 1) (Nat.lt_of_le_of_lt (Nat.sub_le _ _) t.isLt)))

/-- By induction on the point: after point n the [64, 128] result is the sum of the first n + 1 tiles' products. -/
theorem outsAt_eq (c : Dev nD) : ∀ (n : ℕ) (hn : n < cfg3.N) (g : Fin 64) (k : Fin 128),
    (outsAt3 V c n hn : FVec Ideal S64x128 .f32) (ix2 g k) = ∑ s ∈ Finset.range (n + 1), tile V c s g k
  | 0, hn, g, k => by
    refine (congrFun (outsAt_A V c ⟨0, hn⟩ rfl) (ix2 g k)).trans ?_
    refine (pay2_apply (hblk V c ⟨0, hn⟩) (oblk V c ⟨0, hn⟩) (k3_pay1 (F := Ideal)) g k).trans ?_
    rw [show (k3_pay1 (F := Ideal)) (ix2 g k) = 0 from pay1_apply _, zero_add, Finset.sum_range_one, tile_of_lt V c 0 hn]
  | n + 1, hn, g, k => by
    have hN : cfg3.N = 25 := N_3
    have hB : ¬(⟨n + 1, hn⟩ : Fin cfg3.N).val % 25 = 0 := by dsimp only; omega
    refine (congrFun (outsAt_B V c ⟨n + 1, hn⟩ hB) (ix2 g k)).trans ?_
    refine (pay2_apply (hblk V c ⟨n + 1, hn⟩) (oblk V c ⟨n + 1, hn⟩) _ g k).trans ?_
    show (outsAt3 V c n _ : FVec Ideal S64x128 .f32) (ix2 g k) + _ = _
    rw [outsAt_eq c n _ g k, Finset.sum_range_succ _ (n + 1), tile_of_lt V c (n + 1) hn]

theorem tile_eq (c : Dev nD) (s : Fin 25) (g : Fin 64) (k : Fin 128) :
    tile V c s.val g k = ∑ r : Fin 2000, oarr V c (ix2 (⟨2000 * s.val + r.val, by omega⟩ : Fin 50000) g)
      * harr V c (ix2 (⟨2000 * s.val + r.val, by omega⟩ : Fin 50000) k) := by
  have hs : s.val < cfg3.N := lt_of_lt_of_eq s.isLt (show cfg3.N = 25 from N_3).symm
  rw [tile_of_lt V c s.val hs]
  refine Finset.sum_congr rfl fun r _ => ?_
  rw [oblk_apply V c ⟨s.val, hs⟩ r g ⟨2000 * s.val + r.val, by omega⟩ rfl,
    hblk_apply V c ⟨s.val, hs⟩ r k ⟨2000 * s.val + r.val, by omega⟩ rfl]

abbrev gsum (c : Dev nD) : Buf (Elt Ideal) ((c : Thread nD τ).loc main_v75) := graphSum (V c main_v55) (V c main_v11)

/-- The 25 tiles of 2000 rows are all 50000 rows, so after the last point the result is the per-graph sums. -/
theorem last_eq (c : Dev nD) (t : Fin cfg3.N) (ht : t.val = 24) : outsAt3 V c t.val t.isLt = gsum V c := by
  funext j
  obtain ⟨g, k, rfl⟩ : ∃ (g : Fin 64) (k : Fin 128), j = ix2 g k := ⟨j 0, j 1, eq_ix2 j⟩
  refine (outsAt_eq V c t.val t.isLt g k).trans ?_
  rw [ht]
  show _ = ∑ R : Fin 50000, oarr V c (ix2 R g) * harr V c (ix2 R k)
  rw [sum_tiles 25 2000 rfl, Finset.sum_range]
  exact Finset.sum_congr rfl fun s _ => tile_eq V c s g k

theorem flushed_eq (c : Dev nD) (t : Fin cfg3.N) (hf : (cfg3.win 2).flush t = true) :
    (dat3 V c).flushed 2 t = ((cfg3.win 2).blk t).view.read (Elt Ideal) (gsum V c) := by
  have hN : cfg3.N = 25 := N_3
  have h24 : t.val = 24 := by have := (flush3_2 t).mp hf; have := t.isLt; omega
  obtain ⟨-, -, -, -, e0, e1⟩ := idx_facts t
  show (cfg3.win 2).cut (grid3.coords t) ((dat3 V c).after 2 t) = _
  rw [after3_2, last_eq V c t h24]
  have hz' : (fun a => win3_2.index t a * main_v75.ty.shape.size a) = fun _ => 0 := funext fun a => by
    match a with
    | ⟨0, _⟩ => show win3_2.index t 0 * _ = 0; rw [e0]; exact Nat.zero_mul _
    | ⟨1, _⟩ => show win3_2.index t 1 * _ = 0; rw [e1]; exact Nat.zero_mul _
  exact (Memref.read_access_unit_zero (Elt Ideal) main_v75 hz' (fun a => by rw [congrFun hz' a]; simp) (gsum V c)).symm

theorem mem_blk (t : Fin cfg3.N) (i : S64x128.Idx) :
    i ∈ ((cfg3.win 2).blk t).view.set ↔ ∀ a : Fin 2, win3_2.index t a * S64x128.size a ≤ (i a).val
      ∧ (i a).val < win3_2.index t a * S64x128.size a + S64x128.size a := by
  show i ∈ ((View.whole main_v75).slice (win3_2.rect t)).set ↔ _
  rw [View.set_slice_whole, Rect.mem_set_unit]
  exact Iff.rfl

theorem reg3_out (c : Dev nD) :
    (dat3 V c).arrAt 2 cfg3.N = graphSum (V c main_v55) (V c main_v11) := by
  have hN : cfg3.N = 25 := N_3
  have hlast : 24 < cfg3.N := by omega
  refine (dat3 V c).arrAt_eq_of_cover 2 (gsum V c) (flushed_eq V c) fun i => ⟨⟨24, hlast⟩, (flush3_2 _).mpr rfl, ?_⟩
  obtain ⟨-, -, -, -, e0, e1⟩ := idx_facts ⟨24, hlast⟩
  have h0 : (i 0 : ℕ) < 64 := (i 0).isLt
  have h1 : (i 1 : ℕ) < 128 := (i 1).isLt
  rw [mem_blk]
  intro a
  match a with
  | ⟨0, _⟩ =>
    show win3_2.index ⟨24, hlast⟩ (0 : Fin 2) * 64 ≤ (i 0 : ℕ) ∧ (i 0 : ℕ) < win3_2.index ⟨24, hlast⟩ (0 : Fin 2) * 64 + 64
    omega
  | ⟨1, _⟩ =>
    show win3_2.index ⟨24, hlast⟩ (1 : Fin 2) * 128 ≤ (i 1 : ℕ) ∧ (i 1 : ℕ) < win3_2.index ⟨24, hlast⟩ (1 : Fin 2) * 128 + 128
    omega

end Cert.KernelIdeal.Val3

end
-- ==== Proof.KReg4.lean ====
import proofs.«417352_j66855460929770_1_alg».proof.Proof.Gen.KernelIdeal.Frame
import proofs.«417352_j66855460929770_1_alg».proof.Proof.Spec
import proofs.«417352_j66855460929770_1_alg».proof.Proof.KReg1a
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val4

open Cert.KernelIdeal Cert.KernelIdeal.Gen Cert.Gnn
open Cert.KernelIdeal.Comb (hz blockAct_spec blockSum_apply blockSq_apply zeroRowA_apply zeroRowB_apply ext0 sum_range_ext0 sum_range_block)

variable (V : (c : Dev nD) → (b : Ref sig .tc) → Buf (Elt Ideal) ((c : Thread nD τ).loc b))

abbrev act4 (c : Dev nD) : FVec Ideal SNH .f32 :=
  relu (pre (V c main_v55) (V c main_v65) (readoutK (V c main_v11) (V c main_v75)) (V c main_v77) (V c main_v79) (V c main_v81) (V c main_v68) (V c main_v71) (V c main_v74))

open Idealize.ShloMosaic.ValueIdx

section Pieces
variable {F : FTy → Type} [FloatOps F] (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S2000x64 .f32) (harg3 : arg3.IsWhole) (arg4 : Memref sig .tc .vmem S64x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x128 .f32) (harg12 : arg12.IsWhole) (arg13 : Memref sig .tc .vmem S1x128 .f32) (harg13 : arg13.IsWhole)
  (x0 : Vec F S2000x128 .f32) (x1 : Vec F S2000x128 .f32) (x2 : Vec F S2000x64 .f32) (x3 : Vec F S64x128 .f32) (x4 : Vec F S128x128 .f32) (x5 : Vec F S1x128 .f32) (x6 : Vec F S128x128 .f32) (x7 : Vec F S1x128 .f32) (x8 : Vec F S128x128 .f32) (x9 : Vec F S1x128 .f32) (acc xo11 xo12 : Vec F S1x128 .f32)

/-- The body's three results as functions of its ten loaded blocks and a running row. -/
abbrev blockAct : FVec F S2000x128 .f32 := k4_pay1 (k4_pay6 x2 x3) (k4_pay7 x8) (k4_pay8 x0 x1 x4 x6 x5) (k4_pay9 x7) x9
abbrev blockSum : FVec F S1x128 .f32 := k4_pay2 (k4_pay6 x2 x3) (k4_pay7 x8) (k4_pay8 x0 x1 x4 x6 x5) (k4_pay9 x7) x9 acc
abbrev blockSq : FVec F S1x128 .f32 := k4_pay3 (k4_pay6 x2 x3) (k4_pay7 x8) (k4_pay8 x0 x1 x4 x6 x5) (k4_pay9 x7) x9 acc

theorem outA (hc0 : cond4_0 i) :
    (out4_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9, out4_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9, out4_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)
      = (blockAct x0 x1 x2 x3 x4 x5 x6 x7 x8 x9, blockSum x0 x1 x2 x3 x4 x5 x6 x7 x8 x9 (k4_pay4 (F := F)), blockSq x0 x1 x2 x3 x4 x5 x6 x7 x8 x9 (k4_pay5 (F := F))) := by
  refine congrArg₂ Prod.mk ?_ (congrArg₂ Prod.mk ?_ ?_)
  · unfold out4_A_10
    rw [View.read_writes_eq_canon _ _ _ (cover4_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
    unfold kernelRun4_A
    dsimp only
    sl_unfold_words
    rw [View.canon_unit_zero hz]
    simp only [View.readAt_eq_ld, harg1.read_unread, harg2.read_unread, harg3.read_unread, harg4.read_unread, harg5.read_unread, harg6.read_unread, harg7.read_unread, harg8.read_unread, harg9.read_unread, harg10.read_unread, View.ld_unit_zero (S := S2000x128) hz, View.ld_unit_zero (S := S2000x64) hz, View.ld_unit_zero (S := S64x128) hz, View.ld_unit_zero (S := S128x128) hz, View.ld_unit_zero (S := S1x128) hz]
  · unfold out4_A_11
    rw [View.read_writes_eq_canon _ _ _ (cover4_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
    unfold kernelRun4_A
    dsimp only
    sl_unfold_words
    rw [View.canon_cons_unit_zero (S := S1x128) hz, View.readCov_unit_zero (S := S1x128) _ hz]
    simp only [View.readAt_eq_ld, harg1.read_unread, harg2.read_unread, harg3.read_unread, harg4.read_unread, harg5.read_unread, harg6.read_unread, harg7.read_unread, harg8.read_unread, harg9.read_unread, harg10.read_unread, View.ld_unit_zero (S := S2000x128) hz, View.ld_unit_zero (S := S2000x64) hz, View.ld_unit_zero (S := S64x128) hz, View.ld_unit_zero (S := S128x128) hz, View.ld_unit_zero (S := S1x128) hz]
  · unfold out4_A_12
    rw [View.read_writes_eq_canon _ _ _ (cover4_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
    unfold kernelRun4_A
    dsimp only
    sl_unfold_words
    rw [View.canon_cons_unit_zero (S := S1x128) hz, View.readCov_unit_zero (S := S1x128) _ hz]
    simp only [View.readAt_eq_ld, harg1.read_unread, harg2.read_unread, harg3.read_unread, harg4.read_unread, harg5.read_unread, harg6.read_unread, harg7.read_unread, harg8.read_unread, harg9.read_unread, harg10.read_unread, View.ld_unit_zero (S := S2000x128) hz, View.ld_unit_zero (S := S2000x64) hz, View.ld_unit_zero (S := S64x128) hz, View.ld_unit_zero (S := S128x128) hz, View.ld_unit_zero (S := S1x128) hz]

theorem outB (hc0 : ¬cond4_0 i) :
    (out4_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12, out4_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12, out4_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12)
      = (blockAct x0 x1 x2 x3 x4 x5 x6 x7 x8 x9, blockSum x0 x1 x2 x3 x4 x5 x6 x7 x8 x9 xo11, blockSq x0 x1 x2 x3 x4 x5 x6 x7 x8 x9 xo12) := by
  refine congrArg₂ Prod.mk ?_ (congrArg₂ Prod.mk ?_ ?_)
  · unfold out4_B_10
    rw [View.read_writes_eq_canon _ _ _ (cover4_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12)]
    unfold kernelRun4_B
    dsimp only
    sl_unfold_words
    rw [View.canon_unit_zero hz]
    simp only [View.readAt_eq_ld, harg1.read_unread, harg2.read_unread, harg3.read_unread, harg4.read_unread, harg5.read_unread, harg6.read_unread, harg7.read_unread, harg8.read_unread, harg9.read_unread, harg10.read_unread, harg12.read_unread, harg13.read_unread, View.ld_unit_zero (S := S2000x128) hz, View.ld_unit_zero (S := S2000x64) hz, View.ld_unit_zero (S := S64x128) hz, View.ld_unit_zero (S := S128x128) hz, View.ld_unit_zero (S := S1x128) hz]
  · unfold out4_B_11
    rw [View.read_writes_eq_canon _ _ _ (cover4_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12)]
    unfold kernelRun4_B
    dsimp only
    sl_unfold_words
    rw [View.canon_unit_zero hz]
    simp only [View.readAt_eq_ld, harg1.read_unread, harg2.read_unread, harg3.read_unread, harg4.read_unread, harg5.read_unread, harg6.read_unread, harg7.read_unread, harg8.read_unread, harg9.read_unread, harg10.read_unread, harg12.read_unread, harg13.read_unread, View.ld_unit_zero (S := S2000x128) hz, View.ld_unit_zero (S := S2000x64) hz, View.ld_unit_zero (S := S64x128) hz, View.ld_unit_zero (S := S128x128) hz, View.ld_unit_zero (S := S1x128) hz]
  · unfold out4_B_12
    rw [View.read_writes_eq_canon _ _ _ (cover4_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12)]
    unfold kernelRun4_B
    dsimp only
    sl_unfold_words
    rw [View.canon_unit_zero hz]
    simp only [View.readAt_eq_ld, harg1.read_unread, harg2.read_unread, harg3.read_unread, harg4.read_unread, harg5.read_unread, harg6.read_unread, harg7.read_unread, harg8.read_unread, harg9.read_unread, harg10.read_unread, harg12.read_unread, harg13.read_unread, View.ld_unit_zero (S := S2000x128) hz, View.ld_unit_zero (S := S2000x64) hz, View.ld_unit_zero (S := S64x128) hz, View.ld_unit_zero (S := S128x128) hz, View.ld_unit_zero (S := S1x128) hz]

end Pieces

theorem idxRow_0 : ∀ t : Fin cfg4.N, win4_0.index t (0 : Fin 2) = t.val ∧ win4_0.index t (1 : Fin 2) = 0 :=
  (by decide +kernel : ∀ t : Fin grid4.N, _)
theorem idxRow_1 : ∀ t : Fin cfg4.N, win4_1.index t (0 : Fin 2) = t.val ∧ win4_1.index t (1 : Fin 2) = 0 :=
  (by decide +kernel : ∀ t : Fin grid4.N, _)
theorem idxRow_2 : ∀ t : Fin cfg4.N, win4_2.index t (0 : Fin 2) = t.val ∧ win4_2.index t (1 : Fin 2) = 0 :=
  (by decide +kernel : ∀ t : Fin grid4.N, _)
theorem idxRow_10 : ∀ t : Fin cfg4.N, win4_10.index t (0 : Fin 2) = t.val ∧ win4_10.index t (1 : Fin 2) = 0 :=
  (by decide +kernel : ∀ t : Fin grid4.N, _)
theorem idxZero_3 : ∀ t : Fin cfg4.N, win4_3.index t (0 : Fin 2) = 0 ∧ win4_3.index t (1 : Fin 2) = 0 :=
  (by decide +kernel : ∀ t : Fin grid4.N, _)
theorem idxZero_4 : ∀ t : Fin cfg4.N, win4_4.index t (0 : Fin 2) = 0 ∧ win4_4.index t (1 : Fin 2) = 0 :=
  (by decide +kernel : ∀ t : Fin grid4.N, _)
theorem idxZero_5 : ∀ t : Fin cfg4.N, win4_5.index t (0 : Fin 2) = 0 ∧ win4_5.index t (1 : Fin 2) = 0 :=
  (by decide +kernel : ∀ t : Fin grid4.N, _)
theorem idxZero_6 : ∀ t : Fin cfg4.N, win4_6.index t (0 : Fin 2) = 0 ∧ win4_6.index t (1 : Fin 2) = 0 :=
  (by decide +kernel : ∀ t : Fin grid4.N, _)
theorem idxZero_7 : ∀ t : Fin cfg4.N, win4_7.index t (0 : Fin 2) = 0 ∧ win4_7.index t (1 : Fin 2) = 0 :=
  (by decide +kernel : ∀ t : Fin grid4.N, _)
theorem idxZero_8 : ∀ t : Fin cfg4.N, win4_8.index t (0 : Fin 2) = 0 ∧ win4_8.index t (1 : Fin 2) = 0 :=
  (by decide +kernel : ∀ t : Fin grid4.N, _)
theorem idxZero_9 : ∀ t : Fin cfg4.N, win4_9.index t (0 : Fin 2) = 0 ∧ win4_9.index t (1 : Fin 2) = 0 :=
  (by decide +kernel : ∀ t : Fin grid4.N, _)
theorem idxZero_11 : ∀ t : Fin cfg4.N, win4_11.index t (0 : Fin 2) = 0 ∧ win4_11.index t (1 : Fin 2) = 0 :=
  (by decide +kernel : ∀ t : Fin grid4.N, _)
theorem idxZero_12 : ∀ t : Fin cfg4.N, win4_12.index t (0 : Fin 2) = 0 ∧ win4_12.index t (1 : Fin 2) = 0 :=
  (by decide +kernel : ∀ t : Fin grid4.N, _)

theorem N_lt (t : Fin cfg4.N) : t.val < 25 := lt_of_lt_of_eq t.isLt (show cfg4.N = 25 from N_4)

def rowOf (t : Fin cfg4.N) (r : Fin 2000) : Fin 50000 :=
  ⟨2000 * t.val + r.val, by have := N_lt t; have := r.isLt; omega⟩

theorem blk0_apply (c : Dev nD) (t : Fin cfg4.N) (r : Fin 2000) (d : Fin 128) :
    (iblk4 V c 0 t : Vec Ideal S2000x128 .f32) (ix2 r d) = (V c main_v55 : FVec Ideal SNH .f32) (ix2 (rowOf t r) d) := by
  obtain ⟨e0, e1⟩ := idxRow_0 t
  unfold iblk4
  rw [View.read_apply]
  show V c main_v55 _ = V c main_v55 _
  congr 1
  funext a
  apply Fin.ext
  match a with
  | ⟨0, _⟩ => show win4_0.index t 0 * 2000 + 1 * r.val = 2000 * t.val + r.val; rw [e0]; omega
  | ⟨1, _⟩ => show win4_0.index t 1 * 128 + 1 * d.val = d.val; rw [e1]; omega
theorem blk1_apply (c : Dev nD) (t : Fin cfg4.N) (r : Fin 2000) (d : Fin 128) :
    (iblk4 V c 1 t : Vec Ideal S2000x128 .f32) (ix2 r d) = (V c main_v65 : FVec Ideal SNH .f32) (ix2 (rowOf t r) d) := by
  obtain ⟨e0, e1⟩ := idxRow_1 t
  unfold iblk4
  rw [View.read_apply]
  show V c main_v65 _ = V c main_v65 _
  congr 1
  funext a
  apply Fin.ext
  match a with
  | ⟨0, _⟩ => show win4_1.index t 0 * 2000 + 1 * r.val = 2000 * t.val + r.val; rw [e0]; omega
  | ⟨1, _⟩ => show win4_1.index t 1 * 128 + 1 * d.val = d.val; rw [e1]; omega
theorem blk2_apply (c : Dev nD) (t : Fin cfg4.N) (r : Fin 2000) (d : Fin 64) :
    (iblk4 V c 2 t : Vec Ideal S2000x64 .f32) (ix2 r d) = (V c main_v11 : FVec Ideal SNI .f32) (ix2 (rowOf t r) d) := by
  obtain ⟨e0, e1⟩ := idxRow_2 t
  unfold iblk4
  rw [View.read_apply]
  show V c main_v11 _ = V c main_v11 _
  congr 1
  funext a
  apply Fin.ext
  match a with
  | ⟨0, _⟩ => show win4_2.index t 0 * 2000 + 1 * r.val = 2000 * t.val + r.val; rw [e0]; omega
  | ⟨1, _⟩ => show win4_2.index t 1 * 64 + 1 * d.val = d.val; rw [e1]; omega
theorem blk3_eq (c : Dev nD) (t : Fin cfg4.N) : (iblk4 V c 3 t : Vec Ideal S64x128 .f32) = V c main_v75 := by
  obtain ⟨e0, e1⟩ := idxZero_3 t
  funext j
  unfold iblk4
  rw [View.read_apply]
  show V c main_v75 _ = V c main_v75 j
  congr 1
  funext a
  apply Fin.ext
  match a with
  | ⟨0, _⟩ => show win4_3.index t 0 * 64 + 1 * (j 0).val = (j 0).val; rw [e0]; omega
  | ⟨1, _⟩ => show win4_3.index t 1 * 128 + 1 * (j 1).val = (j 1).val; rw [e1]; omega
theorem blk4_eq (c : Dev nD) (t : Fin cfg4.N) : (iblk4 V c 4 t : Vec Ideal S128x128 .f32) = V c main_v77 := by
  obtain ⟨e0, e1⟩ := idxZero_4 t
  funext j
  unfold iblk4
  rw [View.read_apply]
  show V c main_v77 _ = V c main_v77 j
  congr 1
  funext a
  apply Fin.ext
  match a with
  | ⟨0, _⟩ => show win4_4.index t 0 * 128 + 1 * (j 0).val = (j 0).val; rw [e0]; omega
  | ⟨1, _⟩ => show win4_4.index t 1 * 128 + 1 * (j 1).val = (j 1).val; rw [e1]; omega
theorem blk5_eq (c : Dev nD) (t : Fin cfg4.N) : (iblk4 V c 5 t : Vec Ideal S1x128 .f32) = V c main_v68 := by
  obtain ⟨e0, e1⟩ := idxZero_5 t
  funext j
  unfold iblk4
  rw [View.read_apply]
  show V c main_v68 _ = V c main_v68 j
  congr 1
  funext a
  apply Fin.ext
  match a with
  | ⟨0, _⟩ => show win4_5.index t 0 * 1 + 1 * (j 0).val = (j 0).val; rw [e0]; omega
  | ⟨1, _⟩ => show win4_5.index t 1 * 128 + 1 * (j 1).val = (j 1).val; rw [e1]; omega
theorem blk6_eq (c : Dev nD) (t : Fin cfg4.N) : (iblk4 V c 6 t : Vec Ideal S128x128 .f32) = V c main_v79 := by
  obtain ⟨e0, e1⟩ := idxZero_6 t
  funext j
  unfold iblk4
  rw [View.read_apply]
  show V c main_v79 _ = V c main_v79 j
  congr 1
  funext a
  apply Fin.ext
  match a with
  | ⟨0, _⟩ => show win4_6.index t 0 * 128 + 1 * (j 0).val = (j 0).val; rw [e0]; omega
  | ⟨1, _⟩ => show win4_6.index t 1 * 128 + 1 * (j 1).val = (j 1).val; rw [e1]; omega
theorem blk7_eq (c : Dev nD) (t : Fin cfg4.N) : (iblk4 V c 7 t : Vec Ideal S1x128 .f32) = V c main_v71 := by
  obtain ⟨e0, e1⟩ := idxZero_7 t
  funext j
  unfold iblk4
  rw [View.read_apply]
  show V c main_v71 _ = V c main_v71 j
  congr 1
  funext a
  apply Fin.ext
  match a with
  | ⟨0, _⟩ => show win4_7.index t 0 * 1 + 1 * (j 0).val = (j 0).val; rw [e0]; omega
  | ⟨1, _⟩ => show win4_7.index t 1 * 128 + 1 * (j 1).val = (j 1).val; rw [e1]; omega
theorem blk8_eq (c : Dev nD) (t : Fin cfg4.N) : (iblk4 V c 8 t : Vec Ideal S128x128 .f32) = V c main_v81 := by
  obtain ⟨e0, e1⟩ := idxZero_8 t
  funext j
  unfold iblk4
  rw [View.read_apply]
  show V c main_v81 _ = V c main_v81 j
  congr 1
  funext a
  apply Fin.ext
  match a with
  | ⟨0, _⟩ => show win4_8.index t 0 * 128 + 1 * (j 0).val = (j 0).val; rw [e0]; omega
  | ⟨1, _⟩ => show win4_8.index t 1 * 128 + 1 * (j 1).val = (j 1).val; rw [e1]; omega
theorem blk9_eq (c : Dev nD) (t : Fin cfg4.N) : (iblk4 V c 9 t : Vec Ideal S1x128 .f32) = V c main_v74 := by
  obtain ⟨e0, e1⟩ := idxZero_9 t
  funext j
  unfold iblk4
  rw [View.read_apply]
  show V c main_v74 _ = V c main_v74 j
  congr 1
  funext a
  apply Fin.ext
  match a with
  | ⟨0, _⟩ => show win4_9.index t 0 * 1 + 1 * (j 0).val = (j 0).val; rw [e0]; omega
  | ⟨1, _⟩ => show win4_9.index t 1 * 128 + 1 * (j 1).val = (j 1).val; rw [e1]; omega

abbrev bAct (c : Dev nD) (t : Fin cfg4.N) : FVec Ideal S2000x128 .f32 :=
  blockAct (F := Ideal) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
abbrev bSum (c : Dev nD) (t : Fin cfg4.N) (acc : Vec Ideal S1x128 .f32) : FVec Ideal S1x128 .f32 :=
  blockSum (F := Ideal) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) acc
abbrev bSq (c : Dev nD) (t : Fin cfg4.N) (acc : Vec Ideal S1x128 .f32) : FVec Ideal S1x128 .f32 :=
  blockSq (F := Ideal) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) acc

theorem bSum_apply (c : Dev nD) (t : Fin cfg4.N) (acc : FVec Ideal S1x128 .f32) (u : Fin 1) (k : Fin 128) :
    bSum V c t acc (ix2 u k) = acc (ix2 u k) + ∑ r : Fin 2000, bAct V c t (ix2 r k) :=
  blockSum_apply (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) acc u k
theorem bSq_apply (c : Dev nD) (t : Fin cfg4.N) (acc : FVec Ideal S1x128 .f32) (u : Fin 1) (k : Fin 128) :
    bSq V c t acc (ix2 u k) = acc (ix2 u k) + ∑ r : Fin 2000, bAct V c t (ix2 r k) * bAct V c t (ix2 r k) :=
  blockSq_apply (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) acc u k

/-- At point t the first result is rows 2000 t … 2000 t + 1999 of the rectified combination. -/
theorem actAt_eq (c : Dev nD) (t : Fin cfg4.N) (r : Fin 2000) (k : Fin 128) :
    bAct V c t (ix2 r k) = act4 V c (ix2 (rowOf t r) k) := by
  unfold bAct
  rw [blk3_eq V c t, blk4_eq V c t, blk5_eq V c t, blk6_eq V c t, blk7_eq V c t, blk8_eq V c t, blk9_eq V c t]
  exact blockAct_spec (iblk4 V c 0 t) (iblk4 V c 1 t) (iblk4 V c 2 t) (V c main_v55) (V c main_v65) (V c main_v11) (V c main_v75)
    (V c main_v77) (V c main_v79) (V c main_v81) (V c main_v68) (V c main_v71) (V c main_v74) (rowOf t r) r k
    (blk0_apply V c t r) (blk1_apply V c t r) (blk2_apply V c t r)

theorem outsAt_first (c : Dev nD) (t : Fin cfg4.N) (h0 : t.val % 25 = 0) :
    outsAt4 V c t.val t.isLt = (bAct V c t, bSum V c t (k4_pay4 (F := Ideal)), bSq V c t (k4_pay5 (F := Ideal))) :=
  (outsAt4_A V c t h0).trans (outA (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) ((hcond4_0 t).mpr h0))

theorem outsAt_later (c : Dev nD) (t : Fin cfg4.N) (h0 : ¬t.val % 25 = 0) :
    outsAt4 V c t.val t.isLt = (bAct V c t, bSum V c t (outsAt4 V c (t.val - 1) (Nat.lt_of_le_of_lt (Nat.sub_le _ _) t.isLt)).2.1,
      bSq V c t (outsAt4 V c (t.val - 1) (Nat.lt_of_le_of_lt (Nat.sub_le _ _) t.isLt)).2.2) :=
  (outsAt4_B V c t h0).trans (outB (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _ _ (fun hh => h0 ((hcond4_0 t).mp hh)))

theorem outsAt_succ (c : Dev nD) (n : ℕ) (h : n + 1 < cfg4.N) (hB : ¬(n + 1) % 25 = 0) :
    outsAt4 V c (n + 1) h = (bAct V c ⟨n + 1, h⟩, bSum V c ⟨n + 1, h⟩ (outsAt4 V c n (Nat.lt_of_succ_lt h)).2.1,
      bSq V c ⟨n + 1, h⟩ (outsAt4 V c n (Nat.lt_of_succ_lt h)).2.2) :=
  outsAt_later V c ⟨n + 1, h⟩ hB

theorem outsAt_fst (c : Dev nD) (t : Fin cfg4.N) : (outsAt4 V c t.val t.isLt).1 = bAct V c t := by
  by_cases h0 : t.val % 25 = 0
  · exact congrArg Prod.fst (outsAt_first V c t h0)
  · exact congrArg Prod.fst (outsAt_later V c t h0)

theorem blockRows (c : Dev nD) (t : Fin cfg4.N) (k : Fin 128) : ∀ r : Fin 2000, ∃ h : 2000 * t.val + r.val < 50000,
    bAct V c t (ix2 r k) = (fun i : Fin 50000 => act4 V c (ix2 i k)) ⟨2000 * t.val + r.val, h⟩ :=
  fun r => ⟨(rowOf t r).isLt, actAt_eq V c t r k⟩

theorem blockRowsSq (c : Dev nD) (t : Fin cfg4.N) (k : Fin 128) : ∀ r : Fin 2000, ∃ h : 2000 * t.val + r.val < 50000,
    bAct V c t (ix2 r k) * bAct V c t (ix2 r k) = (fun i : Fin 50000 => act4 V c (ix2 i k) * act4 V c (ix2 i k)) ⟨2000 * t.val + r.val, h⟩ :=
  fun r => ⟨(rowOf t r).isLt, by rw [actAt_eq V c t r k]; rfl⟩

/-- By induction on the point: the running row after point n holds the column sums over the first 2000 (n + 1) rows. -/
theorem sum_inv (c : Dev nD) (k : Fin 128) (u : Fin 1) : ∀ (n : ℕ) (h : n < cfg4.N),
    ((outsAt4 V c n h).2.1 : Vec Ideal S1x128 .f32) (ix2 u k) = ∑ j ∈ Finset.range (2000 * n + 2000), ext0 (fun i : Fin 50000 => act4 V c (ix2 i k)) j
  | 0, h => by
    rw [outsAt_first V c ⟨0, h⟩ rfl]
    dsimp only
    refine (bSum_apply V c ⟨0, h⟩ (k4_pay4 (F := Ideal)) u k).trans ?_
    rw [show (k4_pay4 (F := Ideal)) (ix2 u k) = 0 from zeroRowA_apply _, zero_add, sum_range_block (fun i : Fin 50000 => act4 V c (ix2 i k)) (2000 * 0) _ (blockRows V c ⟨0, h⟩ k)]
    rw [Nat.mul_zero, Finset.range_zero, Finset.sum_empty, zero_add]
  | n + 1, h => by
    have hN : cfg4.N = 25 := N_4
    have hB : ¬(n + 1) % 25 = 0 := by omega
    rw [outsAt_succ V c n h hB]
    dsimp only
    refine (bSum_apply V c ⟨n + 1, h⟩ (outsAt4 V c n (Nat.lt_of_succ_lt h)).2.1 u k).trans ?_
    rw [sum_inv c k u n (Nat.lt_of_succ_lt h), sum_range_block (fun i : Fin 50000 => act4 V c (ix2 i k)) (2000 * (n + 1)) _ (blockRows V c ⟨n + 1, h⟩ k)]
    rw [show 2000 * (n + 1) = 2000 * n + 2000 from by omega]

theorem sq_inv (c : Dev nD) (k : Fin 128) (u : Fin 1) : ∀ (n : ℕ) (h : n < cfg4.N),
    ((outsAt4 V c n h).2.2 : Vec Ideal S1x128 .f32) (ix2 u k) = ∑ j ∈ Finset.range (2000 * n + 2000), ext0 (fun i : Fin 50000 => act4 V c (ix2 i k) * act4 V c (ix2 i k)) j
  | 0, h => by
    rw [outsAt_first V c ⟨0, h⟩ rfl]
    dsimp only
    refine (bSq_apply V c ⟨0, h⟩ (k4_pay5 (F := Ideal)) u k).trans ?_
    rw [show (k4_pay5 (F := Ideal)) (ix2 u k) = 0 from zeroRowB_apply _, zero_add, sum_range_block (fun i : Fin 50000 => act4 V c (ix2 i k) * act4 V c (ix2 i k)) (2000 * 0) _ (blockRowsSq V c ⟨0, h⟩ k)]
    rw [Nat.mul_zero, Finset.range_zero, Finset.sum_empty, zero_add]
  | n + 1, h => by
    have hN : cfg4.N = 25 := N_4
    have hB : ¬(n + 1) % 25 = 0 := by omega
    rw [outsAt_succ V c n h hB]
    dsimp only
    refine (bSq_apply V c ⟨n + 1, h⟩ (outsAt4 V c n (Nat.lt_of_succ_lt h)).2.2 u k).trans ?_
    rw [sq_inv c k u n (Nat.lt_of_succ_lt h), sum_range_block (fun i : Fin 50000 => act4 V c (ix2 i k) * act4 V c (ix2 i k)) (2000 * (n + 1)) _ (blockRowsSq V c ⟨n + 1, h⟩ k)]
    rw [show 2000 * (n + 1) = 2000 * n + 2000 from by omega]

theorem flushed_act (c : Dev nD) (t : Fin cfg4.N) :
    (dat4 V c).flushed 10 t = ((cfg4.win 10).blk t).view.read (Elt Ideal) (act4 V c) := by
  obtain ⟨e0, e1⟩ := idxRow_10 t
  show (cfg4.win 10).cut (grid4.coords t) ((dat4 V c).after 10 t) = _
  rw [after4_10, outsAt_fst V c t]
  funext j
  rw [View.read_apply]
  obtain ⟨r, k, rfl⟩ : ∃ (r : Fin 2000) (k : Fin 128), j = ix2 r k := ⟨j 0, j 1, eq_ix2 j⟩
  show bAct V c t (ix2 r k) = act4 V c (((cfg4.win 10).blk t).view.emb (ix2 r k))
  rw [actAt_eq V c t r k]
  refine congrArg (act4 V c) ?_
  funext a
  apply Fin.ext
  match a with
  | ⟨0, _⟩ => show 2000 * t.val + r.val = win4_10.index t 0 * 2000 + 1 * r.val; rw [e0]; omega
  | ⟨1, _⟩ => show k.val = win4_10.index t 1 * 128 + 1 * k.val; rw [e1]; omega

theorem mem_blk_out (t : Fin cfg4.N) (i : S50000x128.Idx) :
    i ∈ ((cfg4.win 10).blk t).view.set ↔ ∀ a : Fin 2, win4_10.index t a * S2000x128.size a ≤ (i a).val ∧ (i a).val < win4_10.index t a * S2000x128.size a + S2000x128.size a := by
  show i ∈ ((View.whole main_v82_0).slice (win4_10.rect t)).set ↔ _
  rw [View.set_slice_whole, Rect.mem_set_unit]
  exact Iff.rfl

theorem reg4_out10 (c : Dev nD) : (dat4 V c).arrAt 10 cfg4.N = act4 V c :=
  (dat4 V c).arrAt_eq_of_cover 10 (act4 V c) (fun t _ => flushed_act V c t) fun i => by
    have hi0 : (i 0).val < 50000 := (i 0).isLt
    have hi1 : (i 1).val < 128 := (i 1).isLt
    have hN : cfg4.N = 25 := N_4
    refine ⟨⟨(i 0).val / 2000, by omega⟩, flush4_10 _, ?_⟩
    rw [mem_blk_out]
    obtain ⟨e0, e1⟩ := idxRow_10 ⟨(i 0).val / 2000, by omega⟩
    intro a
    match a with
    | ⟨0, _⟩ =>
      show win4_10.index ⟨(i 0).val / 2000, _⟩ 0 * 2000 ≤ (i 0).val ∧ (i 0).val < win4_10.index ⟨(i 0).val / 2000, _⟩ 0 * 2000 + 2000
      rw [e0]; dsimp only; omega
    | ⟨1, _⟩ =>
      show win4_10.index ⟨(i 0).val / 2000, _⟩ 1 * 128 ≤ (i 1).val ∧ (i 1).val < win4_10.index ⟨(i 0).val / 2000, _⟩ 1 * 128 + 128
      rw [e1]; omega

theorem tLast_lt : 24 < cfg4.N := by rw [show cfg4.N = 25 from N_4]; decide
abbrev tLast : Fin cfg4.N := ⟨24, tLast_lt⟩

theorem lastSum (c : Dev nD) (t : Fin cfg4.N) (h24 : t.val = 24) :
    ((outsAt4 V c t.val t.isLt).2.1 : Vec Ideal S1x128 .f32) = colSum (act4 V c) := by
  funext j
  obtain ⟨u, k, rfl⟩ : ∃ (u : Fin 1) (k : Fin 128), j = ix2 u k := ⟨j 0, j 1, eq_ix2 j⟩
  refine (sum_inv V c k u t.val t.isLt).trans ?_
  rw [h24, show 2000 * 24 + 2000 = 50000 from rfl, sum_range_ext0]
  simp only [colSum, mk2_ix2]

theorem flushed_sum (c : Dev nD) (t : Fin cfg4.N) (hf : (cfg4.win 11).flush t = true) :
    (dat4 V c).flushed 11 t = ((cfg4.win 11).blk t).view.read (Elt Ideal) (colSum (act4 V c)) := by
  have hN : cfg4.N = 25 := N_4
  have h24 : t.val = 24 := by have := (flush4_11 t).mp hf; have := t.isLt; omega
  obtain ⟨e0, e1⟩ := idxZero_11 t
  show (cfg4.win 11).cut (grid4.coords t) ((dat4 V c).after 11 t) = _
  rw [after4_11, lastSum V c t h24]
  have hz' : (fun a => win4_11.index t a * main_v82_1.ty.shape.size a) = fun _ => 0 := by
    funext a
    fin_cases a
    · show win4_11.index t 0 * 1 = 0
      rw [e0]
    · show win4_11.index t 1 * 128 = 0
      rw [e1]
  exact (Memref.read_access_unit_zero (Elt Ideal) main_v82_1 hz' (fun a => by rw [congrFun hz' a]; simp) (colSum (act4 V c))).symm

theorem reg4_out11 (c : Dev nD) : (dat4 V c).arrAt 11 cfg4.N = colSum (act4 V c) :=
  (dat4 V c).arrAt_eq_of_cover 11 (colSum (act4 V c)) (flushed_sum V c) fun i =>
    ⟨tLast, (flush4_11 tLast).mpr rfl, by
      obtain ⟨e0, e1⟩ := idxZero_11 tLast
      show i ∈ ((View.whole main_v82_1).slice (win4_11.rect tLast)).set
      rw [View.set_slice_whole, Rect.mem_set_unit]
      intro a
      have h0 : (i 0 : Nat) < 1 := (i 0).isLt
      have h1 : (i 1 : Nat) < 128 := (i 1).isLt
      match a with
      | ⟨0, _⟩ => show win4_11.index tLast 0 * 1 ≤ (i 0 : Nat) ∧ (i 0 : Nat) < win4_11.index tLast 0 * 1 + 1; rw [e0]; omega
      | ⟨1, _⟩ => show win4_11.index tLast 1 * 128 ≤ (i 1 : Nat) ∧ (i 1 : Nat) < win4_11.index tLast 1 * 128 + 128; rw [e1]; omega⟩

theorem lastSq (c : Dev nD) (t : Fin cfg4.N) (h24 : t.val = 24) :
    ((outsAt4 V c t.val t.isLt).2.2 : Vec Ideal S1x128 .f32) = colSumSq (act4 V c) := by
  funext j
  obtain ⟨u, k, rfl⟩ : ∃ (u : Fin 1) (k : Fin 128), j = ix2 u k := ⟨j 0, j 1, eq_ix2 j⟩
  refine (sq_inv V c k u t.val t.isLt).trans ?_
  rw [h24, show 2000 * 24 + 2000 = 50000 from rfl, sum_range_ext0]
  simp only [colSumSq, mk2_ix2]

theorem flushed_sq (c : Dev nD) (t : Fin cfg4.N) (hf : (cfg4.win 12).flush t = true) :
    (dat4 V c).flushed 12 t = ((cfg4.win 12).blk t).view.read (Elt Ideal) (colSumSq (act4 V c)) := by
  have hN : cfg4.N = 25 := N_4
  have h24 : t.val = 24 := by have := (flush4_12 t).mp hf; have := t.isLt; omega
  obtain ⟨e0, e1⟩ := idxZero_12 t
  show (cfg4.win 12).cut (grid4.coords t) ((dat4 V c).after 12 t) = _
  rw [after4_12, lastSq V c t h24]
  have hz' : (fun a => win4_12.index t a * main_v82_2.ty.shape.size a) = fun _ => 0 := by
    funext a
    fin_cases a
    · show win4_12.index t 0 * 1 = 0
      rw [e0]
    · show win4_12.index t 1 * 128 = 0
      rw [e1]
  exact (Memref.read_access_unit_zero (Elt Ideal) main_v82_2 hz' (fun a => by rw [congrFun hz' a]; simp) (colSumSq (act4 V c))).symm

theorem reg4_out12 (c : Dev nD) : (dat4 V c).arrAt 12 cfg4.N = colSumSq (act4 V c) :=
  (dat4 V c).arrAt_eq_of_cover 12 (colSumSq (act4 V c)) (flushed_sq V c) fun i =>
    ⟨tLast, (flush4_12 tLast).mpr rfl, by
      obtain ⟨e0, e1⟩ := idxZero_12 tLast
      show i ∈ ((View.whole main_v82_2).slice (win4_12.rect tLast)).set
      rw [View.set_slice_whole, Rect.mem_set_unit]
      intro a
      have h0 : (i 0 : Nat) < 1 := (i 0).isLt
      have h1 : (i 1 : Nat) < 128 := (i 1).isLt
      match a with
      | ⟨0, _⟩ => show win4_12.index tLast 0 * 1 ≤ (i 0 : Nat) ∧ (i 0 : Nat) < win4_12.index tLast 0 * 1 + 1; rw [e0]; omega
      | ⟨1, _⟩ => show win4_12.index tLast 1 * 128 ≤ (i 1 : Nat) ∧ (i 1 : Nat) < win4_12.index tLast 1 * 128 + 128; rw [e1]; omega⟩

end Cert.KernelIdeal.Val4

end
-- ==== Proof.KReg6.lean ====
import proofs.«417352_j66855460929770_1_alg».proof.Proof.Gen.KernelIdeal.Frame
import proofs.«417352_j66855460929770_1_alg».proof.Proof.Spec
import proofs.«417352_j66855460929770_1_alg».proof.Proof.KReg0a
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val6

open Cert.KernelIdeal Cert.KernelIdeal.Gen Cert.Gnn
open Idealize.ShloMosaic.ValueIdx
open Cert.KernelIdeal.GSum (hz pay1_apply pay2_apply sum_tiles)

variable (V : (c : Dev nD) → (b : Ref sig .tc) → Buf (Elt Ideal) ((c : Thread nD τ).loc b))

theorem out_B (c : Dev nD) (i : grid6.Coords) (a1 : Memref sig .tc .vmem S2000x128 .f32) (h1 : a1.IsWhole)
    (a2 : Memref sig .tc .vmem S2000x64 .f32) (h2 : a2.IsWhole) (a3 : Memref sig .tc .vmem S64x128 .f32) (h3 : a3.IsWhole)
    (hc : ¬cond6_0 i) (x0 : Vec Ideal S2000x128 .f32) (x1 : Vec Ideal S2000x64 .f32) (xo : Vec Ideal S64x128 .f32) :
    out6_B_2 c i a1 h1 a2 h2 a3 h3 hc x0 x1 xo = k6_pay2 (F := Ideal) x0 x1 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero hz]
  simp only [View.readAt_eq_ld, h1.read_unread, h2.read_unread, h3.read_unread, View.ld_unit_zero (S := S2000x128) hz,
    View.ld_unit_zero (S := S2000x64) hz, View.ld_unit_zero (S := S64x128) hz]

theorem out_A (c : Dev nD) (i : grid6.Coords) (a1 : Memref sig .tc .vmem S2000x128 .f32) (h1 : a1.IsWhole)
    (a2 : Memref sig .tc .vmem S2000x64 .f32) (h2 : a2.IsWhole) (a3 : Memref sig .tc .vmem S64x128 .f32) (h3 : a3.IsWhole)
    (hc : cond6_0 i) (x0 : Vec Ideal S2000x128 .f32) (x1 : Vec Ideal S2000x64 .f32) :
    out6_A_2 c i a1 h1 a2 h2 a3 h3 hc x0 x1 = k6_pay2 (F := Ideal) x0 x1 (k6_pay1 (F := Ideal)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S64x128) hz]
  simp only [View.readAt_eq_ld, h1.read_unread, h2.read_unread, View.ld_unit_zero (S := S2000x128) hz,
    View.ld_unit_zero (S := S2000x64) hz, View.readCov_unit_zero (S := S64x128) _ hz]

abbrev hblk (c : Dev nD) (t : Fin cfg6.N) : FVec Ideal S2000x128 .f32 := iblk6 V c 0 t
abbrev oblk (c : Dev nD) (t : Fin cfg6.N) : FVec Ideal S2000x64 .f32 := iblk6 V c 1 t
abbrev harr (c : Dev nD) : FVec Ideal S50000x128 .f32 := V c main_v98
abbrev oarr (c : Dev nD) : FVec Ideal S50000x64 .f32 := V c main_v11

theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

theorem hblk_apply (c : Dev nD) (t : Fin cfg6.N) (r : Fin 2000) (k : Fin 128) (R : Fin 50000)
    (hR : R.val = 2000 * t.val + r.val) : hblk V c t (ix2 r k) = harr V c (ix2 R k) := by
  obtain ⟨e0, e1, -⟩ := idx_facts t
  show iblk6 V c 0 t (ix2 r k) = V c main_v98 (ix2 R k)
  unfold iblk6
  rw [View.read_apply]
  show V c main_v98 _ = V c main_v98 _
  refine congrArg (V c main_v98) ?_
  funext a
  apply Fin.ext
  match a with
  | ⟨0, _⟩ => show win6_0.index t 0 * 2000 + 1 * r.val = R.val; rw [e0, hR]; omega
  | ⟨1, _⟩ => show win6_0.index t 1 * 128 + 1 * k.val = k.val; rw [e1]; omega

theorem oblk_apply (c : Dev nD) (t : Fin cfg6.N) (r : Fin 2000) (g : Fin 64) (R : Fin 50000)
    (hR : R.val = 2000 * t.val + r.val) : oblk V c t (ix2 r g) = oarr V c (ix2 R g) := by
  obtain ⟨-, -, e0, e1, -⟩ := idx_facts t
  show iblk6 V c 1 t (ix2 r g) = V c main_v11 (ix2 R g)
  unfold iblk6
  rw [View.read_apply]
  show V c main_v11 _ = V c main_v11 _
  refine congrArg (V c main_v11) ?_
  funext a
  apply Fin.ext
  match a with
  | ⟨0, _⟩ => show win6_1.index t 0 * 2000 + 1 * r.val = R.val; rw [e0, hR]; omega
  | ⟨1, _⟩ => show win6_1.index t 1 * 64 + 1 * g.val = g.val; rw [e1]; omega

def tile (c : Dev nD) (s : ℕ) (g : Fin 64) (k : Fin 128) : EReal :=
  if h : s < cfg6.N then ∑ r : Fin 2000, oblk V c ⟨s, h⟩ (ix2 r g) * hblk V c ⟨s, h⟩ (ix2 r k) else 0

theorem tile_of_lt (c : Dev nD) (s : ℕ) (h : s < cfg6.N) (g : Fin 64) (k : Fin 128) :
    tile V c s g k = ∑ r : Fin 2000, oblk V c ⟨s, h⟩ (ix2 r g) * hblk V c ⟨s, h⟩ (ix2 r k) := dif_pos h

theorem outsAt_A (c : Dev nD) (t : Fin cfg6.N) (h0 : t.val % 25 = 0) :
    outsAt6 V c t.val t.isLt = k6_pay2 (F := Ideal) (hblk V c t) (oblk V c t) (k6_pay1 (F := Ideal)) :=
  (outsAt6_A V c t h0).trans
    (out_A c (grid6.coords t) (ms6_0 t) (hs6_0 t) (ms6_1 t) (hs6_1 t) (ms6_2 t) (hs6_2 t) ((hcond6_0 t).mpr h0)
      (hblk V c t) (oblk V c t))

theorem outsAt_B (c : Dev nD) (t : Fin cfg6.N) (h0 : ¬t.val % 25 = 0) :
    outsAt6 V c t.val t.isLt = k6_pay2 (F := Ideal) (hblk V c t) (oblk V c t)
      (outsAt6 V c (t.val - 1) (Nat.lt_of_le_of_lt (Nat.sub_le _ _) t.isLt)) :=
  (outsAt6_B V c t h0).trans
    (out_B c (grid6.coords t) (ms6_0 t) (hs6_0 t) (ms6_1 t) (hs6_1 t) (ms6_2 t) (hs6_2 t) (fun h => h0 ((hcond6_0 t).mp h))
      (hblk V c t) (oblk V c t) (outsAt6 V c (t.val - 1) (Nat.lt_of_le_of_lt (Nat.sub_le _ _) t.isLt)))

/-- By induction on the point: after point n the [64, 128] result is the sum of the first n + 1 tiles' products. -/
theorem outsAt_eq (c : Dev nD) : ∀ (n : ℕ) (hn : n < cfg6.N) (g : Fin 64) (k : Fin 128),
    (outsAt6 V c n hn : FVec Ideal S64x128 .f32) (ix2 g k) = ∑ s ∈ Finset.range (n + 1), tile V c s g k
  | 0, hn, g, k => by
    refine (congrFun (outsAt_A V c ⟨0, hn⟩ rfl) (ix2 g k)).trans ?_
    refine (pay2_apply (hblk V c ⟨0, hn⟩) (oblk V c ⟨0, hn⟩) (k6_pay1 (F := Ideal)) g k).trans ?_
    rw [show (k6_pay1 (F := Ideal)) (ix2 g k) = 0 from pay1_apply _, zero_add, Finset.sum_range_one, tile_of_lt V c 0 hn]
  | n + 1, hn, g, k => by
    have hN : cfg6.N = 25 := N_6
    have hB : ¬(⟨n + 1, hn⟩ : Fin cfg6.N).val % 25 = 0 := by dsimp only; omega
    refine (congrFun (outsAt_B V c ⟨n + 1, hn⟩ hB) (ix2 g k)).trans ?_
    refine (pay2_apply (hblk V c ⟨n + 1, hn⟩) (oblk V c ⟨n + 1, hn⟩) _ g k).trans ?_
    show (outsAt6 V c n _ : FVec Ideal S64x128 .f32) (ix2 g k) + _ = _
    rw [outsAt_eq c n _ g k, Finset.sum_range_succ _ (n + 1), tile_of_lt V c (n + 1) hn]

theorem tile_eq (c : Dev nD) (s : Fin 25) (g : Fin 64) (k : Fin 128) :
    tile V c s.val g k = ∑ r : Fin 2000, oarr V c (ix2 (⟨2000 * s.val + r.val, by omega⟩ : Fin 50000) g)
      * harr V c (ix2 (⟨2000 * s.val + r.val, by omega⟩ : Fin 50000) k) := by
  have hs : s.val < cfg6.N := lt_of_lt_of_eq s.isLt (show cfg6.N = 25 from N_6).symm
  rw [tile_of_lt V c s.val hs]
  refine Finset.sum_congr rfl fun r _ => ?_
  rw [oblk_apply V c ⟨s.val, hs⟩ r g ⟨2000 * s.val + r.val, by omega⟩ rfl,
    hblk_apply V c ⟨s.val, hs⟩ r k ⟨2000 * s.val + r.val, by omega⟩ rfl]

abbrev gsum (c : Dev nD) : Buf (Elt Ideal) ((c : Thread nD τ).loc main_v118) := graphSum (V c main_v98) (V c main_v11)

/-- The 25 tiles of 2000 rows are all 50000 rows, so after the last point the result is the per-graph sums. -/
theorem last_eq (c : Dev nD) (t : Fin cfg6.N) (ht : t.val = 24) : outsAt6 V c t.val t.isLt = gsum V c := by
  funext j
  obtain ⟨g, k, rfl⟩ : ∃ (g : Fin 64) (k : Fin 128), j = ix2 g k := ⟨j 0, j 1, eq_ix2 j⟩
  refine (outsAt_eq V c t.val t.isLt g k).trans ?_
  rw [ht]
  show _ = ∑ R : Fin 50000, oarr V c (ix2 R g) * harr V c (ix2 R k)
  rw [sum_tiles 25 2000 rfl, Finset.sum_range]
  exact Finset.sum_congr rfl fun s _ => tile_eq V c s g k

theorem flushed_eq (c : Dev nD) (t : Fin cfg6.N) (hf : (cfg6.win 2).flush t = true) :
    (dat6 V c).flushed 2 t = ((cfg6.win 2).blk t).view.read (Elt Ideal) (gsum V c) := by
  have hN : cfg6.N = 25 := N_6
  have h24 : t.val = 24 := by have := (flush6_2 t).mp hf; have := t.isLt; omega
  obtain ⟨-, -, -, -, e0, e1⟩ := idx_facts t
  show (cfg6.win 2).cut (grid6.coords t) ((dat6 V c).after 2 t) = _
  rw [after6_2, last_eq V c t h24]
  have hz' : (fun a => win6_2.index t a * main_v118.ty.shape.size a) = fun _ => 0 := funext fun a => by
    match a with
    | ⟨0, _⟩ => show win6_2.index t 0 * _ = 0; rw [e0]; exact Nat.zero_mul _
    | ⟨1, _⟩ => show win6_2.index t 1 * _ = 0; rw [e1]; exact Nat.zero_mul _
  exact (Memref.read_access_unit_zero (Elt Ideal) main_v118 hz' (fun a => by rw [congrFun hz' a]; simp) (gsum V c)).symm

theorem mem_blk (t : Fin cfg6.N) (i : S64x128.Idx) :
    i ∈ ((cfg6.win 2).blk t).view.set ↔ ∀ a : Fin 2, win6_2.index t a * S64x128.size a ≤ (i a).val
      ∧ (i a).val < win6_2.index t a * S64x128.size a + S64x128.size a := by
  show i ∈ ((View.whole main_v118).slice (win6_2.rect t)).set ↔ _
  rw [View.set_slice_whole, Rect.mem_set_unit]
  exact Iff.rfl

theorem reg6_out (c : Dev nD) :
    (dat6 V c).arrAt 2 cfg6.N = graphSum (V c main_v98) (V c main_v11) := by
  have hN : cfg6.N = 25 := N_6
  have hlast : 24 < cfg6.N := by omega
  refine (dat6 V c).arrAt_eq_of_cover 2 (gsum V c) (flushed_eq V c) fun i => ⟨⟨24, hlast⟩, (flush6_2 _).mpr rfl, ?_⟩
  obtain ⟨-, -, -, -, e0, e1⟩ := idx_facts ⟨24, hlast⟩
  have h0 : (i 0 : ℕ) < 64 := (i 0).isLt
  have h1 : (i 1 : ℕ) < 128 := (i 1).isLt
  rw [mem_blk]
  intro a
  match a with
  | ⟨0, _⟩ =>
    show win6_2.index ⟨24, hlast⟩ (0 : Fin 2) * 64 ≤ (i 0 : ℕ) ∧ (i 0 : ℕ) < win6_2.index ⟨24, hlast⟩ (0 : Fin 2) * 64 + 64
    omega
  | ⟨1, _⟩ =>
    show win6_2.index ⟨24, hlast⟩ (1 : Fin 2) * 128 ≤ (i 1 : ℕ) ∧ (i 1 : ℕ) < win6_2.index ⟨24, hlast⟩ (1 : Fin 2) * 128 + 128
    omega

end Cert.KernelIdeal.Val6

end
-- ==== Proof.KReg7.lean ====
import proofs.«417352_j66855460929770_1_alg».proof.Proof.Gen.KernelIdeal.Frame
import proofs.«417352_j66855460929770_1_alg».proof.Proof.Spec
import proofs.«417352_j66855460929770_1_alg».proof.Proof.KReg1a
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val7

open Cert.KernelIdeal Cert.KernelIdeal.Gen Cert.Gnn
open Cert.KernelIdeal.Comb (hz blockAct_spec blockSum_apply blockSq_apply zeroRowA_apply zeroRowB_apply ext0 sum_range_ext0 sum_range_block)

variable (V : (c : Dev nD) → (b : Ref sig .tc) → Buf (Elt Ideal) ((c : Thread nD τ).loc b))

abbrev act7 (c : Dev nD) : FVec Ideal SNH .f32 :=
  relu (pre (V c main_v98) (V c main_v108) (readoutK (V c main_v11) (V c main_v118)) (V c main_v120) (V c main_v122) (V c main_v124) (V c main_v111) (V c main_v114) (V c main_v117))

open Idealize.ShloMosaic.ValueIdx

section Pieces
variable {F : FTy → Type} [FloatOps F] (c : Dev nD) (i : grid7.Coords) (arg1 : Memref sig .tc .vmem S2000x128 .f32) (harg1 : arg1.IsWhole) (arg2 : Memref sig .tc .vmem S2000x128 .f32) (harg2 : arg2.IsWhole) (arg3 : Memref sig .tc .vmem S2000x64 .f32) (harg3 : arg3.IsWhole) (arg4 : Memref sig .tc .vmem S64x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x128 .f32) (harg12 : arg12.IsWhole) (arg13 : Memref sig .tc .vmem S1x128 .f32) (harg13 : arg13.IsWhole)
  (x0 : Vec F S2000x128 .f32) (x1 : Vec F S2000x128 .f32) (x2 : Vec F S2000x64 .f32) (x3 : Vec F S64x128 .f32) (x4 : Vec F S128x128 .f32) (x5 : Vec F S1x128 .f32) (x6 : Vec F S128x128 .f32) (x7 : Vec F S1x128 .f32) (x8 : Vec F S128x128 .f32) (x9 : Vec F S1x128 .f32) (acc xo11 xo12 : Vec F S1x128 .f32)

/-- The body's three results as functions of its ten loaded blocks and a running row. -/
abbrev blockAct : FVec F S2000x128 .f32 := k7_pay1 (k7_pay6 x2 x3) (k7_pay7 x8) (k7_pay8 x0 x1 x4 x6 x5) (k7_pay9 x7) x9
abbrev blockSum : FVec F S1x128 .f32 := k7_pay2 (k7_pay6 x2 x3) (k7_pay7 x8) (k7_pay8 x0 x1 x4 x6 x5) (k7_pay9 x7) x9 acc
abbrev blockSq : FVec F S1x128 .f32 := k7_pay3 (k7_pay6 x2 x3) (k7_pay7 x8) (k7_pay8 x0 x1 x4 x6 x5) (k7_pay9 x7) x9 acc

theorem outA (hc0 : cond7_0 i) :
    (out7_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9, out7_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9, out7_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)
      = (blockAct x0 x1 x2 x3 x4 x5 x6 x7 x8 x9, blockSum x0 x1 x2 x3 x4 x5 x6 x7 x8 x9 (k7_pay4 (F := F)), blockSq x0 x1 x2 x3 x4 x5 x6 x7 x8 x9 (k7_pay5 (F := F))) := by
  refine congrArg₂ Prod.mk ?_ (congrArg₂ Prod.mk ?_ ?_)
  · unfold out7_A_10
    rw [View.read_writes_eq_canon _ _ _ (cover7_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
    unfold kernelRun7_A
    dsimp only
    sl_unfold_words
    rw [View.canon_unit_zero hz]
    simp only [View.readAt_eq_ld, harg1.read_unread, harg2.read_unread, harg3.read_unread, harg4.read_unread, harg5.read_unread, harg6.read_unread, harg7.read_unread, harg8.read_unread, harg9.read_unread, harg10.read_unread, View.ld_unit_zero (S := S2000x128) hz, View.ld_unit_zero (S := S2000x64) hz, View.ld_unit_zero (S := S64x128) hz, View.ld_unit_zero (S := S128x128) hz, View.ld_unit_zero (S := S1x128) hz]
  · unfold out7_A_11
    rw [View.read_writes_eq_canon _ _ _ (cover7_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
    unfold kernelRun7_A
    dsimp only
    sl_unfold_words
    rw [View.canon_cons_unit_zero (S := S1x128) hz, View.readCov_unit_zero (S := S1x128) _ hz]
    simp only [View.readAt_eq_ld, harg1.read_unread, harg2.read_unread, harg3.read_unread, harg4.read_unread, harg5.read_unread, harg6.read_unread, harg7.read_unread, harg8.read_unread, harg9.read_unread, harg10.read_unread, View.ld_unit_zero (S := S2000x128) hz, View.ld_unit_zero (S := S2000x64) hz, View.ld_unit_zero (S := S64x128) hz, View.ld_unit_zero (S := S128x128) hz, View.ld_unit_zero (S := S1x128) hz]
  · unfold out7_A_12
    rw [View.read_writes_eq_canon _ _ _ (cover7_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
    unfold kernelRun7_A
    dsimp only
    sl_unfold_words
    rw [View.canon_cons_unit_zero (S := S1x128) hz, View.readCov_unit_zero (S := S1x128) _ hz]
    simp only [View.readAt_eq_ld, harg1.read_unread, harg2.read_unread, harg3.read_unread, harg4.read_unread, harg5.read_unread, harg6.read_unread, harg7.read_unread, harg8.read_unread, harg9.read_unread, harg10.read_unread, View.ld_unit_zero (S := S2000x128) hz, View.ld_unit_zero (S := S2000x64) hz, View.ld_unit_zero (S := S64x128) hz, View.ld_unit_zero (S := S128x128) hz, View.ld_unit_zero (S := S1x128) hz]

theorem outB (hc0 : ¬cond7_0 i) :
    (out7_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12, out7_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12, out7_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12)
      = (blockAct x0 x1 x2 x3 x4 x5 x6 x7 x8 x9, blockSum x0 x1 x2 x3 x4 x5 x6 x7 x8 x9 xo11, blockSq x0 x1 x2 x3 x4 x5 x6 x7 x8 x9 xo12) := by
  refine congrArg₂ Prod.mk ?_ (congrArg₂ Prod.mk ?_ ?_)
  · unfold out7_B_10
    rw [View.read_writes_eq_canon _ _ _ (cover7_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12)]
    unfold kernelRun7_B
    dsimp only
    sl_unfold_words
    rw [View.canon_unit_zero hz]
    simp only [View.readAt_eq_ld, harg1.read_unread, harg2.read_unread, harg3.read_unread, harg4.read_unread, harg5.read_unread, harg6.read_unread, harg7.read_unread, harg8.read_unread, harg9.read_unread, harg10.read_unread, harg12.read_unread, harg13.read_unread, View.ld_unit_zero (S := S2000x128) hz, View.ld_unit_zero (S := S2000x64) hz, View.ld_unit_zero (S := S64x128) hz, View.ld_unit_zero (S := S128x128) hz, View.ld_unit_zero (S := S1x128) hz]
  · unfold out7_B_11
    rw [View.read_writes_eq_canon _ _ _ (cover7_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12)]
    unfold kernelRun7_B
    dsimp only
    sl_unfold_words
    rw [View.canon_unit_zero hz]
    simp only [View.readAt_eq_ld, harg1.read_unread, harg2.read_unread, harg3.read_unread, harg4.read_unread, harg5.read_unread, harg6.read_unread, harg7.read_unread, harg8.read_unread, harg9.read_unread, harg10.read_unread, harg12.read_unread, harg13.read_unread, View.ld_unit_zero (S := S2000x128) hz, View.ld_unit_zero (S := S2000x64) hz, View.ld_unit_zero (S := S64x128) hz, View.ld_unit_zero (S := S128x128) hz, View.ld_unit_zero (S := S1x128) hz]
  · unfold out7_B_12
    rw [View.read_writes_eq_canon _ _ _ (cover7_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo11 xo12)]
    unfold kernelRun7_B
    dsimp only
    sl_unfold_words
    rw [View.canon_unit_zero hz]
    simp only [View.readAt_eq_ld, harg1.read_unread, harg2.read_unread, harg3.read_unread, harg4.read_unread, harg5.read_unread, harg6.read_unread, harg7.read_unread, harg8.read_unread, harg9.read_unread, harg10.read_unread, harg12.read_unread, harg13.read_unread, View.ld_unit_zero (S := S2000x128) hz, View.ld_unit_zero (S := S2000x64) hz, View.ld_unit_zero (S := S64x128) hz, View.ld_unit_zero (S := S128x128) hz, View.ld_unit_zero (S := S1x128) hz]

end Pieces

theorem idxRow_0 : ∀ t : Fin cfg7.N, win7_0.index t (0 : Fin 2) = t.val ∧ win7_0.index t (1 : Fin 2) = 0 :=
  (by decide +kernel : ∀ t : Fin grid7.N, _)
theorem idxRow_1 : ∀ t : Fin cfg7.N, win7_1.index t (0 : Fin 2) = t.val ∧ win7_1.index t (1 : Fin 2) = 0 :=
  (by decide +kernel : ∀ t : Fin grid7.N, _)
theorem idxRow_2 : ∀ t : Fin cfg7.N, win7_2.index t (0 : Fin 2) = t.val ∧ win7_2.index t (1 : Fin 2) = 0 :=
  (by decide +kernel : ∀ t : Fin grid7.N, _)
theorem idxRow_10 : ∀ t : Fin cfg7.N, win7_10.index t (0 : Fin 2) = t.val ∧ win7_10.index t (1 : Fin 2) = 0 :=
  (by decide +kernel : ∀ t : Fin grid7.N, _)
theorem idxZero_3 : ∀ t : Fin cfg7.N, win7_3.index t (0 : Fin 2) = 0 ∧ win7_3.index t (1 : Fin 2) = 0 :=
  (by decide +kernel : ∀ t : Fin grid7.N, _)
theorem idxZero_4 : ∀ t : Fin cfg7.N, win7_4.index t (0 : Fin 2) = 0 ∧ win7_4.index t (1 : Fin 2) = 0 :=
  (by decide +kernel : ∀ t : Fin grid7.N, _)
theorem idxZero_5 : ∀ t : Fin cfg7.N, win7_5.index t (0 : Fin 2) = 0 ∧ win7_5.index t (1 : Fin 2) = 0 :=
  (by decide +kernel : ∀ t : Fin grid7.N, _)
theorem idxZero_6 : ∀ t : Fin cfg7.N, win7_6.index t (0 : Fin 2) = 0 ∧ win7_6.index t (1 : Fin 2) = 0 :=
  (by decide +kernel : ∀ t : Fin grid7.N, _)
theorem idxZero_7 : ∀ t : Fin cfg7.N, win7_7.index t (0 : Fin 2) = 0 ∧ win7_7.index t (1 : Fin 2) = 0 :=
  (by decide +kernel : ∀ t : Fin grid7.N, _)
theorem idxZero_8 : ∀ t : Fin cfg7.N, win7_8.index t (0 : Fin 2) = 0 ∧ win7_8.index t (1 : Fin 2) = 0 :=
  (by decide +kernel : ∀ t : Fin grid7.N, _)
theorem idxZero_9 : ∀ t : Fin cfg7.N, win7_9.index t (0 : Fin 2) = 0 ∧ win7_9.index t (1 : Fin 2) = 0 :=
  (by decide +kernel : ∀ t : Fin grid7.N, _)
theorem idxZero_11 : ∀ t : Fin cfg7.N, win7_11.index t (0 : Fin 2) = 0 ∧ win7_11.index t (1 : Fin 2) = 0 :=
  (by decide +kernel : ∀ t : Fin grid7.N, _)
theorem idxZero_12 : ∀ t : Fin cfg7.N, win7_12.index t (0 : Fin 2) = 0 ∧ win7_12.index t (1 : Fin 2) = 0 :=
  (by decide +kernel : ∀ t : Fin grid7.N, _)

theorem N_lt (t : Fin cfg7.N) : t.val < 25 := lt_of_lt_of_eq t.isLt (show cfg7.N = 25 from N_7)

def rowOf (t : Fin cfg7.N) (r : Fin 2000) : Fin 50000 :=
  ⟨2000 * t.val + r.val, by have := N_lt t; have := r.isLt; omega⟩

theorem blk0_apply (c : Dev nD) (t : Fin cfg7.N) (r : Fin 2000) (d : Fin 128) :
    (iblk7 V c 0 t : Vec Ideal S2000x128 .f32) (ix2 r d) = (V c main_v98 : FVec Ideal SNH .f32) (ix2 (rowOf t r) d) := by
  obtain ⟨e0, e1⟩ := idxRow_0 t
  unfold iblk7
  rw [View.read_apply]
  show V c main_v98 _ = V c main_v98 _
  congr 1
  funext a
  apply Fin.ext
  match a with
  | ⟨0, _⟩ => show win7_0.index t 0 * 2000 + 1 * r.val = 2000 * t.val + r.val; rw [e0]; omega
  | ⟨1, _⟩ => show win7_0.index t 1 * 128 + 1 * d.val = d.val; rw [e1]; omega
theorem blk1_apply (c : Dev nD) (t : Fin cfg7.N) (r : Fin 2000) (d : Fin 128) :
    (iblk7 V c 1 t : Vec Ideal S2000x128 .f32) (ix2 r d) = (V c main_v108 : FVec Ideal SNH .f32) (ix2 (rowOf t r) d) := by
  obtain ⟨e0, e1⟩ := idxRow_1 t
  unfold iblk7
  rw [View.read_apply]
  show V c main_v108 _ = V c main_v108 _
  congr 1
  funext a
  apply Fin.ext
  match a with
  | ⟨0, _⟩ => show win7_1.index t 0 * 2000 + 1 * r.val = 2000 * t.val + r.val; rw [e0]; omega
  | ⟨1, _⟩ => show win7_1.index t 1 * 128 + 1 * d.val = d.val; rw [e1]; omega
theorem blk2_apply (c : Dev nD) (t : Fin cfg7.N) (r : Fin 2000) (d : Fin 64) :
    (iblk7 V c 2 t : Vec Ideal S2000x64 .f32) (ix2 r d) = (V c main_v11 : FVec Ideal SNI .f32) (ix2 (rowOf t r) d) := by
  obtain ⟨e0, e1⟩ := idxRow_2 t
  unfold iblk7
  rw [View.read_apply]
  show V c main_v11 _ = V c main_v11 _
  congr 1
  funext a
  apply Fin.ext
  match a with
  | ⟨0, _⟩ => show win7_2.index t 0 * 2000 + 1 * r.val = 2000 * t.val + r.val; rw [e0]; omega
  | ⟨1, _⟩ => show win7_2.index t 1 * 64 + 1 * d.val = d.val; rw [e1]; omega
theorem blk3_eq (c : Dev nD) (t : Fin cfg7.N) : (iblk7 V c 3 t : Vec Ideal S64x128 .f32) = V c main_v118 := by
  obtain ⟨e0, e1⟩ := idxZero_3 t
  funext j
  unfold iblk7
  rw [View.read_apply]
  show V c main_v118 _ = V c main_v118 j
  congr 1
  funext a
  apply Fin.ext
  match a with
  | ⟨0, _⟩ => show win7_3.index t 0 * 64 + 1 * (j 0).val = (j 0).val; rw [e0]; omega
  | ⟨1, _⟩ => show win7_3.index t 1 * 128 + 1 * (j 1).val = (j 1).val; rw [e1]; omega
theorem blk4_eq (c : Dev nD) (t : Fin cfg7.N) : (iblk7 V c 4 t : Vec Ideal S128x128 .f32) = V c main_v120 := by
  obtain ⟨e0, e1⟩ := idxZero_4 t
  funext j
  unfold iblk7
  rw [View.read_apply]
  show V c main_v120 _ = V c main_v120 j
  congr 1
  funext a
  apply Fin.ext
  match a with
  | ⟨0, _⟩ => show win7_4.index t 0 * 128 + 1 * (j 0).val = (j 0).val; rw [e0]; omega
  | ⟨1, _⟩ => show win7_4.index t 1 * 128 + 1 * (j 1).val = (j 1).val; rw [e1]; omega
theorem blk5_eq (c : Dev nD) (t : Fin cfg7.N) : (iblk7 V c 5 t : Vec Ideal S1x128 .f32) = V c main_v111 := by
  obtain ⟨e0, e1⟩ := idxZero_5 t
  funext j
  unfold iblk7
  rw [View.read_apply]
  show V c main_v111 _ = V c main_v111 j
  congr 1
  funext a
  apply Fin.ext
  match a with
  | ⟨0, _⟩ => show win7_5.index t 0 * 1 + 1 * (j 0).val = (j 0).val; rw [e0]; omega
  | ⟨1, _⟩ => show win7_5.index t 1 * 128 + 1 * (j 1).val = (j 1).val; rw [e1]; omega
theorem blk6_eq (c : Dev nD) (t : Fin cfg7.N) : (iblk7 V c 6 t : Vec Ideal S128x128 .f32) = V c main_v122 := by
  obtain ⟨e0, e1⟩ := idxZero_6 t
  funext j
  unfold iblk7
  rw [View.read_apply]
  show V c main_v122 _ = V c main_v122 j
  congr 1
  funext a
  apply Fin.ext
  match a with
  | ⟨0, _⟩ => show win7_6.index t 0 * 128 + 1 * (j 0).val = (j 0).val; rw [e0]; omega
  | ⟨1, _⟩ => show win7_6.index t 1 * 128 + 1 * (j 1).val = (j 1).val; rw [e1]; omega
theorem blk7_eq (c : Dev nD) (t : Fin cfg7.N) : (iblk7 V c 7 t : Vec Ideal S1x128 .f32) = V c main_v114 := by
  obtain ⟨e0, e1⟩ := idxZero_7 t
  funext j
  unfold iblk7
  rw [View.read_apply]
  show V c main_v114 _ = V c main_v114 j
  congr 1
  funext a
  apply Fin.ext
  match a with
  | ⟨0, _⟩ => show win7_7.index t 0 * 1 + 1 * (j 0).val = (j 0).val; rw [e0]; omega
  | ⟨1, _⟩ => show win7_7.index t 1 * 128 + 1 * (j 1).val = (j 1).val; rw [e1]; omega
theorem blk8_eq (c : Dev nD) (t : Fin cfg7.N) : (iblk7 V c 8 t : Vec Ideal S128x128 .f32) = V c main_v124 := by
  obtain ⟨e0, e1⟩ := idxZero_8 t
  funext j
  unfold iblk7
  rw [View.read_apply]
  show V c main_v124 _ = V c main_v124 j
  congr 1
  funext a
  apply Fin.ext
  match a with
  | ⟨0, _⟩ => show win7_8.index t 0 * 128 + 1 * (j 0).val = (j 0).val; rw [e0]; omega
  | ⟨1, _⟩ => show win7_8.index t 1 * 128 + 1 * (j 1).val = (j 1).val; rw [e1]; omega
theorem blk9_eq (c : Dev nD) (t : Fin cfg7.N) : (iblk7 V c 9 t : Vec Ideal S1x128 .f32) = V c main_v117 := by
  obtain ⟨e0, e1⟩ := idxZero_9 t
  funext j
  unfold iblk7
  rw [View.read_apply]
  show V c main_v117 _ = V c main_v117 j
  congr 1
  funext a
  apply Fin.ext
  match a with
  | ⟨0, _⟩ => show win7_9.index t 0 * 1 + 1 * (j 0).val = (j 0).val; rw [e0]; omega
  | ⟨1, _⟩ => show win7_9.index t 1 * 128 + 1 * (j 1).val = (j 1).val; rw [e1]; omega

abbrev bAct (c : Dev nD) (t : Fin cfg7.N) : FVec Ideal S2000x128 .f32 :=
  blockAct (F := Ideal) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t)
abbrev bSum (c : Dev nD) (t : Fin cfg7.N) (acc : Vec Ideal S1x128 .f32) : FVec Ideal S1x128 .f32 :=
  blockSum (F := Ideal) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) acc
abbrev bSq (c : Dev nD) (t : Fin cfg7.N) (acc : Vec Ideal S1x128 .f32) : FVec Ideal S1x128 .f32 :=
  blockSq (F := Ideal) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) acc

theorem bSum_apply (c : Dev nD) (t : Fin cfg7.N) (acc : FVec Ideal S1x128 .f32) (u : Fin 1) (k : Fin 128) :
    bSum V c t acc (ix2 u k) = acc (ix2 u k) + ∑ r : Fin 2000, bAct V c t (ix2 r k) :=
  blockSum_apply (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) acc u k
theorem bSq_apply (c : Dev nD) (t : Fin cfg7.N) (acc : FVec Ideal S1x128 .f32) (u : Fin 1) (k : Fin 128) :
    bSq V c t acc (ix2 u k) = acc (ix2 u k) + ∑ r : Fin 2000, bAct V c t (ix2 r k) * bAct V c t (ix2 r k) :=
  blockSq_apply (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) acc u k

/-- At point t the first result is rows 2000 t … 2000 t + 1999 of the rectified combination. -/
theorem actAt_eq (c : Dev nD) (t : Fin cfg7.N) (r : Fin 2000) (k : Fin 128) :
    bAct V c t (ix2 r k) = act7 V c (ix2 (rowOf t r) k) := by
  unfold bAct
  rw [blk3_eq V c t, blk4_eq V c t, blk5_eq V c t, blk6_eq V c t, blk7_eq V c t, blk8_eq V c t, blk9_eq V c t]
  exact blockAct_spec (iblk7 V c 0 t) (iblk7 V c 1 t) (iblk7 V c 2 t) (V c main_v98) (V c main_v108) (V c main_v11) (V c main_v118)
    (V c main_v120) (V c main_v122) (V c main_v124) (V c main_v111) (V c main_v114) (V c main_v117) (rowOf t r) r k
    (blk0_apply V c t r) (blk1_apply V c t r) (blk2_apply V c t r)

theorem outsAt_first (c : Dev nD) (t : Fin cfg7.N) (h0 : t.val % 25 = 0) :
    outsAt7 V c t.val t.isLt = (bAct V c t, bSum V c t (k7_pay4 (F := Ideal)), bSq V c t (k7_pay5 (F := Ideal))) :=
  (outsAt7_A V c t h0).trans (outA (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) ((hcond7_0 t).mpr h0))

theorem outsAt_later (c : Dev nD) (t : Fin cfg7.N) (h0 : ¬t.val % 25 = 0) :
    outsAt7 V c t.val t.isLt = (bAct V c t, bSum V c t (outsAt7 V c (t.val - 1) (Nat.lt_of_le_of_lt (Nat.sub_le _ _) t.isLt)).2.1,
      bSq V c t (outsAt7 V c (t.val - 1) (Nat.lt_of_le_of_lt (Nat.sub_le _ _) t.isLt)).2.2) :=
  (outsAt7_B V c t h0).trans (outB (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) _ _ (fun hh => h0 ((hcond7_0 t).mp hh)))

theorem outsAt_succ (c : Dev nD) (n : ℕ) (h : n + 1 < cfg7.N) (hB : ¬(n + 1) % 25 = 0) :
    outsAt7 V c (n + 1) h = (bAct V c ⟨n + 1, h⟩, bSum V c ⟨n + 1, h⟩ (outsAt7 V c n (Nat.lt_of_succ_lt h)).2.1,
      bSq V c ⟨n + 1, h⟩ (outsAt7 V c n (Nat.lt_of_succ_lt h)).2.2) :=
  outsAt_later V c ⟨n + 1, h⟩ hB

theorem outsAt_fst (c : Dev nD) (t : Fin cfg7.N) : (outsAt7 V c t.val t.isLt).1 = bAct V c t := by
  by_cases h0 : t.val % 25 = 0
  · exact congrArg Prod.fst (outsAt_first V c t h0)
  · exact congrArg Prod.fst (outsAt_later V c t h0)

theorem blockRows (c : Dev nD) (t : Fin cfg7.N) (k : Fin 128) : ∀ r : Fin 2000, ∃ h : 2000 * t.val + r.val < 50000,
    bAct V c t (ix2 r k) = (fun i : Fin 50000 => act7 V c (ix2 i k)) ⟨2000 * t.val + r.val, h⟩ :=
  fun r => ⟨(rowOf t r).isLt, actAt_eq V c t r k⟩

theorem blockRowsSq (c : Dev nD) (t : Fin cfg7.N) (k : Fin 128) : ∀ r : Fin 2000, ∃ h : 2000 * t.val + r.val < 50000,
    bAct V c t (ix2 r k) * bAct V c t (ix2 r k) = (fun i : Fin 50000 => act7 V c (ix2 i k) * act7 V c (ix2 i k)) ⟨2000 * t.val + r.val, h⟩ :=
  fun r => ⟨(rowOf t r).isLt, by rw [actAt_eq V c t r k]; rfl⟩

/-- By induction on the point: the running row after point n holds the column sums over the first 2000 (n + 1) rows. -/
theorem sum_inv (c : Dev nD) (k : Fin 128) (u : Fin 1) : ∀ (n : ℕ) (h : n < cfg7.N),
    ((outsAt7 V c n h).2.1 : Vec Ideal S1x128 .f32) (ix2 u k) = ∑ j ∈ Finset.range (2000 * n + 2000), ext0 (fun i : Fin 50000 => act7 V c (ix2 i k)) j
  | 0, h => by
    rw [outsAt_first V c ⟨0, h⟩ rfl]
    dsimp only
    refine (bSum_apply V c ⟨0, h⟩ (k7_pay4 (F := Ideal)) u k).trans ?_
    rw [show (k7_pay4 (F := Ideal)) (ix2 u k) = 0 from zeroRowA_apply _, zero_add, sum_range_block (fun i : Fin 50000 => act7 V c (ix2 i k)) (2000 * 0) _ (blockRows V c ⟨0, h⟩ k)]
    rw [Nat.mul_zero, Finset.range_zero, Finset.sum_empty, zero_add]
  | n + 1, h => by
    have hN : cfg7.N = 25 := N_7
    have hB : ¬(n + 1) % 25 = 0 := by omega
    rw [outsAt_succ V c n h hB]
    dsimp only
    refine (bSum_apply V c ⟨n + 1, h⟩ (outsAt7 V c n (Nat.lt_of_succ_lt h)).2.1 u k).trans ?_
    rw [sum_inv c k u n (Nat.lt_of_succ_lt h), sum_range_block (fun i : Fin 50000 => act7 V c (ix2 i k)) (2000 * (n + 1)) _ (blockRows V c ⟨n + 1, h⟩ k)]
    rw [show 2000 * (n + 1) = 2000 * n + 2000 from by omega]

theorem sq_inv (c : Dev nD) (k : Fin 128) (u : Fin 1) : ∀ (n : ℕ) (h : n < cfg7.N),
    ((outsAt7 V c n h).2.2 : Vec Ideal S1x128 .f32) (ix2 u k) = ∑ j ∈ Finset.range (2000 * n + 2000), ext0 (fun i : Fin 50000 => act7 V c (ix2 i k) * act7 V c (ix2 i k)) j
  | 0, h => by
    rw [outsAt_first V c ⟨0, h⟩ rfl]
    dsimp only
    refine (bSq_apply V c ⟨0, h⟩ (k7_pay5 (F := Ideal)) u k).trans ?_
    rw [show (k7_pay5 (F := Ideal)) (ix2 u k) = 0 from zeroRowB_apply _, zero_add, sum_range_block (fun i : Fin 50000 => act7 V c (ix2 i k) * act7 V c (ix2 i k)) (2000 * 0) _ (blockRowsSq V c ⟨0, h⟩ k)]
    rw [Nat.mul_zero, Finset.range_zero, Finset.sum_empty, zero_add]
  | n + 1, h => by
    have hN : cfg7.N = 25 := N_7
    have hB : ¬(n + 1) % 25 = 0 := by omega
    rw [outsAt_succ V c n h hB]
    dsimp only
    refine (bSq_apply V c ⟨n + 1, h⟩ (outsAt7 V c n (Nat.lt_of_succ_lt h)).2.2 u k).trans ?_
    rw [sq_inv c k u n (Nat.lt_of_succ_lt h), sum_range_block (fun i : Fin 50000 => act7 V c (ix2 i k) * act7 V c (ix2 i k)) (2000 * (n + 1)) _ (blockRowsSq V c ⟨n + 1, h⟩ k)]
    rw [show 2000 * (n + 1) = 2000 * n + 2000 from by omega]

theorem flushed_act (c : Dev nD) (t : Fin cfg7.N) :
    (dat7 V c).flushed 10 t = ((cfg7.win 10).blk t).view.read (Elt Ideal) (act7 V c) := by
  obtain ⟨e0, e1⟩ := idxRow_10 t
  show (cfg7.win 10).cut (grid7.coords t) ((dat7 V c).after 10 t) = _
  rw [after7_10, outsAt_fst V c t]
  funext j
  rw [View.read_apply]
  obtain ⟨r, k, rfl⟩ : ∃ (r : Fin 2000) (k : Fin 128), j = ix2 r k := ⟨j 0, j 1, eq_ix2 j⟩
  show bAct V c t (ix2 r k) = act7 V c (((cfg7.win 10).blk t).view.emb (ix2 r k))
  rw [actAt_eq V c t r k]
  refine congrArg (act7 V c) ?_
  funext a
  apply Fin.ext
  match a with
  | ⟨0, _⟩ => show 2000 * t.val + r.val = win7_10.index t 0 * 2000 + 1 * r.val; rw [e0]; omega
  | ⟨1, _⟩ => show k.val = win7_10.index t 1 * 128 + 1 * k.val; rw [e1]; omega

theorem mem_blk_out (t : Fin cfg7.N) (i : S50000x128.Idx) :
    i ∈ ((cfg7.win 10).blk t).view.set ↔ ∀ a : Fin 2, win7_10.index t a * S2000x128.size a ≤ (i a).val ∧ (i a).val < win7_10.index t a * S2000x128.size a + S2000x128.size a := by
  show i ∈ ((View.whole main_v125_0).slice (win7_10.rect t)).set ↔ _
  rw [View.set_slice_whole, Rect.mem_set_unit]
  exact Iff.rfl

theorem reg7_out10 (c : Dev nD) : (dat7 V c).arrAt 10 cfg7.N = act7 V c :=
  (dat7 V c).arrAt_eq_of_cover 10 (act7 V c) (fun t _ => flushed_act V c t) fun i => by
    have hi0 : (i 0).val < 50000 := (i 0).isLt
    have hi1 : (i 1).val < 128 := (i 1).isLt
    have hN : cfg7.N = 25 := N_7
    refine ⟨⟨(i 0).val / 2000, by omega⟩, flush7_10 _, ?_⟩
    rw [mem_blk_out]
    obtain ⟨e0, e1⟩ := idxRow_10 ⟨(i 0).val / 2000, by omega⟩
    intro a
    match a with
    | ⟨0, _⟩ =>
      show win7_10.index ⟨(i 0).val / 2000, _⟩ 0 * 2000 ≤ (i 0).val ∧ (i 0).val < win7_10.index ⟨(i 0).val / 2000, _⟩ 0 * 2000 + 2000
      rw [e0]; dsimp only; omega
    | ⟨1, _⟩ =>
      show win7_10.index ⟨(i 0).val / 2000, _⟩ 1 * 128 ≤ (i 1).val ∧ (i 1).val < win7_10.index ⟨(i 0).val / 2000, _⟩ 1 * 128 + 128
      rw [e1]; omega

theorem tLast_lt : 24 < cfg7.N := by rw [show cfg7.N = 25 from N_7]; decide
abbrev tLast : Fin cfg7.N := ⟨24, tLast_lt⟩

theorem lastSum (c : Dev nD) (t : Fin cfg7.N) (h24 : t.val = 24) :
    ((outsAt7 V c t.val t.isLt).2.1 : Vec Ideal S1x128 .f32) = colSum (act7 V c) := by
  funext j
  obtain ⟨u, k, rfl⟩ : ∃ (u : Fin 1) (k : Fin 128), j = ix2 u k := ⟨j 0, j 1, eq_ix2 j⟩
  refine (sum_inv V c k u t.val t.isLt).trans ?_
  rw [h24, show 2000 * 24 + 2000 = 50000 from rfl, sum_range_ext0]
  simp only [colSum, mk2_ix2]

theorem flushed_sum (c : Dev nD) (t : Fin cfg7.N) (hf : (cfg7.win 11).flush t = true) :
    (dat7 V c).flushed 11 t = ((cfg7.win 11).blk t).view.read (Elt Ideal) (colSum (act7 V c)) := by
  have hN : cfg7.N = 25 := N_7
  have h24 : t.val = 24 := by have := (flush7_11 t).mp hf; have := t.isLt; omega
  obtain ⟨e0, e1⟩ := idxZero_11 t
  show (cfg7.win 11).cut (grid7.coords t) ((dat7 V c).after 11 t) = _
  rw [after7_11, lastSum V c t h24]
  have hz' : (fun a => win7_11.index t a * main_v125_1.ty.shape.size a) = fun _ => 0 := by
    funext a
    fin_cases a
    · show win7_11.index t 0 * 1 = 0
      rw [e0]
    · show win7_11.index t 1 * 128 = 0
      rw [e1]
  exact (Memref.read_access_unit_zero (Elt Ideal) main_v125_1 hz' (fun a => by rw [congrFun hz' a]; simp) (colSum (act7 V c))).symm

theorem reg7_out11 (c : Dev nD) : (dat7 V c).arrAt 11 cfg7.N = colSum (act7 V c) :=
  (dat7 V c).arrAt_eq_of_cover 11 (colSum (act7 V c)) (flushed_sum V c) fun i =>
    ⟨tLast, (flush7_11 tLast).mpr rfl, by
      obtain ⟨e0, e1⟩ := idxZero_11 tLast
      show i ∈ ((View.whole main_v125_1).slice (win7_11.rect tLast)).set
      rw [View.set_slice_whole, Rect.mem_set_unit]
      intro a
      have h0 : (i 0 : Nat) < 1 := (i 0).isLt
      have h1 : (i 1 : Nat) < 128 := (i 1).isLt
      match a with
      | ⟨0, _⟩ => show win7_11.index tLast 0 * 1 ≤ (i 0 : Nat) ∧ (i 0 : Nat) < win7_11.index tLast 0 * 1 + 1; rw [e0]; omega
      | ⟨1, _⟩ => show win7_11.index tLast 1 * 128 ≤ (i 1 : Nat) ∧ (i 1 : Nat) < win7_11.index tLast 1 * 128 + 128; rw [e1]; omega⟩

theorem lastSq (c : Dev nD) (t : Fin cfg7.N) (h24 : t.val = 24) :
    ((outsAt7 V c t.val t.isLt).2.2 : Vec Ideal S1x128 .f32) = colSumSq (act7 V c) := by
  funext j
  obtain ⟨u, k, rfl⟩ : ∃ (u : Fin 1) (k : Fin 128), j = ix2 u k := ⟨j 0, j 1, eq_ix2 j⟩
  refine (sq_inv V c k u t.val t.isLt).trans ?_
  rw [h24, show 2000 * 24 + 2000 = 50000 from rfl, sum_range_ext0]
  simp only [colSumSq, mk2_ix2]

theorem flushed_sq (c : Dev nD) (t : Fin cfg7.N) (hf : (cfg7.win 12).flush t = true) :
    (dat7 V c).flushed 12 t = ((cfg7.win 12).blk t).view.read (Elt Ideal) (colSumSq (act7 V c)) := by
  have hN : cfg7.N = 25 := N_7
  have h24 : t.val = 24 := by have := (flush7_12 t).mp hf; have := t.isLt; omega
  obtain ⟨e0, e1⟩ := idxZero_12 t
  show (cfg7.win 12).cut (grid7.coords t) ((dat7 V c).after 12 t) = _
  rw [after7_12, lastSq V c t h24]
  have hz' : (fun a => win7_12.index t a * main_v125_2.ty.shape.size a) = fun _ => 0 := by
    funext a
    fin_cases a
    · show win7_12.index t 0 * 1 = 0
      rw [e0]
    · show win7_12.index t 1 * 128 = 0
      rw [e1]
  exact (Memref.read_access_unit_zero (Elt Ideal) main_v125_2 hz' (fun a => by rw [congrFun hz' a]; simp) (colSumSq (act7 V c))).symm

theorem reg7_out12 (c : Dev nD) : (dat7 V c).arrAt 12 cfg7.N = colSumSq (act7 V c) :=
  (dat7 V c).arrAt_eq_of_cover 12 (colSumSq (act7 V c)) (flushed_sq V c) fun i =>
    ⟨tLast, (flush7_12 tLast).mpr rfl, by
      obtain ⟨e0, e1⟩ := idxZero_12 tLast
      show i ∈ ((View.whole main_v125_2).slice (win7_12.rect tLast)).set
      rw [View.set_slice_whole, Rect.mem_set_unit]
      intro a
      have h0 : (i 0 : Nat) < 1 := (i 0).isLt
      have h1 : (i 1 : Nat) < 128 := (i 1).isLt
      match a with
      | ⟨0, _⟩ => show win7_12.index tLast 0 * 1 ≤ (i 0 : Nat) ∧ (i 0 : Nat) < win7_12.index tLast 0 * 1 + 1; rw [e0]; omega
      | ⟨1, _⟩ => show win7_12.index tLast 1 * 128 ≤ (i 1 : Nat) ∧ (i 1 : Nat) < win7_12.index tLast 1 * 128 + 128; rw [e1]; omega⟩

end Cert.KernelIdeal.Val7

end
-- ==== Proof.KReg9.lean ====
import proofs.«417352_j66855460929770_1_alg».proof.Proof.Gen.KernelIdeal.Frame
import proofs.«417352_j66855460929770_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val9

open Cert.KernelIdeal Cert.KernelIdeal.Gen Cert.Gnn
open Idealize.ShloMosaic.ValueIdx

theorem hz : (![0, 0] : Fin 2 → Nat) = fun _ => 0 := funext fun a => by fin_cases a <;> rfl

theorem lhs_0 (i : S2000x2.Idx) (q : dot_S2000x128_S2x128_S2000x2_1_1_0_0_n_n.contr.Idx) :
    (dot_S2000x128_S2x128_S2000x2_1_1_0_0_n_n.lhsIdx i q 0).val = (i 0).val := by
  unfold DotDims.lhsIdx
  rw [dif_neg (show ¬(0 : Fin S2000x128.rank) ∈ dot_S2000x128_S2x128_S2000x2_1_1_0_0_n_n.lhsBatch by decide),
    dif_pos (show (0 : Fin S2000x128.rank) ∈ dot_S2000x128_S2x128_S2000x2_1_1_0_0_n_n.lhsNonContracting by decide)]
  rfl

theorem lhs_1 (i : S2000x2.Idx) (q : dot_S2000x128_S2x128_S2000x2_1_1_0_0_n_n.contr.Idx) :
    (dot_S2000x128_S2x128_S2000x2_1_1_0_0_n_n.lhsIdx i q 1).val = (q ⟨0, by decide⟩).val :=
  dot_S2000x128_S2x128_S2000x2_1_1_0_0_n_n.lhsIdx_val_of_single rfl i q

theorem rhs_0 (i : S2000x2.Idx) (q : dot_S2000x128_S2x128_S2000x2_1_1_0_0_n_n.contr.Idx) :
    (dot_S2000x128_S2x128_S2000x2_1_1_0_0_n_n.rhsIdx i q 0).val = (i 1).val := by
  unfold DotDims.rhsIdx
  rw [dif_neg (show ¬(0 : Fin S2x128.rank) ∈ dot_S2000x128_S2x128_S2000x2_1_1_0_0_n_n.rhsBatch by decide),
    dif_pos (show (0 : Fin S2x128.rank) ∈ dot_S2000x128_S2x128_S2000x2_1_1_0_0_n_n.rhsNonContracting by decide)]
  rfl

theorem rhs_1 (i : S2000x2.Idx) (q : dot_S2000x128_S2x128_S2000x2_1_1_0_0_n_n.contr.Idx) :
    (dot_S2000x128_S2x128_S2000x2_1_1_0_0_n_n.rhsIdx i q 1).val = (q ⟨0, by decide⟩).val :=
  dot_S2000x128_S2x128_S2000x2_1_1_0_0_n_n.rhsIdx_val_of_single rfl i q

theorem mm_apply (a : FVec Ideal S2000x128 .bf16) (b : FVec Ideal S2x128 .bf16) (r : Fin 2000) (o : Fin 2) :
    matmul dot_S2000x128_S2x128_S2000x2_1_1_0_0_n_n none a b (constant (F := Ideal) S2000x2 .f32 0x00000000#32) (ix2 r o)
      = ∑ d : Fin 128, a (ix2 r d) * b (ix2 o d) := by
  simp only [matmul]
  rw [Ideal.matmul_constant_zero_apply, ← Equiv.sum_comp (contrEquiv1 dot_S2000x128_S2x128_S2000x2_1_1_0_0_n_n 128 rfl rfl).symm]
  refine Finset.sum_congr rfl fun k _ => ?_
  have hk := contrEquiv1_symm_val dot_S2000x128_S2x128_S2000x2_1_1_0_0_n_n 128 rfl rfl k
  have el : dot_S2000x128_S2x128_S2000x2_1_1_0_0_n_n.lhsIdx (ix2 r o) ((contrEquiv1 dot_S2000x128_S2x128_S2000x2_1_1_0_0_n_n 128 rfl rfl).symm k) = ix2 r k :=
    funext fun a => Fin.ext (by
      match a with
      | ⟨0, _⟩ => exact lhs_0 _ _
      | ⟨1, _⟩ => exact (lhs_1 _ _).trans hk)
  have er : dot_S2000x128_S2x128_S2000x2_1_1_0_0_n_n.rhsIdx (ix2 r o) ((contrEquiv1 dot_S2000x128_S2x128_S2000x2_1_1_0_0_n_n 128 rfl rfl).symm k) = ix2 o k :=
    funext fun a => Fin.ext (by
      match a with
      | ⟨0, _⟩ => exact rhs_0 _ _
      | ⟨1, _⟩ => exact (rhs_1 _ _).trans hk)
  rw [el, er]

theorem pay_apply (x0 : Vec Ideal S2000x128 .f32) (x1 : Vec Ideal S2x128 .f32) (x2 : Vec Ideal S1x2 .f32)
    (r : Fin 2000) (o : Fin 2) :
    k9_pay1 (F := Ideal) x0 x1 x2 (ix2 r o)
      = (∑ d : Fin 128, x0 (ix2 r d) * x1 (ix2 o d)) + x2 (ix2 (0 : Fin 1) o) := by
  unfold k9_pay1
  refine (addf_apply _ _ (ix2 r o)).trans ?_
  refine congrArg₂ (· + ·) ?_ ?_
  · refine (mm_apply _ _ r o).trans ?_
    rw [shapeCast_self]
    rfl
  · refine (broadcastTo_1b_ab_apply _ _ r o).trans ?_
    rw [shapeCast_self]

theorem idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

theorem point_lt (t : Fin cfg9.N) : t.val < 25 := lt_of_lt_of_eq t.isLt N_9

variable (V : (c : Dev nD) → (b : Ref sig .tc) → Buf (Elt Ideal) ((c : Thread nD τ).loc b))

abbrev xarr (c : Dev nD) : Vec Ideal S50000x128 .f32 := V c main_v141
abbrev warr (c : Dev nD) : Vec Ideal S2x128 .f32 := V c main_arg11
abbrev barr (c : Dev nD) : Vec Ideal S1x2 .f32 := V c main_v12
abbrev xblk (c : Dev nD) (t : Fin cfg9.N) : Vec Ideal S2000x128 .f32 := iblk9 V c 0 t
abbrev wblk (c : Dev nD) (t : Fin cfg9.N) : Vec Ideal S2x128 .f32 := iblk9 V c 1 t
abbrev bblk (c : Dev nD) (t : Fin cfg9.N) : Vec Ideal S1x2 .f32 := iblk9 V c 2 t

theorem xblk_apply (c : Dev nD) (t : Fin cfg9.N) (r : Fin 2000) (d : Fin 128) (h : t.val * 2000 + r.val < 50000) :
    xblk V c t (ix2 r d) = xarr V c (ix2 ⟨t.val * 2000 + r.val, h⟩ d) := by
  obtain ⟨e0, e1, -⟩ := idx_facts t
  show V c main_v141 (((cfg9.win 0).blk t).view.emb (ix2 r d)) = V c main_v141 (ix2 ⟨t.val * 2000 + r.val, h⟩ d)
  refine congrArg (V c main_v141) (funext fun a => Fin.ext ?_)
  match a with
  | ⟨0, _⟩ => show win9_0.index t (0 : Fin 2) * 2000 + 1 * r.val = t.val * 2000 + r.val; omega
  | ⟨1, _⟩ => show win9_0.index t (1 : Fin 2) * 128 + 1 * d.val = d.val; omega

theorem wblk_apply (c : Dev nD) (t : Fin cfg9.N) (o : Fin 2) (d : Fin 128) :
    wblk V c t (ix2 o d) = warr V c (ix2 o d) := by
  obtain ⟨-, -, e2, e3, -⟩ := idx_facts t
  show V c main_arg11 (((cfg9.win 1).blk t).view.emb (ix2 o d)) = V c main_arg11 (ix2 o d)
  refine congrArg (V c main_arg11) (funext fun a => Fin.ext ?_)
  match a with
  | ⟨0, _⟩ => show win9_1.index t (0 : Fin 2) * 2 + 1 * o.val = o.val; omega
  | ⟨1, _⟩ => show win9_1.index t (1 : Fin 2) * 128 + 1 * d.val = d.val; omega

theorem bblk_apply (c : Dev nD) (t : Fin cfg9.N) (z : Fin 1) (o : Fin 2) :
    bblk V c t (ix2 z o) = barr V c (ix2 z o) := by
  obtain ⟨-, -, -, -, e4, e5, -⟩ := idx_facts t
  show V c main_v12 (((cfg9.win 2).blk t).view.emb (ix2 z o)) = V c main_v12 (ix2 z o)
  refine congrArg (V c main_v12) (funext fun a => Fin.ext ?_)
  match a with
  | ⟨0, _⟩ => show win9_2.index t (0 : Fin 2) * 1 + 1 * z.val = z.val; omega
  | ⟨1, _⟩ => show win9_2.index t (1 : Fin 2) * 2 + 1 * o.val = o.val; omega

theorem out_emb (t : Fin cfg9.N) (r : Fin 2000) (o : Fin 2) (h : t.val * 2000 + r.val < 50000) :
    ((cfg9.win 3).blk t).view.emb (ix2 r o) = (ix2 ⟨t.val * 2000 + r.val, h⟩ o : S50000x2.Idx) := by
  obtain ⟨-, -, -, -, -, -, e6, e7⟩ := idx_facts t
  funext a; apply Fin.ext
  match a with
  | ⟨0, _⟩ => show win9_3.index t (0 : Fin 2) * 2000 + 1 * r.val = t.val * 2000 + r.val; omega
  | ⟨1, _⟩ => show win9_3.index t (1 : Fin 2) * 2 + 1 * o.val = o.val; omega

theorem flushed_eq (c : Dev nD) (t : Fin cfg9.N) :
    (dat9 V c).flushed 3 t
      = ((cfg9.win 3).blk t).view.read (Elt Ideal) (head12 (V c main_v141) (V c main_arg11) (V c main_v12)) := by
  show (cfg9.win 3).cut (grid9.coords t) ((dat9 V c).after 3 t) = _
  rw [after9_3]
  unfold out9_3
  rw [View.canon_unit_zero hz]
  simp only [View.ld_unit_zero (S := S2000x128) hz, View.ld_unit_zero (S := S2x128) hz, View.ld_unit_zero (S := S1x2) hz]
  funext j
  obtain ⟨r, o, rfl⟩ : ∃ (r : Fin 2000) (o : Fin 2), j = ix2 r o := ⟨j 0, j 1, eq_ix2 j⟩
  have ht : t.val < 25 := point_lt t
  have h : t.val * 2000 + r.val < 50000 := by have := r.isLt; omega
  show k9_pay1 (F := Ideal) (xblk V c t) (wblk V c t) (bblk V c t) (ix2 r o)
    = head12 (xarr V c) (warr V c) (barr V c) (((cfg9.win 3).blk t).view.emb (ix2 r o))
  rw [out_emb t r o h]
  refine (pay_apply (xblk V c t) (wblk V c t) (bblk V c t) r o).trans ?_
  show _ = (∑ d : Fin 128, xarr V c (ix2 ⟨t.val * 2000 + r.val, h⟩ d) * warr V c (ix2 o d)) + barr V c (ix2 (0 : Fin 1) o)
  refine congrArg₂ (· + ·) (Finset.sum_congr rfl fun d _ => ?_) (bblk_apply V c t 0 o)
  exact congrArg₂ (· * ·) (xblk_apply V c t r d h) (wblk_apply V c t o d)

theorem mem_blk (t : Fin cfg9.N) (i : S50000x2.Idx) :
    i ∈ ((cfg9.win 3).blk t).view.set
      ↔ ∀ a : Fin 2, win9_3.index t a * S2000x2.size a ≤ (i a).val ∧ (i a).val < win9_3.index t a * S2000x2.size a + S2000x2.size a := by
  show i ∈ ((View.whole main_v142).slice (win9_3.rect t)).set ↔ _
  rw [View.set_slice_whole, Rect.mem_set_unit]
  exact Iff.rfl

theorem cover (i : S50000x2.Idx) :
    ∃ t : Fin cfg9.N, (cfg9.win 3).flush t = true ∧ i ∈ ((cfg9.win 3).blk t).view.set := by
  have hi0 : (i 0).val < 50000 := (i 0).isLt
  have hi1 : (i 1).val < 2 := (i 1).isLt
  have hN : cfg9.N = 25 := N_9
  obtain ⟨t, ht⟩ : ∃ t : Fin cfg9.N, t.val = (i 0).val / 2000 := ⟨⟨(i 0).val / 2000, by rw [hN]; omega⟩, rfl⟩
  refine ⟨t, flush9_3 t, ?_⟩
  rw [mem_blk]
  obtain ⟨-, -, -, -, -, -, e6, e7⟩ := idx_facts t
  intro a
  match a with
  | ⟨0, _⟩ =>
    show win9_3.index t (0 : Fin 2) * 2000 ≤ (i 0).val ∧ (i 0).val < win9_3.index t (0 : Fin 2) * 2000 + 2000
    omega
  | ⟨1, _⟩ =>
    show win9_3.index t (1 : Fin 2) * 2 ≤ (i 1).val ∧ (i 1).val < win9_3.index t (1 : Fin 2) * 2 + 2
    omega

theorem reg9_out (c : Dev nD) :
    (dat9 V c).arrAt 3 cfg9.N = head12 (V c main_v141) (V c main_arg11) (V c main_v12) :=
  (dat9 V c).arrAt_eq_of_cover 3 (head12 (V c main_v141) (V c main_arg11) (V c main_v12))
    (fun t _ => flushed_eq V c t) (fun i => cover i)

end Cert.KernelIdeal.Val9

end
-- ==== Proof.KAggr.lean ====
import proofs.«417352_j66855460929770_1_alg».proof.Proof.Gen.KernelIdeal.Frame
import proofs.«417352_j66855460929770_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic
import proofs.«417352_j66855460929770_1_alg».proof.Proof.LibScatter

noncomputable section

open Idealize.ShloMosaic Idealize.ShloMosaic.TcCoe Idealize.SL.Sem
open Idealize.ShloMosaic.Pipeline (Dat)

namespace Cert.KernelIdeal.Aggr

open Cert.KernelIdeal Cert.KernelIdeal.Gen Cert.Gnn Cert.LibScatter Idealize.ShloMosaic.ValueIdx

theorem wrap_word (n z : BitVec 32) :
    Scalar.select (IntOp.cmpi .slt z 0#32) (IntOp.addi z n) z = wrapW n z := by
  have h0 : (0#32 : BitVec 32).toInt = 0 := by decide
  show (if BitVec.ofBool (z.slt 0#32) = 1#1 then z + n else z) = if z.toInt < 0 then z + n else z
  by_cases h : z.toInt < 0
  · have hs : z.slt 0#32 = true := BitVec.slt_iff_toInt_lt.mpr (by rw [h0]; exact h)
    rw [if_pos h, hs]
    exact if_pos (by decide)
  · have hs : z.slt 0#32 = false := by
      cases hb : z.slt 0#32
      · rfl
      · exact absurd (by have := BitVec.slt_iff_toInt_lt.mp hb; rwa [h0] at this) h
    rw [if_neg h, hs]
    exact if_neg (by decide)

theorem bcast_scalar {T : Shape} {α : Type} (hb : S_.BroadcastsInDim T ![]) (x : S_.Idx → α) (j : T.Idx) :
    broadcastInDim T ![] hb x j = x ix0 := by
  unfold broadcastInDim
  exact congrArg x (funext fun a => a.elim0)

theorem bcast_col {α : Type} (hb : S800000.BroadcastsInDim S800000x1 ![0]) (v : S800000.Idx → α) (e : Fin 800000) :
    broadcastInDim S800000x1 ![0] hb v (ix2 e (0 : Fin 1)) = v (ix1 e) := by
  refine broadcastInDim_apply ![0] hb v (ix2 e (0 : Fin 1)) (ix1 e) fun a => ?_
  match a with
  | ⟨0, _⟩ => rfl

theorem wrapped_apply (src : IVec S800000 32) (e : Fin 800000) :
    select (cmpi .slt src (broadcastInDim S800000 ![] bcast_S_S800000 (constantI S_ 32 0#32)))
      (addi src (broadcastInDim S800000 ![] bcast_S_S800000 (constantI S_ 32 50000#32))) src (ix1 e)
      = wrapW 50000#32 (src (ix1 e)) :=
  wrap_word 50000#32 (src (ix1 e))

theorem aggr_read (h : FVec Ideal S50000x128 .f32) (src dst : IVec S800000 32) :
    Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
    = aggrSD h src dst := by
  funext y
  obtain ⟨i, k, rfl⟩ : ∃ (i : Fin 50000) (k : Fin 128), y = ix2 i k := ⟨y 0, y 1, eq_ix2 y⟩
  unfold aggrSD
  rw [mk2_ix2]
  show Host.scatterAdd (F := Ideal)
      (rowScatter 50000 800000 128 scatter_S50000x128_S800000x1_S800000x128_1_0_0_1_wf) _ _
      (Host.gather (rowGather 50000 800000 128 gather_S50000x128_S800000x1_S800000x128_1_0_n_n_0_1_1128_wf) _ _)
      (ix2 i k) = _
  rw [rowScatterAdd_apply, bcast_scalar, constant_apply]
  refine congrArg (fun t => Ideal.ofBits FTy.f32 0x00000000#32 + t) ?_
  have hfilter : (Finset.univ.filter fun e : Fin 800000 =>
        rowOf? 50000 (broadcastInDim S800000x1 ![0] bcast_S800000_S800000x1_0 dst (ix2 e (0 : Fin 1))) = some i)
      = Finset.univ.filter fun e : Fin 800000 => rowOf? 50000 (dst (ix1 e)) = some i := by
    refine Finset.filter_congr fun e _ => ?_
    rw [bcast_col]
  rw [hfilter]
  refine Finset.sum_congr rfl fun e _ => ?_
  rw [rowGather_apply (by decide : 0 < 50000), bcast_col, wrapped_apply]

end Cert.KernelIdeal.Aggr

end
-- ==== Proof.KHostP.lean ====
import proofs.«417352_j66855460929770_1_alg».proof.Proof.Gen.KernelIdeal.Frame
import proofs.«417352_j66855460929770_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost
import Idealize.ShloMosaic.PureOps.Ideal.Laws
import Idealize.ShloMosaic.Lib.Tactic
import proofs.«417352_j66855460929770_1_alg».proof.Proof.KAggr

noncomputable section

open Idealize.ShloMosaic Idealize.ShloMosaic.TcCoe Idealize.SL.Sem
open Idealize.ShloMosaic.Pipeline (Dat)

namespace Cert.KernelIdeal.HostP

open Cert.KernelIdeal Cert.KernelIdeal.Gen Cert.Gnn Idealize.ShloMosaic.StableHlo Idealize.ShloMosaic.ValueIdx

theorem pad_read {α : Type} (x : (⟨2, ![50000, 64]⟩ : Shape).Idx → α) (v : (⟨0, ![]⟩ : Shape).Idx → α)
    (hp : (⟨2, ![50000, 64]⟩ : Shape).Pads ![0, 0] ![0, 64] ![0, 0] ⟨2, ![50000, 128]⟩) (hu : 0 < (⟨0, ![]⟩ : Shape).numel)
    (r : Fin 50000) (k : Fin 128) :
    pad ⟨2, ![50000, 128]⟩ ![0, 0] ![0, 64] ![0, 0] x v hp hu (ix2 r k)
      = if h : k.val < 64 then x (ix2 r ⟨k.val, h⟩) else v ix0 := by
  by_cases h : k.val < 64
  · rw [dif_pos h]
    refine pad_apply_of_inside ![0, 0] ![0, 64] ![0, 0] x v hp hu (ix2 r k) (ix2 r ⟨k.val, h⟩) fun a => ?_
    match a with
    | ⟨0, _⟩ => show r.val = 0 + r.val * (0 + 1); omega
    | ⟨1, _⟩ => show k.val = 0 + k.val * (0 + 1); omega
  · rw [dif_neg h]
    refine (pad_apply_of_not_inside ![0, 0] ![0, 64] ![0, 0] x v hp hu (ix2 r k) 1 ?_).trans (congrArg v (eq_ix0 _))
    show ¬((0 : ℕ) ≤ k.val ∧ (k.val - 0) % (0 + 1) = 0 ∧ (k.val - 0) / (0 + 1) < 64)
    intro hh
    have := hh.2.2
    rw [Nat.sub_zero, Nat.zero_add, Nat.div_one] at this
    exact h this

theorem sliceRow_read {α : Type} (a : Fin 2) (x : (⟨2, ![2, 800000]⟩ : Shape).Idx → α)
    (hs : (⟨2, ![2, 800000]⟩ : Shape).Slices ![a.val, 0] ⟨2, ![1, 800000]⟩)
    (hc : (⟨2, ![1, 800000]⟩ : Shape).ShapeCasts ⟨1, ![800000]⟩) (e : Fin 800000) :
    shapeCast ⟨1, ![800000]⟩ (extractStridedSlice ⟨2, ![1, 800000]⟩ ![a.val, 0] x hs) hc (ix1 e) = x (ix2 a e) := by
  refine (shapeCast_apply _ hc (ix1 e) (ix2 (0 : Fin 1) e) ?_).trans ?_
  · rw [Shape.rowMajor_val_two, Shape.rowMajor_val_one]
    show (0 : ℕ) * 800000 + e.val = e.val
    omega
  · refine extractStridedSlice_apply ![a.val, 0] x hs (ix2 (0 : Fin 1) e) (ix2 a e) fun b => ?_
    match b with
    | ⟨0, _⟩ => show a.val = a.val + 0; omega
    | ⟨1, _⟩ => show e.val = 0 + e.val; omega

theorem asRow_read {α : Type} {n : ℕ} (x : (⟨1, ![n]⟩ : Shape).Idx → α)
    (hc : (⟨1, ![n]⟩ : Shape).ShapeCasts ⟨2, ![1, n]⟩) (u : Fin 1) (o : Fin n) :
    shapeCast ⟨2, ![1, n]⟩ x hc (ix2 u o) = x (ix1 o) := by
  refine shapeCast_apply x hc (ix2 u o) (ix1 o) ?_
  rw [Shape.rowMajor_val_two, Shape.rowMajor_val_one]
  show o.val = u.val * n + o.val
  have := u.isLt
  have hu : u.val = 0 := by omega
  rw [hu]; omega

theorem biasRow_read {α : Type} (x : (⟨2, ![3, 128]⟩ : Shape).Idx → α)
    (hs : (⟨2, ![3, 128]⟩ : Shape).Slices ![0, 0] ⟨2, ![1, 128]⟩)
    (hc : (⟨2, ![1, 128]⟩ : Shape).ShapeCasts ⟨1, ![128]⟩) (hc' : (⟨1, ![128]⟩ : Shape).ShapeCasts ⟨2, ![1, 128]⟩)
    (u : Fin 1) (k : Fin 128) :
    shapeCast ⟨2, ![1, 128]⟩ (shapeCast ⟨1, ![128]⟩ (extractStridedSlice ⟨2, ![1, 128]⟩ ![0, 0] x hs) hc) hc' (ix2 u k)
      = x (ix2 (0 : Fin 3) k) := by
  refine (asRow_read _ hc' u k).trans ?_
  refine (shapeCast_apply _ hc (ix1 k) (ix2 (0 : Fin 1) k) ?_).trans ?_
  · rw [Shape.rowMajor_val_two, Shape.rowMajor_val_one]
    show (0 : ℕ) * 128 + k.val = k.val
    omega
  · refine extractStridedSlice_apply ![0, 0] x hs (ix2 (0 : Fin 1) k) (ix2 (0 : Fin 3) k) fun b => ?_
    match b with
    | ⟨0, _⟩ => show (0 : ℕ) = 0 + 0; omega
    | ⟨1, _⟩ => show k.val = 0 + k.val; omega

theorem bcastRows_read {α : Type} (x : (⟨1, ![50000]⟩ : Shape).Idx → α)
    (h₁ : (⟨1, ![50000]⟩ : Shape).BroadcastsInDim ⟨2, ![50000, 1]⟩ ![0])
    (h₂ : (⟨2, ![50000, 1]⟩ : Shape).BroadcastsInDim ⟨2, ![50000, 64]⟩ ![0, 1]) (r : Fin 50000) (g : Fin 64) :
    broadcastInDim ⟨2, ![50000, 64]⟩ ![0, 1] h₂ (broadcastInDim ⟨2, ![50000, 1]⟩ ![0] h₁ x) (ix2 r g) = x (ix1 r) := by
  refine (broadcastInDim_apply ![0, 1] h₂ _ (ix2 r g) (ix2 r (0 : Fin 1)) fun a => ?_).trans
    (broadcastInDim_apply ![0] h₁ x (ix2 r (0 : Fin 1)) (ix1 r) fun a => ?_)
  · match a with
    | ⟨0, _⟩ => show r.val = if (50000 : ℕ) = 1 then 0 else r.val; rw [if_neg (by decide)]
    | ⟨1, _⟩ => show (0 : ℕ) = if (1 : ℕ) = 1 then 0 else g.val; rw [if_pos rfl]
  · match a with
    | ⟨0, _⟩ => show r.val = if (50000 : ℕ) = 1 then 0 else r.val; rw [if_neg (by decide)]

theorem bcastCols_read {α : Type} (x : (⟨1, ![64]⟩ : Shape).Idx → α)
    (h₁ : (⟨1, ![64]⟩ : Shape).BroadcastsInDim ⟨2, ![1, 64]⟩ ![1])
    (h₂ : (⟨2, ![1, 64]⟩ : Shape).BroadcastsInDim ⟨2, ![50000, 64]⟩ ![0, 1]) (r : Fin 50000) (g : Fin 64) :
    broadcastInDim ⟨2, ![50000, 64]⟩ ![0, 1] h₂ (broadcastInDim ⟨2, ![1, 64]⟩ ![1] h₁ x) (ix2 r g) = x (ix1 g) := by
  refine (broadcastInDim_apply ![0, 1] h₂ _ (ix2 r g) (ix2 (0 : Fin 1) g) fun a => ?_).trans
    (broadcastInDim_apply ![1] h₁ x (ix2 (0 : Fin 1) g) (ix1 g) fun a => ?_)
  · match a with
    | ⟨0, _⟩ => show (0 : ℕ) = if (1 : ℕ) = 1 then 0 else r.val; rw [if_pos rfl]
    | ⟨1, _⟩ => show g.val = if (64 : ℕ) = 1 then 0 else g.val; rw [if_neg (by decide)]
  · match a with
    | ⟨0, _⟩ => show g.val = if (64 : ℕ) = 1 then 0 else g.val; rw [if_neg (by decide)]

theorem uitofp_bit (b : BitVec 1) : (FloatOps.uitofp (F := Ideal) .f32 b : EReal) = if b = 1#1 then 1 else 0 := by
  rcases BitVec.eq_zero_or_eq_one b with rfl | rfl
  · show (((0#1 : BitVec 1).toNat : ℝ) : EReal) = _
    rw [if_neg (by decide)]; simp
  · show (((1#1 : BitVec 1).toNat : ℝ) : EReal) = _
    rw [if_pos rfl]; simp

theorem uitofp_cmpi_eq (a b : BitVec 32) :
    (FloatOps.uitofp (F := Ideal) .f32 (IntOp.cmpi .eq a b) : EReal) = if a = b then 1 else 0 := by
  have hc : IntOp.cmpi .eq a b = BitVec.ofBool (a == b) := rfl
  rw [hc, uitofp_bit]
  by_cases h : a = b
  · rw [if_pos h, if_pos]; rw [beq_iff_eq.mpr h]; rfl
  · rw [if_neg h, if_neg]; rw [show (a == b) = false from beq_eq_false_iff_ne.mpr h]; decide

theorem aggr_chain (x : FVec Ideal S50000x128 .f32) (ei : IVec S2E 32) (s d : IVec S800000 32)
    (hs : s = eiRow ei 0) (hd : d = eiRow ei 1) :
    Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 d)
        (Host.gather gather_S50000x128_S800000x1_S800000x128_1_0_n_n_0_1_1128 x
          (broadcastInDim S800000x1 ![0] bcast_S800000_S800000x1_0
            (select (cmpi .slt s (broadcastInDim S800000 ![] bcast_S_S800000 (constantI S_ 32 0#32)))
              (addi s (broadcastInDim S800000 ![] bcast_S_S800000 (constantI S_ 32 50000#32))) s)))
      = aggrSD x (eiRow ei 0) (eiRow ei 1) := by
  subst hs; subst hd
  exact Cert.KernelIdeal.Aggr.aggr_read _ _ _

variable (W : Valuation τ sig (Elt Ideal))

theorem v0 : StableHlo.after (hostOps0_1 (F := Ideal)) (StableHlo.after (hostOps0 (F := Ideal)) W) (Proc.devRef .tc main_v0)
    = padX (W (Proc.devRef .tc main_arg0)) := by
  after_results
  funext y
  obtain ⟨r, k, rfl⟩ : ∃ (r : Fin 50000) (k : Fin 128), y = ix2 r k := ⟨y 0, y 1, eq_ix2 y⟩
  have hz : (sitofp (F := Ideal) .f32 (constantI S_ 32 0#32)) ix0 = (0 : EReal) := by
    show ((((0#32 : BitVec 32).toInt : ℤ) : ℝ) : EReal) = 0
    simp
  refine (pad_read (α := EReal) (W (Proc.devRef .tc main_arg0)) (sitofp (F := Ideal) .f32 (constantI S_ 32 0#32))
    pads_S50000x64_S50000x128_000_0640 h_S_ r k).trans ?_
  rw [hz]
  rfl

theorem v2 : StableHlo.after (hostOps0_2 (F := Ideal)) W (Proc.devRef .tc main_v2) = eiRow (W (Proc.devRef .tc main_arg1)) 0 := by
  after_results
  funext y
  obtain ⟨e, rfl⟩ : ∃ e : Fin 800000, y = ix1 e := ⟨y 0, eq_ix1 y⟩
  exact sliceRow_read 0 (W (Proc.devRef .tc main_arg1)) slices_S2x800000_S1x800000_0_0 shapeCasts_S1x800000_S800000 e

theorem v4 : StableHlo.after (hostOps0_2 (F := Ideal)) W (Proc.devRef .tc main_v4) = eiRow (W (Proc.devRef .tc main_arg1)) 1 := by
  after_results
  funext y
  obtain ⟨e, rfl⟩ : ∃ e : Fin 800000, y = ix1 e := ⟨y 0, eq_ix1 y⟩
  exact sliceRow_read 1 (W (Proc.devRef .tc main_arg1)) slices_S2x800000_S1x800000_1_0 shapeCasts_S1x800000_S800000 e

theorem v11 : StableHlo.after (hostOps0_2 (F := Ideal)) W (Proc.devRef .tc main_v11) = onehot (W (Proc.devRef .tc main_arg2)) := by
  after_results
  funext y
  obtain ⟨r, g, rfl⟩ : ∃ (r : Fin 50000) (g : Fin 64), y = ix2 r g := ⟨y 0, y 1, eq_ix2 y⟩
  show FloatOps.uitofp (F := Ideal) .f32 (IntOp.cmpi .eq
      (broadcastInDim S50000x64 ![0, 1] bcast_S50000x1_S50000x64_0_1
        (broadcastInDim S50000x1 ![0] bcast_S50000_S50000x1_0 (W (Proc.devRef .tc main_arg2))) (ix2 r g))
      (broadcastInDim S50000x64 ![0, 1] bcast_S1x64_S50000x64_0_1
        (broadcastInDim S1x64 ![1] bcast_S64_S1x64_1 (iotaInDim S64 32 0)) (ix2 r g)))
    = if (W (Proc.devRef .tc main_arg2)) (ix1 r) = BitVec.ofNat 32 g.val then 1 else 0
  rw [bcastRows_read, bcastCols_read, uitofp_cmpi_eq]
  rfl

theorem v12 : StableHlo.after (hostOps0_2 (F := Ideal)) W (Proc.devRef .tc main_v12) = row2 (W (Proc.devRef .tc main_arg12)) := by
  after_results
  funext y
  obtain ⟨u, o, rfl⟩ : ∃ (u : Fin 1) (o : Fin 2), y = ix2 u o := ⟨y 0, y 1, eq_ix2 y⟩
  exact asRow_read (W (Proc.devRef .tc main_arg12)) shapeCasts_S2_S1x2 u o

theorem v22 : StableHlo.after (hostOps0_2 (F := Ideal)) W (Proc.devRef .tc main_v22)
    = aggrSD (W (Proc.devRef .tc main_v0)) (eiRow (W (Proc.devRef .tc main_arg1)) 0) (eiRow (W (Proc.devRef .tc main_arg1)) 1) := by
  after_results_simp
  refine aggr_chain (W (Proc.devRef .tc main_v0)) (W (Proc.devRef .tc main_arg1)) _ _ ?_ ?_
  · funext y
    obtain ⟨e, rfl⟩ : ∃ e : Fin 800000, y = ix1 e := ⟨y 0, eq_ix1 y⟩
    exact sliceRow_read 0 (W (Proc.devRef .tc main_arg1)) slices_S2x800000_S1x800000_0_0 shapeCasts_S1x800000_S800000 e
  · funext y
    obtain ⟨e, rfl⟩ : ∃ e : Fin 800000, y = ix1 e := ⟨y 0, eq_ix1 y⟩
    exact sliceRow_read 1 (W (Proc.devRef .tc main_arg1)) slices_S2x800000_S1x800000_1_0 shapeCasts_S1x800000_S800000 e

theorem v25 : StableHlo.after (hostOps0_2 (F := Ideal)) W (Proc.devRef .tc main_v25) = bAt (W (Proc.devRef .tc main_arg4)) 0 := by
  after_results
  funext y
  obtain ⟨u, k, rfl⟩ : ∃ (u : Fin 1) (k : Fin 128), y = ix2 u k := ⟨y 0, y 1, eq_ix2 y⟩
  exact biasRow_read (W (Proc.devRef .tc main_arg4)) slices_S3x128_S1x128_0_0 shapeCasts_S1x128_S128 shapeCasts_S128_S1x128 u k

theorem v28 : StableHlo.after (hostOps0_2 (F := Ideal)) W (Proc.devRef .tc main_v28) = bAt (W (Proc.devRef .tc main_arg6)) 0 := by
  after_results
  funext y
  obtain ⟨u, k, rfl⟩ : ∃ (u : Fin 1) (k : Fin 128), y = ix2 u k := ⟨y 0, y 1, eq_ix2 y⟩
  exact biasRow_read (W (Proc.devRef .tc main_arg6)) slices_S3x128_S1x128_0_0 shapeCasts_S1x128_S128 shapeCasts_S128_S1x128 u k

theorem v31 : StableHlo.after (hostOps0_2 (F := Ideal)) W (Proc.devRef .tc main_v31) = bAt (W (Proc.devRef .tc main_arg8)) 0 := by
  after_results
  funext y
  obtain ⟨u, k, rfl⟩ : ∃ (u : Fin 1) (k : Fin 128), y = ix2 u k := ⟨y 0, y 1, eq_ix2 y⟩
  exact biasRow_read (W (Proc.devRef .tc main_arg8)) slices_S3x128_S1x128_0_0 shapeCasts_S1x128_S128 shapeCasts_S128_S1x128 u k

end Cert.KernelIdeal.HostP

end
-- ==== Proof.KHost1.lean ====
import proofs.«417352_j66855460929770_1_alg».proof.Proof.Gen.KernelIdeal.Launch
import proofs.«417352_j66855460929770_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Host1

open Cert.KernelIdeal Cert.KernelIdeal.Gen Cert.Gnn Idealize.ShloMosaic.StableHlo
open Idealize.ShloMosaic.ValueIdx

theorem slab_eq_wAt (X : FVec Ideal S3x128x128 .f32) (l : Fin 3) (off : Fin 3 → ℕ)
    (h0 : off 0 = l.val) (h1 : off 1 = 0) (h2 : off 2 = 0)
    (hs : S3x128x128.Slices off S1x128x128) (hc : S1x128x128.ShapeCasts S128x128) :
    shapeCast S128x128 (extractStridedSlice S1x128x128 off X hs) hc = wAt X l := by
  funext y
  obtain ⟨i, j, rfl⟩ : ∃ (i : Fin 128) (j : Fin 128), y = ix2 i j := ⟨y 0, y 1, eq_ix2 y⟩
  rw [shapeCast_1ab_ab_apply]
  refine (extractStridedSlice_apply off X hs (ix3 (0 : Fin 1) i j) (ix3 l i j) (fun a => ?_)).trans rfl
  match a with
  | ⟨0, _⟩ => show l.val = off 0 + 0; rw [h0, Nat.add_zero]
  | ⟨1, _⟩ => show i.val = off 1 + i.val; rw [h1, Nat.zero_add]
  | ⟨2, _⟩ => show j.val = off 2 + j.val; rw [h2, Nat.zero_add]

variable (W : Valuation τ sig (Elt Ideal))

theorem v34 : StableHlo.after (hostOps1 (F := Ideal)) W (Proc.devRef .tc main_v34) = wAt (W (Proc.devRef .tc main_arg3)) 0 := by
  refine Eq.trans ?_ (slab_eq_wAt (W (Proc.devRef .tc main_arg3)) 0 ![0, 0, 0] rfl rfl rfl
    slices_S3x128x128_S1x128x128_0_0_0 shapeCasts_S1x128x128_S128x128)
  after_results
  all_goals rfl

theorem v36 : StableHlo.after (hostOps1 (F := Ideal)) W (Proc.devRef .tc main_v36) = wAt (W (Proc.devRef .tc main_arg5)) 0 := by
  refine Eq.trans ?_ (slab_eq_wAt (W (Proc.devRef .tc main_arg5)) 0 ![0, 0, 0] rfl rfl rfl
    slices_S3x128x128_S1x128x128_0_0_0 shapeCasts_S1x128x128_S128x128)
  after_results
  all_goals rfl

theorem v38 : StableHlo.after (hostOps1 (F := Ideal)) W (Proc.devRef .tc main_v38) = wAt (W (Proc.devRef .tc main_arg7)) 0 := by
  refine Eq.trans ?_ (slab_eq_wAt (W (Proc.devRef .tc main_arg7)) 0 ![0, 0, 0] rfl rfl rfl
    slices_S3x128x128_S1x128x128_0_0_0 shapeCasts_S1x128x128_S128x128)
  after_results
  all_goals rfl

end Cert.KernelIdeal.Host1

end
-- ==== Proof.KHost2.lean ====
import proofs.«417352_j66855460929770_1_alg».proof.Proof.Gen.KernelIdeal.Launch
import proofs.«417352_j66855460929770_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Host2

open Cert.KernelIdeal Cert.KernelIdeal.Gen Cert.Gnn Idealize.ShloMosaic.StableHlo
open Idealize.ShloMosaic.ValueIdx

theorem div_eq_meanOf (s : FVec Ideal S1x128 .f32) (hb : S_.BroadcastsInDim S1x128 (![] : Fin 0 → Fin S1x128.rank)) :
    Host.divf s (broadcastInDim S1x128 ![] hb (constant (F := Ideal) S_ .f32 0x47435000#32)) = meanOf s := by
  funext y
  obtain ⟨u, k, rfl⟩ : ∃ (u : Fin 1) (k : Fin 128), y = ix2 u k := ⟨y 0, y 1, eq_ix2 y⟩
  obtain rfl : u = 0 := Subsingleton.elim _ _
  rfl

theorem chain_eq_rstdOf (s ss : FVec Ideal S1x128 .f32) (hb : S_.BroadcastsInDim S1x128 (![] : Fin 0 → Fin S1x128.rank)) :
    Host.rsqrt (addf (subf (Host.divf ss (broadcastInDim S1x128 ![] hb (constant (F := Ideal) S_ .f32 0x47435000#32)))
        (mulf (Host.divf s (broadcastInDim S1x128 ![] hb (constant (F := Ideal) S_ .f32 0x47435000#32)))
              (Host.divf s (broadcastInDim S1x128 ![] hb (constant (F := Ideal) S_ .f32 0x47435000#32)))))
      (broadcastInDim S1x128 ![] hb (constant (F := Ideal) S_ .f32 0x3727C5AC#32)))
    = rstdOf (varK s ss) := by
  funext y
  obtain ⟨u, k, rfl⟩ : ∃ (u : Fin 1) (k : Fin 128), y = ix2 u k := ⟨y 0, y 1, eq_ix2 y⟩
  obtain rfl : u = 0 := Subsingleton.elim _ _
  rfl

theorem row_eq_bAt (B : FVec Ideal S3x128 .f32) (l : Fin 3) (off : Fin 2 → ℕ)
    (h0 : off 0 = l.val) (h1 : off 1 = 0)
    (hs : S3x128.Slices off S1x128) (hc : S1x128.ShapeCasts S128) (hc' : S128.ShapeCasts S1x128) :
    shapeCast S1x128 (shapeCast S128 (extractStridedSlice S1x128 off B hs) hc) hc' = bAt B l := by
  funext y
  obtain ⟨u, k, rfl⟩ : ∃ (u : Fin 1) (k : Fin 128), y = ix2 u k := ⟨y 0, y 1, eq_ix2 y⟩
  rw [shapeCast_a_1a_apply, shapeCast_1a_a_apply]
  refine (extractStridedSlice_apply off B hs (ix2 (0 : Fin 1) k) (ix2 l k) (fun a => ?_)).trans rfl
  match a with
  | ⟨0, _⟩ => show l.val = off 0 + 0; rw [h0, Nat.add_zero]
  | ⟨1, _⟩ => show k.val = off 1 + k.val; rw [h1, Nat.zero_add]

variable (W : Valuation τ sig (Elt Ideal))

theorem v41 : StableHlo.after (hostOps2 (F := Ideal)) W (Proc.devRef .tc main_v41) = meanOf (W (Proc.devRef .tc main_v39_1)) := by
  refine Eq.trans ?_ (div_eq_meanOf (W (Proc.devRef .tc main_v39_1)) bcast_S_S1x128)
  after_results
  all_goals rfl

theorem v48 : StableHlo.after (hostOps2 (F := Ideal)) W (Proc.devRef .tc main_v48) = rstdOf (varK (W (Proc.devRef .tc main_v39_1)) (W (Proc.devRef .tc main_v39_2))) := by
  refine Eq.trans ?_ (chain_eq_rstdOf (W (Proc.devRef .tc main_v39_1)) (W (Proc.devRef .tc main_v39_2)) bcast_S_S1x128)
  after_results
  all_goals rfl

theorem v51 : StableHlo.after (hostOps2 (F := Ideal)) W (Proc.devRef .tc main_v51) = bAt (W (Proc.devRef .tc main_arg9)) 0 := by
  refine Eq.trans ?_ (row_eq_bAt (W (Proc.devRef .tc main_arg9)) 0 ![0, 0] rfl rfl
    slices_S3x128_S1x128_0_0 shapeCasts_S1x128_S128 shapeCasts_S128_S1x128)
  after_results
  all_goals rfl

theorem v54 : StableHlo.after (hostOps2 (F := Ideal)) W (Proc.devRef .tc main_v54) = bAt (W (Proc.devRef .tc main_arg10)) 0 := by
  refine Eq.trans ?_ (row_eq_bAt (W (Proc.devRef .tc main_arg10)) 0 ![0, 0] rfl rfl
    slices_S3x128_S1x128_0_0 shapeCasts_S1x128_S128 shapeCasts_S128_S1x128)
  after_results
  all_goals rfl

end Cert.KernelIdeal.Host2

end
-- ==== Proof.KHost3.lean ====
import proofs.«417352_j66855460929770_1_alg».proof.Proof.Gen.KernelIdeal.Frame
import proofs.«417352_j66855460929770_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic
import proofs.«417352_j66855460929770_1_alg».proof.Proof.KAggr

noncomputable section

open Idealize.ShloMosaic Idealize.ShloMosaic.TcCoe Idealize.SL.Sem
open Idealize.ShloMosaic.Pipeline (Dat)

namespace Cert.KernelIdeal.Host3

open Cert.KernelIdeal Cert.KernelIdeal.Gen Cert.Gnn Idealize.ShloMosaic.StableHlo Idealize.ShloMosaic.ValueIdx

theorem bias_row (l : Fin 3) (o : Nat) (ho : l.val = o) (B : FVec Ideal S3x128 .f32)
    (hs : S3x128.Slices ![o, 0] S1x128) (h1 : S1x128.ShapeCasts S128) (h2 : S128.ShapeCasts S1x128) :
    shapeCast S1x128 (shapeCast S128 (extractStridedSlice S1x128 ![o, 0] B hs) h1) h2 = bAt B l := by
  funext y
  obtain ⟨u, k, rfl⟩ : ∃ (u : Fin 1) (k : Fin 128), y = ix2 u k := ⟨y 0, y 1, eq_ix2 y⟩
  unfold bAt
  rw [mk2_ix2, shapeCast_a_1a_apply, shapeCast_1a_a_apply,
    slice2_axis0_apply o B hs (0 : Fin 1) k l (by rw [ho]; rfl)]

variable (W : Valuation τ sig (Elt Ideal))

theorem v65 : StableHlo.after (hostOps3 (F := Ideal)) W (Proc.devRef .tc main_v65)
    = aggrSD (W (Proc.devRef .tc main_v55)) (W (Proc.devRef .tc main_v2)) (W (Proc.devRef .tc main_v4)) := by
  show StableHlo.after (hostOps3 (F := Ideal)) W (Proc.devRef .tc main_v65) = _
  after_results_simp
  exact Aggr.aggr_read _ _ _

theorem v68 : StableHlo.after (hostOps3 (F := Ideal)) W (Proc.devRef .tc main_v68) = bAt (W (Proc.devRef .tc main_arg4)) 1 := by
  show StableHlo.after (hostOps3 (F := Ideal)) W (Proc.devRef .tc main_v68) = _
  after_results_simp
  exact bias_row 1 1 rfl _ _ _ _

theorem v71 : StableHlo.after (hostOps3 (F := Ideal)) W (Proc.devRef .tc main_v71) = bAt (W (Proc.devRef .tc main_arg6)) 1 := by
  show StableHlo.after (hostOps3 (F := Ideal)) W (Proc.devRef .tc main_v71) = _
  after_results_simp
  exact bias_row 1 1 rfl _ _ _ _

theorem v74 : StableHlo.after (hostOps3 (F := Ideal)) W (Proc.devRef .tc main_v74) = bAt (W (Proc.devRef .tc main_arg8)) 1 := by
  show StableHlo.after (hostOps3 (F := Ideal)) W (Proc.devRef .tc main_v74) = _
  after_results_simp
  exact bias_row 1 1 rfl _ _ _ _

end Cert.KernelIdeal.Host3

end
-- ==== Proof.KHost4.lean ====
/-
  The host operations before combine region of layer 1: each of the three weight arrays [3, 128, 128] is sliced at
  layer 1 and reshaped to [128, 128].
-/
import proofs.«417352_j66855460929770_1_alg».proof.Proof.Gen.KernelIdeal.Launch
import proofs.«417352_j66855460929770_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Host4

open Cert.KernelIdeal Cert.KernelIdeal.Gen Cert.Gnn Idealize.ShloMosaic.StableHlo
open Idealize.ShloMosaic.ValueIdx

/-- The slab of a [3, 128, 128] array at layer l, a [1, 128, 128] array, with its unit axis dropped is layer l's
    matrix: entry (i, j) of the result is entry (0, i, j) of the slab, which is entry (l, i, j) of the array. The
    slice's offsets are any triple that is (l, 0, 0). -/
theorem slab_eq_wAt (X : FVec Ideal S3x128x128 .f32) (l : Fin 3) (off : Fin 3 → ℕ)
    (h0 : off 0 = l.val) (h1 : off 1 = 0) (h2 : off 2 = 0)
    (hs : S3x128x128.Slices off S1x128x128) (hc : S1x128x128.ShapeCasts S128x128) :
    shapeCast S128x128 (extractStridedSlice S1x128x128 off X hs) hc = wAt X l := by
  funext y
  obtain ⟨i, j, rfl⟩ : ∃ (i : Fin 128) (j : Fin 128), y = ix2 i j := ⟨y 0, y 1, eq_ix2 y⟩
  rw [shapeCast_1ab_ab_apply]
  refine (extractStridedSlice_apply off X hs (ix3 (0 : Fin 1) i j) (ix3 l i j) (fun a => ?_)).trans rfl
  match a with
  | ⟨0, _⟩ => show l.val = off 0 + 0; rw [h0, Nat.add_zero]
  | ⟨1, _⟩ => show i.val = off 1 + i.val; rw [h1, Nat.zero_add]
  | ⟨2, _⟩ => show j.val = off 2 + j.val; rw [h2, Nat.zero_add]

variable (W : Valuation τ sig (Elt Ideal))

theorem v77 : StableHlo.after (hostOps4 (F := Ideal)) W (Proc.devRef .tc main_v77) = wAt (W (Proc.devRef .tc main_arg3)) 1 := by
  refine Eq.trans ?_ (slab_eq_wAt (W (Proc.devRef .tc main_arg3)) 1 ![1, 0, 0] rfl rfl rfl
    slices_S3x128x128_S1x128x128_1_0_0 shapeCasts_S1x128x128_S128x128)
  after_results
  all_goals rfl

theorem v79 : StableHlo.after (hostOps4 (F := Ideal)) W (Proc.devRef .tc main_v79) = wAt (W (Proc.devRef .tc main_arg5)) 1 := by
  refine Eq.trans ?_ (slab_eq_wAt (W (Proc.devRef .tc main_arg5)) 1 ![1, 0, 0] rfl rfl rfl
    slices_S3x128x128_S1x128x128_1_0_0 shapeCasts_S1x128x128_S128x128)
  after_results
  all_goals rfl

theorem v81 : StableHlo.after (hostOps4 (F := Ideal)) W (Proc.devRef .tc main_v81) = wAt (W (Proc.devRef .tc main_arg7)) 1 := by
  refine Eq.trans ?_ (slab_eq_wAt (W (Proc.devRef .tc main_arg7)) 1 ![1, 0, 0] rfl rfl rfl
    slices_S3x128x128_S1x128x128_1_0_0 shapeCasts_S1x128x128_S128x128)
  after_results
  all_goals rfl

end Cert.KernelIdeal.Host4

end
-- ==== Proof.KHost5.lean ====
/-
  The host operations between the combine and the normalize region of layer 1: from the column sums s and the
  column sums of squares ss, mean = s / 50000, var = ss / 50000 - mean * mean, rstd = rsqrt (var + eps); and row 1
  of the scale and of the shift, each as a [1, 128] array.
-/
import proofs.«417352_j66855460929770_1_alg».proof.Proof.Gen.KernelIdeal.Launch
import proofs.«417352_j66855460929770_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Host5

open Cert.KernelIdeal Cert.KernelIdeal.Gen Cert.Gnn Idealize.ShloMosaic.StableHlo
open Idealize.ShloMosaic.ValueIdx

/-- The column sums divided entry by entry by the row count, the constant 50000 spread over the row, are the mean:
    at (0, k) both are s(0, k) / 50000 on the extended reals. -/
theorem div_eq_meanOf (s : FVec Ideal S1x128 .f32) (hb : S_.BroadcastsInDim S1x128 (![] : Fin 0 → Fin S1x128.rank)) :
    Host.divf s (broadcastInDim S1x128 ![] hb (constant (F := Ideal) S_ .f32 0x47435000#32)) = meanOf s := by
  funext y
  obtain ⟨u, k, rfl⟩ : ∃ (u : Fin 1) (k : Fin 128), y = ix2 u k := ⟨y 0, y 1, eq_ix2 y⟩
  obtain rfl : u = 0 := Subsingleton.elim _ _
  rfl

/-- The chain rsqrt ((ss / 50000 - (s / 50000) * (s / 50000)) + eps), each operation entry by entry and each constant
    spread over the row, is the reciprocal standard deviation of the variance taken as the mean of squares minus the
    squared mean: at (0, k) both sides are the same expression in s(0, k) and ss(0, k) on the extended reals. -/
theorem chain_eq_rstdOf (s ss : FVec Ideal S1x128 .f32) (hb : S_.BroadcastsInDim S1x128 (![] : Fin 0 → Fin S1x128.rank)) :
    Host.rsqrt (addf (subf (Host.divf ss (broadcastInDim S1x128 ![] hb (constant (F := Ideal) S_ .f32 0x47435000#32)))
        (mulf (Host.divf s (broadcastInDim S1x128 ![] hb (constant (F := Ideal) S_ .f32 0x47435000#32)))
              (Host.divf s (broadcastInDim S1x128 ![] hb (constant (F := Ideal) S_ .f32 0x47435000#32)))))
      (broadcastInDim S1x128 ![] hb (constant (F := Ideal) S_ .f32 0x3727C5AC#32)))
    = rstdOf (varK s ss) := by
  funext y
  obtain ⟨u, k, rfl⟩ : ∃ (u : Fin 1) (k : Fin 128), y = ix2 u k := ⟨y 0, y 1, eq_ix2 y⟩
  obtain rfl : u = 0 := Subsingleton.elim _ _
  rfl

/-- Row l of a [3, 128] array, taken as a [1, 128] slice, flattened to [128] and given its unit axis back, is layer
    l's row: entry (0, k) of the result is entry k of the flat vector, which is entry (0, k) of the slice, which is
    entry (l, k) of the array. The slice's offsets are any pair that is (l, 0). -/
theorem row_eq_bAt (B : FVec Ideal S3x128 .f32) (l : Fin 3) (off : Fin 2 → ℕ)
    (h0 : off 0 = l.val) (h1 : off 1 = 0)
    (hs : S3x128.Slices off S1x128) (hc : S1x128.ShapeCasts S128) (hc' : S128.ShapeCasts S1x128) :
    shapeCast S1x128 (shapeCast S128 (extractStridedSlice S1x128 off B hs) hc) hc' = bAt B l := by
  funext y
  obtain ⟨u, k, rfl⟩ : ∃ (u : Fin 1) (k : Fin 128), y = ix2 u k := ⟨y 0, y 1, eq_ix2 y⟩
  rw [shapeCast_a_1a_apply, shapeCast_1a_a_apply]
  refine (extractStridedSlice_apply off B hs (ix2 (0 : Fin 1) k) (ix2 l k) (fun a => ?_)).trans rfl
  match a with
  | ⟨0, _⟩ => show l.val = off 0 + 0; rw [h0, Nat.add_zero]
  | ⟨1, _⟩ => show k.val = off 1 + k.val; rw [h1, Nat.zero_add]

variable (W : Valuation τ sig (Elt Ideal))

theorem v84 : StableHlo.after (hostOps5 (F := Ideal)) W (Proc.devRef .tc main_v84) = meanOf (W (Proc.devRef .tc main_v82_1)) := by
  refine Eq.trans ?_ (div_eq_meanOf (W (Proc.devRef .tc main_v82_1)) bcast_S_S1x128)
  after_results
  all_goals rfl

theorem v91 : StableHlo.after (hostOps5 (F := Ideal)) W (Proc.devRef .tc main_v91) = rstdOf (varK (W (Proc.devRef .tc main_v82_1)) (W (Proc.devRef .tc main_v82_2))) := by
  refine Eq.trans ?_ (chain_eq_rstdOf (W (Proc.devRef .tc main_v82_1)) (W (Proc.devRef .tc main_v82_2)) bcast_S_S1x128)
  after_results
  all_goals rfl

theorem v94 : StableHlo.after (hostOps5 (F := Ideal)) W (Proc.devRef .tc main_v94) = bAt (W (Proc.devRef .tc main_arg9)) 1 := by
  refine Eq.trans ?_ (row_eq_bAt (W (Proc.devRef .tc main_arg9)) 1 ![1, 0] rfl rfl
    slices_S3x128_S1x128_1_0 shapeCasts_S1x128_S128 shapeCasts_S128_S1x128)
  after_results
  all_goals rfl

theorem v97 : StableHlo.after (hostOps5 (F := Ideal)) W (Proc.devRef .tc main_v97) = bAt (W (Proc.devRef .tc main_arg10)) 1 := by
  refine Eq.trans ?_ (row_eq_bAt (W (Proc.devRef .tc main_arg10)) 1 ![1, 0] rfl rfl
    slices_S3x128_S1x128_1_0 shapeCasts_S1x128_S128 shapeCasts_S128_S1x128)
  after_results
  all_goals rfl

end Cert.KernelIdeal.Host5

end
-- ==== Proof.KHost6.lean ====
/-
  The host operations before the per-graph sums of layer 2: the edge aggregation of the layer's input features
  (the source words wrapped, the rows gathered, then added into a zero array at the destination words), and row 2
  of the three biases, each as a [1, 128] array.
-/
import proofs.«417352_j66855460929770_1_alg».proof.Proof.Gen.KernelIdeal.Frame
import proofs.«417352_j66855460929770_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic
import proofs.«417352_j66855460929770_1_alg».proof.Proof.KAggr

noncomputable section

open Idealize.ShloMosaic Idealize.ShloMosaic.TcCoe Idealize.SL.Sem
open Idealize.ShloMosaic.Pipeline (Dat)

namespace Cert.KernelIdeal.Host6

open Cert.KernelIdeal Cert.KernelIdeal.Gen Cert.Gnn Idealize.ShloMosaic.StableHlo Idealize.ShloMosaic.ValueIdx

/-- Row l of a [3, 128] parameter cut out as a [1, 128] block (offset o = l on the rows), flattened to [128] and made
    a [1, 128] array again: at (u, k) the flattening reads the block at (0, k), the block reads the parameter at
    (o + 0, k), so the whole is the parameter's row l whatever the unit coordinate u. -/
theorem bias_row (l : Fin 3) (o : Nat) (ho : l.val = o) (B : FVec Ideal S3x128 .f32)
    (hs : S3x128.Slices ![o, 0] S1x128) (h1 : S1x128.ShapeCasts S128) (h2 : S128.ShapeCasts S1x128) :
    shapeCast S1x128 (shapeCast S128 (extractStridedSlice S1x128 ![o, 0] B hs) h1) h2 = bAt B l := by
  funext y
  obtain ⟨u, k, rfl⟩ : ∃ (u : Fin 1) (k : Fin 128), y = ix2 u k := ⟨y 0, y 1, eq_ix2 y⟩
  unfold bAt
  rw [mk2_ix2, shapeCast_a_1a_apply, shapeCast_1a_a_apply,
    slice2_axis0_apply o B hs (0 : Fin 1) k l (by rw [ho]; rfl)]

variable (W : Valuation τ sig (Elt Ideal))

theorem v108 : StableHlo.after (hostOps6 (F := Ideal)) W (Proc.devRef .tc main_v108)
    = aggrSD (W (Proc.devRef .tc main_v98)) (W (Proc.devRef .tc main_v2)) (W (Proc.devRef .tc main_v4)) := by
  show StableHlo.after (hostOps6 (F := Ideal)) W (Proc.devRef .tc main_v108) = _
  after_results_simp
  exact Aggr.aggr_read _ _ _

theorem v111 : StableHlo.after (hostOps6 (F := Ideal)) W (Proc.devRef .tc main_v111) = bAt (W (Proc.devRef .tc main_arg4)) 2 := by
  show StableHlo.after (hostOps6 (F := Ideal)) W (Proc.devRef .tc main_v111) = _
  after_results_simp
  exact bias_row 2 2 rfl _ _ _ _

theorem v114 : StableHlo.after (hostOps6 (F := Ideal)) W (Proc.devRef .tc main_v114) = bAt (W (Proc.devRef .tc main_arg6)) 2 := by
  show StableHlo.after (hostOps6 (F := Ideal)) W (Proc.devRef .tc main_v114) = _
  after_results_simp
  exact bias_row 2 2 rfl _ _ _ _

theorem v117 : StableHlo.after (hostOps6 (F := Ideal)) W (Proc.devRef .tc main_v117) = bAt (W (Proc.devRef .tc main_arg8)) 2 := by
  show StableHlo.after (hostOps6 (F := Ideal)) W (Proc.devRef .tc main_v117) = _
  after_results_simp
  exact bias_row 2 2 rfl _ _ _ _

end Cert.KernelIdeal.Host6

end
-- ==== Proof.KHost7.lean ====
/-
  The host operations before combine region of layer 2: each of the three weight arrays [3, 128, 128] is sliced at
  layer 2 and reshaped to [128, 128].
-/
import proofs.«417352_j66855460929770_1_alg».proof.Proof.Gen.KernelIdeal.Launch
import proofs.«417352_j66855460929770_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Host7

open Cert.KernelIdeal Cert.KernelIdeal.Gen Cert.Gnn Idealize.ShloMosaic.StableHlo
open Idealize.ShloMosaic.ValueIdx

/-- The slab of a [3, 128, 128] array at layer l, a [1, 128, 128] array, with its unit axis dropped is layer l's
    matrix: entry (i, j) of the result is entry (0, i, j) of the slab, which is entry (l, i, j) of the array. The
    slice's offsets are any triple that is (l, 0, 0). -/
theorem slab_eq_wAt (X : FVec Ideal S3x128x128 .f32) (l : Fin 3) (off : Fin 3 → ℕ)
    (h0 : off 0 = l.val) (h1 : off 1 = 0) (h2 : off 2 = 0)
    (hs : S3x128x128.Slices off S1x128x128) (hc : S1x128x128.ShapeCasts S128x128) :
    shapeCast S128x128 (extractStridedSlice S1x128x128 off X hs) hc = wAt X l := by
  funext y
  obtain ⟨i, j, rfl⟩ : ∃ (i : Fin 128) (j : Fin 128), y = ix2 i j := ⟨y 0, y 1, eq_ix2 y⟩
  rw [shapeCast_1ab_ab_apply]
  refine (extractStridedSlice_apply off X hs (ix3 (0 : Fin 1) i j) (ix3 l i j) (fun a => ?_)).trans rfl
  match a with
  | ⟨0, _⟩ => show l.val = off 0 + 0; rw [h0, Nat.add_zero]
  | ⟨1, _⟩ => show i.val = off 1 + i.val; rw [h1, Nat.zero_add]
  | ⟨2, _⟩ => show j.val = off 2 + j.val; rw [h2, Nat.zero_add]

variable (W : Valuation τ sig (Elt Ideal))

theorem v120 : StableHlo.after (hostOps7 (F := Ideal)) W (Proc.devRef .tc main_v120) = wAt (W (Proc.devRef .tc main_arg3)) 2 := by
  refine Eq.trans ?_ (slab_eq_wAt (W (Proc.devRef .tc main_arg3)) 2 ![2, 0, 0] rfl rfl rfl
    slices_S3x128x128_S1x128x128_2_0_0 shapeCasts_S1x128x128_S128x128)
  after_results
  all_goals rfl

theorem v122 : StableHlo.after (hostOps7 (F := Ideal)) W (Proc.devRef .tc main_v122) = wAt (W (Proc.devRef .tc main_arg5)) 2 := by
  refine Eq.trans ?_ (slab_eq_wAt (W (Proc.devRef .tc main_arg5)) 2 ![2, 0, 0] rfl rfl rfl
    slices_S3x128x128_S1x128x128_2_0_0 shapeCasts_S1x128x128_S128x128)
  after_results
  all_goals rfl

theorem v124 : StableHlo.after (hostOps7 (F := Ideal)) W (Proc.devRef .tc main_v124) = wAt (W (Proc.devRef .tc main_arg7)) 2 := by
  refine Eq.trans ?_ (slab_eq_wAt (W (Proc.devRef .tc main_arg7)) 2 ![2, 0, 0] rfl rfl rfl
    slices_S3x128x128_S1x128x128_2_0_0 shapeCasts_S1x128x128_S128x128)
  after_results
  all_goals rfl

end Cert.KernelIdeal.Host7

end
-- ==== Proof.KHost8.lean ====
/-
  The host operations between the combine and the normalize region of layer 2: from the column sums s and the
  column sums of squares ss, mean = s / 50000, var = ss / 50000 - mean * mean, rstd = rsqrt (var + eps); and row 2
  of the scale and of the shift, each as a [1, 128] array.
-/
import proofs.«417352_j66855460929770_1_alg».proof.Proof.Gen.KernelIdeal.Launch
import proofs.«417352_j66855460929770_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Host8

open Cert.KernelIdeal Cert.KernelIdeal.Gen Cert.Gnn Idealize.ShloMosaic.StableHlo
open Idealize.ShloMosaic.ValueIdx

/-- The column sums divided entry by entry by the row count, the constant 50000 spread over the row, are the mean:
    at (0, k) both are s(0, k) / 50000 on the extended reals. -/
theorem div_eq_meanOf (s : FVec Ideal S1x128 .f32) (hb : S_.BroadcastsInDim S1x128 (![] : Fin 0 → Fin S1x128.rank)) :
    Host.divf s (broadcastInDim S1x128 ![] hb (constant (F := Ideal) S_ .f32 0x47435000#32)) = meanOf s := by
  funext y
  obtain ⟨u, k, rfl⟩ : ∃ (u : Fin 1) (k : Fin 128), y = ix2 u k := ⟨y 0, y 1, eq_ix2 y⟩
  obtain rfl : u = 0 := Subsingleton.elim _ _
  rfl

/-- The chain rsqrt ((ss / 50000 - (s / 50000) * (s / 50000)) + eps), each operation entry by entry and each constant
    spread over the row, is the reciprocal standard deviation of the variance taken as the mean of squares minus the
    squared mean: at (0, k) both sides are the same expression in s(0, k) and ss(0, k) on the extended reals. -/
theorem chain_eq_rstdOf (s ss : FVec Ideal S1x128 .f32) (hb : S_.BroadcastsInDim S1x128 (![] : Fin 0 → Fin S1x128.rank)) :
    Host.rsqrt (addf (subf (Host.divf ss (broadcastInDim S1x128 ![] hb (constant (F := Ideal) S_ .f32 0x47435000#32)))
        (mulf (Host.divf s (broadcastInDim S1x128 ![] hb (constant (F := Ideal) S_ .f32 0x47435000#32)))
              (Host.divf s (broadcastInDim S1x128 ![] hb (constant (F := Ideal) S_ .f32 0x47435000#32)))))
      (broadcastInDim S1x128 ![] hb (constant (F := Ideal) S_ .f32 0x3727C5AC#32)))
    = rstdOf (varK s ss) := by
  funext y
  obtain ⟨u, k, rfl⟩ : ∃ (u : Fin 1) (k : Fin 128), y = ix2 u k := ⟨y 0, y 1, eq_ix2 y⟩
  obtain rfl : u = 0 := Subsingleton.elim _ _
  rfl

/-- Row l of a [3, 128] array, taken as a [1, 128] slice, flattened to [128] and given its unit axis back, is layer
    l's row: entry (0, k) of the result is entry k of the flat vector, which is entry (0, k) of the slice, which is
    entry (l, k) of the array. The slice's offsets are any pair that is (l, 0). -/
theorem row_eq_bAt (B : FVec Ideal S3x128 .f32) (l : Fin 3) (off : Fin 2 → ℕ)
    (h0 : off 0 = l.val) (h1 : off 1 = 0)
    (hs : S3x128.Slices off S1x128) (hc : S1x128.ShapeCasts S128) (hc' : S128.ShapeCasts S1x128) :
    shapeCast S1x128 (shapeCast S128 (extractStridedSlice S1x128 off B hs) hc) hc' = bAt B l := by
  funext y
  obtain ⟨u, k, rfl⟩ : ∃ (u : Fin 1) (k : Fin 128), y = ix2 u k := ⟨y 0, y 1, eq_ix2 y⟩
  rw [shapeCast_a_1a_apply, shapeCast_1a_a_apply]
  refine (extractStridedSlice_apply off B hs (ix2 (0 : Fin 1) k) (ix2 l k) (fun a => ?_)).trans rfl
  match a with
  | ⟨0, _⟩ => show l.val = off 0 + 0; rw [h0, Nat.add_zero]
  | ⟨1, _⟩ => show k.val = off 1 + k.val; rw [h1, Nat.zero_add]

variable (W : Valuation τ sig (Elt Ideal))

theorem v127 : StableHlo.after (hostOps8 (F := Ideal)) W (Proc.devRef .tc main_v127) = meanOf (W (Proc.devRef .tc main_v125_1)) := by
  refine Eq.trans ?_ (div_eq_meanOf (W (Proc.devRef .tc main_v125_1)) bcast_S_S1x128)
  after_results
  all_goals rfl

theorem v134 : StableHlo.after (hostOps8 (F := Ideal)) W (Proc.devRef .tc main_v134) = rstdOf (varK (W (Proc.devRef .tc main_v125_1)) (W (Proc.devRef .tc main_v125_2))) := by
  refine Eq.trans ?_ (chain_eq_rstdOf (W (Proc.devRef .tc main_v125_1)) (W (Proc.devRef .tc main_v125_2)) bcast_S_S1x128)
  after_results
  all_goals rfl

theorem v137 : StableHlo.after (hostOps8 (F := Ideal)) W (Proc.devRef .tc main_v137) = bAt (W (Proc.devRef .tc main_arg9)) 2 := by
  refine Eq.trans ?_ (row_eq_bAt (W (Proc.devRef .tc main_arg9)) 2 ![2, 0] rfl rfl
    slices_S3x128_S1x128_2_0 shapeCasts_S1x128_S128 shapeCasts_S128_S1x128)
  after_results
  all_goals rfl

theorem v140 : StableHlo.after (hostOps8 (F := Ideal)) W (Proc.devRef .tc main_v140) = bAt (W (Proc.devRef .tc main_arg10)) 2 := by
  refine Eq.trans ?_ (row_eq_bAt (W (Proc.devRef .tc main_arg10)) 2 ![2, 0] rfl rfl
    slices_S3x128_S1x128_2_0 shapeCasts_S1x128_S128 shapeCasts_S128_S1x128)
  after_results
  all_goals rfl

end Cert.KernelIdeal.Host8

end
-- ==== Proof.KStitch.lean ====
import proofs.«417352_j66855460929770_1_alg».proof.Proof.KRun
import proofs.«417352_j66855460929770_1_alg».proof.Proof.Carry
import proofs.«417352_j66855460929770_1_alg».proof.Proof.KReg0
import proofs.«417352_j66855460929770_1_alg».proof.Proof.KReg1
import proofs.«417352_j66855460929770_1_alg».proof.Proof.KReg2
import proofs.«417352_j66855460929770_1_alg».proof.Proof.KReg3
import proofs.«417352_j66855460929770_1_alg».proof.Proof.KReg4
import proofs.«417352_j66855460929770_1_alg».proof.Proof.KReg5
import proofs.«417352_j66855460929770_1_alg».proof.Proof.KReg6
import proofs.«417352_j66855460929770_1_alg».proof.Proof.KReg7
import proofs.«417352_j66855460929770_1_alg».proof.Proof.KReg8
import proofs.«417352_j66855460929770_1_alg».proof.Proof.KReg9
import proofs.«417352_j66855460929770_1_alg».proof.Proof.KHostP
import proofs.«417352_j66855460929770_1_alg».proof.Proof.KHost1
import proofs.«417352_j66855460929770_1_alg».proof.Proof.KHost2
import proofs.«417352_j66855460929770_1_alg».proof.Proof.KHost3
import proofs.«417352_j66855460929770_1_alg».proof.Proof.KHost4
import proofs.«417352_j66855460929770_1_alg».proof.Proof.KHost5
import proofs.«417352_j66855460929770_1_alg».proof.Proof.KHost6
import proofs.«417352_j66855460929770_1_alg».proof.Proof.KHost7
import proofs.«417352_j66855460929770_1_alg».proof.Proof.KHost8

set_option maxRecDepth 16384

noncomputable section

open Idealize.ShloMosaic Idealize.ShloMosaic.TcCoe Idealize.SL.Sem

namespace Cert.KernelIdeal.Stitch

open Cert.KernelIdeal Cert.KernelIdeal.Gen Cert.Gnn

variable (m : (ℓ : Loc nD τ sig) → Buf (Elt Ideal) ℓ) (ρ : Dev nD → PrngReg)

abbrev aX (c : Dev nD) : FVec Ideal SNI .f32 := (m ((c : Thread nD τ).loc main_arg0))
abbrev aEi (c : Dev nD) : IVec S2E 32 := (m ((c : Thread nD τ).loc main_arg1))
abbrev aBatch (c : Dev nD) : IVec SN 32 := (m ((c : Thread nD τ).loc main_arg2))
abbrev aVw (c : Dev nD) : FVec Ideal S3HH .f32 := (m ((c : Thread nD τ).loc main_arg3))
abbrev aVb (c : Dev nD) : FVec Ideal S3H .f32 := (m ((c : Thread nD τ).loc main_arg4))
abbrev aAw (c : Dev nD) : FVec Ideal S3HH .f32 := (m ((c : Thread nD τ).loc main_arg5))
abbrev aAb (c : Dev nD) : FVec Ideal S3H .f32 := (m ((c : Thread nD τ).loc main_arg6))
abbrev aRw (c : Dev nD) : FVec Ideal S3HH .f32 := (m ((c : Thread nD τ).loc main_arg7))
abbrev aRb (c : Dev nD) : FVec Ideal S3H .f32 := (m ((c : Thread nD τ).loc main_arg8))
abbrev aGam (c : Dev nD) : FVec Ideal S3H .f32 := (m ((c : Thread nD τ).loc main_arg9))
abbrev aBet (c : Dev nD) : FVec Ideal S3H .f32 := (m ((c : Thread nD τ).loc main_arg10))
abbrev aLw (c : Dev nD) : FVec Ideal S2H .f32 := (m ((c : Thread nD τ).loc main_arg11))
abbrev aLb (c : Dev nD) : FVec Ideal S2 .f32 := (m ((c : Thread nD τ).loc main_arg12))

theorem at0 (c : Dev nD) (b : Ref sig .tc) : W0 m ρ c (Proc.devRef .tc b) = m ((c : Thread nD τ).loc b) := rfl

theorem at2_v0 (c : Dev nD) : W2 m ρ c (Proc.devRef .tc main_v0) = padX (aX m c) :=
  (HostP.v0 (W0 m ρ c)).trans (by rw [at0])

theorem at3_v0' (c : Dev nD) : W3 m ρ c (Proc.devRef .tc main_v0) = padX (aX m c) :=
  (keep_v0_2_3 m ρ c).trans (at2_v0 m ρ c)

theorem at2_arg (c : Dev nD) :
    W2 m ρ c (Proc.devRef .tc main_arg1) = aEi m c ∧ W2 m ρ c (Proc.devRef .tc main_arg2) = aBatch m c
    ∧ W2 m ρ c (Proc.devRef .tc main_arg12) = aLb m c ∧ W2 m ρ c (Proc.devRef .tc main_arg4) = aVb m c
    ∧ W2 m ρ c (Proc.devRef .tc main_arg6) = aAb m c ∧ W2 m ρ c (Proc.devRef .tc main_arg8) = aRb m c :=
  ⟨keep_arg1_0_2 m ρ c, keep_arg2_0_2 m ρ c, keep_arg12_0_2 m ρ c, keep_arg4_0_2 m ρ c, keep_arg6_0_2 m ρ c, keep_arg8_0_2 m ρ c⟩

theorem at3_v2' (c : Dev nD) : W3 m ρ c (Proc.devRef .tc main_v2) = eiRow (aEi m c) 0 :=
  (HostP.v2 (W2 m ρ c)).trans (by rw [(at2_arg m ρ c).1])

theorem at3_v4' (c : Dev nD) : W3 m ρ c (Proc.devRef .tc main_v4) = eiRow (aEi m c) 1 :=
  (HostP.v4 (W2 m ρ c)).trans (by rw [(at2_arg m ρ c).1])

theorem at3_v11' (c : Dev nD) : W3 m ρ c (Proc.devRef .tc main_v11) = onehot (aBatch m c) :=
  (HostP.v11 (W2 m ρ c)).trans (by rw [(at2_arg m ρ c).2.1])

theorem at3_v12' (c : Dev nD) : W3 m ρ c (Proc.devRef .tc main_v12) = row2 (aLb m c) :=
  (HostP.v12 (W2 m ρ c)).trans (by rw [(at2_arg m ρ c).2.2.1])

theorem at3_v22 (c : Dev nD) : W3 m ρ c (Proc.devRef .tc main_v22) = aggr (padX (aX m c)) (aEi m c) :=
  (HostP.v22 (W2 m ρ c)).trans (by rw [at2_v0, (at2_arg m ρ c).1]; rfl)

theorem at3_v25 (c : Dev nD) : W3 m ρ c (Proc.devRef .tc main_v25) = bAt (aVb m c) 0 :=
  (HostP.v25 (W2 m ρ c)).trans (by rw [(at2_arg m ρ c).2.2.2.1])

theorem at3_v28 (c : Dev nD) : W3 m ρ c (Proc.devRef .tc main_v28) = bAt (aAb m c) 0 :=
  (HostP.v28 (W2 m ρ c)).trans (by rw [(at2_arg m ρ c).2.2.2.2.1])

theorem at3_v31 (c : Dev nD) : W3 m ρ c (Proc.devRef .tc main_v31) = bAt (aRb m c) 0 :=
  (HostP.v31 (W2 m ρ c)).trans (by rw [(at2_arg m ρ c).2.2.2.2.2])

theorem at4_v32 (c : Dev nD) : W4 m ρ c (Proc.devRef .tc main_v32) = graphSum (padX (aX m c)) (onehot (aBatch m c)) :=
  (W4_arr m ρ c 2).trans ((Val0.reg0_out (V3 m ρ) c).trans (by
    show graphSum (W3 m ρ c (Proc.devRef .tc main_v0)) (W3 m ρ c (Proc.devRef .tc main_v11)) = _
    rw [at3_v0', at3_v11']))

theorem at5_w (c : Dev nD) :
    W5 m ρ c (Proc.devRef .tc main_v34) = wAt (aVw m c) 0 ∧ W5 m ρ c (Proc.devRef .tc main_v36) = wAt (aAw m c) 0
    ∧ W5 m ρ c (Proc.devRef .tc main_v38) = wAt (aRw m c) 0 :=
  ⟨(Host1.v34 (W4 m ρ c)).trans (by rw [keep_arg3_0_4]), (Host1.v36 (W4 m ρ c)).trans (by rw [keep_arg5_0_4]),
   (Host1.v38 (W4 m ρ c)).trans (by rw [keep_arg7_0_4])⟩

abbrev act0 (c : Dev nD) : FVec Ideal SNH .f32 :=
  actK 0 (padX (aX m c)) (aEi m c) (aBatch m c) (aVw m c) (aVb m c) (aAw m c) (aAb m c) (aRw m c) (aRb m c)

theorem act1_eq (c : Dev nD) : Val1.act1 (V5 m ρ) c = act0 m c := by
  show relu (pre (W5 m ρ c (Proc.devRef .tc main_v0)) (W5 m ρ c (Proc.devRef .tc main_v22))
      (readoutK (W5 m ρ c (Proc.devRef .tc main_v11)) (W5 m ρ c (Proc.devRef .tc main_v32)))
      (W5 m ρ c (Proc.devRef .tc main_v34)) (W5 m ρ c (Proc.devRef .tc main_v36)) (W5 m ρ c (Proc.devRef .tc main_v38))
      (W5 m ρ c (Proc.devRef .tc main_v25)) (W5 m ρ c (Proc.devRef .tc main_v28)) (W5 m ρ c (Proc.devRef .tc main_v31))) = _
  rw [keep_v0_2_5, at2_v0, keep_v22_3_5, at3_v22, keep_v11_3_5, at3_v11', keep_v32_4_5, at4_v32,
    (at5_w m ρ c).1, (at5_w m ρ c).2.1, (at5_w m ρ c).2.2, keep_v25_3_5, at3_v25, keep_v28_3_5, at3_v28, keep_v31_3_5, at3_v31]
  rfl

theorem at6 (c : Dev nD) :
    W6 m ρ c (Proc.devRef .tc main_v39_0) = act0 m c ∧ W6 m ρ c (Proc.devRef .tc main_v39_1) = colSum (act0 m c)
    ∧ W6 m ρ c (Proc.devRef .tc main_v39_2) = colSumSq (act0 m c) :=
  ⟨(W6_arr m ρ c 10).trans ((Val1.reg1_out10 (V5 m ρ) c).trans (act1_eq m ρ c)),
   (W6_arr m ρ c 11).trans ((Val1.reg1_out11 (V5 m ρ) c).trans (by rw [act1_eq])),
   (W6_arr m ρ c 12).trans ((Val1.reg1_out12 (V5 m ρ) c).trans (by rw [act1_eq]))⟩

theorem at7 (c : Dev nD) :
    W7 m ρ c (Proc.devRef .tc main_v41) = meanOf (colSum (act0 m c))
    ∧ W7 m ρ c (Proc.devRef .tc main_v48) = rstdOf (varK (colSum (act0 m c)) (colSumSq (act0 m c)))
    ∧ W7 m ρ c (Proc.devRef .tc main_v51) = bAt (aGam m c) 0 ∧ W7 m ρ c (Proc.devRef .tc main_v54) = bAt (aBet m c) 0 :=
  ⟨(Host2.v41 (W6 m ρ c)).trans (by rw [(at6 m ρ c).2.1]),
   (Host2.v48 (W6 m ρ c)).trans (by rw [(at6 m ρ c).2.1, (at6 m ρ c).2.2]),
   (Host2.v51 (W6 m ρ c)).trans (by rw [keep_arg9_0_6]), (Host2.v54 (W6 m ρ c)).trans (by rw [keep_arg10_0_6])⟩

theorem at8_v55' (c : Dev nD) : W8 m ρ c (Proc.devRef .tc main_v55)
    = layerK 0 (padX (aX m c)) (aEi m c) (aBatch m c) (aVw m c) (aVb m c) (aAw m c) (aAb m c) (aRw m c) (aRb m c) (aGam m c) (aBet m c) :=
  (W8_arr m ρ c 5).trans ((Val2.reg2_out (V7 m ρ) c).trans (by
    show normalize (W7 m ρ c (Proc.devRef .tc main_v39_0)) (W7 m ρ c (Proc.devRef .tc main_v41)) (W7 m ρ c (Proc.devRef .tc main_v48))
      (W7 m ρ c (Proc.devRef .tc main_v51)) (W7 m ρ c (Proc.devRef .tc main_v54)) = _
    rw [keep_v39_0_6_7, (at6 m ρ c).1, (at7 m ρ c).1, (at7 m ρ c).2.1, (at7 m ρ c).2.2.1, (at7 m ρ c).2.2.2]
    rfl))

abbrev fK1 (c : Dev nD) : FVec Ideal SNH .f32 := layerK 0 (padX (aX m c)) (aEi m c) (aBatch m c) (aVw m c) (aVb m c) (aAw m c) (aAb m c) (aRw m c) (aRb m c) (aGam m c) (aBet m c)

theorem at9_L1 (c : Dev nD) :
    W9 m ρ c (Proc.devRef .tc main_v65) = aggr (fK1 m c) (aEi m c) ∧ W9 m ρ c (Proc.devRef .tc main_v68) = bAt (aVb m c) 1
    ∧ W9 m ρ c (Proc.devRef .tc main_v71) = bAt (aAb m c) 1 ∧ W9 m ρ c (Proc.devRef .tc main_v74) = bAt (aRb m c) 1 :=
  ⟨(Host3.v65 (W8 m ρ c)).trans (by rw [at8_v55', keep_v2_3_8, at3_v2', keep_v4_3_8, at3_v4']; rfl),
   (Host3.v68 (W8 m ρ c)).trans (by rw [keep_arg4_0_8]),
   (Host3.v71 (W8 m ρ c)).trans (by rw [keep_arg6_0_8]),
   (Host3.v74 (W8 m ρ c)).trans (by rw [keep_arg8_0_8])⟩

theorem at10_gs1 (c : Dev nD) : W10 m ρ c (Proc.devRef .tc main_v75) = graphSum (fK1 m c) (onehot (aBatch m c)) :=
  (W10_arr m ρ c 2).trans ((Val3.reg3_out (V9 m ρ) c).trans (by
    show graphSum (W9 m ρ c (Proc.devRef .tc main_v55)) (W9 m ρ c (Proc.devRef .tc main_v11)) = _
    rw [keep_v55_8_9, at8_v55', keep_v11_3_9, at3_v11']))

theorem at11_w1 (c : Dev nD) :
    W11 m ρ c (Proc.devRef .tc main_v77) = wAt (aVw m c) 1 ∧ W11 m ρ c (Proc.devRef .tc main_v79) = wAt (aAw m c) 1
    ∧ W11 m ρ c (Proc.devRef .tc main_v81) = wAt (aRw m c) 1 :=
  ⟨(Host4.v77 (W10 m ρ c)).trans (by rw [keep_arg3_0_10]), (Host4.v79 (W10 m ρ c)).trans (by rw [keep_arg5_0_10]),
   (Host4.v81 (W10 m ρ c)).trans (by rw [keep_arg7_0_10])⟩

abbrev actL1 (c : Dev nD) : FVec Ideal SNH .f32 :=
  actK 1 (fK1 m c) (aEi m c) (aBatch m c) (aVw m c) (aVb m c) (aAw m c) (aAb m c) (aRw m c) (aRb m c)

theorem act4_eq (c : Dev nD) : Val4.act4 (V11 m ρ) c = actL1 m c := by
  show relu (pre (W11 m ρ c (Proc.devRef .tc main_v55)) (W11 m ρ c (Proc.devRef .tc main_v65))
      (readoutK (W11 m ρ c (Proc.devRef .tc main_v11)) (W11 m ρ c (Proc.devRef .tc main_v75)))
      (W11 m ρ c (Proc.devRef .tc main_v77)) (W11 m ρ c (Proc.devRef .tc main_v79)) (W11 m ρ c (Proc.devRef .tc main_v81))
      (W11 m ρ c (Proc.devRef .tc main_v68)) (W11 m ρ c (Proc.devRef .tc main_v71)) (W11 m ρ c (Proc.devRef .tc main_v74))) = _
  rw [keep_v55_8_11, at8_v55', keep_v65_9_11, (at9_L1 m ρ c).1, keep_v11_3_11, at3_v11',
    keep_v75_10_11, at10_gs1, (at11_w1 m ρ c).1, (at11_w1 m ρ c).2.1, (at11_w1 m ρ c).2.2,
    keep_v68_9_11, (at9_L1 m ρ c).2.1, keep_v71_9_11, (at9_L1 m ρ c).2.2.1,
    keep_v74_9_11, (at9_L1 m ρ c).2.2.2]
  rfl

theorem at12_L1 (c : Dev nD) :
    W12 m ρ c (Proc.devRef .tc main_v82_0) = actL1 m c ∧ W12 m ρ c (Proc.devRef .tc main_v82_1) = colSum (actL1 m c)
    ∧ W12 m ρ c (Proc.devRef .tc main_v82_2) = colSumSq (actL1 m c) :=
  ⟨(W12_arr m ρ c 10).trans ((Val4.reg4_out10 (V11 m ρ) c).trans (act4_eq m ρ c)),
   (W12_arr m ρ c 11).trans ((Val4.reg4_out11 (V11 m ρ) c).trans (by rw [act4_eq])),
   (W12_arr m ρ c 12).trans ((Val4.reg4_out12 (V11 m ρ) c).trans (by rw [act4_eq]))⟩

theorem at13_L1 (c : Dev nD) :
    W13 m ρ c (Proc.devRef .tc main_v84) = meanOf (colSum (actL1 m c))
    ∧ W13 m ρ c (Proc.devRef .tc main_v91) = rstdOf (varK (colSum (actL1 m c)) (colSumSq (actL1 m c)))
    ∧ W13 m ρ c (Proc.devRef .tc main_v94) = bAt (aGam m c) 1 ∧ W13 m ρ c (Proc.devRef .tc main_v97) = bAt (aBet m c) 1 :=
  ⟨(Host5.v84 (W12 m ρ c)).trans (by rw [(at12_L1 m ρ c).2.1]),
   (Host5.v91 (W12 m ρ c)).trans (by rw [(at12_L1 m ρ c).2.1, (at12_L1 m ρ c).2.2]),
   (Host5.v94 (W12 m ρ c)).trans (by rw [keep_arg9_0_12]), (Host5.v97 (W12 m ρ c)).trans (by rw [keep_arg10_0_12])⟩

theorem at14_v98' (c : Dev nD) : W14 m ρ c (Proc.devRef .tc main_v98)
    = layerK 1 (fK1 m c) (aEi m c) (aBatch m c) (aVw m c) (aVb m c) (aAw m c) (aAb m c) (aRw m c) (aRb m c) (aGam m c) (aBet m c) :=
  (W14_arr m ρ c 5).trans ((Val5.reg5_out (V13 m ρ) c).trans (by
    show normalize (W13 m ρ c (Proc.devRef .tc main_v82_0)) (W13 m ρ c (Proc.devRef .tc main_v84)) (W13 m ρ c (Proc.devRef .tc main_v91))
      (W13 m ρ c (Proc.devRef .tc main_v94)) (W13 m ρ c (Proc.devRef .tc main_v97)) = _
    rw [keep_v82_0_12_13, (at12_L1 m ρ c).1, (at13_L1 m ρ c).1, (at13_L1 m ρ c).2.1, (at13_L1 m ρ c).2.2.1, (at13_L1 m ρ c).2.2.2]
    rfl))

abbrev fK2 (c : Dev nD) : FVec Ideal SNH .f32 := layerK 1 (fK1 m c) (aEi m c) (aBatch m c) (aVw m c) (aVb m c) (aAw m c) (aAb m c) (aRw m c) (aRb m c) (aGam m c) (aBet m c)

theorem at15_L2 (c : Dev nD) :
    W15 m ρ c (Proc.devRef .tc main_v108) = aggr (fK2 m c) (aEi m c) ∧ W15 m ρ c (Proc.devRef .tc main_v111) = bAt (aVb m c) 2
    ∧ W15 m ρ c (Proc.devRef .tc main_v114) = bAt (aAb m c) 2 ∧ W15 m ρ c (Proc.devRef .tc main_v117) = bAt (aRb m c) 2 :=
  ⟨(Host6.v108 (W14 m ρ c)).trans (by rw [at14_v98', keep_v2_3_14, at3_v2', keep_v4_3_14, at3_v4']; rfl),
   (Host6.v111 (W14 m ρ c)).trans (by rw [keep_arg4_0_14]),
   (Host6.v114 (W14 m ρ c)).trans (by rw [keep_arg6_0_14]),
   (Host6.v117 (W14 m ρ c)).trans (by rw [keep_arg8_0_14])⟩

theorem at16_gs2 (c : Dev nD) : W16 m ρ c (Proc.devRef .tc main_v118) = graphSum (fK2 m c) (onehot (aBatch m c)) :=
  (W16_arr m ρ c 2).trans ((Val6.reg6_out (V15 m ρ) c).trans (by
    show graphSum (W15 m ρ c (Proc.devRef .tc main_v98)) (W15 m ρ c (Proc.devRef .tc main_v11)) = _
    rw [keep_v98_14_15, at14_v98', keep_v11_3_15, at3_v11']))

theorem at17_w2 (c : Dev nD) :
    W17 m ρ c (Proc.devRef .tc main_v120) = wAt (aVw m c) 2 ∧ W17 m ρ c (Proc.devRef .tc main_v122) = wAt (aAw m c) 2
    ∧ W17 m ρ c (Proc.devRef .tc main_v124) = wAt (aRw m c) 2 :=
  ⟨(Host7.v120 (W16 m ρ c)).trans (by rw [keep_arg3_0_16]), (Host7.v122 (W16 m ρ c)).trans (by rw [keep_arg5_0_16]),
   (Host7.v124 (W16 m ρ c)).trans (by rw [keep_arg7_0_16])⟩

abbrev actL2 (c : Dev nD) : FVec Ideal SNH .f32 :=
  actK 2 (fK2 m c) (aEi m c) (aBatch m c) (aVw m c) (aVb m c) (aAw m c) (aAb m c) (aRw m c) (aRb m c)

theorem act7_eq (c : Dev nD) : Val7.act7 (V17 m ρ) c = actL2 m c := by
  show relu (pre (W17 m ρ c (Proc.devRef .tc main_v98)) (W17 m ρ c (Proc.devRef .tc main_v108))
      (readoutK (W17 m ρ c (Proc.devRef .tc main_v11)) (W17 m ρ c (Proc.devRef .tc main_v118)))
      (W17 m ρ c (Proc.devRef .tc main_v120)) (W17 m ρ c (Proc.devRef .tc main_v122)) (W17 m ρ c (Proc.devRef .tc main_v124))
      (W17 m ρ c (Proc.devRef .tc main_v111)) (W17 m ρ c (Proc.devRef .tc main_v114)) (W17 m ρ c (Proc.devRef .tc main_v117))) = _
  rw [keep_v98_14_17, at14_v98', keep_v108_15_17, (at15_L2 m ρ c).1, keep_v11_3_17, at3_v11',
    keep_v118_16_17, at16_gs2, (at17_w2 m ρ c).1, (at17_w2 m ρ c).2.1, (at17_w2 m ρ c).2.2,
    keep_v111_15_17, (at15_L2 m ρ c).2.1, keep_v114_15_17, (at15_L2 m ρ c).2.2.1,
    keep_v117_15_17, (at15_L2 m ρ c).2.2.2]
  rfl

theorem at18_L2 (c : Dev nD) :
    W18 m ρ c (Proc.devRef .tc main_v125_0) = actL2 m c ∧ W18 m ρ c (Proc.devRef .tc main_v125_1) = colSum (actL2 m c)
    ∧ W18 m ρ c (Proc.devRef .tc main_v125_2) = colSumSq (actL2 m c) :=
  ⟨(W18_arr m ρ c 10).trans ((Val7.reg7_out10 (V17 m ρ) c).trans (act7_eq m ρ c)),
   (W18_arr m ρ c 11).trans ((Val7.reg7_out11 (V17 m ρ) c).trans (by rw [act7_eq])),
   (W18_arr m ρ c 12).trans ((Val7.reg7_out12 (V17 m ρ) c).trans (by rw [act7_eq]))⟩

theorem at19_L2 (c : Dev nD) :
    W19 m ρ c (Proc.devRef .tc main_v127) = meanOf (colSum (actL2 m c))
    ∧ W19 m ρ c (Proc.devRef .tc main_v134) = rstdOf (varK (colSum (actL2 m c)) (colSumSq (actL2 m c)))
    ∧ W19 m ρ c (Proc.devRef .tc main_v137) = bAt (aGam m c) 2 ∧ W19 m ρ c (Proc.devRef .tc main_v140) = bAt (aBet m c) 2 :=
  ⟨(Host8.v127 (W18 m ρ c)).trans (by rw [(at18_L2 m ρ c).2.1]),
   (Host8.v134 (W18 m ρ c)).trans (by rw [(at18_L2 m ρ c).2.1, (at18_L2 m ρ c).2.2]),
   (Host8.v137 (W18 m ρ c)).trans (by rw [keep_arg9_0_18]), (Host8.v140 (W18 m ρ c)).trans (by rw [keep_arg10_0_18])⟩

theorem at20_v141' (c : Dev nD) : W20 m ρ c (Proc.devRef .tc main_v141)
    = layerK 2 (fK2 m c) (aEi m c) (aBatch m c) (aVw m c) (aVb m c) (aAw m c) (aAb m c) (aRw m c) (aRb m c) (aGam m c) (aBet m c) :=
  (W20_arr m ρ c 5).trans ((Val8.reg8_out (V19 m ρ) c).trans (by
    show normalize (W19 m ρ c (Proc.devRef .tc main_v125_0)) (W19 m ρ c (Proc.devRef .tc main_v127)) (W19 m ρ c (Proc.devRef .tc main_v134))
      (W19 m ρ c (Proc.devRef .tc main_v137)) (W19 m ρ c (Proc.devRef .tc main_v140)) = _
    rw [keep_v125_0_18_19, (at18_L2 m ρ c).1, (at19_L2 m ρ c).1, (at19_L2 m ρ c).2.1, (at19_L2 m ρ c).2.2.1, (at19_L2 m ρ c).2.2.2]
    rfl))

theorem result_eq' (c : Dev nD) :
    W21 m ρ c (Proc.devRef .tc main_v142)
      = netK (aX m c) (aEi m c) (aBatch m c) (aVw m c) (aVb m c) (aAw m c) (aAb m c) (aRw m c) (aRb m c)
          (aGam m c) (aBet m c) (aLw m c) (aLb m c) :=
  (W21_arr m ρ c 3).trans ((Val9.reg9_out (V20 m ρ) c).trans (by
    show head12 (W20 m ρ c (Proc.devRef .tc main_v141)) (W20 m ρ c (Proc.devRef .tc main_arg11)) (W20 m ρ c (Proc.devRef .tc main_v12)) = _
    rw [at20_v141', keep_arg11_0_20, keep_v12_3_20, at3_v12', head12_row2]
    rfl))

theorem run : θ_run defs (onTc (τ := τ) (main (F := Ideal))) ⟨m, fun _ => 0, ρ⟩ (fun r => ∀ c : Dev nD,
      r.2.mem ((c.tc : Thread nD τ).loc main_v142)
        = netK (aX m c) (aEi m c) (aBatch m c) (aVw m c) (aVb m c) (aAw m c) (aAb m c) (aRw m c) (aRb m c)
            (aGam m c) (aBet m c) (aLw m c) (aLb m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans (result_eq' m ρ c), (h c).2⟩) (run_named (F := Ideal) m ρ)

end Cert.KernelIdeal.Stitch

end
-- ==== Proof.RefOps.lean ====
import proofs.«417352_j66855460929770_1_alg».proof.Proof.Gen.ReferenceIdeal
import Idealize.ShloMosaic.Lib.StableHlo.Run
import Idealize.ShloMosaic.Lib.Pipeline.Frame

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  ( nullary main_c (constantI S_ 32 0#32)
  :: TRef.unary (TRef.of (T := ⟨S_, .i32⟩) main_c) (TRef.of (T := ⟨S_, .f32⟩) main_call0_v0) (sitofp .f32)
  :: TRef.binary (TRef.of (T := ⟨S50000x64, .f32⟩) main_arg0) (TRef.of (T := ⟨S_, .f32⟩) main_call0_v0) (TRef.of (T := ⟨S50000x128, .f32⟩) main_v0) (fun x v => pad S50000x128 ![0, 0] ![0, 64] ![0, 0] x v pads_S50000x64_S50000x128_000_0640 h_S_)
  :: unary main_arg1 main_v1 ((extractStridedSlice S1x800000 ![0, 0] · slices_S2x800000_S1x800000_0_0) : (⟨S2x800000, .i32⟩ : BufTy).Contents (Elt F) → (⟨S1x800000, .i32⟩ : BufTy).Contents (Elt F))
  :: reshape main_v1 main_v2 rfl shapeCasts_S1x800000_S800000
  :: unary main_arg1 main_v3 ((extractStridedSlice S1x800000 ![1, 0] · slices_S2x800000_S1x800000_1_0) : (⟨S2x800000, .i32⟩ : BufTy).Contents (Elt F) → (⟨S1x800000, .i32⟩ : BufTy).Contents (Elt F))
  :: reshape main_v3 main_v4 rfl shapeCasts_S1x800000_S800000
  :: nullary main_c_0 (constantI S_ 32 0#32)
  :: unary main_c_0 main_v5 (broadcastInDim S800000 ![] bcast_S_S800000 : (⟨S_, .i32⟩ : BufTy).Contents (Elt F) → (⟨S800000, .i32⟩ : BufTy).Contents (Elt F))
  :: binary main_v2 main_v5 main_v6 (cmpi .slt : (⟨S800000, .i32⟩ : BufTy).Contents (Elt F) → (⟨S800000, .i32⟩ : BufTy).Contents (Elt F) → (⟨S800000, .i1⟩ : BufTy).Contents (Elt F))
  :: nullary main_c_1 (constantI S_ 32 50000#32)
  :: unary main_c_1 main_v7 (broadcastInDim S800000 ![] bcast_S_S800000 : (⟨S_, .i32⟩ : BufTy).Contents (Elt F) → (⟨S800000, .i32⟩ : BufTy).Contents (Elt F))
  :: binary main_v2 main_v7 main_v8 (addi : (⟨S800000, .i32⟩ : BufTy).Contents (Elt F) → (⟨S800000, .i32⟩ : BufTy).Contents (Elt F) → (⟨S800000, .i32⟩ : BufTy).Contents (Elt F))
  :: ternary main_v6 main_v8 main_v2 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: unary main_v9 main_v10 (broadcastInDim S800000x1 ![0] bcast_S800000_S800000x1_0 : (⟨S800000, .i32⟩ : BufTy).Contents (Elt F) → (⟨S800000x1, .i32⟩ : BufTy).Contents (Elt F))
  :: binary main_v0 main_v10 main_v11 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: nullary main_cst (constant S_ .f32 0x00000000#32)
  :: unary main_cst main_v12 (broadcastInDim S50000x128 ![] bcast_S_S50000x128 : (⟨S_, .f32⟩ : BufTy).Contents (Elt F) → (⟨S50000x128, .f32⟩ : BufTy).Contents (Elt F))
  :: unary main_v4 main_v13 (broadcastInDim S800000x1 ![0] bcast_S800000_S800000x1_0 : (⟨S800000, .i32⟩ : BufTy).Contents (Elt F) → (⟨S800000x1, .i32⟩ : BufTy).Contents (Elt F))
  :: ternary main_v12 main_v13 main_v11 main_v14 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: nullary main_cst_2 (constant S_ .f32 0x00000000#32)
  :: unary main_cst_2 main_v15 (broadcastInDim S64x128 ![] bcast_S_S64x128 : (⟨S_, .f32⟩ : BufTy).Contents (Elt F) → (⟨S64x128, .f32⟩ : BufTy).Contents (Elt F))
  :: unary main_arg2 main_v16 (broadcastInDim S50000x1 ![0] bcast_S50000_S50000x1_0 : (⟨S50000, .i32⟩ : BufTy).Contents (Elt F) → (⟨S50000x1, .i32⟩ : BufTy).Contents (Elt F))
  :: ternary main_v15 main_v16 main_v0 main_v17 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F))
  :: nullary main_c_3 (constantI S_ 32 0#32)
  :: unary main_c_3 main_v18 (broadcastInDim S50000 ![] bcast_S_S50000 : (⟨S_, .i32⟩ : BufTy).Contents (Elt F) → (⟨S50000, .i32⟩ : BufTy).Contents (Elt F))
  :: binary main_arg2 main_v18 main_v19 (cmpi .slt : (⟨S50000, .i32⟩ : BufTy).Contents (Elt F) → (⟨S50000, .i32⟩ : BufTy).Contents (Elt F) → (⟨S50000, .i1⟩ : BufTy).Contents (Elt F))
  :: nullary main_c_4 (constantI S_ 32 64#32)
  :: unary main_c_4 main_v20 (broadcastInDim S50000 ![] bcast_S_S50000 : (⟨S_, .i32⟩ : BufTy).Contents (Elt F) → (⟨S50000, .i32⟩ : BufTy).Contents (Elt F))
  :: binary main_arg2 main_v20 main_v21 (addi : (⟨S50000, .i32⟩ : BufTy).Contents (Elt F) → (⟨S50000, .i32⟩ : BufTy).Contents (Elt F) → (⟨S50000, .i32⟩ : BufTy).Contents (Elt F))
  :: ternary main_v19 main_v21 main_arg2 main_v22 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: unary main_v22 main_v23 (broadcastInDim S50000x1 ![0] bcast_S50000_S50000x1_0 : (⟨S50000, .i32⟩ : BufTy).Contents (Elt F) → (⟨S50000x1, .i32⟩ : BufTy).Contents (Elt F))
  :: binary main_v17 main_v23 main_v24 ((fun x i => Host.gather gather_S64x128_S50000x1_S50000x128_1_0_n_n_0_1_1128 x i) : (⟨S64x128, .f32⟩ : BufTy).Contents (Elt F) → (⟨S50000x1, .i32⟩ : BufTy).Contents (Elt F) → (⟨S50000x128, .f32⟩ : BufTy).Contents (Elt F))
  :: unary main_arg3 main_v25 ((extractStridedSlice S1x128x128 ![0, 0, 0] · slices_S3x128x128_S1x128x128_0_0_0) : (⟨S3x128x128, .f32⟩ : BufTy).Contents (Elt F) → (⟨S1x128x128, .f32⟩ : BufTy).Contents (Elt F))
  :: reshape main_v25 main_v26 rfl shapeCasts_S1x128x128_S128x128
  :: unary main_v26 main_v27 ((transpose S128x128 [1, 0] · transposes_S128x128_S128x128_1_0) : (⟨S128x128, .f32⟩ : BufTy).Contents (Elt F) → (⟨S128x128, .f32⟩ : BufTy).Contents (Elt F))
  :: binary main_v0 main_v27 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: unary main_arg4 main_v29 ((extractStridedSlice S1x128 ![0, 0] · slices_S3x128_S1x128_0_0) : (⟨S3x128, .f32⟩ : BufTy).Contents (Elt F) → (⟨S1x128, .f32⟩ : BufTy).Contents (Elt F))
  :: reshape main_v29 main_v30 rfl shapeCasts_S1x128_S128
  :: unary main_v30 main_v31 (broadcastInDim S1x128 ![1] bcast_S128_S1x128_1 : (⟨S128, .f32⟩ : BufTy).Contents (Elt F) → (⟨S1x128, .f32⟩ : BufTy).Contents (Elt F))
  :: unary main_v31 main_v32 (broadcastInDim S50000x128 ![0, 1] bcast_S1x128_S50000x128_0_1 : (⟨S1x128, .f32⟩ : BufTy).Contents (Elt F) → (⟨S50000x128, .f32⟩ : BufTy).Contents (Elt F))
  :: binary main_v28 main_v32 main_v33 (addf : (⟨S50000x128, .f32⟩ : BufTy).Contents (Elt F) → (⟨S50000x128, .f32⟩ : BufTy).Contents (Elt F) → (⟨S50000x128, .f32⟩ : BufTy).Contents (Elt F))
  :: unary main_arg5 main_v34 ((extractStridedSlice S1x128x128 ![0, 0, 0] · slices_S3x128x128_S1x128x128_0_0_0) : (⟨S3x128x128, .f32⟩ : BufTy).Contents (Elt F) → (⟨S1x128x128, .f32⟩ : BufTy).Contents (Elt F))
  :: reshape main_v34 main_v35 rfl shapeCasts_S1x128x128_S128x128
  :: unary main_v35 main_v36 ((transpose S128x128 [1, 0] · transposes_S128x128_S128x128_1_0) : (⟨S128x128, .f32⟩ : BufTy).Contents (Elt F) → (⟨S128x128, .f32⟩ : BufTy).Contents (Elt F))
  :: binary main_v14 main_v36 main_v37 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: binary main_v33 main_v37 main_v38 (addf : (⟨S50000x128, .f32⟩ : BufTy).Contents (Elt F) → (⟨S50000x128, .f32⟩ : BufTy).Contents (Elt F) → (⟨S50000x128, .f32⟩ : BufTy).Contents (Elt F))
  :: unary main_arg6 main_v39 ((extractStridedSlice S1x128 ![0, 0] · slices_S3x128_S1x128_0_0) : (⟨S3x128, .f32⟩ : BufTy).Contents (Elt F) → (⟨S1x128, .f32⟩ : BufTy).Contents (Elt F))
  :: reshape main_v39 main_v40 rfl shapeCasts_S1x128_S128
  :: unary main_v40 main_v41 (broadcastInDim S1x128 ![1] bcast_S128_S1x128_1 : (⟨S128, .f32⟩ : BufTy).Contents (Elt F) → (⟨S1x128, .f32⟩ : BufTy).Contents (Elt F))
  :: unary main_v41 main_v42 (broadcastInDim S50000x128 ![0, 1] bcast_S1x128_S50000x128_0_1 : (⟨S1x128, .f32⟩ : BufTy).Contents (Elt F) → (⟨S50000x128, .f32⟩ : BufTy).Contents (Elt F))
  :: binary main_v38 main_v42 main_v43 (addf : (⟨S50000x128, .f32⟩ : BufTy).Contents (Elt F) → (⟨S50000x128, .f32⟩ : BufTy).Contents (Elt F) → (⟨S50000x128, .f32⟩ : BufTy).Contents (Elt F))
  :: unary main_arg7 main_v44 ((extractStridedSlice S1x128x128 ![0, 0, 0] · slices_S3x128x128_S1x128x128_0_0_0) : (⟨S3x128x128, .f32⟩ : BufTy).Contents (Elt F) → (⟨S1x128x128, .f32⟩ : BufTy).Contents (Elt F))
  :: reshape main_v44 main_v45 rfl shapeCasts_S1x128x128_S128x128
  :: unary main_v45 main_v46 ((transpose S128x128 [1, 0] · transposes_S128x128_S128x128_1_0) : (⟨S128x128, .f32⟩ : BufTy).Contents (Elt F) → (⟨S128x128, .f32⟩ : BufTy).Contents (Elt F))
  :: binary main_v24 main_v46 main_v47 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: binary main_v43 main_v47 main_v48 (addf : (⟨S50000x128, .f32⟩ : BufTy).Contents (Elt F) → (⟨S50000x128, .f32⟩ : BufTy).Contents (Elt F) → (⟨S50000x128, .f32⟩ : BufTy).Contents (Elt F))
  :: unary main_arg8 main_v49 ((extractStridedSlice S1x128 ![0, 0] · slices_S3x128_S1x128_0_0) : (⟨S3x128, .f32⟩ : BufTy).Contents (Elt F) → (⟨S1x128, .f32⟩ : BufTy).Contents (Elt F))
  :: reshape main_v49 main_v50 rfl shapeCasts_S1x128_S128
  :: unary main_v50 main_v51 (broadcastInDim S1x128 ![1] bcast_S128_S1x128_1 : (⟨S128, .f32⟩ : BufTy).Contents (Elt F) → (⟨S1x128, .f32⟩ : BufTy).Contents (Elt F))
  :: unary main_v51 main_v52 (broadcastInDim S50000x128 ![0, 1] bcast_S1x128_S50000x128_0_1 : (⟨S1x128, .f32⟩ : BufTy).Contents (Elt F) → (⟨S50000x128, .f32⟩ : BufTy).Contents (Elt F))
  :: binary main_v48 main_v52 main_v53 (addf : (⟨S50000x128, .f32⟩ : BufTy).Contents (Elt F) → (⟨S50000x128, .f32⟩ : BufTy).Contents (Elt F) → (⟨S50000x128, .f32⟩ : BufTy).Contents (Elt F))
  :: TRef.nullary (TRef.of (T := ⟨S_, .f32⟩) main_call1_cst) (constant S_ .f32 0x00000000#32)
  :: TRef.unary (TRef.of (T := ⟨S_, .f32⟩) main_call1_cst) (TRef.of (T := ⟨S50000x128, .f32⟩) main_call1_v0) (broadcastInDim S50000x128 ![] bcast_S_S50000x128)
  :: TRef.binary (TRef.of (T := ⟨S50000x128, .f32⟩) main_v53) (TRef.of (T := ⟨S50000x128, .f32⟩) main_call1_v0) (TRef.of (T := ⟨S50000x128, .f32⟩) main_v54) maximumf
  :: [] )
theorem ops0_sub : (ops0 : List (HloOp τ sig (Elt F))).Forall fun op => op.bufs ⊆ tcRefs τ sig :=
  ⟨nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., nullary_bufs_sub .., unary_bufs_sub .., binary_bufs_sub ..⟩

abbrev ops1 : List (HloOp τ sig (Elt F)) :=
  ( nullary main_cst_5 (constant S_ .f32 0x00000000#32)
  :: binary main_v54 main_cst_5 main_v55 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: nullary main_cst_6 (constant S_ .f32 0x47435000#32)
  :: unary main_cst_6 main_v56 (broadcastInDim S128 ![] bcast_S_S128 : (⟨S_, .f32⟩ : BufTy).Contents (Elt F) → (⟨S128, .f32⟩ : BufTy).Contents (Elt F))
  :: binary main_v55 main_v56 main_v57 (Host.divf : (⟨S128, .f32⟩ : BufTy).Contents (Elt F) → (⟨S128, .f32⟩ : BufTy).Contents (Elt F) → (⟨S128, .f32⟩ : BufTy).Contents (Elt F))
  :: unary main_v57 main_v58 (broadcastInDim S1x128 ![1] bcast_S128_S1x128_1 : (⟨S128, .f32⟩ : BufTy).Contents (Elt F) → (⟨S1x128, .f32⟩ : BufTy).Contents (Elt F))
  :: unary main_v58 main_v59 (broadcastInDim S50000x128 ![0, 1] bcast_S1x128_S50000x128_0_1 : (⟨S1x128, .f32⟩ : BufTy).Contents (Elt F) → (⟨S50000x128, .f32⟩ : BufTy).Contents (Elt F))
  :: binary main_v54 main_v59 main_v60 (subf : (⟨S50000x128, .f32⟩ : BufTy).Contents (Elt F) → (⟨S50000x128, .f32⟩ : BufTy).Contents (Elt F) → (⟨S50000x128, .f32⟩ : BufTy).Contents (Elt F))
  :: binary main_v60 main_v60 main_v61 (mulf : (⟨S50000x128, .f32⟩ : BufTy).Contents (Elt F) → (⟨S50000x128, .f32⟩ : BufTy).Contents (Elt F) → (⟨S50000x128, .f32⟩ : BufTy).Contents (Elt F))
  :: nullary main_cst_7 (constant S_ .f32 0x00000000#32)
  :: binary main_v61 main_cst_7 main_v62 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: nullary main_cst_8 (constant S_ .f32 0x47435000#32)
  :: unary main_cst_8 main_v63 (broadcastInDim S128 ![] bcast_S_S128 : (⟨S_, .f32⟩ : BufTy).Contents (Elt F) → (⟨S128, .f32⟩ : BufTy).Contents (Elt F))
  :: binary main_v62 main_v63 main_v64 (Host.divf : (⟨S128, .f32⟩ : BufTy).Contents (Elt F) → (⟨S128, .f32⟩ : BufTy).Contents (Elt F) → (⟨S128, .f32⟩ : BufTy).Contents (Elt F))
  :: unary main_v57 main_v65 (broadcastInDim S1x128 ![1] bcast_S128_S1x128_1 : (⟨S128, .f32⟩ : BufTy).Contents (Elt F) → (⟨S1x128, .f32⟩ : BufTy).Contents (Elt F))
  :: unary main_v65 main_v66 (broadcastInDim S50000x128 ![0, 1] bcast_S1x128_S50000x128_0_1 : (⟨S1x128, .f32⟩ : BufTy).Contents (Elt F) → (⟨S50000x128, .f32⟩ : BufTy).Contents (Elt F))
  :: binary main_v54 main_v66 main_v67 (subf : (⟨S50000x128, .f32⟩ : BufTy).Contents (Elt F) → (⟨S50000x128, .f32⟩ : BufTy).Contents (Elt F) → (⟨S50000x128, .f32⟩ : BufTy).Contents (Elt F))
  :: nullary main_cst_9 (constant S_ .f32 0x3727C5AC#32)
  :: unary main_cst_9 main_v68 (broadcastInDim S128 ![] bcast_S_S128 : (⟨S_, .f32⟩ : BufTy).Contents (Elt F) → (⟨S128, .f32⟩ : BufTy).Contents (Elt F))
  :: binary main_v64 main_v68 main_v69 (addf : (⟨S128, .f32⟩ : BufTy).Contents (Elt F) → (⟨S128, .f32⟩ : BufTy).Contents (Elt F) → (⟨S128, .f32⟩ : BufTy).Contents (Elt F))
  :: unary main_v69 main_v70 (Host.rsqrt : (⟨S128, .f32⟩ : BufTy).Contents (Elt F) → (⟨S128, .f32⟩ : BufTy).Contents (Elt F))
  :: unary main_v70 main_v71 (broadcastInDim S1x128 ![1] bcast_S128_S1x128_1 : (⟨S128, .f32⟩ : BufTy).Contents (Elt F) → (⟨S1x128, .f32⟩ : BufTy).Contents (Elt F))
  :: unary main_v71 main_v72 (broadcastInDim S50000x128 ![0, 1] bcast_S1x128_S50000x128_0_1 : (⟨S1x128, .f32⟩ : BufTy).Contents (Elt F) → (⟨S50000x128, .f32⟩ : BufTy).Contents (Elt F))
  :: binary main_v67 main_v72 main_v73 (mulf : (⟨S50000x128, .f32⟩ : BufTy).Contents (Elt F) → (⟨S50000x128, .f32⟩ : BufTy).Contents (Elt F) → (⟨S50000x128, .f32⟩ : BufTy).Contents (Elt F))
  :: unary main_arg9 main_v74 ((extractStridedSlice S1x128 ![0, 0] · slices_S3x128_S1x128_0_0) : (⟨S3x128, .f32⟩ : BufTy).Contents (Elt F) → (⟨S1x128, .f32⟩ : BufTy).Contents (Elt F))
  :: reshape main_v74 main_v75 rfl shapeCasts_S1x128_S128
  :: unary main_v75 main_v76 (broadcastInDim S1x128 ![1] bcast_S128_S1x128_1 : (⟨S128, .f32⟩ : BufTy).Contents (Elt F) → (⟨S1x128, .f32⟩ : BufTy).Contents (Elt F))
  :: unary main_v76 main_v77 (broadcastInDim S50000x128 ![0, 1] bcast_S1x128_S50000x128_0_1 : (⟨S1x128, .f32⟩ : BufTy).Contents (Elt F) → (⟨S50000x128, .f32⟩ : BufTy).Contents (Elt F))
  :: binary main_v73 main_v77 main_v78 (mulf : (⟨S50000x128, .f32⟩ : BufTy).Contents (Elt F) → (⟨S50000x128, .f32⟩ : BufTy).Contents (Elt F) → (⟨S50000x128, .f32⟩ : BufTy).Contents (Elt F))
  :: unary main_arg10 main_v79 ((extractStridedSlice S1x128 ![0, 0] · slices_S3x128_S1x128_0_0) : (⟨S3x128, .f32⟩ : BufTy).Contents (Elt F) → (⟨S1x128, .f32⟩ : BufTy).Contents (Elt F))
  :: reshape main_v79 main_v80 rfl shapeCasts_S1x128_S128
  :: unary main_v80 main_v81 (broadcastInDim S1x128 ![1] bcast_S128_S1x128_1 : (⟨S128, .f32⟩ : BufTy).Contents (Elt F) → (⟨S1x128, .f32⟩ : BufTy).Contents (Elt F))
  :: unary main_v81 main_v82 (broadcastInDim S50000x128 ![0, 1] bcast_S1x128_S50000x128_0_1 : (⟨S1x128, .f32⟩ : BufTy).Contents (Elt F) → (⟨S50000x128, .f32⟩ : BufTy).Contents (Elt F))
  :: binary main_v78 main_v82 main_v83 (addf : (⟨S50000x128, .f32⟩ : BufTy).Contents (Elt F) → (⟨S50000x128, .f32⟩ : BufTy).Contents (Elt F) → (⟨S50000x128, .f32⟩ : BufTy).Contents (Elt F))
  :: [] )
theorem ops1_sub : (ops1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩

abbrev ops2 : List (HloOp τ sig (Elt F)) :=
  ( nullary main_c_10 (constantI S_ 32 0#32)
  :: unary main_c_10 main_v84 (broadcastInDim S800000 ![] bcast_S_S800000 : (⟨S_, .i32⟩ : BufTy).Contents (Elt F) → (⟨S800000, .i32⟩ : BufTy).Contents (Elt F))
  :: binary main_v2 main_v84 main_v85 (cmpi .slt : (⟨S800000, .i32⟩ : BufTy).Contents (Elt F) → (⟨S800000, .i32⟩ : BufTy).Contents (Elt F) → (⟨S800000, .i1⟩ : BufTy).Contents (Elt F))
  :: nullary main_c_11 (constantI S_ 32 50000#32)
  :: unary main_c_11 main_v86 (broadcastInDim S800000 ![] bcast_S_S800000 : (⟨S_, .i32⟩ : BufTy).Contents (Elt F) → (⟨S800000, .i32⟩ : BufTy).Contents (Elt F))
  :: binary main_v2 main_v86 main_v87 (addi : (⟨S800000, .i32⟩ : BufTy).Contents (Elt F) → (⟨S800000, .i32⟩ : BufTy).Contents (Elt F) → (⟨S800000, .i32⟩ : BufTy).Contents (Elt F))
  :: ternary main_v85 main_v87 main_v2 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: unary main_v88 main_v89 (broadcastInDim S800000x1 ![0] bcast_S800000_S800000x1_0 : (⟨S800000, .i32⟩ : BufTy).Contents (Elt F) → (⟨S800000x1, .i32⟩ : BufTy).Contents (Elt F))
  :: binary main_v83 main_v89 main_v90 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: nullary main_cst_12 (constant S_ .f32 0x00000000#32)
  :: unary main_cst_12 main_v91 (broadcastInDim S50000x128 ![] bcast_S_S50000x128 : (⟨S_, .f32⟩ : BufTy).Contents (Elt F) → (⟨S50000x128, .f32⟩ : BufTy).Contents (Elt F))
  :: unary main_v4 main_v92 (broadcastInDim S800000x1 ![0] bcast_S800000_S800000x1_0 : (⟨S800000, .i32⟩ : BufTy).Contents (Elt F) → (⟨S800000x1, .i32⟩ : BufTy).Contents (Elt F))
  :: ternary main_v91 main_v92 main_v90 main_v93 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: nullary main_cst_13 (constant S_ .f32 0x00000000#32)
  :: unary main_cst_13 main_v94 (broadcastInDim S64x128 ![] bcast_S_S64x128 : (⟨S_, .f32⟩ : BufTy).Contents (Elt F) → (⟨S64x128, .f32⟩ : BufTy).Contents (Elt F))
  :: unary main_arg2 main_v95 (broadcastInDim S50000x1 ![0] bcast_S50000_S50000x1_0 : (⟨S50000, .i32⟩ : BufTy).Contents (Elt F) → (⟨S50000x1, .i32⟩ : BufTy).Contents (Elt F))
  :: ternary main_v94 main_v95 main_v83 main_v96 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F))
  :: nullary main_c_14 (constantI S_ 32 0#32)
  :: unary main_c_14 main_v97 (broadcastInDim S50000 ![] bcast_S_S50000 : (⟨S_, .i32⟩ : BufTy).Contents (Elt F) → (⟨S50000, .i32⟩ : BufTy).Contents (Elt F))
  :: binary main_arg2 main_v97 main_v98 (cmpi .slt : (⟨S50000, .i32⟩ : BufTy).Contents (Elt F) → (⟨S50000, .i32⟩ : BufTy).Contents (Elt F) → (⟨S50000, .i1⟩ : BufTy).Contents (Elt F))
  :: nullary main_c_15 (constantI S_ 32 64#32)
  :: unary main_c_15 main_v99 (broadcastInDim S50000 ![] bcast_S_S50000 : (⟨S_, .i32⟩ : BufTy).Contents (Elt F) → (⟨S50000, .i32⟩ : BufTy).Contents (Elt F))
  :: binary main_arg2 main_v99 main_v100 (addi : (⟨S50000, .i32⟩ : BufTy).Contents (Elt F) → (⟨S50000, .i32⟩ : BufTy).Contents (Elt F) → (⟨S50000, .i32⟩ : BufTy).Contents (Elt F))
  :: ternary main_v98 main_v100 main_arg2 main_v101 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: unary main_v101 main_v102 (broadcastInDim S50000x1 ![0] bcast_S50000_S50000x1_0 : (⟨S50000, .i32⟩ : BufTy).Contents (Elt F) → (⟨S50000x1, .i32⟩ : BufTy).Contents (Elt F))
  :: binary main_v96 main_v102 main_v103 ((fun x i => Host.gather gather_S64x128_S50000x1_S50000x128_1_0_n_n_0_1_1128 x i) : (⟨S64x128, .f32⟩ : BufTy).Contents (Elt F) → (⟨S50000x1, .i32⟩ : BufTy).Contents (Elt F) → (⟨S50000x128, .f32⟩ : BufTy).Contents (Elt F))
  :: unary main_arg3 main_v104 ((extractStridedSlice S1x128x128 ![1, 0, 0] · slices_S3x128x128_S1x128x128_1_0_0) : (⟨S3x128x128, .f32⟩ : BufTy).Contents (Elt F) → (⟨S1x128x128, .f32⟩ : BufTy).Contents (Elt F))
  :: reshape main_v104 main_v105 rfl shapeCasts_S1x128x128_S128x128
  :: unary main_v105 main_v106 ((transpose S128x128 [1, 0] · transposes_S128x128_S128x128_1_0) : (⟨S128x128, .f32⟩ : BufTy).Contents (Elt F) → (⟨S128x128, .f32⟩ : BufTy).Contents (Elt F))
  :: binary main_v83 main_v106 main_v107 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: unary main_arg4 main_v108 ((extractStridedSlice S1x128 ![1, 0] · slices_S3x128_S1x128_1_0) : (⟨S3x128, .f32⟩ : BufTy).Contents (Elt F) → (⟨S1x128, .f32⟩ : BufTy).Contents (Elt F))
  :: reshape main_v108 main_v109 rfl shapeCasts_S1x128_S128
  :: unary main_v109 main_v110 (broadcastInDim S1x128 ![1] bcast_S128_S1x128_1 : (⟨S128, .f32⟩ : BufTy).Contents (Elt F) → (⟨S1x128, .f32⟩ : BufTy).Contents (Elt F))
  :: unary main_v110 main_v111 (broadcastInDim S50000x128 ![0, 1] bcast_S1x128_S50000x128_0_1 : (⟨S1x128, .f32⟩ : BufTy).Contents (Elt F) → (⟨S50000x128, .f32⟩ : BufTy).Contents (Elt F))
  :: binary main_v107 main_v111 main_v112 (addf : (⟨S50000x128, .f32⟩ : BufTy).Contents (Elt F) → (⟨S50000x128, .f32⟩ : BufTy).Contents (Elt F) → (⟨S50000x128, .f32⟩ : BufTy).Contents (Elt F))
  :: unary main_arg5 main_v113 ((extractStridedSlice S1x128x128 ![1, 0, 0] · slices_S3x128x128_S1x128x128_1_0_0) : (⟨S3x128x128, .f32⟩ : BufTy).Contents (Elt F) → (⟨S1x128x128, .f32⟩ : BufTy).Contents (Elt F))
  :: reshape main_v113 main_v114 rfl shapeCasts_S1x128x128_S128x128
  :: unary main_v114 main_v115 ((transpose S128x128 [1, 0] · transposes_S128x128_S128x128_1_0) : (⟨S128x128, .f32⟩ : BufTy).Contents (Elt F) → (⟨S128x128, .f32⟩ : BufTy).Contents (Elt F))
  :: binary main_v93 main_v115 main_v116 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: binary main_v112 main_v116 main_v117 (addf : (⟨S50000x128, .f32⟩ : BufTy).Contents (Elt F) → (⟨S50000x128, .f32⟩ : BufTy).Contents (Elt F) → (⟨S50000x128, .f32⟩ : BufTy).Contents (Elt F))
  :: unary main_arg6 main_v118 ((extractStridedSlice S1x128 ![1, 0] · slices_S3x128_S1x128_1_0) : (⟨S3x128, .f32⟩ : BufTy).Contents (Elt F) → (⟨S1x128, .f32⟩ : BufTy).Contents (Elt F))
  :: reshape main_v118 main_v119 rfl shapeCasts_S1x128_S128
  :: unary main_v119 main_v120 (broadcastInDim S1x128 ![1] bcast_S128_S1x128_1 : (⟨S128, .f32⟩ : BufTy).Contents (Elt F) → (⟨S1x128, .f32⟩ : BufTy).Contents (Elt F))
  :: unary main_v120 main_v121 (broadcastInDim S50000x128 ![0, 1] bcast_S1x128_S50000x128_0_1 : (⟨S1x128, .f32⟩ : BufTy).Contents (Elt F) → (⟨S50000x128, .f32⟩ : BufTy).Contents (Elt F))
  :: binary main_v117 main_v121 main_v122 (addf : (⟨S50000x128, .f32⟩ : BufTy).Contents (Elt F) → (⟨S50000x128, .f32⟩ : BufTy).Contents (Elt F) → (⟨S50000x128, .f32⟩ : BufTy).Contents (Elt F))
  :: unary main_arg7 main_v123 ((extractStridedSlice S1x128x128 ![1, 0, 0] · slices_S3x128x128_S1x128x128_1_0_0) : (⟨S3x128x128, .f32⟩ : BufTy).Contents (Elt F) → (⟨S1x128x128, .f32⟩ : BufTy).Contents (Elt F))
  :: reshape main_v123 main_v124 rfl shapeCasts_S1x128x128_S128x128
  :: unary main_v124 main_v125 ((transpose S128x128 [1, 0] · transposes_S128x128_S128x128_1_0) : (⟨S128x128, .f32⟩ : BufTy).Contents (Elt F) → (⟨S128x128, .f32⟩ : BufTy).Contents (Elt F))
  :: binary main_v103 main_v125 main_v126 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: binary main_v122 main_v126 main_v127 (addf : (⟨S50000x128, .f32⟩ : BufTy).Contents (Elt F) → (⟨S50000x128, .f32⟩ : BufTy).Contents (Elt F) → (⟨S50000x128, .f32⟩ : BufTy).Contents (Elt F))
  :: unary main_arg8 main_v128 ((extractStridedSlice S1x128 ![1, 0] · slices_S3x128_S1x128_1_0) : (⟨S3x128, .f32⟩ : BufTy).Contents (Elt F) → (⟨S1x128, .f32⟩ : BufTy).Contents (Elt F))
  :: reshape main_v128 main_v129 rfl shapeCasts_S1x128_S128
  :: unary main_v129 main_v130 (broadcastInDim S1x128 ![1] bcast_S128_S1x128_1 : (⟨S128, .f32⟩ : BufTy).Contents (Elt F) → (⟨S1x128, .f32⟩ : BufTy).Contents (Elt F))
  :: unary main_v130 main_v131 (broadcastInDim S50000x128 ![0, 1] bcast_S1x128_S50000x128_0_1 : (⟨S1x128, .f32⟩ : BufTy).Contents (Elt F) → (⟨S50000x128, .f32⟩ : BufTy).Contents (Elt F))
  :: binary main_v127 main_v131 main_v132 (addf : (⟨S50000x128, .f32⟩ : BufTy).Contents (Elt F) → (⟨S50000x128, .f32⟩ : BufTy).Contents (Elt F) → (⟨S50000x128, .f32⟩ : BufTy).Contents (Elt F))
  :: TRef.nullary (TRef.of (T := ⟨S_, .f32⟩) main_call2_cst) (constant S_ .f32 0x00000000#32)
  :: TRef.unary (TRef.of (T := ⟨S_, .f32⟩) main_call2_cst) (TRef.of (T := ⟨S50000x128, .f32⟩) main_call2_v0) (broadcastInDim S50000x128 ![] bcast_S_S50000x128)
  :: TRef.binary (TRef.of (T := ⟨S50000x128, .f32⟩) main_v132) (TRef.of (T := ⟨S50000x128, .f32⟩) main_call2_v0) (TRef.of (T := ⟨S50000x128, .f32⟩) main_v133) maximumf
  :: [] )
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., nullary_bufs_sub .., unary_bufs_sub .., binary_bufs_sub ..⟩

abbrev ops3 : List (HloOp τ sig (Elt F)) :=
  ( nullary main_cst_16 (constant S_ .f32 0x00000000#32)
  :: binary main_v133 main_cst_16 main_v134 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: nullary main_cst_17 (constant S_ .f32 0x47435000#32)
  :: unary main_cst_17 main_v135 (broadcastInDim S128 ![] bcast_S_S128 : (⟨S_, .f32⟩ : BufTy).Contents (Elt F) → (⟨S128, .f32⟩ : BufTy).Contents (Elt F))
  :: binary main_v134 main_v135 main_v136 (Host.divf : (⟨S128, .f32⟩ : BufTy).Contents (Elt F) → (⟨S128, .f32⟩ : BufTy).Contents (Elt F) → (⟨S128, .f32⟩ : BufTy).Contents (Elt F))
  :: unary main_v136 main_v137 (broadcastInDim S1x128 ![1] bcast_S128_S1x128_1 : (⟨S128, .f32⟩ : BufTy).Contents (Elt F) → (⟨S1x128, .f32⟩ : BufTy).Contents (Elt F))
  :: unary main_v137 main_v138 (broadcastInDim S50000x128 ![0, 1] bcast_S1x128_S50000x128_0_1 : (⟨S1x128, .f32⟩ : BufTy).Contents (Elt F) → (⟨S50000x128, .f32⟩ : BufTy).Contents (Elt F))
  :: binary main_v133 main_v138 main_v139 (subf : (⟨S50000x128, .f32⟩ : BufTy).Contents (Elt F) → (⟨S50000x128, .f32⟩ : BufTy).Contents (Elt F) → (⟨S50000x128, .f32⟩ : BufTy).Contents (Elt F))
  :: binary main_v139 main_v139 main_v140 (mulf : (⟨S50000x128, .f32⟩ : BufTy).Contents (Elt F) → (⟨S50000x128, .f32⟩ : BufTy).Contents (Elt F) → (⟨S50000x128, .f32⟩ : BufTy).Contents (Elt F))
  :: nullary main_cst_18 (constant S_ .f32 0x00000000#32)
  :: binary main_v140 main_cst_18 main_v141 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: nullary main_cst_19 (constant S_ .f32 0x47435000#32)
  :: unary main_cst_19 main_v142 (broadcastInDim S128 ![] bcast_S_S128 : (⟨S_, .f32⟩ : BufTy).Contents (Elt F) → (⟨S128, .f32⟩ : BufTy).Contents (Elt F))
  :: binary main_v141 main_v142 main_v143 (Host.divf : (⟨S128, .f32⟩ : BufTy).Contents (Elt F) → (⟨S128, .f32⟩ : BufTy).Contents (Elt F) → (⟨S128, .f32⟩ : BufTy).Contents (Elt F))
  :: unary main_v136 main_v144 (broadcastInDim S1x128 ![1] bcast_S128_S1x128_1 : (⟨S128, .f32⟩ : BufTy).Contents (Elt F) → (⟨S1x128, .f32⟩ : BufTy).Contents (Elt F))
  :: unary main_v144 main_v145 (broadcastInDim S50000x128 ![0, 1] bcast_S1x128_S50000x128_0_1 : (⟨S1x128, .f32⟩ : BufTy).Contents (Elt F) → (⟨S50000x128, .f32⟩ : BufTy).Contents (Elt F))
  :: binary main_v133 main_v145 main_v146 (subf : (⟨S50000x128, .f32⟩ : BufTy).Contents (Elt F) → (⟨S50000x128, .f32⟩ : BufTy).Contents (Elt F) → (⟨S50000x128, .f32⟩ : BufTy).Contents (Elt F))
  :: nullary main_cst_20 (constant S_ .f32 0x3727C5AC#32)
  :: unary main_cst_20 main_v147 (broadcastInDim S128 ![] bcast_S_S128 : (⟨S_, .f32⟩ : BufTy).Contents (Elt F) → (⟨S128, .f32⟩ : BufTy).Contents (Elt F))
  :: binary main_v143 main_v147 main_v148 (addf : (⟨S128, .f32⟩ : BufTy).Contents (Elt F) → (⟨S128, .f32⟩ : BufTy).Contents (Elt F) → (⟨S128, .f32⟩ : BufTy).Contents (Elt F))
  :: unary main_v148 main_v149 (Host.rsqrt : (⟨S128, .f32⟩ : BufTy).Contents (Elt F) → (⟨S128, .f32⟩ : BufTy).Contents (Elt F))
  :: unary main_v149 main_v150 (broadcastInDim S1x128 ![1] bcast_S128_S1x128_1 : (⟨S128, .f32⟩ : BufTy).Contents (Elt F) → (⟨S1x128, .f32⟩ : BufTy).Contents (Elt F))
  :: unary main_v150 main_v151 (broadcastInDim S50000x128 ![0, 1] bcast_S1x128_S50000x128_0_1 : (⟨S1x128, .f32⟩ : BufTy).Contents (Elt F) → (⟨S50000x128, .f32⟩ : BufTy).Contents (Elt F))
  :: binary main_v146 main_v151 main_v152 (mulf : (⟨S50000x128, .f32⟩ : BufTy).Contents (Elt F) → (⟨S50000x128, .f32⟩ : BufTy).Contents (Elt F) → (⟨S50000x128, .f32⟩ : BufTy).Contents (Elt F))
  :: unary main_arg9 main_v153 ((extractStridedSlice S1x128 ![1, 0] · slices_S3x128_S1x128_1_0) : (⟨S3x128, .f32⟩ : BufTy).Contents (Elt F) → (⟨S1x128, .f32⟩ : BufTy).Contents (Elt F))
  :: reshape main_v153 main_v154 rfl shapeCasts_S1x128_S128
  :: unary main_v154 main_v155 (broadcastInDim S1x128 ![1] bcast_S128_S1x128_1 : (⟨S128, .f32⟩ : BufTy).Contents (Elt F) → (⟨S1x128, .f32⟩ : BufTy).Contents (Elt F))
  :: unary main_v155 main_v156 (broadcastInDim S50000x128 ![0, 1] bcast_S1x128_S50000x128_0_1 : (⟨S1x128, .f32⟩ : BufTy).Contents (Elt F) → (⟨S50000x128, .f32⟩ : BufTy).Contents (Elt F))
  :: binary main_v152 main_v156 main_v157 (mulf : (⟨S50000x128, .f32⟩ : BufTy).Contents (Elt F) → (⟨S50000x128, .f32⟩ : BufTy).Contents (Elt F) → (⟨S50000x128, .f32⟩ : BufTy).Contents (Elt F))
  :: unary main_arg10 main_v158 ((extractStridedSlice S1x128 ![1, 0] · slices_S3x128_S1x128_1_0) : (⟨S3x128, .f32⟩ : BufTy).Contents (Elt F) → (⟨S1x128, .f32⟩ : BufTy).Contents (Elt F))
  :: reshape main_v158 main_v159 rfl shapeCasts_S1x128_S128
  :: unary main_v159 main_v160 (broadcastInDim S1x128 ![1] bcast_S128_S1x128_1 : (⟨S128, .f32⟩ : BufTy).Contents (Elt F) → (⟨S1x128, .f32⟩ : BufTy).Contents (Elt F))
  :: unary main_v160 main_v161 (broadcastInDim S50000x128 ![0, 1] bcast_S1x128_S50000x128_0_1 : (⟨S1x128, .f32⟩ : BufTy).Contents (Elt F) → (⟨S50000x128, .f32⟩ : BufTy).Contents (Elt F))
  :: binary main_v157 main_v161 main_v162 (addf : (⟨S50000x128, .f32⟩ : BufTy).Contents (Elt F) → (⟨S50000x128, .f32⟩ : BufTy).Contents (Elt F) → (⟨S50000x128, .f32⟩ : BufTy).Contents (Elt F))
  :: [] )
theorem ops3_sub : (ops3 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩

abbrev ops4 : List (HloOp τ sig (Elt F)) :=
  ( nullary main_c_21 (constantI S_ 32 0#32)
  :: unary main_c_21 main_v163 (broadcastInDim S800000 ![] bcast_S_S800000 : (⟨S_, .i32⟩ : BufTy).Contents (Elt F) → (⟨S800000, .i32⟩ : BufTy).Contents (Elt F))
  :: binary main_v2 main_v163 main_v164 (cmpi .slt : (⟨S800000, .i32⟩ : BufTy).Contents (Elt F) → (⟨S800000, .i32⟩ : BufTy).Contents (Elt F) → (⟨S800000, .i1⟩ : BufTy).Contents (Elt F))
  :: nullary main_c_22 (constantI S_ 32 50000#32)
  :: unary main_c_22 main_v165 (broadcastInDim S800000 ![] bcast_S_S800000 : (⟨S_, .i32⟩ : BufTy).Contents (Elt F) → (⟨S800000, .i32⟩ : BufTy).Contents (Elt F))
  :: binary main_v2 main_v165 main_v166 (addi : (⟨S800000, .i32⟩ : BufTy).Contents (Elt F) → (⟨S800000, .i32⟩ : BufTy).Contents (Elt F) → (⟨S800000, .i32⟩ : BufTy).Contents (Elt F))
  :: ternary main_v164 main_v166 main_v2 main_v167 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: unary main_v167 main_v168 (broadcastInDim S800000x1 ![0] bcast_S800000_S800000x1_0 : (⟨S800000, .i32⟩ : BufTy).Contents (Elt F) → (⟨S800000x1, .i32⟩ : BufTy).Contents (Elt F))
  :: binary main_v162 main_v168 main_v169 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: nullary main_cst_23 (constant S_ .f32 0x00000000#32)
  :: unary main_cst_23 main_v170 (broadcastInDim S50000x128 ![] bcast_S_S50000x128 : (⟨S_, .f32⟩ : BufTy).Contents (Elt F) → (⟨S50000x128, .f32⟩ : BufTy).Contents (Elt F))
  :: unary main_v4 main_v171 (broadcastInDim S800000x1 ![0] bcast_S800000_S800000x1_0 : (⟨S800000, .i32⟩ : BufTy).Contents (Elt F) → (⟨S800000x1, .i32⟩ : BufTy).Contents (Elt F))
  :: ternary main_v170 main_v171 main_v169 main_v172 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: nullary main_cst_24 (constant S_ .f32 0x00000000#32)
  :: unary main_cst_24 main_v173 (broadcastInDim S64x128 ![] bcast_S_S64x128 : (⟨S_, .f32⟩ : BufTy).Contents (Elt F) → (⟨S64x128, .f32⟩ : BufTy).Contents (Elt F))
  :: unary main_arg2 main_v174 (broadcastInDim S50000x1 ![0] bcast_S50000_S50000x1_0 : (⟨S50000, .i32⟩ : BufTy).Contents (Elt F) → (⟨S50000x1, .i32⟩ : BufTy).Contents (Elt F))
  :: ternary main_v173 main_v174 main_v162 main_v175 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F))
  :: nullary main_c_25 (constantI S_ 32 0#32)
  :: unary main_c_25 main_v176 (broadcastInDim S50000 ![] bcast_S_S50000 : (⟨S_, .i32⟩ : BufTy).Contents (Elt F) → (⟨S50000, .i32⟩ : BufTy).Contents (Elt F))
  :: binary main_arg2 main_v176 main_v177 (cmpi .slt : (⟨S50000, .i32⟩ : BufTy).Contents (Elt F) → (⟨S50000, .i32⟩ : BufTy).Contents (Elt F) → (⟨S50000, .i1⟩ : BufTy).Contents (Elt F))
  :: nullary main_c_26 (constantI S_ 32 64#32)
  :: unary main_c_26 main_v178 (broadcastInDim S50000 ![] bcast_S_S50000 : (⟨S_, .i32⟩ : BufTy).Contents (Elt F) → (⟨S50000, .i32⟩ : BufTy).Contents (Elt F))
  :: binary main_arg2 main_v178 main_v179 (addi : (⟨S50000, .i32⟩ : BufTy).Contents (Elt F) → (⟨S50000, .i32⟩ : BufTy).Contents (Elt F) → (⟨S50000, .i32⟩ : BufTy).Contents (Elt F))
  :: ternary main_v177 main_v179 main_arg2 main_v180 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: unary main_v180 main_v181 (broadcastInDim S50000x1 ![0] bcast_S50000_S50000x1_0 : (⟨S50000, .i32⟩ : BufTy).Contents (Elt F) → (⟨S50000x1, .i32⟩ : BufTy).Contents (Elt F))
  :: binary main_v175 main_v181 main_v182 ((fun x i => Host.gather gather_S64x128_S50000x1_S50000x128_1_0_n_n_0_1_1128 x i) : (⟨S64x128, .f32⟩ : BufTy).Contents (Elt F) → (⟨S50000x1, .i32⟩ : BufTy).Contents (Elt F) → (⟨S50000x128, .f32⟩ : BufTy).Contents (Elt F))
  :: unary main_arg3 main_v183 ((extractStridedSlice S1x128x128 ![2, 0, 0] · slices_S3x128x128_S1x128x128_2_0_0) : (⟨S3x128x128, .f32⟩ : BufTy).Contents (Elt F) → (⟨S1x128x128, .f32⟩ : BufTy).Contents (Elt F))
  :: reshape main_v183 main_v184 rfl shapeCasts_S1x128x128_S128x128
  :: unary main_v184 main_v185 ((transpose S128x128 [1, 0] · transposes_S128x128_S128x128_1_0) : (⟨S128x128, .f32⟩ : BufTy).Contents (Elt F) → (⟨S128x128, .f32⟩ : BufTy).Contents (Elt F))
  :: binary main_v162 main_v185 main_v186 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: unary main_arg4 main_v187 ((extractStridedSlice S1x128 ![2, 0] · slices_S3x128_S1x128_2_0) : (⟨S3x128, .f32⟩ : BufTy).Contents (Elt F) → (⟨S1x128, .f32⟩ : BufTy).Contents (Elt F))
  :: reshape main_v187 main_v188 rfl shapeCasts_S1x128_S128
  :: unary main_v188 main_v189 (broadcastInDim S1x128 ![1] bcast_S128_S1x128_1 : (⟨S128, .f32⟩ : BufTy).Contents (Elt F) → (⟨S1x128, .f32⟩ : BufTy).Contents (Elt F))
  :: unary main_v189 main_v190 (broadcastInDim S50000x128 ![0, 1] bcast_S1x128_S50000x128_0_1 : (⟨S1x128, .f32⟩ : BufTy).Contents (Elt F) → (⟨S50000x128, .f32⟩ : BufTy).Contents (Elt F))
  :: binary main_v186 main_v190 main_v191 (addf : (⟨S50000x128, .f32⟩ : BufTy).Contents (Elt F) → (⟨S50000x128, .f32⟩ : BufTy).Contents (Elt F) → (⟨S50000x128, .f32⟩ : BufTy).Contents (Elt F))
  :: unary main_arg5 main_v192 ((extractStridedSlice S1x128x128 ![2, 0, 0] · slices_S3x128x128_S1x128x128_2_0_0) : (⟨S3x128x128, .f32⟩ : BufTy).Contents (Elt F) → (⟨S1x128x128, .f32⟩ : BufTy).Contents (Elt F))
  :: reshape main_v192 main_v193 rfl shapeCasts_S1x128x128_S128x128
  :: unary main_v193 main_v194 ((transpose S128x128 [1, 0] · transposes_S128x128_S128x128_1_0) : (⟨S128x128, .f32⟩ : BufTy).Contents (Elt F) → (⟨S128x128, .f32⟩ : BufTy).Contents (Elt F))
  :: binary main_v172 main_v194 main_v195 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: binary main_v191 main_v195 main_v196 (addf : (⟨S50000x128, .f32⟩ : BufTy).Contents (Elt F) → (⟨S50000x128, .f32⟩ : BufTy).Contents (Elt F) → (⟨S50000x128, .f32⟩ : BufTy).Contents (Elt F))
  :: unary main_arg6 main_v197 ((extractStridedSlice S1x128 ![2, 0] · slices_S3x128_S1x128_2_0) : (⟨S3x128, .f32⟩ : BufTy).Contents (Elt F) → (⟨S1x128, .f32⟩ : BufTy).Contents (Elt F))
  :: reshape main_v197 main_v198 rfl shapeCasts_S1x128_S128
  :: unary main_v198 main_v199 (broadcastInDim S1x128 ![1] bcast_S128_S1x128_1 : (⟨S128, .f32⟩ : BufTy).Contents (Elt F) → (⟨S1x128, .f32⟩ : BufTy).Contents (Elt F))
  :: unary main_v199 main_v200 (broadcastInDim S50000x128 ![0, 1] bcast_S1x128_S50000x128_0_1 : (⟨S1x128, .f32⟩ : BufTy).Contents (Elt F) → (⟨S50000x128, .f32⟩ : BufTy).Contents (Elt F))
  :: binary main_v196 main_v200 main_v201 (addf : (⟨S50000x128, .f32⟩ : BufTy).Contents (Elt F) → (⟨S50000x128, .f32⟩ : BufTy).Contents (Elt F) → (⟨S50000x128, .f32⟩ : BufTy).Contents (Elt F))
  :: unary main_arg7 main_v202 ((extractStridedSlice S1x128x128 ![2, 0, 0] · slices_S3x128x128_S1x128x128_2_0_0) : (⟨S3x128x128, .f32⟩ : BufTy).Contents (Elt F) → (⟨S1x128x128, .f32⟩ : BufTy).Contents (Elt F))
  :: reshape main_v202 main_v203 rfl shapeCasts_S1x128x128_S128x128
  :: unary main_v203 main_v204 ((transpose S128x128 [1, 0] · transposes_S128x128_S128x128_1_0) : (⟨S128x128, .f32⟩ : BufTy).Contents (Elt F) → (⟨S128x128, .f32⟩ : BufTy).Contents (Elt F))
  :: binary main_v182 main_v204 main_v205 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: binary main_v201 main_v205 main_v206 (addf : (⟨S50000x128, .f32⟩ : BufTy).Contents (Elt F) → (⟨S50000x128, .f32⟩ : BufTy).Contents (Elt F) → (⟨S50000x128, .f32⟩ : BufTy).Contents (Elt F))
  :: unary main_arg8 main_v207 ((extractStridedSlice S1x128 ![2, 0] · slices_S3x128_S1x128_2_0) : (⟨S3x128, .f32⟩ : BufTy).Contents (Elt F) → (⟨S1x128, .f32⟩ : BufTy).Contents (Elt F))
  :: reshape main_v207 main_v208 rfl shapeCasts_S1x128_S128
  :: unary main_v208 main_v209 (broadcastInDim S1x128 ![1] bcast_S128_S1x128_1 : (⟨S128, .f32⟩ : BufTy).Contents (Elt F) → (⟨S1x128, .f32⟩ : BufTy).Contents (Elt F))
  :: unary main_v209 main_v210 (broadcastInDim S50000x128 ![0, 1] bcast_S1x128_S50000x128_0_1 : (⟨S1x128, .f32⟩ : BufTy).Contents (Elt F) → (⟨S50000x128, .f32⟩ : BufTy).Contents (Elt F))
  :: binary main_v206 main_v210 main_v211 (addf : (⟨S50000x128, .f32⟩ : BufTy).Contents (Elt F) → (⟨S50000x128, .f32⟩ : BufTy).Contents (Elt F) → (⟨S50000x128, .f32⟩ : BufTy).Contents (Elt F))
  :: TRef.nullary (TRef.of (T := ⟨S_, .f32⟩) main_call3_cst) (constant S_ .f32 0x00000000#32)
  :: TRef.unary (TRef.of (T := ⟨S_, .f32⟩) main_call3_cst) (TRef.of (T := ⟨S50000x128, .f32⟩) main_call3_v0) (broadcastInDim S50000x128 ![] bcast_S_S50000x128)
  :: TRef.binary (TRef.of (T := ⟨S50000x128, .f32⟩) main_v211) (TRef.of (T := ⟨S50000x128, .f32⟩) main_call3_v0) (TRef.of (T := ⟨S50000x128, .f32⟩) main_v212) maximumf
  :: [] )
theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., nullary_bufs_sub .., unary_bufs_sub .., binary_bufs_sub ..⟩

abbrev ops5 : List (HloOp τ sig (Elt F)) :=
  ( nullary main_cst_27 (constant S_ .f32 0x00000000#32)
  :: binary main_v212 main_cst_27 main_v213 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: nullary main_cst_28 (constant S_ .f32 0x47435000#32)
  :: unary main_cst_28 main_v214 (broadcastInDim S128 ![] bcast_S_S128 : (⟨S_, .f32⟩ : BufTy).Contents (Elt F) → (⟨S128, .f32⟩ : BufTy).Contents (Elt F))
  :: binary main_v213 main_v214 main_v215 (Host.divf : (⟨S128, .f32⟩ : BufTy).Contents (Elt F) → (⟨S128, .f32⟩ : BufTy).Contents (Elt F) → (⟨S128, .f32⟩ : BufTy).Contents (Elt F))
  :: unary main_v215 main_v216 (broadcastInDim S1x128 ![1] bcast_S128_S1x128_1 : (⟨S128, .f32⟩ : BufTy).Contents (Elt F) → (⟨S1x128, .f32⟩ : BufTy).Contents (Elt F))
  :: unary main_v216 main_v217 (broadcastInDim S50000x128 ![0, 1] bcast_S1x128_S50000x128_0_1 : (⟨S1x128, .f32⟩ : BufTy).Contents (Elt F) → (⟨S50000x128, .f32⟩ : BufTy).Contents (Elt F))
  :: binary main_v212 main_v217 main_v218 (subf : (⟨S50000x128, .f32⟩ : BufTy).Contents (Elt F) → (⟨S50000x128, .f32⟩ : BufTy).Contents (Elt F) → (⟨S50000x128, .f32⟩ : BufTy).Contents (Elt F))
  :: binary main_v218 main_v218 main_v219 (mulf : (⟨S50000x128, .f32⟩ : BufTy).Contents (Elt F) → (⟨S50000x128, .f32⟩ : BufTy).Contents (Elt F) → (⟨S50000x128, .f32⟩ : BufTy).Contents (Elt F))
  :: nullary main_cst_29 (constant S_ .f32 0x00000000#32)
  :: binary main_v219 main_cst_29 main_v220 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: nullary main_cst_30 (constant S_ .f32 0x47435000#32)
  :: unary main_cst_30 main_v221 (broadcastInDim S128 ![] bcast_S_S128 : (⟨S_, .f32⟩ : BufTy).Contents (Elt F) → (⟨S128, .f32⟩ : BufTy).Contents (Elt F))
  :: binary main_v220 main_v221 main_v222 (Host.divf : (⟨S128, .f32⟩ : BufTy).Contents (Elt F) → (⟨S128, .f32⟩ : BufTy).Contents (Elt F) → (⟨S128, .f32⟩ : BufTy).Contents (Elt F))
  :: unary main_v215 main_v223 (broadcastInDim S1x128 ![1] bcast_S128_S1x128_1 : (⟨S128, .f32⟩ : BufTy).Contents (Elt F) → (⟨S1x128, .f32⟩ : BufTy).Contents (Elt F))
  :: unary main_v223 main_v224 (broadcastInDim S50000x128 ![0, 1] bcast_S1x128_S50000x128_0_1 : (⟨S1x128, .f32⟩ : BufTy).Contents (Elt F) → (⟨S50000x128, .f32⟩ : BufTy).Contents (Elt F))
  :: binary main_v212 main_v224 main_v225 (subf : (⟨S50000x128, .f32⟩ : BufTy).Contents (Elt F) → (⟨S50000x128, .f32⟩ : BufTy).Contents (Elt F) → (⟨S50000x128, .f32⟩ : BufTy).Contents (Elt F))
  :: nullary main_cst_31 (constant S_ .f32 0x3727C5AC#32)
  :: unary main_cst_31 main_v226 (broadcastInDim S128 ![] bcast_S_S128 : (⟨S_, .f32⟩ : BufTy).Contents (Elt F) → (⟨S128, .f32⟩ : BufTy).Contents (Elt F))
  :: binary main_v222 main_v226 main_v227 (addf : (⟨S128, .f32⟩ : BufTy).Contents (Elt F) → (⟨S128, .f32⟩ : BufTy).Contents (Elt F) → (⟨S128, .f32⟩ : BufTy).Contents (Elt F))
  :: unary main_v227 main_v228 (Host.rsqrt : (⟨S128, .f32⟩ : BufTy).Contents (Elt F) → (⟨S128, .f32⟩ : BufTy).Contents (Elt F))
  :: unary main_v228 main_v229 (broadcastInDim S1x128 ![1] bcast_S128_S1x128_1 : (⟨S128, .f32⟩ : BufTy).Contents (Elt F) → (⟨S1x128, .f32⟩ : BufTy).Contents (Elt F))
  :: unary main_v229 main_v230 (broadcastInDim S50000x128 ![0, 1] bcast_S1x128_S50000x128_0_1 : (⟨S1x128, .f32⟩ : BufTy).Contents (Elt F) → (⟨S50000x128, .f32⟩ : BufTy).Contents (Elt F))
  :: binary main_v225 main_v230 main_v231 (mulf : (⟨S50000x128, .f32⟩ : BufTy).Contents (Elt F) → (⟨S50000x128, .f32⟩ : BufTy).Contents (Elt F) → (⟨S50000x128, .f32⟩ : BufTy).Contents (Elt F))
  :: unary main_arg9 main_v232 ((extractStridedSlice S1x128 ![2, 0] · slices_S3x128_S1x128_2_0) : (⟨S3x128, .f32⟩ : BufTy).Contents (Elt F) → (⟨S1x128, .f32⟩ : BufTy).Contents (Elt F))
  :: reshape main_v232 main_v233 rfl shapeCasts_S1x128_S128
  :: unary main_v233 main_v234 (broadcastInDim S1x128 ![1] bcast_S128_S1x128_1 : (⟨S128, .f32⟩ : BufTy).Contents (Elt F) → (⟨S1x128, .f32⟩ : BufTy).Contents (Elt F))
  :: unary main_v234 main_v235 (broadcastInDim S50000x128 ![0, 1] bcast_S1x128_S50000x128_0_1 : (⟨S1x128, .f32⟩ : BufTy).Contents (Elt F) → (⟨S50000x128, .f32⟩ : BufTy).Contents (Elt F))
  :: binary main_v231 main_v235 main_v236 (mulf : (⟨S50000x128, .f32⟩ : BufTy).Contents (Elt F) → (⟨S50000x128, .f32⟩ : BufTy).Contents (Elt F) → (⟨S50000x128, .f32⟩ : BufTy).Contents (Elt F))
  :: unary main_arg10 main_v237 ((extractStridedSlice S1x128 ![2, 0] · slices_S3x128_S1x128_2_0) : (⟨S3x128, .f32⟩ : BufTy).Contents (Elt F) → (⟨S1x128, .f32⟩ : BufTy).Contents (Elt F))
  :: reshape main_v237 main_v238 rfl shapeCasts_S1x128_S128
  :: unary main_v238 main_v239 (broadcastInDim S1x128 ![1] bcast_S128_S1x128_1 : (⟨S128, .f32⟩ : BufTy).Contents (Elt F) → (⟨S1x128, .f32⟩ : BufTy).Contents (Elt F))
  :: unary main_v239 main_v240 (broadcastInDim S50000x128 ![0, 1] bcast_S1x128_S50000x128_0_1 : (⟨S1x128, .f32⟩ : BufTy).Contents (Elt F) → (⟨S50000x128, .f32⟩ : BufTy).Contents (Elt F))
  :: binary main_v236 main_v240 main_v241 (addf : (⟨S50000x128, .f32⟩ : BufTy).Contents (Elt F) → (⟨S50000x128, .f32⟩ : BufTy).Contents (Elt F) → (⟨S50000x128, .f32⟩ : BufTy).Contents (Elt F))
  :: [] )
theorem ops5_sub : (ops5 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩

abbrev ops6 : List (HloOp τ sig (Elt F)) :=
  ( unary main_arg11 main_v242 ((transpose S128x2 [1, 0] · transposes_S2x128_S128x2_1_0) : (⟨S2x128, .f32⟩ : BufTy).Contents (Elt F) → (⟨S128x2, .f32⟩ : BufTy).Contents (Elt F))
  :: binary main_v241 main_v242 main_v243 ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F))
  :: unary main_arg12 main_v244 (broadcastInDim S1x2 ![1] bcast_S2_S1x2_1 : (⟨S2, .f32⟩ : BufTy).Contents (Elt F) → (⟨S1x2, .f32⟩ : BufTy).Contents (Elt F))
  :: unary main_v244 main_v245 (broadcastInDim S50000x2 ![0, 1] bcast_S1x2_S50000x2_0_1 : (⟨S1x2, .f32⟩ : BufTy).Contents (Elt F) → (⟨S50000x2, .f32⟩ : BufTy).Contents (Elt F))
  :: binary main_v243 main_v245 main_v246 (addf : (⟨S50000x2, .f32⟩ : BufTy).Contents (Elt F) → (⟨S50000x2, .f32⟩ : BufTy).Contents (Elt F) → (⟨S50000x2, .f32⟩ : BufTy).Contents (Elt F))
  :: [] )
theorem ops6_sub : (ops6 : List (HloOp τ sig (Elt F))).Forall fun op => op.bufs ⊆ tcRefs τ sig :=
  ⟨unary_bufs_sub .., binary_bufs_sub .., unary_bufs_sub .., unary_bufs_sub .., binary_bufs_sub ..⟩

abbrev ops : List (HloOp τ sig (Elt F)) := ops0 ++ (ops1 ++ (ops2 ++ (ops3 ++ (ops4 ++ (ops5 ++ ops6)))))

set_option maxRecDepth 16384 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h,
      List.forall_iff_forall_mem.mp ops6_sub op h]

theorem ops_fresh : ∀ op ∈ (ops : List (HloOp τ sig (Elt F))), op.fresh = ∅ := by
  intro op h
  simp only [ops, List.mem_append] at h
  rcases h with h | h | h | h | h | h | h <;>
    (revert op; exact List.forall_iff_forall_mem.mp (by
      simp only [ops0, ops1, ops2, ops3, ops4, ops5, ops6, List.Forall]
      repeat' apply And.intro
      all_goals rfl))

theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs (main (F := F)) (fun _ => ops) main_eq (fun _ => ops_sub) m ρ (fun _ => ops_fresh)

end Cert.ReferenceIdeal.RunW

end
-- ==== Proof.RefKeep.lean ====
import proofs.«417352_j66855460929770_1_alg».proof.Proof.RefOps

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

/-- The results of stretch k of the reference's operations. -/
def wr : ℕ → List (Ref sig .tc)
  | 0 => [main_c, main_call0_v0, main_v0, main_v1, main_v2, main_v3, main_v4, main_c_0, main_v5, main_v6, main_c_1, main_v7, main_v8, main_v9, main_v10, main_v11, main_cst, main_v12, main_v13, main_v14, main_cst_2, main_v15, main_v16, main_v17, main_c_3, main_v18, main_v19, main_c_4, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_call1_cst, main_call1_v0, main_v54]
  | 1 => [main_cst_5, main_v55, main_cst_6, main_v56, main_v57, main_v58, main_v59, main_v60, main_v61, main_cst_7, main_v62, main_cst_8, main_v63, main_v64, main_v65, main_v66, main_v67, main_cst_9, main_v68, main_v69, main_v70, main_v71, main_v72, main_v73, main_v74, main_v75, main_v76, main_v77, main_v78, main_v79, main_v80, main_v81, main_v82, main_v83]
  | 2 => [main_c_10, main_v84, main_v85, main_c_11, main_v86, main_v87, main_v88, main_v89, main_v90, main_cst_12, main_v91, main_v92, main_v93, main_cst_13, main_v94, main_v95, main_v96, main_c_14, main_v97, main_v98, main_c_15, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_call2_cst, main_call2_v0, main_v133]
  | 3 => [main_cst_16, main_v134, main_cst_17, main_v135, main_v136, main_v137, main_v138, main_v139, main_v140, main_cst_18, main_v141, main_cst_19, main_v142, main_v143, main_v144, main_v145, main_v146, main_cst_20, main_v147, main_v148, main_v149, main_v150, main_v151, main_v152, main_v153, main_v154, main_v155, main_v156, main_v157, main_v158, main_v159, main_v160, main_v161, main_v162]
  | 4 => [main_c_21, main_v163, main_v164, main_c_22, main_v165, main_v166, main_v167, main_v168, main_v169, main_cst_23, main_v170, main_v171, main_v172, main_cst_24, main_v173, main_v174, main_v175, main_c_25, main_v176, main_v177, main_c_26, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_call3_cst, main_call3_v0, main_v212]
  | 5 => [main_cst_27, main_v213, main_cst_28, main_v214, main_v215, main_v216, main_v217, main_v218, main_v219, main_cst_29, main_v220, main_cst_30, main_v221, main_v222, main_v223, main_v224, main_v225, main_cst_31, main_v226, main_v227, main_v228, main_v229, main_v230, main_v231, main_v232, main_v233, main_v234, main_v235, main_v236, main_v237, main_v238, main_v239, main_v240, main_v241]
  | 6 => [main_v242, main_v243, main_v244, main_v245, main_v246]
  | _ => []

theorem writes_sub {y : Ref sig .tc} {l : List (Ref sig .tc)} :
    ({Proc.devRef (τ := τ) .tc y} : Finset (DevRef τ sig)) ⊆ (l.map (Proc.devRef .tc)).toFinset ↔ y ∈ l := by
  rw [Finset.singleton_subset_iff, List.mem_toFinset, List.mem_map_of_injective (Proc.devRef_injective _)]

abbrev Covers (l : List (HloOp τ sig (Elt F))) (k : ℕ) : Prop :=
  l.Forall fun op => op.writes ⊆ ((wr k).map (Proc.devRef (τ := τ) .tc)).toFinset

/-- Every operation of stretch k writes one of the buffers listed for it, so a buffer not listed is kept
    (`after_of_writes_sub`). -/
theorem covers : Covers (F := F) ops0 0 ∧ Covers (F := F) ops1 1 ∧ Covers (F := F) ops2 2 ∧ Covers (F := F) ops3 3 ∧ Covers (F := F) ops4 4 ∧ Covers (F := F) ops5 5 ∧ Covers (F := F) ops6 6 := by
  simp only [Covers, ops0, ops1, ops2, ops3, ops4, ops5, ops6, List.Forall, nullary_writes, unary_writes, binary_writes, ternary_writes, reshape_writes]
  repeat' apply And.intro
  all_goals exact writes_sub.mpr (by decide)

end Cert.ReferenceIdeal.RunW

end
-- ==== Proof.RefWin0.lean ====
import proofs.«417352_j66855460929770_1_alg».proof.Proof.RefOps
import proofs.«417352_j66855460929770_1_alg».proof.Proof.RefRead

noncomputable section

open Idealize.ShloMosaic Idealize.ShloMosaic.TcCoe Idealize.SL.Sem

namespace Cert.ReferenceIdeal.Win0

open Cert.ReferenceIdeal Cert.ReferenceIdeal.Gen Cert.ReferenceIdeal.RunW Cert.ReferenceIdeal.ReadP Idealize.ShloMosaic.StableHlo

section Generic

variable {F : FTy → Type} [FloatOps F] (V : Valuation τ sig (Elt F))

theorem v54_gen : StableHlo.after (ops0 (F := F)) V (Proc.devRef .tc main_v54)
    = val_main_v54 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  show StableHlo.after (ops0 (F := F)) V (Proc.devRef .tc main_v54) = _
  after_results_simp
  rfl

theorem v2_gen : StableHlo.after (ops0 (F := F)) V (Proc.devRef .tc main_v2) = val_main_v2 (F := F) (V (Proc.devRef .tc main_arg1)) := by
  show StableHlo.after (ops0 (F := F)) V (Proc.devRef .tc main_v2) = _
  after_results_simp
  rfl

theorem v4_gen : StableHlo.after (ops0 (F := F)) V (Proc.devRef .tc main_v4) = val_main_v4 (F := F) (V (Proc.devRef .tc main_arg1)) := by
  show StableHlo.after (ops0 (F := F)) V (Proc.devRef .tc main_v4) = _
  after_results_simp
  rfl

end Generic

variable (W : Valuation τ sig (Elt Ideal))

theorem v54 : StableHlo.after (ops0 (F := Ideal)) W (Proc.devRef .tc main_v54)
    = val_main_v54 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  exact v54_gen W

theorem v2 : StableHlo.after (ops0 (F := Ideal)) W (Proc.devRef .tc main_v2) = val_main_v2 (F := Ideal) (W (Proc.devRef .tc main_arg1)) := by
  exact v2_gen W

theorem v4 : StableHlo.after (ops0 (F := Ideal)) W (Proc.devRef .tc main_v4) = val_main_v4 (F := Ideal) (W (Proc.devRef .tc main_arg1)) := by
  exact v4_gen W

end Cert.ReferenceIdeal.Win0

end
-- ==== Proof.RefWin1.lean ====
import proofs.«417352_j66855460929770_1_alg».proof.Proof.RefOps
import proofs.«417352_j66855460929770_1_alg».proof.Proof.RefRead

noncomputable section

open Idealize.ShloMosaic Idealize.ShloMosaic.TcCoe Idealize.SL.Sem

namespace Cert.ReferenceIdeal.Win1

open Cert.ReferenceIdeal Cert.ReferenceIdeal.Gen Cert.ReferenceIdeal.RunW Cert.ReferenceIdeal.ReadP Idealize.ShloMosaic.StableHlo

variable (W : Valuation τ sig (Elt Ideal))

theorem v83 (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 x9 x10 : FVec Ideal S3x128 .f32)
    (h_v54 : W (Proc.devRef .tc main_v54) = val_main_v54 (F := Ideal) x0 x1 x2 x3 x4 x5 x6 x7 x8) (h9 : W (Proc.devRef .tc main_arg9) = x9) (h10 : W (Proc.devRef .tc main_arg10) = x10) :
    StableHlo.after (ops1 (F := Ideal)) W (Proc.devRef .tc main_v83) = val_main_v83 (F := Ideal) x0 x1 x2 x3 x4 x5 x6 x7 x8 x9 x10 := by
  show StableHlo.after (ops1 (F := Ideal)) W (Proc.devRef .tc main_v83) = _
  after_results_simp
  rw [h_v54, h9, h10]
  rfl

end Cert.ReferenceIdeal.Win1

end
-- ==== Proof.RefWin2.lean ====
import proofs.«417352_j66855460929770_1_alg».proof.Proof.RefOps
import proofs.«417352_j66855460929770_1_alg».proof.Proof.RefRead

noncomputable section

open Idealize.ShloMosaic Idealize.ShloMosaic.TcCoe Idealize.SL.Sem

namespace Cert.ReferenceIdeal.Win2

open Cert.ReferenceIdeal Cert.ReferenceIdeal.Gen Cert.ReferenceIdeal.RunW Cert.ReferenceIdeal.ReadP Idealize.ShloMosaic.StableHlo

theorem v133_gen {F : FTy → Type} [FloatOps F] (W : Valuation τ sig (Elt F)) (x0 : (⟨S50000x64, .f32⟩ : BufTy).Contents (Elt F)) (x1 : (⟨S2x800000, .i32⟩ : BufTy).Contents (Elt F)) (x2 : (⟨S50000, .i32⟩ : BufTy).Contents (Elt F)) (x3 : (⟨S3x128x128, .f32⟩ : BufTy).Contents (Elt F)) (x4 : (⟨S3x128, .f32⟩ : BufTy).Contents (Elt F)) (x5 : (⟨S3x128x128, .f32⟩ : BufTy).Contents (Elt F)) (x6 : (⟨S3x128, .f32⟩ : BufTy).Contents (Elt F)) (x7 : (⟨S3x128x128, .f32⟩ : BufTy).Contents (Elt F)) (x8 x9 x10 : (⟨S3x128, .f32⟩ : BufTy).Contents (Elt F))
    (h_v83 : W (Proc.devRef .tc main_v83) = val_main_v83 (F := F) x0 x1 x2 x3 x4 x5 x6 x7 x8 x9 x10) (h_v2 : W (Proc.devRef .tc main_v2) = val_main_v2 (F := F) x1) (h_v4 : W (Proc.devRef .tc main_v4) = val_main_v4 (F := F) x1)
    (h2 : W (Proc.devRef .tc main_arg2) = x2) (h3 : W (Proc.devRef .tc main_arg3) = x3) (h4 : W (Proc.devRef .tc main_arg4) = x4) (h5 : W (Proc.devRef .tc main_arg5) = x5) (h6 : W (Proc.devRef .tc main_arg6) = x6) (h7 : W (Proc.devRef .tc main_arg7) = x7) (h8 : W (Proc.devRef .tc main_arg8) = x8) :
    StableHlo.after (ops2 (F := F)) W (Proc.devRef .tc main_v133) = val_main_v133 (F := F) x0 x1 x2 x3 x4 x5 x6 x7 x8 x9 x10 := by
  show StableHlo.after (ops2 (F := F)) W (Proc.devRef .tc main_v133) = _
  after_results_simp
  rw [h_v83, h_v2, h_v4, h2, h3, h4, h5, h6, h7, h8]
  rfl

variable (W : Valuation τ sig (Elt Ideal))

theorem v133 (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 x9 x10 : FVec Ideal S3x128 .f32)
    (h_v83 : W (Proc.devRef .tc main_v83) = val_main_v83 (F := Ideal) x0 x1 x2 x3 x4 x5 x6 x7 x8 x9 x10) (h_v2 : W (Proc.devRef .tc main_v2) = val_main_v2 (F := Ideal) x1) (h_v4 : W (Proc.devRef .tc main_v4) = val_main_v4 (F := Ideal) x1)
    (h2 : W (Proc.devRef .tc main_arg2) = x2) (h3 : W (Proc.devRef .tc main_arg3) = x3) (h4 : W (Proc.devRef .tc main_arg4) = x4) (h5 : W (Proc.devRef .tc main_arg5) = x5) (h6 : W (Proc.devRef .tc main_arg6) = x6) (h7 : W (Proc.devRef .tc main_arg7) = x7) (h8 : W (Proc.devRef .tc main_arg8) = x8) :
    StableHlo.after (ops2 (F := Ideal)) W (Proc.devRef .tc main_v133) = val_main_v133 (F := Ideal) x0 x1 x2 x3 x4 x5 x6 x7 x8 x9 x10 := by
  exact v133_gen W x0 x1 x2 x3 x4 x5 x6 x7 x8 x9 x10 h_v83 h_v2 h_v4 h2 h3 h4 h5 h6 h7 h8

end Cert.ReferenceIdeal.Win2

end
-- ==== Proof.RefWin3.lean ====
import proofs.«417352_j66855460929770_1_alg».proof.Proof.RefOps
import proofs.«417352_j66855460929770_1_alg».proof.Proof.RefRead

noncomputable section

open Idealize.ShloMosaic Idealize.ShloMosaic.TcCoe Idealize.SL.Sem

namespace Cert.ReferenceIdeal.Win3

open Cert.ReferenceIdeal Cert.ReferenceIdeal.Gen Cert.ReferenceIdeal.RunW Cert.ReferenceIdeal.ReadP Idealize.ShloMosaic.StableHlo

variable (W : Valuation τ sig (Elt Ideal))

theorem v162 (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 x9 x10 : FVec Ideal S3x128 .f32)
    (h_v133 : W (Proc.devRef .tc main_v133) = val_main_v133 (F := Ideal) x0 x1 x2 x3 x4 x5 x6 x7 x8 x9 x10) (h9 : W (Proc.devRef .tc main_arg9) = x9) (h10 : W (Proc.devRef .tc main_arg10) = x10) :
    StableHlo.after (ops3 (F := Ideal)) W (Proc.devRef .tc main_v162) = val_main_v162 (F := Ideal) x0 x1 x2 x3 x4 x5 x6 x7 x8 x9 x10 := by
  show StableHlo.after (ops3 (F := Ideal)) W (Proc.devRef .tc main_v162) = _
  after_results_simp
  rw [h_v133, h9, h10]
  rfl

end Cert.ReferenceIdeal.Win3

end
-- ==== Proof.RefWin4.lean ====
import proofs.«417352_j66855460929770_1_alg».proof.Proof.RefOps
import proofs.«417352_j66855460929770_1_alg».proof.Proof.RefRead

noncomputable section

open Idealize.ShloMosaic Idealize.ShloMosaic.TcCoe Idealize.SL.Sem

namespace Cert.ReferenceIdeal.Win4

open Cert.ReferenceIdeal Cert.ReferenceIdeal.Gen Cert.ReferenceIdeal.RunW Cert.ReferenceIdeal.ReadP Idealize.ShloMosaic.StableHlo

variable (W : Valuation τ sig (Elt Ideal))

theorem v212 (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 x9 x10 : FVec Ideal S3x128 .f32)
    (h_v162 : W (Proc.devRef .tc main_v162) = val_main_v162 (F := Ideal) x0 x1 x2 x3 x4 x5 x6 x7 x8 x9 x10) (h_v2 : W (Proc.devRef .tc main_v2) = val_main_v2 (F := Ideal) x1) (h_v4 : W (Proc.devRef .tc main_v4) = val_main_v4 (F := Ideal) x1)
    (h2 : W (Proc.devRef .tc main_arg2) = x2) (h3 : W (Proc.devRef .tc main_arg3) = x3) (h4 : W (Proc.devRef .tc main_arg4) = x4) (h5 : W (Proc.devRef .tc main_arg5) = x5) (h6 : W (Proc.devRef .tc main_arg6) = x6) (h7 : W (Proc.devRef .tc main_arg7) = x7) (h8 : W (Proc.devRef .tc main_arg8) = x8) :
    StableHlo.after (ops4 (F := Ideal)) W (Proc.devRef .tc main_v212) = val_main_v212 (F := Ideal) x0 x1 x2 x3 x4 x5 x6 x7 x8 x9 x10 := by
  show StableHlo.after (ops4 (F := Ideal)) W (Proc.devRef .tc main_v212) = _
  after_results_simp
  rw [h_v162, h_v2, h_v4, h2, h3, h4, h5, h6, h7, h8]
  rfl

end Cert.ReferenceIdeal.Win4

end
-- ==== Proof.RefWin5.lean ====
import proofs.«417352_j66855460929770_1_alg».proof.Proof.RefOps
import proofs.«417352_j66855460929770_1_alg».proof.Proof.RefRead

noncomputable section

open Idealize.ShloMosaic Idealize.ShloMosaic.TcCoe Idealize.SL.Sem

namespace Cert.ReferenceIdeal.Win5

open Cert.ReferenceIdeal Cert.ReferenceIdeal.Gen Cert.ReferenceIdeal.RunW Cert.ReferenceIdeal.ReadP Idealize.ShloMosaic.StableHlo

variable (W : Valuation τ sig (Elt Ideal))

theorem v241 (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 x9 x10 : FVec Ideal S3x128 .f32)
    (h_v212 : W (Proc.devRef .tc main_v212) = val_main_v212 (F := Ideal) x0 x1 x2 x3 x4 x5 x6 x7 x8 x9 x10) (h9 : W (Proc.devRef .tc main_arg9) = x9) (h10 : W (Proc.devRef .tc main_arg10) = x10) :
    StableHlo.after (ops5 (F := Ideal)) W (Proc.devRef .tc main_v241) = val_main_v241 (F := Ideal) x0 x1 x2 x3 x4 x5 x6 x7 x8 x9 x10 := by
  show StableHlo.after (ops5 (F := Ideal)) W (Proc.devRef .tc main_v241) = _
  after_results_simp
  rw [h_v212, h9, h10]
  rfl

end Cert.ReferenceIdeal.Win5

end
-- ==== Proof.RefWin6.lean ====
import proofs.«417352_j66855460929770_1_alg».proof.Proof.RefOps
import proofs.«417352_j66855460929770_1_alg».proof.Proof.RefRead

noncomputable section

open Idealize.ShloMosaic Idealize.ShloMosaic.TcCoe Idealize.SL.Sem

namespace Cert.ReferenceIdeal.Win6

open Cert.ReferenceIdeal Cert.ReferenceIdeal.Gen Cert.ReferenceIdeal.RunW Cert.ReferenceIdeal.ReadP Idealize.ShloMosaic.StableHlo

variable (W : Valuation τ sig (Elt Ideal))

theorem v246 (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 x9 x10 : FVec Ideal S3x128 .f32) (x11 : FVec Ideal S2x128 .f32) (x12 : FVec Ideal S2 .f32)
    (h_v241 : W (Proc.devRef .tc main_v241) = val_main_v241 (F := Ideal) x0 x1 x2 x3 x4 x5 x6 x7 x8 x9 x10) (h11 : W (Proc.devRef .tc main_arg11) = x11) (h12 : W (Proc.devRef .tc main_arg12) = x12) :
    StableHlo.after (ops6 (F := Ideal)) W (Proc.devRef .tc main_v246) = val_main_v246 (F := Ideal) x0 x1 x2 x3 x4 x5 x6 x7 x8 x9 x10 x11 x12 := by
  show StableHlo.after (ops6 (F := Ideal)) W (Proc.devRef .tc main_v246) = _
  after_results
  rw [h_v241, h11, h12]
  rfl

end Cert.ReferenceIdeal.Win6

end
-- ==== Proof.RefRun.lean ====
import proofs.«417352_j66855460929770_1_alg».proof.Proof.RefKeep
import proofs.«417352_j66855460929770_1_alg».proof.Proof.RefRead
import proofs.«417352_j66855460929770_1_alg».proof.Proof.RefWin0
import proofs.«417352_j66855460929770_1_alg».proof.Proof.RefWin1
import proofs.«417352_j66855460929770_1_alg».proof.Proof.RefWin2
import proofs.«417352_j66855460929770_1_alg».proof.Proof.RefWin3
import proofs.«417352_j66855460929770_1_alg».proof.Proof.RefWin4
import proofs.«417352_j66855460929770_1_alg».proof.Proof.RefWin5
import proofs.«417352_j66855460929770_1_alg».proof.Proof.RefWin6

noncomputable section

open Idealize.ShloMosaic Idealize.ShloMosaic.TcCoe Idealize.SL.Sem

namespace Cert.ReferenceIdeal.RunW

open Cert.ReferenceIdeal Cert.ReferenceIdeal.Gen Cert.ReferenceIdeal.ReadP Idealize.ShloMosaic.StableHlo

variable (m : (ℓ : Loc nD τ sig) → Buf (Elt Ideal) ℓ) (c : Dev nD)

abbrev U0 : Valuation τ sig (Elt Ideal) := launchContents m c
abbrev U1 : Valuation τ sig (Elt Ideal) := StableHlo.after (ops0 (F := Ideal)) (U0 m c)
abbrev U2 : Valuation τ sig (Elt Ideal) := StableHlo.after (ops1 (F := Ideal)) (U1 m c)
abbrev U3 : Valuation τ sig (Elt Ideal) := StableHlo.after (ops2 (F := Ideal)) (U2 m c)
abbrev U4 : Valuation τ sig (Elt Ideal) := StableHlo.after (ops3 (F := Ideal)) (U3 m c)
abbrev U5 : Valuation τ sig (Elt Ideal) := StableHlo.after (ops4 (F := Ideal)) (U4 m c)
abbrev U6 : Valuation τ sig (Elt Ideal) := StableHlo.after (ops5 (F := Ideal)) (U5 m c)
abbrev U7 : Valuation τ sig (Elt Ideal) := StableHlo.after (ops6 (F := Ideal)) (U6 m c)

theorem after_ops : StableHlo.after (ops (F := Ideal)) (U0 m c) = U7 m c := by
  simp only [ops, StableHlo.after_append]

theorem U0_arg (b : Ref sig .tc) : U0 m c (Proc.devRef .tc b) = m ((c.tc : Thread nD τ).loc b) := rfl

section
variable {b : Ref sig .tc} (hb : ∀ k < 7, b ∉ wr k)
include hb

theorem U1_arg : U1 m c (Proc.devRef .tc b) = m ((c.tc : Thread nD τ).loc b) :=
  (after_of_writes_sub (ops0 (F := Ideal)) (U0 m c) (covers (F := Ideal)).1 (hb 0 (by decide))).trans (U0_arg m c b)
theorem U2_arg : U2 m c (Proc.devRef .tc b) = m ((c.tc : Thread nD τ).loc b) :=
  (after_of_writes_sub (ops1 (F := Ideal)) (U1 m c) (covers (F := Ideal)).2.1 (hb 1 (by decide))).trans (U1_arg m c hb)
theorem U3_arg : U3 m c (Proc.devRef .tc b) = m ((c.tc : Thread nD τ).loc b) :=
  (after_of_writes_sub (ops2 (F := Ideal)) (U2 m c) (covers (F := Ideal)).2.2.1 (hb 2 (by decide))).trans (U2_arg m c hb)
theorem U4_arg : U4 m c (Proc.devRef .tc b) = m ((c.tc : Thread nD τ).loc b) :=
  (after_of_writes_sub (ops3 (F := Ideal)) (U3 m c) (covers (F := Ideal)).2.2.2.1 (hb 3 (by decide))).trans (U3_arg m c hb)
theorem U5_arg : U5 m c (Proc.devRef .tc b) = m ((c.tc : Thread nD τ).loc b) :=
  (after_of_writes_sub (ops4 (F := Ideal)) (U4 m c) (covers (F := Ideal)).2.2.2.2.1 (hb 4 (by decide))).trans (U4_arg m c hb)
theorem U6_arg : U6 m c (Proc.devRef .tc b) = m ((c.tc : Thread nD τ).loc b) :=
  (after_of_writes_sub (ops5 (F := Ideal)) (U5 m c) (covers (F := Ideal)).2.2.2.2.2.1 (hb 5 (by decide))).trans (U5_arg m c hb)
theorem U7_arg : U7 m c (Proc.devRef .tc b) = m ((c.tc : Thread nD τ).loc b) :=
  (after_of_writes_sub (ops6 (F := Ideal)) (U6 m c) (covers (F := Ideal)).2.2.2.2.2.2 (hb 6 (by decide))).trans (U6_arg m c hb)

end

theorem U1_v54 : U1 m c (Proc.devRef .tc main_v54) = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := Win0.v54 (U0 m c)
theorem U1_v2 : U1 m c (Proc.devRef .tc main_v2) = val_main_v2 (F := Ideal) (m ((c.tc : Thread nD τ).loc main_arg1)) := Win0.v2 (U0 m c)
theorem U1_v4 : U1 m c (Proc.devRef .tc main_v4) = val_main_v4 (F := Ideal) (m ((c.tc : Thread nD τ).loc main_arg1)) := Win0.v4 (U0 m c)
theorem U2_v2 : U2 m c (Proc.devRef .tc main_v2) = val_main_v2 (F := Ideal) (m ((c.tc : Thread nD τ).loc main_arg1)) :=
  (after_of_writes_sub (ops1 (F := Ideal)) (U1 m c) (covers (F := Ideal)).2.1 (by decide : main_v2 ∉ wr 1)).trans (U1_v2 m c)
theorem U2_v4 : U2 m c (Proc.devRef .tc main_v4) = val_main_v4 (F := Ideal) (m ((c.tc : Thread nD τ).loc main_arg1)) :=
  (after_of_writes_sub (ops1 (F := Ideal)) (U1 m c) (covers (F := Ideal)).2.1 (by decide : main_v4 ∉ wr 1)).trans (U1_v4 m c)
theorem U3_v2 : U3 m c (Proc.devRef .tc main_v2) = val_main_v2 (F := Ideal) (m ((c.tc : Thread nD τ).loc main_arg1)) :=
  (after_of_writes_sub (ops2 (F := Ideal)) (U2 m c) (covers (F := Ideal)).2.2.1 (by decide : main_v2 ∉ wr 2)).trans (U2_v2 m c)
theorem U3_v4 : U3 m c (Proc.devRef .tc main_v4) = val_main_v4 (F := Ideal) (m ((c.tc : Thread nD τ).loc main_arg1)) :=
  (after_of_writes_sub (ops2 (F := Ideal)) (U2 m c) (covers (F := Ideal)).2.2.1 (by decide : main_v4 ∉ wr 2)).trans (U2_v4 m c)
theorem U4_v2 : U4 m c (Proc.devRef .tc main_v2) = val_main_v2 (F := Ideal) (m ((c.tc : Thread nD τ).loc main_arg1)) :=
  (after_of_writes_sub (ops3 (F := Ideal)) (U3 m c) (covers (F := Ideal)).2.2.2.1 (by decide : main_v2 ∉ wr 3)).trans (U3_v2 m c)
theorem U4_v4 : U4 m c (Proc.devRef .tc main_v4) = val_main_v4 (F := Ideal) (m ((c.tc : Thread nD τ).loc main_arg1)) :=
  (after_of_writes_sub (ops3 (F := Ideal)) (U3 m c) (covers (F := Ideal)).2.2.2.1 (by decide : main_v4 ∉ wr 3)).trans (U3_v4 m c)

theorem U2_v83 : U2 m c (Proc.devRef .tc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  Win1.v83 (U1 m c) _ _ _ _ _ _ _ _ _ _ _ (U1_v54 m c) (U1_arg m c (b := main_arg9) (by decide)) (U1_arg m c (b := main_arg10) (by decide))

theorem U3_v133 : U3 m c (Proc.devRef .tc main_v133) = val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  Win2.v133 (U2 m c) _ _ _ _ _ _ _ _ _ _ _ (U2_v83 m c) (U2_v2 m c) (U2_v4 m c)
    (U2_arg m c (b := main_arg2) (by decide)) (U2_arg m c (b := main_arg3) (by decide)) (U2_arg m c (b := main_arg4) (by decide)) (U2_arg m c (b := main_arg5) (by decide)) (U2_arg m c (b := main_arg6) (by decide)) (U2_arg m c (b := main_arg7) (by decide)) (U2_arg m c (b := main_arg8) (by decide))

theorem U4_v162 : U4 m c (Proc.devRef .tc main_v162) = val_main_v162 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  Win3.v162 (U3 m c) _ _ _ _ _ _ _ _ _ _ _ (U3_v133 m c) (U3_arg m c (b := main_arg9) (by decide)) (U3_arg m c (b := main_arg10) (by decide))

theorem U5_v212 : U5 m c (Proc.devRef .tc main_v212) = val_main_v212 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  Win4.v212 (U4 m c) _ _ _ _ _ _ _ _ _ _ _ (U4_v162 m c) (U4_v2 m c) (U4_v4 m c)
    (U4_arg m c (b := main_arg2) (by decide)) (U4_arg m c (b := main_arg3) (by decide)) (U4_arg m c (b := main_arg4) (by decide)) (U4_arg m c (b := main_arg5) (by decide)) (U4_arg m c (b := main_arg6) (by decide)) (U4_arg m c (b := main_arg7) (by decide)) (U4_arg m c (b := main_arg8) (by decide))

theorem U6_v241 : U6 m c (Proc.devRef .tc main_v241) = val_main_v241 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  Win5.v241 (U5 m c) _ _ _ _ _ _ _ _ _ _ _ (U5_v212 m c) (U5_arg m c (b := main_arg9) (by decide)) (U5_arg m c (b := main_arg10) (by decide))

theorem U7_v246 : U7 m c (Proc.devRef .tc main_v246) = val_main_v246 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  Win6.v246 (U6 m c) _ _ _ _ _ _ _ _ _ _ _ _ _ (U6_v241 m c) (U6_arg m c (b := main_arg11) (by decide)) (U6_arg m c (b := main_arg12) (by decide))

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v246) = val_main_v246 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c main_v246).trans ((congrFun (after_ops m c) _).trans (U7_v246 m c)),
     (h c main_arg0).trans ((congrFun (after_ops m c) _).trans (U7_arg m c (b := main_arg0) (by decide))),
     (h c main_arg1).trans ((congrFun (after_ops m c) _).trans (U7_arg m c (b := main_arg1) (by decide))),
     (h c main_arg2).trans ((congrFun (after_ops m c) _).trans (U7_arg m c (b := main_arg2) (by decide))),
     (h c main_arg3).trans ((congrFun (after_ops m c) _).trans (U7_arg m c (b := main_arg3) (by decide))),
     (h c main_arg4).trans ((congrFun (after_ops m c) _).trans (U7_arg m c (b := main_arg4) (by decide))),
     (h c main_arg5).trans ((congrFun (after_ops m c) _).trans (U7_arg m c (b := main_arg5) (by decide))),
     (h c main_arg6).trans ((congrFun (after_ops m c) _).trans (U7_arg m c (b := main_arg6) (by decide))),
     (h c main_arg7).trans ((congrFun (after_ops m c) _).trans (U7_arg m c (b := main_arg7) (by decide))),
     (h c main_arg8).trans ((congrFun (after_ops m c) _).trans (U7_arg m c (b := main_arg8) (by decide))),
     (h c main_arg9).trans ((congrFun (after_ops m c) _).trans (U7_arg m c (b := main_arg9) (by decide))),
     (h c main_arg10).trans ((congrFun (after_ops m c) _).trans (U7_arg m c (b := main_arg10) (by decide))),
     (h c main_arg11).trans ((congrFun (after_ops m c) _).trans (U7_arg m c (b := main_arg11) (by decide))),
     (h c main_arg12).trans ((congrFun (after_ops m c) _).trans (U7_arg m c (b := main_arg12) (by decide)))⟩)
    (run_all (F := Ideal) m ρ)

end Cert.ReferenceIdeal.RunW

end
-- ==== Proof.RefAggr.lean ====
import proofs.«417352_j66855460929770_1_alg».proof.Proof.Gen.ReferenceIdeal
import proofs.«417352_j66855460929770_1_alg».proof.Proof.Spec
import proofs.«417352_j66855460929770_1_alg».proof.Proof.LibScatter
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.ReferenceIdeal.Aggr

open Cert.ReferenceIdeal Cert.ReferenceIdeal.Gen Cert.Gnn Cert.LibScatter Idealize.ShloMosaic.ValueIdx

theorem wrap_word (n z : BitVec 32) :
    Scalar.select (IntOp.cmpi .slt z 0#32) (IntOp.addi z n) z = wrapW n z := by
  have h0 : (0#32 : BitVec 32).toInt = 0 := by decide
  show (if BitVec.ofBool (z.slt 0#32) = 1#1 then z + n else z) = if z.toInt < 0 then z + n else z
  by_cases h : z.toInt < 0
  · have hs : z.slt 0#32 = true := BitVec.slt_iff_toInt_lt.mpr (by rw [h0]; exact h)
    rw [if_pos h, hs]
    exact if_pos (by decide)
  · have hs : z.slt 0#32 = false := by
      cases hb : z.slt 0#32
      · rfl
      · exact absurd (by have := BitVec.slt_iff_toInt_lt.mp hb; rwa [h0] at this) h
    rw [if_neg h, hs]
    exact if_neg (by decide)

theorem bcast_scalar {T : Shape} {α : Type} (hb : S_.BroadcastsInDim T ![]) (x : S_.Idx → α) (j : T.Idx) :
    broadcastInDim T ![] hb x j = x ix0 := by
  unfold broadcastInDim
  exact congrArg x (funext fun a => a.elim0)

theorem bcast_col {E : ℕ} {α : Type} (hb : (⟨1, ![E]⟩ : Shape).BroadcastsInDim ⟨2, ![E, 1]⟩ ![0])
    (v : (⟨1, ![E]⟩ : Shape).Idx → α) (e : Fin E) :
    broadcastInDim ⟨2, ![E, 1]⟩ ![0] hb v (ix2 e (0 : Fin 1)) = v (ix1 e) := by
  refine broadcastInDim_apply ![0] hb v (ix2 e (0 : Fin 1)) (ix1 e) fun a => ?_
  match a with
  | ⟨0, _⟩ =>
    show e.val = if E = 1 then 0 else e.val
    split
    · have := e.isLt; omega
    · rfl

theorem wrapped_apply {E : ℕ} (n : BitVec 32) (hb : S_.BroadcastsInDim ⟨1, ![E]⟩ ![]) (src : IVec ⟨1, ![E]⟩ 32) (e : Fin E) :
    select (cmpi .slt src (broadcastInDim ⟨1, ![E]⟩ ![] hb (constantI S_ 32 0#32)))
      (addi src (broadcastInDim ⟨1, ![E]⟩ ![] hb (constantI S_ 32 n))) src (ix1 e)
      = wrapW n (src (ix1 e)) :=
  wrap_word n (src (ix1 e))

theorem filter_col {E N : ℕ} (hb : (⟨1, ![E]⟩ : Shape).BroadcastsInDim ⟨2, ![E, 1]⟩ ![0]) (v : IVec ⟨1, ![E]⟩ 32) (g : Fin N) :
    (Finset.univ.filter fun e : Fin E => rowOf? N (broadcastInDim ⟨2, ![E, 1]⟩ ![0] hb v (ix2 e (0 : Fin 1))) = some g)
      = Finset.univ.filter fun e : Fin E => rowOf? N (v (ix1 e)) = some g := by
  refine Finset.filter_congr fun e _ => ?_
  rw [bcast_col]

theorem aggr_read (h : FVec Ideal S50000x128 .f32) (src dst : IVec S800000 32) :
    Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
    = aggrSD h src dst := by
  funext y
  obtain ⟨i, k, rfl⟩ : ∃ (i : Fin 50000) (k : Fin 128), y = ix2 i k := ⟨y 0, y 1, eq_ix2 y⟩
  unfold aggrSD
  rw [mk2_ix2]
  show Host.scatterAdd (F := Ideal)
      (rowScatter 50000 800000 128 scatter_S50000x128_S800000x1_S800000x128_1_0_0_1_wf) _ _
      (Host.gather (rowGather 50000 800000 128 gather_S50000x128_S800000x1_S800000x128_1_0_n_n_0_1_1128_wf) _ _)
      (ix2 i k) = _
  rw [rowScatterAdd_apply, bcast_scalar, constant_apply]
  refine congrArg (fun t => Ideal.ofBits FTy.f32 0x00000000#32 + t) ?_
  rw [filter_col]
  refine Finset.sum_congr rfl fun e _ => ?_
  rw [rowGather_apply (by decide : 0 < 50000), bcast_col, wrapped_apply]

theorem readout_read (h : FVec Ideal S50000x128 .f32) (batch : IVec S50000 32) :
    Host.gather gather_S64x128_S50000x1_S50000x128_1_0_n_n_0_1_1128
      (Host.scatterAdd (F := Ideal) scatter_S64x128_S50000x1_S50000x128_1_0_0_1
        (broadcastInDim S64x128 ![] bcast_S_S64x128 (constant (F := Ideal) S_ .f32 0x00000000#32))
        (broadcastInDim S50000x1 ![0] bcast_S50000_S50000x1_0 batch) h)
      (broadcastInDim S50000x1 ![0] bcast_S50000_S50000x1_0
        (select (cmpi .slt batch (broadcastInDim S50000 ![] bcast_S_S50000 (constantI S_ 32 0#32)))
          (addi batch (broadcastInDim S50000 ![] bcast_S_S50000 (constantI S_ 32 64#32))) batch))
    = readoutR h batch := by
  funext y
  obtain ⟨i, k, rfl⟩ : ∃ (i : Fin 50000) (k : Fin 128), y = ix2 i k := ⟨y 0, y 1, eq_ix2 y⟩
  unfold readoutR
  rw [mk2_ix2]
  show Host.gather (rowGather 64 50000 128 gather_S64x128_S50000x1_S50000x128_1_0_n_n_0_1_1128_wf)
      (Host.scatterAdd (F := Ideal) (rowScatter 64 50000 128 scatter_S64x128_S50000x1_S50000x128_1_0_0_1_wf) _ _ _) _
      (ix2 i k)
    = Ideal.ofBits .f32 0x00000000#32
      + ∑ j ∈ Finset.univ.filter (fun j : Fin 50000 =>
          rowOf? 64 (batch (ix1 j)) = some (clampRow 64 (by decide) (wrapW 64#32 (batch (ix1 i))))), h (ix2 j k)
  rw [rowGather_apply (by decide : 0 < 64), bcast_col, wrapped_apply, rowScatterAdd_apply, bcast_scalar, constant_apply,
    filter_col]

end Cert.ReferenceIdeal.Aggr

end
-- ==== Proof.RefL1.lean ====
import proofs.«417352_j66855460929770_1_alg».proof.Proof.RefRead
import proofs.«417352_j66855460929770_1_alg».proof.Proof.Spec
import proofs.«417352_j66855460929770_1_alg».proof.Proof.LibScatter
import Idealize.ShloMosaic.Lib.Pipeline.Value
import Idealize.ShloMosaic.Lib.ValueIdx
import Idealize.ShloMosaic.Lib.ValueLayout
import Idealize.ShloMosaic.PureOps.Ideal.Laws
import proofs.«417352_j66855460929770_1_alg».proof.Proof.RefAggr

noncomputable section

open Idealize.ShloMosaic Idealize.ShloMosaic.TcCoe Idealize.SL.Sem

namespace Cert.ReferenceIdeal.Layer1

open Cert.ReferenceIdeal Cert.ReferenceIdeal.Gen Cert.ReferenceIdeal.ReadP Cert.Gnn
open Idealize.ShloMosaic.ValueIdx

theorem src_eq (x1 : IVec S2x800000 32) : val_main_v2 (F := Ideal) x1 = eiRow x1 0 := by
  funext y
  obtain ⟨e, rfl⟩ : ∃ e : Fin 800000, y = ix1 e := ⟨y 0, eq_ix1 y⟩
  rw [val_main_v2_apply, val_main_v1_apply]
  show x1 _ = x1 (ix2 (0 : Fin 2) e)
  refine congrArg x1 (funext fun a => Fin.ext ?_)
  match a with
  | ⟨0, _⟩ => rfl
  | ⟨1, _⟩ => show e.val % 800000 = e.val; exact Nat.mod_eq_of_lt e.isLt

theorem dst_eq (x1 : IVec S2x800000 32) : val_main_v4 (F := Ideal) x1 = eiRow x1 1 := by
  funext y
  obtain ⟨e, rfl⟩ : ∃ e : Fin 800000, y = ix1 e := ⟨y 0, eq_ix1 y⟩
  rw [val_main_v4_apply, val_main_v3_apply]
  show x1 _ = x1 (ix2 (1 : Fin 2) e)
  refine congrArg x1 (funext fun a => Fin.ext ?_)
  match a with
  | ⟨0, _⟩ => rfl
  | ⟨1, _⟩ => show e.val % 800000 = e.val; exact Nat.mod_eq_of_lt e.isLt

theorem aggr_eq (x0 : FVec Ideal S50000x64 .f32) (x1 : IVec S2x800000 32) :
    val_main_v14 (F := Ideal) x0 x1 = aggr (val_main_v0 (F := Ideal) x0) x1 := by
  unfold val_main_v14 val_main_v11 val_main_v10 val_main_v9 val_main_v6 val_main_v8 val_main_v5 val_main_v7
    val_main_v12 val_main_v13 val_main_cst val_main_c_0 val_main_c_1
  rw [src_eq, dst_eq]
  exact Aggr.aggr_read _ _ _

theorem readout_eq (x0 : FVec Ideal S50000x64 .f32) (x2 : IVec S50000 32) :
    val_main_v24 (F := Ideal) x0 x2 = readoutR (val_main_v0 (F := Ideal) x0) x2 := by
  unfold val_main_v24 val_main_v17 val_main_v15 val_main_v16 val_main_cst_2 val_main_v23 val_main_v22 val_main_v19
    val_main_v18 val_main_c_3 val_main_v21 val_main_v20 val_main_c_4
  exact Aggr.readout_read _ _

theorem wT_V (x3 : FVec Ideal S3x128x128 .f32) (d k : Fin 128) :
    val_main_v27 (F := Ideal) x3 (ix2 d k) = wAt x3 0 (ix2 k d) := by
  rw [val_main_v27_apply, val_main_v26_apply, val_main_v25_apply]
  show x3 _ = x3 (ix3 (0 : Fin 3) k d)
  refine congrArg x3 (funext fun a => Fin.ext ?_)
  have hd := d.isLt
  have hk := k.isLt
  match a with
  | ⟨0, _⟩ => rfl
  | ⟨1, _⟩ => show (k.val * 128 + d.val) / 128 % 128 = k.val; omega
  | ⟨2, _⟩ => show (k.val * 128 + d.val) % 128 = d.val; omega

theorem wT_A (x5 : FVec Ideal S3x128x128 .f32) (d k : Fin 128) :
    val_main_v36 (F := Ideal) x5 (ix2 d k) = wAt x5 0 (ix2 k d) := by
  rw [val_main_v36_apply, val_main_v35_apply, val_main_v34_apply]
  show x5 _ = x5 (ix3 (0 : Fin 3) k d)
  refine congrArg x5 (funext fun a => Fin.ext ?_)
  have hd := d.isLt
  have hk := k.isLt
  match a with
  | ⟨0, _⟩ => rfl
  | ⟨1, _⟩ => show (k.val * 128 + d.val) / 128 % 128 = k.val; omega
  | ⟨2, _⟩ => show (k.val * 128 + d.val) % 128 = d.val; omega

theorem wT_R (x7 : FVec Ideal S3x128x128 .f32) (d k : Fin 128) :
    val_main_v46 (F := Ideal) x7 (ix2 d k) = wAt x7 0 (ix2 k d) := by
  rw [val_main_v46_apply, val_main_v45_apply, val_main_v44_apply]
  show x7 _ = x7 (ix3 (0 : Fin 3) k d)
  refine congrArg x7 (funext fun a => Fin.ext ?_)
  have hd := d.isLt
  have hk := k.isLt
  match a with
  | ⟨0, _⟩ => rfl
  | ⟨1, _⟩ => show (k.val * 128 + d.val) / 128 % 128 = k.val; omega
  | ⟨2, _⟩ => show (k.val * 128 + d.val) % 128 = d.val; omega

theorem b_V (x4 : FVec Ideal S3x128 .f32) (r : Fin 50000) (k : Fin 128) :
    val_main_v32 (F := Ideal) x4 (ix2 r k) = bAt x4 0 (ix2 0 k) := by
  rw [val_main_v32_apply, val_main_v31_apply, val_main_v30_apply, val_main_v29_apply]
  show x4 _ = x4 (ix2 (0 : Fin 3) k)
  refine congrArg x4 (funext fun a => Fin.ext ?_)
  match a with
  | ⟨0, _⟩ => rfl
  | ⟨1, _⟩ => show k.val % 128 = k.val; exact Nat.mod_eq_of_lt k.isLt

theorem b_A (x6 : FVec Ideal S3x128 .f32) (r : Fin 50000) (k : Fin 128) :
    val_main_v42 (F := Ideal) x6 (ix2 r k) = bAt x6 0 (ix2 0 k) := by
  rw [val_main_v42_apply, val_main_v41_apply, val_main_v40_apply, val_main_v39_apply]
  show x6 _ = x6 (ix2 (0 : Fin 3) k)
  refine congrArg x6 (funext fun a => Fin.ext ?_)
  match a with
  | ⟨0, _⟩ => rfl
  | ⟨1, _⟩ => show k.val % 128 = k.val; exact Nat.mod_eq_of_lt k.isLt

theorem b_R (x8 : FVec Ideal S3x128 .f32) (r : Fin 50000) (k : Fin 128) :
    val_main_v52 (F := Ideal) x8 (ix2 r k) = bAt x8 0 (ix2 0 k) := by
  rw [val_main_v52_apply, val_main_v51_apply, val_main_v50_apply, val_main_v49_apply]
  show x8 _ = x8 (ix2 (0 : Fin 3) k)
  refine congrArg x8 (funext fun a => Fin.ext ?_)
  match a with
  | ⟨0, _⟩ => rfl
  | ⟨1, _⟩ => show k.val % 128 = k.val; exact Nat.mod_eq_of_lt k.isLt

theorem b_gamma (x9 : FVec Ideal S3x128 .f32) (r : Fin 50000) (k : Fin 128) :
    val_main_v77 (F := Ideal) x9 (ix2 r k) = bAt x9 0 (ix2 0 k) := by
  rw [val_main_v77_apply, val_main_v76_apply, val_main_v75_apply, val_main_v74_apply]
  show x9 _ = x9 (ix2 (0 : Fin 3) k)
  refine congrArg x9 (funext fun a => Fin.ext ?_)
  match a with
  | ⟨0, _⟩ => rfl
  | ⟨1, _⟩ => show k.val % 128 = k.val; exact Nat.mod_eq_of_lt k.isLt

theorem b_beta (x10 : FVec Ideal S3x128 .f32) (r : Fin 50000) (k : Fin 128) :
    val_main_v82 (F := Ideal) x10 (ix2 r k) = bAt x10 0 (ix2 0 k) := by
  rw [val_main_v82_apply, val_main_v81_apply, val_main_v80_apply, val_main_v79_apply]
  show x10 _ = x10 (ix2 (0 : Fin 3) k)
  refine congrArg x10 (funext fun a => Fin.ext ?_)
  match a with
  | ⟨0, _⟩ => rfl
  | ⟨1, _⟩ => show k.val % 128 = k.val; exact Nat.mod_eq_of_lt k.isLt

theorem dot_V (x0 : FVec Ideal S50000x64 .f32) (x3 : FVec Ideal S3x128x128 .f32) (r : Fin 50000) (k : Fin 128) :
    val_main_v28 (F := Ideal) x0 x3 (ix2 r k) = linT (val_main_v0 (F := Ideal) x0) (wAt x3 0) r k := by
  rw [val_main_v28_apply]
  refine Finset.sum_congr rfl fun d _ => ?_
  have e1 : lidx_main_v28 (ix2 r k) d = ix2 r d :=
    funext fun a => Fin.ext (by match a with | ⟨0, _⟩ => rfl | ⟨1, _⟩ => rfl)
  have e2 : ridx_main_v28 (ix2 r k) d = ix2 d k :=
    funext fun a => Fin.ext (by match a with | ⟨0, _⟩ => rfl | ⟨1, _⟩ => rfl)
  rw [e1, e2, wT_V]

theorem dot_A (x0 : FVec Ideal S50000x64 .f32) (x1 : IVec S2x800000 32) (x5 : FVec Ideal S3x128x128 .f32) (r : Fin 50000) (k : Fin 128) :
    val_main_v37 (F := Ideal) x0 x1 x5 (ix2 r k) = linT (val_main_v14 (F := Ideal) x0 x1) (wAt x5 0) r k := by
  rw [val_main_v37_apply]
  refine Finset.sum_congr rfl fun d _ => ?_
  have e1 : lidx_main_v37 (ix2 r k) d = ix2 r d :=
    funext fun a => Fin.ext (by match a with | ⟨0, _⟩ => rfl | ⟨1, _⟩ => rfl)
  have e2 : ridx_main_v37 (ix2 r k) d = ix2 d k :=
    funext fun a => Fin.ext (by match a with | ⟨0, _⟩ => rfl | ⟨1, _⟩ => rfl)
  rw [e1, e2, wT_A]

theorem dot_R (x0 : FVec Ideal S50000x64 .f32) (x2 : IVec S50000 32) (x7 : FVec Ideal S3x128x128 .f32) (r : Fin 50000) (k : Fin 128) :
    val_main_v47 (F := Ideal) x0 x2 x7 (ix2 r k) = linT (val_main_v24 (F := Ideal) x0 x2) (wAt x7 0) r k := by
  rw [val_main_v47_apply]
  refine Finset.sum_congr rfl fun d _ => ?_
  have e1 : lidx_main_v47 (ix2 r k) d = ix2 r d :=
    funext fun a => Fin.ext (by match a with | ⟨0, _⟩ => rfl | ⟨1, _⟩ => rfl)
  have e2 : ridx_main_v47 (ix2 r k) d = ix2 d k :=
    funext fun a => Fin.ext (by match a with | ⟨0, _⟩ => rfl | ⟨1, _⟩ => rfl)
  rw [e1, e2, wT_R]

theorem act_eq (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 : FVec Ideal S3x128 .f32) :
    val_main_v54 (F := Ideal) x0 x1 x2 x3 x4 x5 x6 x7 x8 = actR 0 (val_main_v0 (F := Ideal) x0) x1 x2 x3 x4 x5 x6 x7 x8 := by
  funext y
  obtain ⟨r, k, rfl⟩ : ∃ (r : Fin 50000) (k : Fin 128), y = ix2 r k := ⟨y 0, y 1, eq_ix2 y⟩
  rw [val_main_v54_apply, val_main_v53_apply, val_main_v48_apply, val_main_v43_apply, val_main_v38_apply,
    val_main_v33_apply, dot_V, b_V, dot_A, b_A, dot_R, b_R, aggr_eq, readout_eq, val_main_call1_v0_apply,
    val_main_call1_cst_apply]
  simp only [Ideal.maximumf_def, Ideal.addf_def, Ideal.ofBits_def, Ideal.ofBits_zero_f32]
  rfl

theorem mean_eq (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 : FVec Ideal S3x128 .f32) (k : Fin 128) :
    val_main_v57 (F := Ideal) x0 x1 x2 x3 x4 x5 x6 x7 x8 (ix1 k) = meanOf (colSum (val_main_v54 (F := Ideal) x0 x1 x2 x3 x4 x5 x6 x7 x8)) (ix2 0 k) := by
  rw [val_main_v57_apply, val_main_v55_apply, val_main_v56_apply, val_main_cst_5_apply, val_main_cst_6_apply]
  have e : ∀ r : Fin 50000, idx_main_v55 (ix1 k) r = ix2 r k := fun r =>
    funext fun a => Fin.ext (by match a with | ⟨0, _⟩ => rfl | ⟨1, _⟩ => rfl)
  simp only [e, Ideal.hostDivf_def, Ideal.ofBits_def, Ideal.ofBits_zero_f32, zero_add]
  rfl

theorem mean_bc (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 : FVec Ideal S3x128 .f32) (r : Fin 50000) (k : Fin 128) :
    val_main_v59 (F := Ideal) x0 x1 x2 x3 x4 x5 x6 x7 x8 (ix2 r k) = val_main_v57 (F := Ideal) x0 x1 x2 x3 x4 x5 x6 x7 x8 (ix1 k) := by
  rw [val_main_v59_apply, val_main_v58_apply]
  refine congrArg (val_main_v57 (F := Ideal) x0 x1 x2 x3 x4 x5 x6 x7 x8) (funext fun a => Fin.ext ?_)
  match a with
  | ⟨0, _⟩ => rfl

theorem mean_bc' (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 : FVec Ideal S3x128 .f32) (r : Fin 50000) (k : Fin 128) :
    val_main_v66 (F := Ideal) x0 x1 x2 x3 x4 x5 x6 x7 x8 (ix2 r k) = val_main_v57 (F := Ideal) x0 x1 x2 x3 x4 x5 x6 x7 x8 (ix1 k) := by
  rw [val_main_v66_apply, val_main_v65_apply]
  refine congrArg (val_main_v57 (F := Ideal) x0 x1 x2 x3 x4 x5 x6 x7 x8) (funext fun a => Fin.ext ?_)
  match a with
  | ⟨0, _⟩ => rfl

theorem var_eq (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 : FVec Ideal S3x128 .f32) (k : Fin 128) :
    val_main_v64 (F := Ideal) x0 x1 x2 x3 x4 x5 x6 x7 x8 (ix1 k) = varR (val_main_v54 (F := Ideal) x0 x1 x2 x3 x4 x5 x6 x7 x8) (ix2 0 k) := by
  rw [val_main_v64_apply, val_main_v62_apply, val_main_v63_apply, val_main_cst_7_apply, val_main_cst_8_apply]
  have e : ∀ r : Fin 50000, idx_main_v62 (ix1 k) r = ix2 r k := fun r =>
    funext fun a => Fin.ext (by match a with | ⟨0, _⟩ => rfl | ⟨1, _⟩ => rfl)
  simp only [e, val_main_v61_apply, val_main_v60_apply, mean_bc, mean_eq, Ideal.hostDivf_def, Ideal.mulf_def,
    Ideal.subf_def, Ideal.ofBits_def, Ideal.ofBits_zero_f32, zero_add]
  rfl

theorem rstd_eq (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 : FVec Ideal S3x128 .f32) (k : Fin 128) :
    val_main_v70 (F := Ideal) x0 x1 x2 x3 x4 x5 x6 x7 x8 (ix1 k) = rstdOf (varR (val_main_v54 (F := Ideal) x0 x1 x2 x3 x4 x5 x6 x7 x8)) (ix2 0 k) := by
  rw [val_main_v70_apply, val_main_v69_apply, var_eq, val_main_v68_apply, val_main_cst_9_apply]
  simp only [Ideal.hostUnary_rsqrt_def, Ideal.addf_def, Ideal.ofBits_def]
  rfl

theorem rstd_bc (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 : FVec Ideal S3x128 .f32) (r : Fin 50000) (k : Fin 128) :
    val_main_v72 (F := Ideal) x0 x1 x2 x3 x4 x5 x6 x7 x8 (ix2 r k) = val_main_v70 (F := Ideal) x0 x1 x2 x3 x4 x5 x6 x7 x8 (ix1 k) := by
  rw [val_main_v72_apply, val_main_v71_apply]
  refine congrArg (val_main_v70 (F := Ideal) x0 x1 x2 x3 x4 x5 x6 x7 x8) (funext fun a => Fin.ext ?_)
  match a with
  | ⟨0, _⟩ => rfl

theorem out_apply (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 : FVec Ideal S3x128 .f32) (x9 x10 : FVec Ideal S3x128 .f32) (r : Fin 50000) (k : Fin 128) :
    val_main_v83 (F := Ideal) x0 x1 x2 x3 x4 x5 x6 x7 x8 x9 x10 (ix2 r k)
      = normalize (val_main_v54 (F := Ideal) x0 x1 x2 x3 x4 x5 x6 x7 x8) (meanOf (colSum (val_main_v54 (F := Ideal) x0 x1 x2 x3 x4 x5 x6 x7 x8))) (rstdOf (varR (val_main_v54 (F := Ideal) x0 x1 x2 x3 x4 x5 x6 x7 x8))) (bAt x9 0) (bAt x10 0) (ix2 r k) := by
  rw [val_main_v83_apply, val_main_v78_apply, val_main_v73_apply, val_main_v67_apply, mean_bc', mean_eq, rstd_bc,
    rstd_eq, b_gamma, b_beta]
  simp only [Ideal.addf_def, Ideal.mulf_def, Ideal.subf_def]
  rfl

theorem layer (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 x9 x10 : FVec Ideal S3x128 .f32) :
    val_main_v83 (F := Ideal) x0 x1 x2 x3 x4 x5 x6 x7 x8 x9 x10
      = layerR 0 (val_main_v0 (F := Ideal) x0) x1 x2 x3 x4 x5 x6 x7 x8 x9 x10 := by
  funext y
  obtain ⟨r, k, rfl⟩ : ∃ (r : Fin 50000) (k : Fin 128), y = ix2 r k := ⟨y 0, y 1, eq_ix2 y⟩
  rw [out_apply, act_eq]
  rfl

end Cert.ReferenceIdeal.Layer1

end
-- ==== Proof.RefL2.lean ====
import proofs.«417352_j66855460929770_1_alg».proof.Proof.RefRead
import proofs.«417352_j66855460929770_1_alg».proof.Proof.Spec
import proofs.«417352_j66855460929770_1_alg».proof.Proof.LibScatter
import Idealize.ShloMosaic.Lib.Pipeline.Value
import Idealize.ShloMosaic.Lib.ValueIdx
import Idealize.ShloMosaic.Lib.ValueLayout
import Idealize.ShloMosaic.PureOps.Ideal.Laws
import proofs.«417352_j66855460929770_1_alg».proof.Proof.RefAggr

noncomputable section

open Idealize.ShloMosaic Idealize.ShloMosaic.TcCoe Idealize.SL.Sem

namespace Cert.ReferenceIdeal.Layer2

open Cert.ReferenceIdeal Cert.ReferenceIdeal.Gen Cert.ReferenceIdeal.ReadP Cert.Gnn
open Idealize.ShloMosaic.ValueIdx

theorem src_eq (x1 : IVec S2x800000 32) : val_main_v2 (F := Ideal) x1 = eiRow x1 0 := by
  funext i
  rw [val_main_v2_apply, val_main_v1_apply]
  show x1 _ = x1 (ix2 0 (i 0))
  refine congrArg x1 (funext fun a => Fin.ext ?_)
  match a with
  | ⟨0, _⟩ => rfl
  | ⟨1, _⟩ => exact Nat.mod_eq_of_lt (i 0).isLt

theorem dst_eq (x1 : IVec S2x800000 32) : val_main_v4 (F := Ideal) x1 = eiRow x1 1 := by
  funext i
  rw [val_main_v4_apply, val_main_v3_apply]
  show x1 _ = x1 (ix2 1 (i 0))
  refine congrArg x1 (funext fun a => Fin.ext ?_)
  match a with
  | ⟨0, _⟩ => rfl
  | ⟨1, _⟩ => exact Nat.mod_eq_of_lt (i 0).isLt

theorem wT (W : FVec Ideal S3x128x128 .f32) (d k : Fin 128) :
    val_main_v106 (F := Ideal) W (ix2 d k) = wAt W 1 (ix2 k d) := by
  rw [val_main_v106_apply, val_main_v105_apply, val_main_v104_apply]
  show W _ = W (ix3 1 k d)
  refine congrArg W (funext fun a => Fin.ext ?_)
  have hk := k.isLt
  have hd := d.isLt
  match a with
  | ⟨0, _⟩ => rfl
  | ⟨1, _⟩ => show (k.val * 128 + d.val) / 128 % 128 = k.val; omega
  | ⟨2, _⟩ => show (k.val * 128 + d.val) % 128 = d.val; omega

theorem rowB (B : FVec Ideal S3x128 .f32) (r : Fin 50000) (k : Fin 128) :
    val_main_v111 (F := Ideal) B (ix2 r k) = bAt B 1 (ix2 0 k) := by
  rw [val_main_v111_apply, val_main_v110_apply, val_main_v109_apply, val_main_v108_apply]
  show B _ = B (ix2 1 k)
  refine congrArg B (funext fun a => Fin.ext ?_)
  match a with
  | ⟨0, _⟩ => rfl
  | ⟨1, _⟩ => exact Nat.mod_eq_of_lt k.isLt

theorem rowB_A (B : FVec Ideal S3x128 .f32) (r : Fin 50000) (k : Fin 128) :
    val_main_v121 (F := Ideal) B (ix2 r k) = bAt B 1 (ix2 0 k) := rowB B r k
theorem rowB_R (B : FVec Ideal S3x128 .f32) (r : Fin 50000) (k : Fin 128) :
    val_main_v131 (F := Ideal) B (ix2 r k) = bAt B 1 (ix2 0 k) := rowB B r k
theorem rowB_g (B : FVec Ideal S3x128 .f32) (r : Fin 50000) (k : Fin 128) :
    val_main_v156 (F := Ideal) B (ix2 r k) = bAt B 1 (ix2 0 k) := rowB B r k
theorem rowB_b (B : FVec Ideal S3x128 .f32) (r : Fin 50000) (k : Fin 128) :
    val_main_v161 (F := Ideal) B (ix2 r k) = bAt B 1 (ix2 0 k) := rowB B r k

theorem dot_at (L : FVec Ideal S50000x128 .f32) (R : FVec Ideal S128x128 .f32) (r : Fin 50000) (k : Fin 128) :
    Host.dotGeneral (F := Ideal) (φ₁ := .f32) (φ₂ := .f32) dot_S50000x128_S128x128_S50000x128_1_0_0_1_n_n none L R (ix2 r k)
      = ∑ d : Fin 128, L (ix2 r d) * R (ix2 d k) := by
  simp only [Host.dotGeneral]
  rw [Ideal.dotGeneral_apply, ← Equiv.sum_comp (contrEquiv1 dot_S50000x128_S128x128_S50000x128_1_0_0_1_n_n 128 rfl rfl).symm]
  refine Finset.sum_congr rfl fun d _ => ?_
  have hd := contrEquiv1_symm_val dot_S50000x128_S128x128_S50000x128_1_0_0_1_n_n 128 rfl rfl d
  have el : dot_S50000x128_S128x128_S50000x128_1_0_0_1_n_n.lhsIdx (ix2 r k) ((contrEquiv1 dot_S50000x128_S128x128_S50000x128_1_0_0_1_n_n 128 rfl rfl).symm d) = ix2 r d :=
    funext fun a => Fin.ext (by
      match a with
      | ⟨0, _⟩ => exact lhs_main_v107_0 _ _
      | ⟨1, _⟩ => exact (lhs_main_v107_1 _ _).trans hd)
  have er : dot_S50000x128_S128x128_S50000x128_1_0_0_1_n_n.rhsIdx (ix2 r k) ((contrEquiv1 dot_S50000x128_S128x128_S50000x128_1_0_0_1_n_n 128 rfl rfl).symm d) = ix2 d k :=
    funext fun a => Fin.ext (by
      match a with
      | ⟨0, _⟩ => exact (rhs_main_v107_0 _ _).trans hd
      | ⟨1, _⟩ => exact rhs_main_v107_1 _ _)
  rw [el, er]

theorem prod_at (L : FVec Ideal S50000x128 .f32) (W : FVec Ideal S3x128x128 .f32) (r : Fin 50000) (k : Fin 128) :
    Host.dotGeneral (F := Ideal) (φ₁ := .f32) (φ₂ := .f32) dot_S50000x128_S128x128_S50000x128_1_0_0_1_n_n none L (val_main_v106 (F := Ideal) W) (ix2 r k)
      = linT L (wAt W 1) r k := by
  rw [dot_at]
  unfold linT
  exact Finset.sum_congr rfl fun d _ => by rw [wT]

theorem zero_splat (i : S50000x128.Idx) : val_main_call2_v0 (F := Ideal) i = 0 := by
  rw [val_main_call2_v0_apply, val_main_call2_cst_apply]
  exact Ideal.ofBits_zero_f32

section Layer

variable (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 x9 x10 : FVec Ideal S3x128 .f32)

theorem aggr_eq : val_main_v93 (F := Ideal) x0 x1 x2 x3 x4 x5 x6 x7 x8 x9 x10 = aggr (val_main_v83 (F := Ideal) x0 x1 x2 x3 x4 x5 x6 x7 x8 x9 x10) x1 := by
  unfold val_main_v93 val_main_v90 val_main_v91 val_main_v92 val_main_v89 val_main_v88 val_main_v87 val_main_v85
    val_main_v86 val_main_v84 val_main_cst_12 val_main_c_11 val_main_c_10
  rw [src_eq, dst_eq]
  exact Aggr.aggr_read _ _ _

theorem readout_eq : val_main_v103 (F := Ideal) x0 x1 x2 x3 x4 x5 x6 x7 x8 x9 x10 = readoutR (val_main_v83 (F := Ideal) x0 x1 x2 x3 x4 x5 x6 x7 x8 x9 x10) x2 := by
  unfold val_main_v103 val_main_v96 val_main_v94 val_main_v95 val_main_v102 val_main_v101 val_main_v100 val_main_v98
    val_main_v99 val_main_v97 val_main_cst_13 val_main_c_15 val_main_c_14
  exact Aggr.readout_read _ _

theorem prodV (r : Fin 50000) (k : Fin 128) :
    val_main_v107 (F := Ideal) x0 x1 x2 x3 x4 x5 x6 x7 x8 x9 x10 (ix2 r k) = linT (val_main_v83 (F := Ideal) x0 x1 x2 x3 x4 x5 x6 x7 x8 x9 x10) (wAt x3 1) r k := prod_at _ x3 r k

theorem prodA (r : Fin 50000) (k : Fin 128) :
    val_main_v116 (F := Ideal) x0 x1 x2 x3 x4 x5 x6 x7 x8 x9 x10 (ix2 r k) = linT (aggr (val_main_v83 (F := Ideal) x0 x1 x2 x3 x4 x5 x6 x7 x8 x9 x10) x1) (wAt x5 1) r k := by
  rw [← aggr_eq]
  exact prod_at _ x5 r k

theorem prodR (r : Fin 50000) (k : Fin 128) :
    val_main_v126 (F := Ideal) x0 x1 x2 x3 x4 x5 x6 x7 x8 x9 x10 (ix2 r k) = linT (readoutR (val_main_v83 (F := Ideal) x0 x1 x2 x3 x4 x5 x6 x7 x8 x9 x10) x2) (wAt x7 1) r k := by
  rw [← readout_eq]
  exact prod_at _ x7 r k

theorem act_eq : val_main_v133 (F := Ideal) x0 x1 x2 x3 x4 x5 x6 x7 x8 x9 x10 = actR 1 (val_main_v83 (F := Ideal) x0 x1 x2 x3 x4 x5 x6 x7 x8 x9 x10) x1 x2 x3 x4 x5 x6 x7 x8 := by
  funext i
  obtain ⟨r, k, rfl⟩ : ∃ (r : Fin 50000) (k : Fin 128), i = ix2 r k := ⟨i 0, i 1, eq_ix2 i⟩
  rw [val_main_v133_apply, val_main_v132_apply, val_main_v127_apply, val_main_v122_apply, val_main_v117_apply,
    val_main_v112_apply, prodV, prodA, prodR, rowB, rowB_A, rowB_R, zero_splat]
  rfl

theorem mean_eq (k : Fin 128) :
    val_main_v136 (F := Ideal) x0 x1 x2 x3 x4 x5 x6 x7 x8 x9 x10 (ix1 k) = meanOf (colSum (actR 1 (val_main_v83 (F := Ideal) x0 x1 x2 x3 x4 x5 x6 x7 x8 x9 x10) x1 x2 x3 x4 x5 x6 x7 x8)) (ix2 0 k) := by
  rw [val_main_v136_apply, val_main_v134_apply, val_main_v135_apply, val_main_cst_16_apply, val_main_cst_17_apply, act_eq]
  show Ideal.div (Ideal.ofBits .f32 0x00000000#32 + ∑ r : Fin 50000, (actR 1 (val_main_v83 (F := Ideal) x0 x1 x2 x3 x4 x5 x6 x7 x8 x9 x10) x1 x2 x3 x4 x5 x6 x7 x8) (idx_main_v134 (ix1 k) r))
      (Ideal.ofBits .f32 0x47435000#32)
    = Ideal.div (∑ r : Fin 50000, (actR 1 (val_main_v83 (F := Ideal) x0 x1 x2 x3 x4 x5 x6 x7 x8 x9 x10) x1 x2 x3 x4 x5 x6 x7 x8) (ix2 r k)) cN
  rw [Ideal.ofBits_zero_f32, zero_add]
  refine congrArg (fun s => Ideal.div s cN) (Finset.sum_congr rfl fun r _ => congrArg (actR 1 (val_main_v83 (F := Ideal) x0 x1 x2 x3 x4 x5 x6 x7 x8 x9 x10) x1 x2 x3 x4 x5 x6 x7 x8) ?_)
  exact funext fun a => Fin.ext (by match a with | ⟨0, _⟩ => rfl | ⟨1, _⟩ => rfl)

theorem mean_b (r : Fin 50000) (k : Fin 128) :
    val_main_v138 (F := Ideal) x0 x1 x2 x3 x4 x5 x6 x7 x8 x9 x10 (ix2 r k) = meanOf (colSum (actR 1 (val_main_v83 (F := Ideal) x0 x1 x2 x3 x4 x5 x6 x7 x8 x9 x10) x1 x2 x3 x4 x5 x6 x7 x8)) (ix2 0 k) := by
  rw [val_main_v138_apply, val_main_v137_apply]
  refine (congrArg (val_main_v136 (F := Ideal) x0 x1 x2 x3 x4 x5 x6 x7 x8 x9 x10) ?_).trans (mean_eq x0 x1 x2 x3 x4 x5 x6 x7 x8 x9 x10 k)
  exact funext fun a => Fin.ext (by match a with | ⟨0, _⟩ => rfl)

theorem mean_b' (r : Fin 50000) (k : Fin 128) :
    val_main_v145 (F := Ideal) x0 x1 x2 x3 x4 x5 x6 x7 x8 x9 x10 (ix2 r k) = meanOf (colSum (actR 1 (val_main_v83 (F := Ideal) x0 x1 x2 x3 x4 x5 x6 x7 x8 x9 x10) x1 x2 x3 x4 x5 x6 x7 x8)) (ix2 0 k) :=
  mean_b x0 x1 x2 x3 x4 x5 x6 x7 x8 x9 x10 r k

theorem var_eq (k : Fin 128) :
    val_main_v143 (F := Ideal) x0 x1 x2 x3 x4 x5 x6 x7 x8 x9 x10 (ix1 k) = varR (actR 1 (val_main_v83 (F := Ideal) x0 x1 x2 x3 x4 x5 x6 x7 x8 x9 x10) x1 x2 x3 x4 x5 x6 x7 x8) (ix2 0 k) := by
  rw [val_main_v143_apply, val_main_v141_apply, val_main_v142_apply, val_main_cst_18_apply, val_main_cst_19_apply]
  show Ideal.div (Ideal.ofBits .f32 0x00000000#32 + ∑ r : Fin 50000, val_main_v140 (F := Ideal) x0 x1 x2 x3 x4 x5 x6 x7 x8 x9 x10 (idx_main_v141 (ix1 k) r))
      (Ideal.ofBits .f32 0x47435000#32)
    = Ideal.div (∑ r : Fin 50000, ((actR 1 (val_main_v83 (F := Ideal) x0 x1 x2 x3 x4 x5 x6 x7 x8 x9 x10) x1 x2 x3 x4 x5 x6 x7 x8) (ix2 r k) - meanOf (colSum (actR 1 (val_main_v83 (F := Ideal) x0 x1 x2 x3 x4 x5 x6 x7 x8 x9 x10) x1 x2 x3 x4 x5 x6 x7 x8)) (ix2 0 k))
        * ((actR 1 (val_main_v83 (F := Ideal) x0 x1 x2 x3 x4 x5 x6 x7 x8 x9 x10) x1 x2 x3 x4 x5 x6 x7 x8) (ix2 r k) - meanOf (colSum (actR 1 (val_main_v83 (F := Ideal) x0 x1 x2 x3 x4 x5 x6 x7 x8 x9 x10) x1 x2 x3 x4 x5 x6 x7 x8)) (ix2 0 k))) cN
  rw [Ideal.ofBits_zero_f32, zero_add]
  refine congrArg (fun s => Ideal.div s cN) (Finset.sum_congr rfl fun r _ => ?_)
  have e : idx_main_v141 (ix1 k) r = ix2 r k :=
    funext fun a => Fin.ext (by match a with | ⟨0, _⟩ => rfl | ⟨1, _⟩ => rfl)
  rw [e, val_main_v140_apply, val_main_v139_apply, mean_b, act_eq]
  rfl

theorem rstd_b (r : Fin 50000) (k : Fin 128) :
    val_main_v151 (F := Ideal) x0 x1 x2 x3 x4 x5 x6 x7 x8 x9 x10 (ix2 r k) = rstdOf (varR (actR 1 (val_main_v83 (F := Ideal) x0 x1 x2 x3 x4 x5 x6 x7 x8 x9 x10) x1 x2 x3 x4 x5 x6 x7 x8)) (ix2 0 k) := by
  rw [val_main_v151_apply, val_main_v150_apply]
  have e : idx_main_v150 (idx_main_v151 (ix2 r k)) = ix1 k :=
    funext fun a => Fin.ext (by match a with | ⟨0, _⟩ => rfl)
  rw [e, val_main_v149_apply, val_main_v148_apply, val_main_v147_apply, val_main_cst_20_apply, var_eq]
  rfl

end Layer

theorem layer (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 x9 x10 : FVec Ideal S3x128 .f32) :
    val_main_v162 (F := Ideal) x0 x1 x2 x3 x4 x5 x6 x7 x8 x9 x10
      = layerR 1 (val_main_v83 (F := Ideal) x0 x1 x2 x3 x4 x5 x6 x7 x8 x9 x10) x1 x2 x3 x4 x5 x6 x7 x8 x9 x10 := by
  funext i
  obtain ⟨r, k, rfl⟩ : ∃ (r : Fin 50000) (k : Fin 128), i = ix2 r k := ⟨i 0, i 1, eq_ix2 i⟩
  rw [val_main_v162_apply, val_main_v157_apply, val_main_v152_apply, val_main_v146_apply, mean_b', rstd_b, rowB_g, rowB_b,
    act_eq]
  rfl

end Cert.ReferenceIdeal.Layer2

end
-- ==== Proof.RefL3.lean ====
import proofs.«417352_j66855460929770_1_alg».proof.Proof.RefRead
import proofs.«417352_j66855460929770_1_alg».proof.Proof.Spec
import proofs.«417352_j66855460929770_1_alg».proof.Proof.LibScatter
import Idealize.ShloMosaic.Lib.Pipeline.Value
import Idealize.ShloMosaic.Lib.ValueIdx
import Idealize.ShloMosaic.Lib.ValueLayout
import Idealize.ShloMosaic.PureOps.Ideal.Laws
import proofs.«417352_j66855460929770_1_alg».proof.Proof.RefAggr

noncomputable section

open Idealize.ShloMosaic Idealize.ShloMosaic.TcCoe Idealize.SL.Sem

namespace Cert.ReferenceIdeal.Layer3

open Cert.ReferenceIdeal Cert.ReferenceIdeal.Gen Cert.ReferenceIdeal.ReadP Cert.Gnn
open Idealize.ShloMosaic.ValueIdx

variable (x0 : FVec Ideal S50000x64 .f32) (x1 : IVec S2x800000 32) (x2 : IVec S50000 32)
  (x3 : FVec Ideal S3x128x128 .f32) (x4 : FVec Ideal S3x128 .f32) (x5 : FVec Ideal S3x128x128 .f32)
  (x6 : FVec Ideal S3x128 .f32) (x7 : FVec Ideal S3x128x128 .f32) (x8 x9 x10 : FVec Ideal S3x128 .f32)

theorem src_eq : val_main_v2 (F := Ideal) x1 = eiRow x1 0 := by
  funext y
  obtain ⟨e, rfl⟩ : ∃ e : Fin 800000, y = ix1 e := ⟨y 0, eq_ix1 y⟩
  rw [val_main_v2_apply, val_main_v1_apply]
  show x1 _ = x1 (ix2 0 e)
  refine congrArg x1 (funext fun a => Fin.ext ?_)
  match a with
  | ⟨0, _⟩ => rfl
  | ⟨1, _⟩ => show e.val % 800000 = e.val; exact Nat.mod_eq_of_lt e.isLt

theorem dst_eq : val_main_v4 (F := Ideal) x1 = eiRow x1 1 := by
  funext y
  obtain ⟨e, rfl⟩ : ∃ e : Fin 800000, y = ix1 e := ⟨y 0, eq_ix1 y⟩
  rw [val_main_v4_apply, val_main_v3_apply]
  show x1 _ = x1 (ix2 1 e)
  refine congrArg x1 (funext fun a => Fin.ext ?_)
  match a with
  | ⟨0, _⟩ => rfl
  | ⟨1, _⟩ => show e.val % 800000 = e.val; exact Nat.mod_eq_of_lt e.isLt

theorem aggr_eq : val_main_v172 (F := Ideal) x0 x1 x2 x3 x4 x5 x6 x7 x8 x9 x10 = aggr (val_main_v162 (F := Ideal) x0 x1 x2 x3 x4 x5 x6 x7 x8 x9 x10) x1 := by
  unfold val_main_v172 val_main_v171 val_main_v170 val_main_v169 val_main_v168 val_main_v167 val_main_v166 val_main_v165
    val_main_v164 val_main_v163 val_main_cst_23 val_main_c_22 val_main_c_21
  rw [src_eq x1, dst_eq x1]
  exact Aggr.aggr_read _ _ _

theorem readout_eq : val_main_v182 (F := Ideal) x0 x1 x2 x3 x4 x5 x6 x7 x8 x9 x10 = readoutR (val_main_v162 (F := Ideal) x0 x1 x2 x3 x4 x5 x6 x7 x8 x9 x10) x2 := by
  unfold val_main_v182 val_main_v181 val_main_v180 val_main_v179 val_main_v178 val_main_v177 val_main_v176 val_main_v175
    val_main_v174 val_main_v173 val_main_cst_24 val_main_c_26 val_main_c_25
  exact Aggr.readout_read _ _

theorem wV_apply (d k : Fin 128) : val_main_v185 (F := Ideal) x3 (ix2 d k) = x3 (ix3 2 k d) := by
  have hd := d.isLt
  have hk := k.isLt
  rw [val_main_v185_apply, val_main_v184_apply, val_main_v183_apply]
  refine congrArg x3 (funext fun a => Fin.ext ?_)
  match a with
  | ⟨0, _⟩ => rfl
  | ⟨1, _⟩ => show (k.val * 128 + d.val) / 128 % 128 = k.val; omega
  | ⟨2, _⟩ => show (k.val * 128 + d.val) % 128 = d.val; omega

theorem wA_apply (d k : Fin 128) : val_main_v194 (F := Ideal) x5 (ix2 d k) = x5 (ix3 2 k d) := by
  have hd := d.isLt
  have hk := k.isLt
  rw [val_main_v194_apply, val_main_v193_apply, val_main_v192_apply]
  refine congrArg x5 (funext fun a => Fin.ext ?_)
  match a with
  | ⟨0, _⟩ => rfl
  | ⟨1, _⟩ => show (k.val * 128 + d.val) / 128 % 128 = k.val; omega
  | ⟨2, _⟩ => show (k.val * 128 + d.val) % 128 = d.val; omega

theorem wR_apply (d k : Fin 128) : val_main_v204 (F := Ideal) x7 (ix2 d k) = x7 (ix3 2 k d) := by
  have hd := d.isLt
  have hk := k.isLt
  rw [val_main_v204_apply, val_main_v203_apply, val_main_v202_apply]
  refine congrArg x7 (funext fun a => Fin.ext ?_)
  match a with
  | ⟨0, _⟩ => rfl
  | ⟨1, _⟩ => show (k.val * 128 + d.val) / 128 % 128 = k.val; omega
  | ⟨2, _⟩ => show (k.val * 128 + d.val) % 128 = d.val; omega

theorem bV_apply (r : Fin 50000) (k : Fin 128) : val_main_v190 (F := Ideal) x4 (ix2 r k) = x4 (ix2 2 k) := by
  rw [val_main_v190_apply, val_main_v189_apply, val_main_v188_apply, val_main_v187_apply]
  refine congrArg x4 (funext fun a => Fin.ext ?_)
  match a with
  | ⟨0, _⟩ => rfl
  | ⟨1, _⟩ => show k.val % 128 = k.val; exact Nat.mod_eq_of_lt k.isLt

theorem bA_apply (r : Fin 50000) (k : Fin 128) : val_main_v200 (F := Ideal) x6 (ix2 r k) = x6 (ix2 2 k) := by
  rw [val_main_v200_apply, val_main_v199_apply, val_main_v198_apply, val_main_v197_apply]
  refine congrArg x6 (funext fun a => Fin.ext ?_)
  match a with
  | ⟨0, _⟩ => rfl
  | ⟨1, _⟩ => show k.val % 128 = k.val; exact Nat.mod_eq_of_lt k.isLt

theorem bR_apply (r : Fin 50000) (k : Fin 128) : val_main_v210 (F := Ideal) x8 (ix2 r k) = x8 (ix2 2 k) := by
  rw [val_main_v210_apply, val_main_v209_apply, val_main_v208_apply, val_main_v207_apply]
  refine congrArg x8 (funext fun a => Fin.ext ?_)
  match a with
  | ⟨0, _⟩ => rfl
  | ⟨1, _⟩ => show k.val % 128 = k.val; exact Nat.mod_eq_of_lt k.isLt

theorem gam_apply (r : Fin 50000) (k : Fin 128) : val_main_v235 (F := Ideal) x9 (ix2 r k) = x9 (ix2 2 k) := by
  rw [val_main_v235_apply, val_main_v234_apply, val_main_v233_apply, val_main_v232_apply]
  refine congrArg x9 (funext fun a => Fin.ext ?_)
  match a with
  | ⟨0, _⟩ => rfl
  | ⟨1, _⟩ => show k.val % 128 = k.val; exact Nat.mod_eq_of_lt k.isLt

theorem bet_apply (r : Fin 50000) (k : Fin 128) : val_main_v240 (F := Ideal) x10 (ix2 r k) = x10 (ix2 2 k) := by
  rw [val_main_v240_apply, val_main_v239_apply, val_main_v238_apply, val_main_v237_apply]
  refine congrArg x10 (funext fun a => Fin.ext ?_)
  match a with
  | ⟨0, _⟩ => rfl
  | ⟨1, _⟩ => show k.val % 128 = k.val; exact Nat.mod_eq_of_lt k.isLt

theorem dotV_apply (r : Fin 50000) (k : Fin 128) :
    val_main_v186 (F := Ideal) x0 x1 x2 x3 x4 x5 x6 x7 x8 x9 x10 (ix2 r k) = linT (val_main_v162 (F := Ideal) x0 x1 x2 x3 x4 x5 x6 x7 x8 x9 x10) (wAt x3 2) r k := by
  rw [val_main_v186_apply]
  unfold linT
  refine Finset.sum_congr rfl fun d _ => ?_
  have el : lidx_main_v186 (ix2 r k) d = ix2 r d := funext fun a => Fin.ext (by match a with | ⟨0, _⟩ => rfl | ⟨1, _⟩ => rfl)
  have er : ridx_main_v186 (ix2 r k) d = ix2 d k := funext fun a => Fin.ext (by match a with | ⟨0, _⟩ => rfl | ⟨1, _⟩ => rfl)
  rw [el, er, wV_apply]
  rfl

theorem dotA_apply (r : Fin 50000) (k : Fin 128) :
    val_main_v195 (F := Ideal) x0 x1 x2 x3 x4 x5 x6 x7 x8 x9 x10 (ix2 r k) = linT (aggr (val_main_v162 (F := Ideal) x0 x1 x2 x3 x4 x5 x6 x7 x8 x9 x10) x1) (wAt x5 2) r k := by
  rw [val_main_v195_apply, aggr_eq]
  unfold linT
  refine Finset.sum_congr rfl fun d _ => ?_
  have el : lidx_main_v195 (ix2 r k) d = ix2 r d := funext fun a => Fin.ext (by match a with | ⟨0, _⟩ => rfl | ⟨1, _⟩ => rfl)
  have er : ridx_main_v195 (ix2 r k) d = ix2 d k := funext fun a => Fin.ext (by match a with | ⟨0, _⟩ => rfl | ⟨1, _⟩ => rfl)
  rw [el, er, wA_apply]
  rfl

theorem dotR_apply (r : Fin 50000) (k : Fin 128) :
    val_main_v205 (F := Ideal) x0 x1 x2 x3 x4 x5 x6 x7 x8 x9 x10 (ix2 r k) = linT (readoutR (val_main_v162 (F := Ideal) x0 x1 x2 x3 x4 x5 x6 x7 x8 x9 x10) x2) (wAt x7 2) r k := by
  rw [val_main_v205_apply, readout_eq]
  unfold linT
  refine Finset.sum_congr rfl fun d _ => ?_
  have el : lidx_main_v205 (ix2 r k) d = ix2 r d := funext fun a => Fin.ext (by match a with | ⟨0, _⟩ => rfl | ⟨1, _⟩ => rfl)
  have er : ridx_main_v205 (ix2 r k) d = ix2 d k := funext fun a => Fin.ext (by match a with | ⟨0, _⟩ => rfl | ⟨1, _⟩ => rfl)
  rw [el, er, wR_apply]
  rfl

theorem pre_eq : val_main_v211 (F := Ideal) x0 x1 x2 x3 x4 x5 x6 x7 x8 x9 x10
    = pre (val_main_v162 (F := Ideal) x0 x1 x2 x3 x4 x5 x6 x7 x8 x9 x10) (aggr (val_main_v162 (F := Ideal) x0 x1 x2 x3 x4 x5 x6 x7 x8 x9 x10) x1) (readoutR (val_main_v162 (F := Ideal) x0 x1 x2 x3 x4 x5 x6 x7 x8 x9 x10) x2) (wAt x3 2) (wAt x5 2) (wAt x7 2) (bAt x4 2) (bAt x6 2) (bAt x8 2) := by
  funext i
  obtain ⟨r, k, rfl⟩ : ∃ (r : Fin 50000) (k : Fin 128), i = ix2 r k := ⟨i 0, i 1, eq_ix2 i⟩
  rw [val_main_v211_apply, val_main_v206_apply, val_main_v201_apply, val_main_v196_apply, val_main_v191_apply,
    dotV_apply, dotA_apply, dotR_apply, bV_apply, bA_apply, bR_apply]
  rfl

theorem act_eq : val_main_v212 (F := Ideal) x0 x1 x2 x3 x4 x5 x6 x7 x8 x9 x10 = actR 2 (val_main_v162 (F := Ideal) x0 x1 x2 x3 x4 x5 x6 x7 x8 x9 x10) x1 x2 x3 x4 x5 x6 x7 x8 := by
  funext i
  obtain ⟨r, k, rfl⟩ : ∃ (r : Fin 50000) (k : Fin 128), i = ix2 r k := ⟨i 0, i 1, eq_ix2 i⟩
  rw [val_main_v212_apply, pre_eq, val_main_call3_v0_apply]
  show max _ (Ideal.ofBits .f32 0x00000000#32) = max _ 0
  rw [Ideal.ofBits_zero_f32]

theorem mean_apply (k : Fin 128) : val_main_v215 (F := Ideal) x0 x1 x2 x3 x4 x5 x6 x7 x8 x9 x10 (ix1 k) = (meanOf (colSum (actR 2 (val_main_v162 (F := Ideal) x0 x1 x2 x3 x4 x5 x6 x7 x8 x9 x10) x1 x2 x3 x4 x5 x6 x7 x8))) (ix2 0 k) := by
  rw [val_main_v215_apply, val_main_v213_apply, act_eq, val_main_v214_apply]
  show Ideal.div (Ideal.ofBits .f32 0x00000000#32 + ∑ r : Fin 50000, (actR 2 (val_main_v162 (F := Ideal) x0 x1 x2 x3 x4 x5 x6 x7 x8 x9 x10) x1 x2 x3 x4 x5 x6 x7 x8) (idx_main_v213 (ix1 k) r))
      (Ideal.ofBits .f32 0x47435000#32) = Ideal.div (∑ r : Fin 50000, (actR 2 (val_main_v162 (F := Ideal) x0 x1 x2 x3 x4 x5 x6 x7 x8 x9 x10) x1 x2 x3 x4 x5 x6 x7 x8) (ix2 r k)) cN
  rw [Ideal.ofBits_zero_f32, zero_add]
  refine congrArg (Ideal.div · cN) (Finset.sum_congr rfl fun r _ => ?_)
  exact congrArg (actR 2 (val_main_v162 (F := Ideal) x0 x1 x2 x3 x4 x5 x6 x7 x8 x9 x10) x1 x2 x3 x4 x5 x6 x7 x8) (funext fun a => Fin.ext (by match a with | ⟨0, _⟩ => rfl | ⟨1, _⟩ => rfl))

theorem meanB_apply (r : Fin 50000) (k : Fin 128) :
    val_main_v217 (F := Ideal) x0 x1 x2 x3 x4 x5 x6 x7 x8 x9 x10 (ix2 r k) = (meanOf (colSum (actR 2 (val_main_v162 (F := Ideal) x0 x1 x2 x3 x4 x5 x6 x7 x8 x9 x10) x1 x2 x3 x4 x5 x6 x7 x8))) (ix2 0 k) := by
  rw [val_main_v217_apply, val_main_v216_apply]
  have e : idx_main_v216 (idx_main_v217 (ix2 r k)) = ix1 k := funext fun a => Fin.ext (by match a with | ⟨0, _⟩ => rfl)
  rw [e, mean_apply]

theorem meanB2_apply (r : Fin 50000) (k : Fin 128) :
    val_main_v224 (F := Ideal) x0 x1 x2 x3 x4 x5 x6 x7 x8 x9 x10 (ix2 r k) = (meanOf (colSum (actR 2 (val_main_v162 (F := Ideal) x0 x1 x2 x3 x4 x5 x6 x7 x8 x9 x10) x1 x2 x3 x4 x5 x6 x7 x8))) (ix2 0 k) := by
  rw [val_main_v224_apply, val_main_v223_apply]
  have e : idx_main_v223 (idx_main_v224 (ix2 r k)) = ix1 k := funext fun a => Fin.ext (by match a with | ⟨0, _⟩ => rfl)
  rw [e, mean_apply]

theorem dev_apply (r : Fin 50000) (k : Fin 128) :
    val_main_v218 (F := Ideal) x0 x1 x2 x3 x4 x5 x6 x7 x8 x9 x10 (ix2 r k) = (actR 2 (val_main_v162 (F := Ideal) x0 x1 x2 x3 x4 x5 x6 x7 x8 x9 x10) x1 x2 x3 x4 x5 x6 x7 x8) (ix2 r k) - (meanOf (colSum (actR 2 (val_main_v162 (F := Ideal) x0 x1 x2 x3 x4 x5 x6 x7 x8 x9 x10) x1 x2 x3 x4 x5 x6 x7 x8))) (ix2 0 k) := by
  rw [val_main_v218_apply, act_eq, meanB_apply]
  rfl

theorem var_apply (k : Fin 128) : val_main_v222 (F := Ideal) x0 x1 x2 x3 x4 x5 x6 x7 x8 x9 x10 (ix1 k) = (varR (actR 2 (val_main_v162 (F := Ideal) x0 x1 x2 x3 x4 x5 x6 x7 x8 x9 x10) x1 x2 x3 x4 x5 x6 x7 x8)) (ix2 0 k) := by
  rw [val_main_v222_apply, val_main_v220_apply, val_main_v221_apply]
  show Ideal.div (Ideal.ofBits .f32 0x00000000#32 + ∑ r : Fin 50000, val_main_v219 (F := Ideal) x0 x1 x2 x3 x4 x5 x6 x7 x8 x9 x10 (idx_main_v220 (ix1 k) r))
      (Ideal.ofBits .f32 0x47435000#32)
    = Ideal.div (∑ r : Fin 50000, ((actR 2 (val_main_v162 (F := Ideal) x0 x1 x2 x3 x4 x5 x6 x7 x8 x9 x10) x1 x2 x3 x4 x5 x6 x7 x8) (ix2 r k) - (meanOf (colSum (actR 2 (val_main_v162 (F := Ideal) x0 x1 x2 x3 x4 x5 x6 x7 x8 x9 x10) x1 x2 x3 x4 x5 x6 x7 x8))) (ix2 0 k)) * ((actR 2 (val_main_v162 (F := Ideal) x0 x1 x2 x3 x4 x5 x6 x7 x8 x9 x10) x1 x2 x3 x4 x5 x6 x7 x8) (ix2 r k) - (meanOf (colSum (actR 2 (val_main_v162 (F := Ideal) x0 x1 x2 x3 x4 x5 x6 x7 x8 x9 x10) x1 x2 x3 x4 x5 x6 x7 x8))) (ix2 0 k))) cN
  rw [Ideal.ofBits_zero_f32, zero_add]
  refine congrArg (Ideal.div · cN) (Finset.sum_congr rfl fun r _ => ?_)
  have e : idx_main_v220 (ix1 k) r = ix2 r k := funext fun a => Fin.ext (by match a with | ⟨0, _⟩ => rfl | ⟨1, _⟩ => rfl)
  rw [e, val_main_v219_apply, dev_apply]
  rfl

theorem rstdB_apply (r : Fin 50000) (k : Fin 128) :
    val_main_v230 (F := Ideal) x0 x1 x2 x3 x4 x5 x6 x7 x8 x9 x10 (ix2 r k) = rstdOf (varR (actR 2 (val_main_v162 (F := Ideal) x0 x1 x2 x3 x4 x5 x6 x7 x8 x9 x10) x1 x2 x3 x4 x5 x6 x7 x8)) (ix2 0 k) := by
  rw [val_main_v230_apply, val_main_v229_apply]
  have e : idx_main_v229 (idx_main_v230 (ix2 r k)) = ix1 k := funext fun a => Fin.ext (by match a with | ⟨0, _⟩ => rfl)
  rw [e, val_main_v228_apply, val_main_v227_apply, var_apply, val_main_v226_apply]
  rfl

theorem layer (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 x9 x10 : FVec Ideal S3x128 .f32) :
    val_main_v241 (F := Ideal) x0 x1 x2 x3 x4 x5 x6 x7 x8 x9 x10
      = layerR 2 (val_main_v162 (F := Ideal) x0 x1 x2 x3 x4 x5 x6 x7 x8 x9 x10) x1 x2 x3 x4 x5 x6 x7 x8 x9 x10 := by
  funext i
  obtain ⟨r, k, rfl⟩ : ∃ (r : Fin 50000) (k : Fin 128), i = ix2 r k := ⟨i 0, i 1, eq_ix2 i⟩
  rw [val_main_v241_apply, val_main_v236_apply, val_main_v231_apply, val_main_v225_apply, act_eq, meanB2_apply,
    rstdB_apply, gam_apply, bet_apply]
  rfl

end Cert.ReferenceIdeal.Layer3

end
-- ==== Proof.RefValue.lean ====
import proofs.«417352_j66855460929770_1_alg».proof.Proof.RefRead
import proofs.«417352_j66855460929770_1_alg».proof.Proof.RefRun
import proofs.«417352_j66855460929770_1_alg».proof.Proof.Spec
import proofs.«417352_j66855460929770_1_alg».proof.Proof.LibScatter
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import proofs.«417352_j66855460929770_1_alg».proof.Proof.RefL1
import proofs.«417352_j66855460929770_1_alg».proof.Proof.RefL2
import proofs.«417352_j66855460929770_1_alg».proof.Proof.RefL3
import Idealize.ShloMosaic.Lib.StableHlo.Run

noncomputable section

open Idealize.ShloMosaic Idealize.ShloMosaic.TcCoe Idealize.SL.Sem

namespace Cert.ReferenceIdeal.RefValue

open Cert.ReferenceIdeal Cert.ReferenceIdeal.Gen Cert.ReferenceIdeal.ReadP Cert.Gnn Idealize.ShloMosaic.ValueIdx

theorem pad_read {α : Type} (x : (⟨2, ![50000, 64]⟩ : Shape).Idx → α) (v : (⟨0, ![]⟩ : Shape).Idx → α)
    (hp : (⟨2, ![50000, 64]⟩ : Shape).Pads ![0, 0] ![0, 64] ![0, 0] ⟨2, ![50000, 128]⟩) (hu : 0 < (⟨0, ![]⟩ : Shape).numel)
    (r : Fin 50000) (k : Fin 128) :
    pad ⟨2, ![50000, 128]⟩ ![0, 0] ![0, 64] ![0, 0] x v hp hu (ix2 r k)
      = if h : k.val < 64 then x (ix2 r ⟨k.val, h⟩) else v ix0 := by
  by_cases h : k.val < 64
  · rw [dif_pos h]
    refine pad_apply_of_inside ![0, 0] ![0, 64] ![0, 0] x v hp hu (ix2 r k) (ix2 r ⟨k.val, h⟩) fun a => ?_
    match a with
    | ⟨0, _⟩ => show r.val = 0 + r.val * (0 + 1); omega
    | ⟨1, _⟩ => show k.val = 0 + k.val * (0 + 1); omega
  · rw [dif_neg h]
    refine (pad_apply_of_not_inside ![0, 0] ![0, 64] ![0, 0] x v hp hu (ix2 r k) 1 ?_).trans (congrArg v (eq_ix0 _))
    show ¬((0 : ℕ) ≤ k.val ∧ (k.val - 0) % (0 + 1) = 0 ∧ (k.val - 0) / (0 + 1) < 64)
    intro hh
    have := hh.2.2
    rw [Nat.sub_zero, Nat.zero_add, Nat.div_one] at this
    exact h this

theorem pad_eq (x0 : FVec Ideal S50000x64 .f32) : val_main_v0 (F := Ideal) x0 = padX x0 := by
  funext y
  obtain ⟨r, k, rfl⟩ : ∃ (r : Fin 50000) (k : Fin 128), y = ix2 r k := ⟨y 0, y 1, eq_ix2 y⟩
  have hz : (val_main_call0_v0 (F := Ideal)) ix0 = (0 : EReal) := by
    show ((((0#32 : BitVec 32).toInt : ℤ) : ℝ) : EReal) = 0
    simp
  unfold val_main_v0
  refine (pad_read (α := EReal) x0 (val_main_call0_v0 (F := Ideal)) pads_S50000x64_S50000x128_000_0640 h_S_ r k).trans ?_
  rw [hz]
  rfl

theorem head_lidx (r : Fin 50000) (o : Fin 2) (d : Fin 128) : lidx_main_v243 (ix2 r o) d = ix2 r d :=
  funext fun a => by match a with | ⟨0, _⟩ => rfl | ⟨1, _⟩ => rfl

theorem head_ridx (r : Fin 50000) (o : Fin 2) (d : Fin 128) : idx_main_v242 (ridx_main_v243 (ix2 r o) d) = ix2 o d :=
  funext fun a => by match a with | ⟨0, _⟩ => rfl | ⟨1, _⟩ => rfl

theorem head_bidx (r : Fin 50000) (o : Fin 2) : idx_main_v244 (idx_main_v245 (ix2 r o)) = ix1 o :=
  funext fun a => by match a with | ⟨0, _⟩ => rfl

theorem head_eq (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 x9 x10 : FVec Ideal S3x128 .f32) (x11 : FVec Ideal S2x128 .f32) (x12 : FVec Ideal S2 .f32) :
    val_main_v246 (F := Ideal) x0 x1 x2 x3 x4 x5 x6 x7 x8 x9 x10 x11 x12 = head (val_main_v241 (F := Ideal) x0 x1 x2 x3 x4 x5 x6 x7 x8 x9 x10) x11 x12 := by
  funext y
  obtain ⟨r, o, rfl⟩ : ∃ (r : Fin 50000) (o : Fin 2), y = ix2 r o := ⟨y 0, y 1, eq_ix2 y⟩
  rw [val_main_v246_apply, val_main_v243_apply, val_main_v245_apply, val_main_v244_apply, head_bidx]
  simp only [val_main_v242_apply, head_lidx, head_ridx]
  rfl

theorem net_eq (x0 : FVec Ideal S50000x64 .f32) (x1 : IVec S2x800000 32) (x2 : IVec S50000 32) (x3 : FVec Ideal S3x128x128 .f32) (x4 : FVec Ideal S3x128 .f32) (x5 : FVec Ideal S3x128x128 .f32) (x6 : FVec Ideal S3x128 .f32) (x7 : FVec Ideal S3x128x128 .f32) (x8 x9 x10 : FVec Ideal S3x128 .f32) (x11 : FVec Ideal S2x128 .f32) (x12 : FVec Ideal S2 .f32) :
    val_main_v246 (F := Ideal) x0 x1 x2 x3 x4 x5 x6 x7 x8 x9 x10 x11 x12 = netR x0 x1 x2 x3 x4 x5 x6 x7 x8 x9 x10 x11 x12 := by
  unfold netR
  rw [head_eq, Layer3.layer, Layer2.layer, Layer1.layer, pad_eq]

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v246)
        = netR (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun _ h c => ⟨(h c).1.trans ?_, (h c).2⟩) (RunW.run m ρ)
  exact net_eq _ _ _ _ _ _ _ _ _ _ _ _ _

end Cert.ReferenceIdeal.RefValue

end
-- ==== Proof.SpecReal.lean ====
import proofs.«417352_j66855460929770_1_alg».proof.Proof.Spec
import Idealize.ShloMosaic.PureOps.Ideal.Laws

noncomputable section

namespace Cert.Gnn

open Idealize.ShloMosaic Idealize.ShloMosaic.ValueIdx Cert.LibScatter

theorem cN_eq : cN = ((50000 : ℝ) : EReal) := by
  unfold cN
  simp [Ideal.ofBits, Ideal.ieee, -EReal.coe_mul]; norm_num

theorem cEps_eq : cEps = (((10995116 : ℝ) * (2 : ℝ) ^ (-40 : ℤ) : ℝ) : EReal) := by
  unfold cEps
  simp [Ideal.ofBits, Ideal.ieee, -EReal.coe_mul]

theorem cEps_pos : ∃ e : ℝ, 0 < e ∧ cEps = (e : EReal) :=
  ⟨_, by positivity, cEps_eq⟩

def IsR (x : EReal) : Prop := ∃ r : ℝ, x = (r : EReal)

def IsNN (x : EReal) : Prop := ∃ r : ℝ, 0 ≤ r ∧ x = (r : EReal)

theorem IsNN.isR {x : EReal} (hx : IsNN x) : IsR x := by
  obtain ⟨r, _, rfl⟩ := hx; exact ⟨r, rfl⟩

theorem IsR.zero : IsR 0 := ⟨0, EReal.coe_zero.symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max0 {x : EReal} (hx : IsR x) : IsR (max x 0) := by
  rcases le_total x 0 with h | h
  · rw [max_eq_right h]; exact IsR.zero
  · rw [max_eq_left h]; exact hx

theorem IsR.sum {ι : Type} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsNN.zero : IsNN 0 := ⟨0, le_refl 0, EReal.coe_zero.symm⟩

theorem IsNN.add {x y : EReal} (hx : IsNN x) (hy : IsNN y) : IsNN (x + y) := by
  obtain ⟨a, ha, rfl⟩ := hx; obtain ⟨b, hb, rfl⟩ := hy
  exact ⟨a + b, add_nonneg ha hb, (EReal.coe_add a b).symm⟩

theorem IsNN.mul {x y : EReal} (hx : IsNN x) (hy : IsNN y) : IsNN (x * y) := by
  obtain ⟨a, ha, rfl⟩ := hx; obtain ⟨b, hb, rfl⟩ := hy
  exact ⟨a * b, mul_nonneg ha hb, (EReal.coe_mul a b).symm⟩

theorem IsR.mul_self {x : EReal} (hx : IsR x) : IsNN (x * x) := by
  obtain ⟨a, rfl⟩ := hx; exact ⟨a * a, mul_self_nonneg a, (EReal.coe_mul a a).symm⟩

theorem IsNN.sum {ι : Type} (s : Finset ι) (f : ι → EReal) (h : ∀ i ∈ s, IsNN (f i)) : IsNN (∑ i ∈ s, f i) := by
  classical
  induction s using Finset.induction_on with
  | empty => rw [Finset.sum_empty]; exact IsNN.zero
  | insert a s ha ih =>
    rw [Finset.sum_insert ha]
    exact (h a (Finset.mem_insert_self a s)).add (ih fun i hi => h i (Finset.mem_insert_of_mem hi))

theorem isR_zeroWord : IsR (Ideal.ofBits .f32 0x00000000#32) := by
  rw [Ideal.ofBits_zero_f32]; exact IsR.zero

theorem div_cN (x : EReal) : Ideal.div x cN = x * (((1 / 50000 : ℝ) : ℝ) : EReal) := by
  rw [cN_eq, Ideal.div_coe (by norm_num)]

theorem IsR.div_cN {x : EReal} (hx : IsR x) : IsR (Ideal.div x cN) := by
  rw [Cert.Gnn.div_cN]; exact hx.mul ⟨_, rfl⟩

theorem IsNN.div_cN {x : EReal} (hx : IsNN x) : IsNN (Ideal.div x cN) := by
  rw [Cert.Gnn.div_cN]; exact hx.mul ⟨_, by norm_num, rfl⟩

theorem IsNN.rsqrt_add_cEps {x : EReal} (hx : IsNN x) : IsR (Ideal.rsqrt (x + cEps)) := by
  obtain ⟨a, ha, rfl⟩ := hx
  obtain ⟨e, he, hce⟩ := cEps_pos
  rw [hce, ← EReal.coe_add, Ideal.rsqrt_coe, if_neg (by linarith), if_neg (by linarith)]
  exact ⟨_, rfl⟩

theorem isReal_mk2 {a b : ℕ} {f : Fin a → Fin b → EReal} (h : ∀ i j, IsR (f i j)) : IsReal (mk2 f) :=
  fun y => h (y 0) (y 1)

theorem IsReal.entry {s : Shape} {v : FVec Ideal s .f32} (hv : IsReal v) (i : s.Idx) : IsR (v i) := hv i

theorem padX_real {x : FVec Ideal SNI .f32} (hx : IsReal x) : IsReal (padX x) := by
  refine isReal_mk2 fun r k => ?_
  by_cases h : k.val < 64
  · rw [dif_pos h]; exact hx.entry _
  · rw [dif_neg h]; exact IsR.zero

theorem wAt_real {W : FVec Ideal S3HH .f32} (hW : IsReal W) (l : Fin 3) : IsReal (wAt W l) :=
  isReal_mk2 fun _ _ => hW.entry _

theorem bAt_real {B : FVec Ideal S3H .f32} (hB : IsReal B) (l : Fin 3) : IsReal (bAt B l) :=
  isReal_mk2 fun _ _ => hB.entry _

theorem linT_real {a b : ℕ} {x : FVec Ideal ⟨2, ![a, 128]⟩ .f32} {w : FVec Ideal ⟨2, ![b, 128]⟩ .f32}
    (hx : IsReal x) (hw : IsReal w) (r : Fin a) (k : Fin b) : IsR (linT x w r k) :=
  IsR.sum _ _ fun _ _ => (hx.entry _).mul (hw.entry _)

theorem aggrSD_real {h : FVec Ideal SNH .f32} (hh : IsReal h) (src dst : IVec SE 32) : IsReal (aggrSD h src dst) :=
  isReal_mk2 fun _ _ => isR_zeroWord.add (IsR.sum _ _ fun _ _ => hh.entry _)

theorem aggr_real {h : FVec Ideal SNH .f32} (hh : IsReal h) (ei : IVec S2E 32) : IsReal (aggr h ei) :=
  aggrSD_real hh _ _

theorem readoutR_real {h : FVec Ideal SNH .f32} (hh : IsReal h) (batch : IVec SN 32) : IsReal (readoutR h batch) :=
  isReal_mk2 fun _ _ => isR_zeroWord.add (IsR.sum _ _ fun _ _ => hh.entry _)

theorem pre_real {h ag ro : FVec Ideal SNH .f32} {Vw Aw Rw : FVec Ideal SHH .f32} {Vb Ab Rb : FVec Ideal S1H .f32}
    (hh : IsReal h) (hag : IsReal ag) (hro : IsReal ro) (hVw : IsReal Vw) (hAw : IsReal Aw) (hRw : IsReal Rw)
    (hVb : IsReal Vb) (hAb : IsReal Ab) (hRb : IsReal Rb) : IsReal (pre h ag ro Vw Aw Rw Vb Ab Rb) :=
  isReal_mk2 fun r k =>
    (((((linT_real hh hVw r k).add (hVb.entry _)).add (linT_real hag hAw r k)).add (hAb.entry _)).add (linT_real hro hRw r k)).add (hRb.entry _)

theorem relu_real {z : FVec Ideal SNH .f32} (hz : IsReal z) : IsReal (relu z) :=
  isReal_mk2 fun _ _ => (hz.entry _).max0

theorem colSum_real {a : FVec Ideal SNH .f32} (ha : IsReal a) : IsReal (colSum a) :=
  isReal_mk2 fun _ _ => IsR.sum _ _ fun _ _ => ha.entry _

theorem meanOf_real {s : FVec Ideal S1H .f32} (hs : IsReal s) : IsReal (meanOf s) :=
  isReal_mk2 fun _ _ => (hs.entry _).div_cN

theorem varR_nonneg {a : FVec Ideal SNH .f32} (ha : IsReal a) (k : Fin 128) : IsNN (varR a (ix2 0 k)) :=
  (IsNN.sum _ _ fun _ _ => ((ha.entry _).sub ((meanOf_real (colSum_real ha)).entry _)).mul_self).div_cN

theorem varR_real {a : FVec Ideal SNH .f32} (ha : IsReal a) : IsReal (varR a) :=
  isReal_mk2 fun _ k => (varR_nonneg ha k).isR

theorem rstdOf_real {v : FVec Ideal S1H .f32} (hv : ∀ k : Fin 128, IsNN (v (ix2 0 k))) : IsReal (rstdOf v) :=
  isReal_mk2 fun _ k => (hv k).rsqrt_add_cEps

theorem normalize_real {a : FVec Ideal SNH .f32} {mean rstd gamma beta : FVec Ideal S1H .f32}
    (ha : IsReal a) (hm : IsReal mean) (hr : IsReal rstd) (hg : IsReal gamma) (hb : IsReal beta) :
    IsReal (normalize a mean rstd gamma beta) :=
  isReal_mk2 fun _ _ => ((((ha.entry _).sub (hm.entry _)).mul (hr.entry _)).mul (hg.entry _)).add (hb.entry _)

theorem actR_real (l : Fin 3) {h : FVec Ideal SNH .f32} (ei : IVec S2E 32) (batch : IVec SN 32)
    {V_w : FVec Ideal S3HH .f32} {V_b : FVec Ideal S3H .f32} {A_w : FVec Ideal S3HH .f32} {A_b : FVec Ideal S3H .f32}
    {R_w : FVec Ideal S3HH .f32} {R_b : FVec Ideal S3H .f32}
    (hh : IsReal h) (hVw : IsReal V_w) (hVb : IsReal V_b) (hAw : IsReal A_w) (hAb : IsReal A_b) (hRw : IsReal R_w) (hRb : IsReal R_b) :
    IsReal (actR l h ei batch V_w V_b A_w A_b R_w R_b) :=
  relu_real (pre_real hh (aggr_real hh ei) (readoutR_real hh batch) (wAt_real hVw l) (wAt_real hAw l) (wAt_real hRw l)
    (bAt_real hVb l) (bAt_real hAb l) (bAt_real hRb l))

theorem layerR_real (l : Fin 3) {h : FVec Ideal SNH .f32} (ei : IVec S2E 32) (batch : IVec SN 32)
    {V_w : FVec Ideal S3HH .f32} {V_b : FVec Ideal S3H .f32} {A_w : FVec Ideal S3HH .f32} {A_b : FVec Ideal S3H .f32}
    {R_w : FVec Ideal S3HH .f32} {R_b : FVec Ideal S3H .f32} {gam bet : FVec Ideal S3H .f32}
    (hh : IsReal h) (hVw : IsReal V_w) (hVb : IsReal V_b) (hAw : IsReal A_w) (hAb : IsReal A_b) (hRw : IsReal R_w) (hRb : IsReal R_b)
    (hg : IsReal gam) (hb : IsReal bet) :
    IsReal (layerR l h ei batch V_w V_b A_w A_b R_w R_b gam bet) := by
  have ha := actR_real l ei batch hh hVw hVb hAw hAb hRw hRb
  exact normalize_real ha (meanOf_real (colSum_real ha)) (rstdOf_real (varR_nonneg ha)) (bAt_real hg l) (bAt_real hb l)

end Cert.Gnn

end
-- ==== Proof.SpecEq.lean ====
import Idealize.ShloMosaic.PureOps.Ideal.Laws
import proofs.«417352_j66855460929770_1_alg».proof.Proof.Spec
import proofs.«417352_j66855460929770_1_alg».proof.Proof.SpecReal

noncomputable section

namespace Cert.Gnn

open Idealize.ShloMosaic Idealize.ShloMosaic.ValueIdx Cert.LibScatter

namespace Agree

theorem mk2_congr {a b : ℕ} {f g : Fin a → Fin b → EReal} (hfg : ∀ i j, f i j = g i j) : mk2 f = mk2 g :=
  funext fun y => hfg (y 0) (y 1)

theorem toNat_ofNat_lt64 (g : Fin 64) : (BitVec.ofNat 32 g.val).toNat = g.val := by
  rw [BitVec.toNat_ofNat]
  have hg := g.isLt
  omega

theorem toInt_ofNat_lt64 (g : Fin 64) : (BitVec.ofNat 32 g.val).toInt = (g.val : Int) := by
  have hn := toNat_ofNat_lt64 g
  have hg := g.isLt
  rw [BitVec.toInt_eq_toNat_of_lt (by omega), hn]

theorem ofNat_lt64_inj {g g' : Fin 64} (hgg : BitVec.ofNat 32 g.val = BitVec.ofNat 32 g'.val) : g = g' := by
  refine Fin.ext ?_
  have e := congrArg BitVec.toNat hgg
  rwa [toNat_ofNat_lt64, toNat_ofNat_lt64] at e

theorem rowOf?_ofNat_lt64 (g : Fin 64) : rowOf? 64 (BitVec.ofNat 32 g.val) = some g := by
  have hi := toInt_ofNat_lt64 g
  have hg := g.isLt
  unfold rowOf?
  rw [dif_pos (by omega)]
  refine congrArg some (Fin.ext ?_)
  show (BitVec.ofNat 32 g.val).toInt.toNat = g.val
  omega

theorem wrapW_ofNat_lt64 (g : Fin 64) : wrapW 64#32 (BitVec.ofNat 32 g.val) = BitVec.ofNat 32 g.val := by
  have hi := toInt_ofNat_lt64 g
  unfold wrapW
  rw [if_neg (by omega)]

theorem rowOf?_eq_some_iff {batch : IVec SN 32} (hr : InRange batch) (j : Fin 50000) (g : Fin 64) :
    rowOf? 64 (batch (ix1 j)) = some g ↔ batch (ix1 j) = BitVec.ofNat 32 g.val := by
  obtain ⟨gj, hgj⟩ := hr j
  rw [hgj, rowOf?_ofNat_lt64]
  constructor
  · intro hs
    rw [Option.some.inj hs]
  · intro hw
    rw [ofNat_lt64_inj hw]

end Agree

theorem readout_eq (h : FVec Ideal SNH .f32) (batch : IVec SN 32) (hr : InRange batch) :
    readoutK (onehot batch) (graphSum h (onehot batch)) = readoutR h batch := by
  unfold readoutK readoutR
  refine Agree.mk2_congr fun i k => ?_
  obtain ⟨gi, hgi⟩ := hr i
  have hclamp : clampRow 64 (by decide) (wrapW 64#32 (batch (ix1 i))) = gi := by
    rw [hgi, Agree.wrapW_ofNat_lt64]
    exact clampRow_of_rowOf? _ (Agree.rowOf?_ofNat_lt64 gi)
  show (∑ g : Fin 64, onehot batch (ix2 i g) * graphSum h (onehot batch) (ix2 g k))
      = Ideal.ofBits .f32 0x00000000#32
        + ∑ j ∈ Finset.univ.filter (fun j : Fin 50000 =>
            rowOf? 64 (batch (ix1 j)) = some (clampRow 64 (by decide) (wrapW 64#32 (batch (ix1 i))))), h (ix2 j k)
  rw [hclamp, Ideal.ofBits_zero_f32, zero_add, Finset.sum_eq_single gi]
  ·
    show (if batch (ix1 i) = BitVec.ofNat 32 gi.val then (1 : EReal) else 0)
          * (∑ r : Fin 50000, (if batch (ix1 r) = BitVec.ofNat 32 gi.val then (1 : EReal) else 0) * h (ix2 r k))
        = ∑ j ∈ Finset.univ.filter (fun j : Fin 50000 => rowOf? 64 (batch (ix1 j)) = some gi), h (ix2 j k)
    rw [if_pos hgi, one_mul, Finset.sum_filter]
    refine Finset.sum_congr rfl fun r _ => ?_
    by_cases hc : batch (ix1 r) = BitVec.ofNat 32 gi.val
    · rw [if_pos hc, one_mul, if_pos ((Agree.rowOf?_eq_some_iff hr r gi).2 hc)]
    · rw [if_neg hc, zero_mul, if_neg (fun hs => hc ((Agree.rowOf?_eq_some_iff hr r gi).1 hs))]
  ·
    intro g _ hne
    show (if batch (ix1 i) = BitVec.ofNat 32 g.val then (1 : EReal) else 0)
          * graphSum h (onehot batch) (ix2 g k) = 0
    rw [if_neg (fun hw => hne (Agree.ofNat_lt64_inj (hgi ▸ hw)).symm), zero_mul]
  · intro hmem
    exact absurd (Finset.mem_univ gi) hmem

namespace Agree

theorem coe_sum {ι : Type} (s : Finset ι) (x : ι → ℝ) :
    (∑ i ∈ s, ((x i : ℝ) : EReal)) = ((∑ i ∈ s, x i : ℝ) : EReal) := by
  classical
  induction s using Finset.induction_on with
  | empty => rw [Finset.sum_empty, Finset.sum_empty, EReal.coe_zero]
  | insert c s hc ih => rw [Finset.sum_insert hc, Finset.sum_insert hc, ih, EReal.coe_add]

theorem real_var_identity {ι : Type} [Fintype ι] (x : ι → ℝ) (n : ℝ) (hn : n ≠ 0)
    (hcard : (Fintype.card ι : ℝ) = n) :
    (∑ r, x r * x r) * (1 / n) - (∑ r, x r) * (1 / n) * ((∑ r, x r) * (1 / n))
      = (∑ r, (x r - (∑ r, x r) * (1 / n)) * (x r - (∑ r, x r) * (1 / n))) * (1 / n) := by
  have hsq : ∀ (μ : ℝ), (∑ r, (x r - μ) * (x r - μ))
      = (∑ r, x r * x r) - 2 * μ * (∑ r, x r) + n * (μ * μ) := by
    intro μ
    have h1 : ∀ r, (x r - μ) * (x r - μ) = x r * x r - 2 * μ * x r + μ * μ := fun r => by ring
    rw [Finset.sum_congr rfl (fun r _ => h1 r), Finset.sum_add_distrib, Finset.sum_sub_distrib,
      ← Finset.mul_sum, Finset.sum_const, Finset.card_univ, nsmul_eq_mul, hcard]
  rw [hsq]
  field_simp
  ring

end Agree

theorem var_eq (a : FVec Ideal SNH .f32) (ha : IsReal a) : varK (colSum a) (colSumSq a) = varR a := by
  choose f hf using ha
  unfold varK varR
  refine Agree.mk2_congr fun _ k => ?_
  have hn : (50000 : ℝ) ≠ 0 := by norm_num
  have hcard : (Fintype.card (Fin 50000) : ℝ) = 50000 := by rw [Fintype.card_fin]; norm_num
  have hmean : meanOf (colSum a) (ix2 (0 : Fin 1) k)
      = (((∑ r : Fin 50000, f (ix2 r k)) * (1 / 50000) : ℝ) : EReal) := by
    show Ideal.div (∑ r : Fin 50000, a (ix2 r k)) cN = _
    rw [cN_eq, Ideal.div_coe hn, Finset.sum_congr rfl (fun r _ => hf (ix2 r k)), Agree.coe_sum, ← EReal.coe_mul]
  have hss : colSumSq a (ix2 (0 : Fin 1) k) = ((∑ r : Fin 50000, f (ix2 r k) * f (ix2 r k) : ℝ) : EReal) := by
    show (∑ r : Fin 50000, a (ix2 r k) * a (ix2 r k)) = _
    rw [Finset.sum_congr rfl (fun r _ => by rw [hf (ix2 r k), ← EReal.coe_mul]), Agree.coe_sum]
  have hdev : ∀ μ : ℝ, (∑ r : Fin 50000, (a (ix2 r k) - (μ : EReal)) * (a (ix2 r k) - (μ : EReal)))
      = ((∑ r : Fin 50000, (f (ix2 r k) - μ) * (f (ix2 r k) - μ) : ℝ) : EReal) := by
    intro μ
    rw [← Agree.coe_sum]
    refine Finset.sum_congr rfl fun r _ => ?_
    rw [hf (ix2 r k), ← EReal.coe_sub, ← EReal.coe_mul]
  show Ideal.div (colSumSq a (ix2 (0 : Fin 1) k)) cN
        - meanOf (colSum a) (ix2 (0 : Fin 1) k) * meanOf (colSum a) (ix2 (0 : Fin 1) k)
      = Ideal.div (∑ r : Fin 50000, (a (ix2 r k) - meanOf (colSum a) (ix2 (0 : Fin 1) k))
          * (a (ix2 r k) - meanOf (colSum a) (ix2 (0 : Fin 1) k))) cN
  rw [hss, hmean, cN_eq, Ideal.div_coe hn, Ideal.div_coe hn, hdev,
    ← EReal.coe_mul, ← EReal.coe_mul, ← EReal.coe_mul, ← EReal.coe_sub]
  exact congrArg Real.toEReal (Agree.real_var_identity (fun r => f (ix2 r k)) 50000 hn hcard)

theorem act_eq (l : Fin 3) (h : FVec Ideal SNH .f32) (ei : IVec S2E 32) (batch : IVec SN 32)
    (V_w : FVec Ideal S3HH .f32) (V_b : FVec Ideal S3H .f32) (A_w : FVec Ideal S3HH .f32) (A_b : FVec Ideal S3H .f32)
    (R_w : FVec Ideal S3HH .f32) (R_b : FVec Ideal S3H .f32) (hr : InRange batch) :
    actK l h ei batch V_w V_b A_w A_b R_w R_b = actR l h ei batch V_w V_b A_w A_b R_w R_b := by
  unfold actK actR
  rw [readout_eq h batch hr]

theorem layer_eq (l : Fin 3) (h : FVec Ideal SNH .f32) (ei : IVec S2E 32) (batch : IVec SN 32)
    (V_w : FVec Ideal S3HH .f32) (V_b : FVec Ideal S3H .f32) (A_w : FVec Ideal S3HH .f32) (A_b : FVec Ideal S3H .f32)
    (R_w : FVec Ideal S3HH .f32) (R_b : FVec Ideal S3H .f32) (gam bet : FVec Ideal S3H .f32)
    (hr : InRange batch) (hh : IsReal h) (hVw : IsReal V_w) (hVb : IsReal V_b) (hAw : IsReal A_w) (hAb : IsReal A_b)
    (hRw : IsReal R_w) (hRb : IsReal R_b) :
    layerK l h ei batch V_w V_b A_w A_b R_w R_b gam bet = layerR l h ei batch V_w V_b A_w A_b R_w R_b gam bet := by
  unfold layerK layerR
  rw [act_eq l h ei batch V_w V_b A_w A_b R_w R_b hr,
    var_eq _ (actR_real l ei batch hh hVw hVb hAw hAb hRw hRb)]

theorem net_eq (x : FVec Ideal SNI .f32) (ei : IVec S2E 32) (batch : IVec SN 32)
    (V_w : FVec Ideal S3HH .f32) (V_b : FVec Ideal S3H .f32) (A_w : FVec Ideal S3HH .f32) (A_b : FVec Ideal S3H .f32)
    (R_w : FVec Ideal S3HH .f32) (R_b : FVec Ideal S3H .f32) (gam bet : FVec Ideal S3H .f32)
    (lin_w : FVec Ideal S2H .f32) (lin_b : FVec Ideal S2 .f32)
    (hr : InRange batch) (hx : IsReal x) (hVw : IsReal V_w) (hVb : IsReal V_b) (hAw : IsReal A_w) (hAb : IsReal A_b)
    (hRw : IsReal R_w) (hRb : IsReal R_b) (hg : IsReal gam) (hb : IsReal bet) :
    netK x ei batch V_w V_b A_w A_b R_w R_b gam bet lin_w lin_b = netR x ei batch V_w V_b A_w A_b R_w R_b gam bet lin_w lin_b := by
  have r0 : IsReal (padX x) := padX_real hx
  have r1 := layerR_real 0 ei batch r0 hVw hVb hAw hAb hRw hRb hg hb
  have r2 := layerR_real 1 ei batch r1 hVw hVb hAw hAb hRw hRb hg hb
  unfold netK netR
  rw [layer_eq 0 (padX x) ei batch V_w V_b A_w A_b R_w R_b gam bet hr r0 hVw hVb hAw hAb hRw hRb,
    layer_eq 1 _ ei batch V_w V_b A_w A_b R_w R_b gam bet hr r1 hVw hVb hAw hAb hRw hRb,
    layer_eq 2 _ ei batch V_w V_b A_w A_b R_w R_b gam bet hr r2 hVw hVb hAw hAb hRw hRb]

end Cert.Gnn

end
-- ==== Proof.PreDecode.lean ====
import proofs.«417352_j66855460929770_1_alg».proof.Pre_finite_inputs
import proofs.«417352_j66855460929770_1_alg».proof.Proof.Spec
import Idealize.ShloMosaic.Lib.ReduceAll
import Idealize.ShloMosaic.Lib.StableHlo.Predicate

noncomputable section

namespace Cert.Gnn

open Idealize.ShloMosaic Idealize.ShloMosaic.ValueIdx

namespace PreDecode

theorem inf_bits : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem real_of_cmp (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_bits] at h'
  simp only [Ideal.cmp, StableHlo.Predicate.ofBool_eq_one_iff, decide_eq_true_eq] at h'
  exact real_of_abs_lt_top x h'

instance subsingleton_scalar_idx : Subsingleton Cert.Pre_finite_inputs.S_.Idx :=
  ⟨fun _ _ => funext fun d => d.elim0⟩

theorem isReal_of_all {s : Shape} {axes : List (Fin s.rank)} (dims : Fin Cert.Pre_finite_inputs.S_.rank → Fin s.rank)
    (hb : Cert.Pre_finite_inputs.S_.BroadcastsInDim s dims) (hr : s.ReducesTo axes Cert.Pre_finite_inputs.S_)
    (h0 : 0 < Cert.Pre_finite_inputs.S_.numel) (v : FVec Ideal s .f32)
    (h : Host.reduce IntOp.andi
          (cmpf .olt (Host.absf v) (broadcastInDim s dims hb (constant Cert.Pre_finite_inputs.S_ .f32 0x7F800000#32)))
          (constantI Cert.Pre_finite_inputs.S_ 1 1#1) hr h0 ix0 = 1#1) : IsReal v := by
  intro i
  exact real_of_cmp (v i) (Host.reduce_andi_all _ _ hr h0 ix0 h i)

theorem word_lt_64 (z : BitVec 32) (h0 : IntOp.cmpi .sge z 0#32 = 1#1) (h1 : IntOp.cmpi .slt z 64#32 = 1#1) :
    ∃ g : Fin 64, z = BitVec.ofNat 32 g.val := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e64 : (64#32 : BitVec 32).toInt = 64 := by decide
  rw [e0] at h0
  rw [e64] at h1
  have h32 := z.isLt
  have hz : z.toNat < 64 := by
    rw [BitVec.toInt_eq_toNat_cond] at h0 h1
    split at h1 <;> omega
  refine ⟨⟨z.toNat, hz⟩, ?_⟩
  apply BitVec.eq_of_toNat_eq
  simp only [BitVec.toNat_ofNat]
  omega

theorem inRange_of_all (dims : Fin Cert.Pre_finite_inputs.S_.rank → Fin SN.rank)
    (hb : Cert.Pre_finite_inputs.S_.BroadcastsInDim SN dims) {axes : List (Fin SN.rank)}
    (hr : SN.ReducesTo axes Cert.Pre_finite_inputs.S_) (h0 : 0 < Cert.Pre_finite_inputs.S_.numel) (b : IVec SN 32)
    (hge : Host.reduce IntOp.andi (cmpi .sge b (broadcastInDim SN dims hb (constantI Cert.Pre_finite_inputs.S_ 32 0#32)))
          (constantI Cert.Pre_finite_inputs.S_ 1 1#1) hr h0 ix0 = 1#1)
    (hlt : Host.reduce IntOp.andi (cmpi .slt b (broadcastInDim SN dims hb (constantI Cert.Pre_finite_inputs.S_ 32 64#32)))
          (constantI Cert.Pre_finite_inputs.S_ 1 1#1) hr h0 ix0 = 1#1) : InRange b := by
  intro r
  exact word_lt_64 (b (ix1 r)) (Host.reduce_andi_all _ _ hr h0 ix0 hge (ix1 r)) (Host.reduce_andi_all _ _ hr h0 ix0 hlt (ix1 r))

end PreDecode

theorem decode_pre [Cert.Pre_finite_inputs.Facts]
    (a0 : FVec Ideal SNI .f32) (a1 : IVec S2E 32) (a2 : IVec SN 32)
    (a3 : FVec Ideal S3HH .f32) (a4 : FVec Ideal S3H .f32) (a5 : FVec Ideal S3HH .f32) (a6 : FVec Ideal S3H .f32)
    (a7 : FVec Ideal S3HH .f32) (a8 : FVec Ideal S3H .f32) (a9 : FVec Ideal S3H .f32) (a10 : FVec Ideal S3H .f32)
    (a11 : FVec Ideal S2H .f32) (a12 : FVec Ideal S2 .f32)
    (h : Cert.Pre_finite_inputs.fn (F := Ideal) a0 a1 a2 a3 a4 a5 a6 a7 a8 a9 a10 a11 a12 = fun _ => 1#1) :
    IsReal a0 ∧ InRange a2 ∧ IsReal a3 ∧ IsReal a4 ∧ IsReal a5 ∧ IsReal a6 ∧ IsReal a7 ∧ IsReal a8 ∧ IsReal a9
      ∧ IsReal a10 ∧ IsReal a11 ∧ IsReal a12 := by
  have e := congrFun h ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨⟨⟨h0, h3⟩, h4⟩, h5⟩, h6⟩, h7⟩, h8⟩, h9⟩, h10⟩, h11⟩, h12⟩, hge⟩, hlt⟩ := e
  exact ⟨PreDecode.isReal_of_all _ _ _ _ a0 h0, PreDecode.inRange_of_all _ _ _ _ a2 hge hlt, PreDecode.isReal_of_all _ _ _ _ a3 h3,
    PreDecode.isReal_of_all _ _ _ _ a4 h4, PreDecode.isReal_of_all _ _ _ _ a5 h5, PreDecode.isReal_of_all _ _ _ _ a6 h6, PreDecode.isReal_of_all _ _ _ _ a7 h7,
    PreDecode.isReal_of_all _ _ _ _ a8 h8, PreDecode.isReal_of_all _ _ _ _ a9 h9, PreDecode.isReal_of_all _ _ _ _ a10 h10,
    PreDecode.isReal_of_all _ _ _ _ a11 h11, PreDecode.isReal_of_all _ _ _ _ a12 h12⟩

end Cert.Gnn

end
-- ==== Proof.lean ====
/-
  The kernel program and the reference compute one three-layer graph network over the extended reals.  They differ in
  how a graph's rows are summed (a table of per-graph sums read at each row's graph, against two products with the 0/1
  membership matrix) and in how the variance is written (the mean of squared deviations, against the mean of squares
  minus the squared mean); on real entries with every batch word in 0 … 63 these agree.
-/
import proofs.«417352_j66855460929770_1_alg».proof.Defs
import proofs.«417352_j66855460929770_1_alg».proof.Proof.Gen.Kernel.Frame
import proofs.«417352_j66855460929770_1_alg».proof.Proof.Gen.KernelIdeal.Frame
import proofs.«417352_j66855460929770_1_alg».proof.Proof.Gen.ReferenceIdeal
import proofs.«417352_j66855460929770_1_alg».proof.Proof.Gen.Pre_finite_inputs
import proofs.«417352_j66855460929770_1_alg».proof.Proof.KStitch
import proofs.«417352_j66855460929770_1_alg».proof.Proof.RefValue
import proofs.«417352_j66855460929770_1_alg».proof.Proof.SpecEq
import proofs.«417352_j66855460929770_1_alg».proof.Proof.PreDecode
import Idealize.ShloMosaic.Adequacy
import Idealize.ShloMosaic.Init

noncomputable section

namespace Cert.Proof

open Idealize.ShloMosaic Idealize.SL.Sem Cert.Gnn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run m ρ)

theorem algebraic : Cert.algebraic_KernelIdeal_ReferenceIdeal := by
  intro m ρ m' ρ' hpre hagree
  refine ⟨fun c => netR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun _ h c => ⟨(h c).1.trans ?_, (h c).2⟩) (Cert.KernelIdeal.Stitch.run m ρ)
    obtain ⟨h0, h2, h3, h4, h5, h6, h7, h8, h9, h10, _, _⟩ := decode_pre _ _ _ _ _ _ _ _ _ _ _ _ _ (hpre c)
    exact net_eq _ _ _ _ _ _ _ _ _ _ _ _ _ h2 h0 h3 h4 h5 h6 h7 h8 h9 h10
  · refine (θ_run Cert.ReferenceIdeal.defs _ _).mono (fun _ h c => ⟨(h c).1.trans ?_, (h c).2⟩) (Cert.ReferenceIdeal.RefValue.run m' ρ')
    obtain ⟨e0, e1, e2, e3, e4, e5, e6, e7, e8, e9, e10, e11, e12⟩ := hagree c
    rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
